-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S2x64x32768 : S_.BroadcastsInDim S2x64x32768 (![] : Fin 0 → Fin S2x64x32768.rank)
  reducesTo_S2x64x32768_S_d0_1_2 : S2x64x32768.ReducesTo [0, 1, 2] S_
  bcast_S_S512x512 : S_.BroadcastsInDim S512x512 (![] : Fin 0 → Fin S512x512.rank)
  reducesTo_S512x512_S_d0_1 : S512x512.ReducesTo [0, 1] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x512 .f32) (main_arg1 : FVec F S2x64x32768 .f32) (main_arg2 : FVec F S512x512 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S2x64x32768 .f32 := Host.absf main_arg1
  let main_cst_0 : FVec F S_ .f32 := constant S_ .f32 0x7F800000#32
  let main_v5 : FVec F S2x64x32768 .f32 := broadcastInDim S2x64x32768 ![] bcast_S_S2x64x32768 main_cst_0
  let main_v6 : IVec S2x64x32768 1 := cmpf .olt main_v4 main_v5
  let main_c_1 : IVec S_ 1 := constantI S_ 1 1#1
  let main_v7 : IVec S_ 1 := (fun x v => Host.reduce IntOp.andi x v reducesTo_S2x64x32768_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S512x64 : Shape := ⟨2, ![512, 64]⟩
abbrev S2x64x512x64 : Shape := ⟨4, ![2, 64, 512, 64]⟩
abbrev S65x3x128 : Shape := ⟨3, ![65, 3, 128]⟩
abbrev S3x65x128 : Shape := ⟨3, ![3, 65, 128]⟩
abbrev S65x3x64 : Shape := ⟨3, ![65, 3, 64]⟩
abbrev S3x65x64 : Shape := ⟨3, ![3, 65, 64]⟩
abbrev S128x3x128 : Shape := ⟨3, ![128, 3, 128]⟩
abbrev S3x128x128 : Shape := ⟨3, ![3, 128, 128]⟩
abbrev S128x3x64 : Shape := ⟨3, ![128, 3, 64]⟩
abbrev S3x128x64 : Shape := ⟨3, ![3, 128, 64]⟩
abbrev S1x128 : Shape := ⟨2, ![1, 128]⟩
abbrev S1x64 : Shape := ⟨2, ![1, 64]⟩
abbrev S6x256 : Shape := ⟨2, ![6, 256]⟩
abbrev S3x128x256 : Shape := ⟨3, ![3, 128, 256]⟩
abbrev S1x256 : Shape := ⟨2, ![1, 256]⟩
abbrev S6x128 : Shape := ⟨2, ![6, 128]⟩
abbrev S128x2 : Shape := ⟨2, ![128, 2]⟩
abbrev S512 : Shape := ⟨1, ![512]⟩
abbrev S512x1 : Shape := ⟨2, ![512, 1]⟩
abbrev S1x512 : Shape := ⟨2, ![1, 512]⟩
abbrev S1x1x64 : Shape := ⟨3, ![1, 1, 64]⟩
abbrev S1x64x64 : Shape := ⟨3, ![1, 64, 64]⟩
abbrev S64x64 : Shape := ⟨2, ![64, 64]⟩
abbrev S512x64x1 : Shape := ⟨3, ![512, 64, 1]⟩
abbrev S512x64x3 : Shape := ⟨3, ![512, 64, 3]⟩
abbrev S64x512x3 : Shape := ⟨3, ![64, 512, 3]⟩
abbrev S1x64x512x64 : Shape := ⟨4, ![1, 64, 512, 64]⟩
abbrev S64x512x64 : Shape := ⟨3, ![64, 512, 64]⟩
abbrev S1x1 : Shape := ⟨2, ![1, 1]⟩
abbrev S64x512x1 : Shape := ⟨3, ![64, 512, 1]⟩
abbrev S2x512x3 : Shape := ⟨3, ![2, 512, 3]⟩
abbrev S2x512x64 : Shape := ⟨3, ![2, 512, 64]⟩
abbrev S2x512x1 : Shape := ⟨3, ![2, 512, 1]⟩
abbrev S2x2x512x64 : Shape := ⟨4, ![2, 2, 512, 64]⟩
abbrev S1x512x3 : Shape := ⟨3, ![1, 512, 3]⟩
abbrev S512x3 : Shape := ⟨2, ![512, 3]⟩
abbrev S512x6 : Shape := ⟨2, ![512, 6]⟩
abbrev S1x512x64 : Shape := ⟨3, ![1, 512, 64]⟩
abbrev S512x128 : Shape := ⟨2, ![512, 128]⟩
abbrev S512x256 : Shape := ⟨2, ![512, 256]⟩
abbrev S1x128x256 : Shape := ⟨3, ![1, 128, 256]⟩
abbrev S128x256 : Shape := ⟨2, ![128, 256]⟩
abbrev S1x128x128 : Shape := ⟨3, ![1, 128, 128]⟩
abbrev S128x128 : Shape := ⟨2, ![128, 128]⟩
abbrev S1x1x512x64 : Shape := ⟨4, ![1, 1, 512, 64]⟩
abbrev S512x2 : Shape := ⟨2, ![512, 2]⟩
abbrev S1x512x1 : Shape := ⟨3, ![1, 512, 1]⟩

abbrev nBuf : Space → Nat
  | .hbm => 57
  | .vmem => 52
  | .smem => 0
  | _ => 0

abbrev bufTy : (tb : Table) → Fin (tcTables nBuf tb) → BufTy
  | .hbm, ⟨0, _⟩ => ⟨S64x512, .f32⟩
  | .hbm, ⟨1, _⟩ => ⟨S2x64x32768, .f32⟩
  | .hbm, ⟨2, _⟩ => ⟨S512x512, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S512x64, .f32⟩
  | .hbm, ⟨14, _⟩ => ⟨S2x64x512x64, .f32⟩
  | .hbm, ⟨15, _⟩ => ⟨S65x3x128, .f32⟩
  | .hbm, ⟨16, _⟩ => ⟨S3x65x128, .f32⟩
  | .hbm, ⟨17, _⟩ => ⟨S65x3x64, .f32⟩
  | .hbm, ⟨18, _⟩ => ⟨S3x65x64, .f32⟩
  | .hbm, ⟨19, _⟩ => ⟨S128x3x128, .f32⟩
  | .hbm, ⟨20, _⟩ => ⟨S3x128x128, .f32⟩
  | .hbm, ⟨21, _⟩ => ⟨S128x3x64, .f32⟩
  | .hbm, ⟨22, _⟩ => ⟨S3x128x64, .f32⟩
  | .hbm, ⟨23, _⟩ => ⟨S1x128, .f32⟩
  | .hbm, ⟨24, _⟩ => ⟨S1x64, .f32⟩
  | .hbm, ⟨25, _⟩ => ⟨S1x128, .f32⟩
  | .hbm, ⟨26, _⟩ => ⟨S1x64, .f32⟩
  | .hbm, ⟨27, _⟩ => ⟨S512x512, .f32⟩
  | .hbm, ⟨28, _⟩ => ⟨S512x64, .f32⟩
  | .hbm, ⟨29, _⟩ => ⟨S512x64, .f32⟩
  | .hbm, ⟨30, _⟩ => ⟨S6x256, .f32⟩
  | .hbm, ⟨31, _⟩ => ⟨S3x128x256, .f32⟩
  | .hbm, ⟨32, _⟩ => ⟨S1x256, .f32⟩
  | .hbm, ⟨33, _⟩ => ⟨S6x128, .f32⟩
  | .hbm, ⟨34, _⟩ => ⟨S3x128x128, .f32⟩
  | .hbm, ⟨35, _⟩ => ⟨S1x128, .f32⟩
  | .hbm, ⟨36, _⟩ => ⟨S3x128x256, .f32⟩
  | .hbm, ⟨37, _⟩ => ⟨S3x128x256, .f32⟩
  | .hbm, ⟨38, _⟩ => ⟨S1x256, .f32⟩
  | .hbm, ⟨39, _⟩ => ⟨S3x128x128, .f32⟩
  | .hbm, ⟨40, _⟩ => ⟨S3x128x128, .f32⟩
  | .hbm, ⟨41, _⟩ => ⟨S1x128, .f32⟩
  | .hbm, ⟨42, _⟩ => ⟨S128x2, .f32⟩
  | .hbm, ⟨43, _⟩ => ⟨S512x64x1, .f32⟩
  | .hbm, ⟨44, _⟩ => ⟨S512x64x1, .f32⟩
  | .hbm, ⟨45, _⟩ => ⟨S512x64x1, .f32⟩
  | .hbm, ⟨46, _⟩ => ⟨S512x64x3, .f32⟩
  | .hbm, ⟨47, _⟩ => ⟨S64x512x3, .f32⟩
  | .hbm, ⟨48, _⟩ => ⟨S1x64x512x64, .f32⟩
  | .hbm, ⟨49, _⟩ => ⟨S64x512x64, .f32⟩
  | .hbm, ⟨50, _⟩ => ⟨S1x64x512x64, .f32⟩
  | .hbm, ⟨51, _⟩ => ⟨S64x512x64, .f32⟩
  | .hbm, ⟨52, _⟩ => ⟨S1x1, .f32⟩
  | .hbm, ⟨53, _⟩ => ⟨S64x512x1, .f32⟩
  | .hbm, ⟨54, _⟩ => ⟨S2x64x512x64, .f32⟩
  | .hbm, ⟨55, _⟩ => ⟨S64x512, .f32⟩
  | .hbm, ⟨56, _⟩ => ⟨S2x64x32768, .f32⟩
  | .local _ .vmem, ⟨0, _⟩ => ⟨S512x512, .f32⟩
  | .local _ .vmem, ⟨1, _⟩ => ⟨S512x64, .f32⟩
  | .local _ .vmem, ⟨2, _⟩ => ⟨S3x65x128, .f32⟩
  | .local _ .vmem, ⟨3, _⟩ => ⟨S3x65x64, .f32⟩
  | .local _ .vmem, ⟨4, _⟩ => ⟨S3x128x128, .f32⟩
  | .local _ .vmem, ⟨5, _⟩ => ⟨S3x128x64, .f32⟩
  | .local _ .vmem, ⟨6, _⟩ => ⟨S1x128, .f32⟩
  | .local _ .vmem, ⟨7, _⟩ => ⟨S1x64, .f32⟩
  | .local _ .vmem, ⟨8, _⟩ => ⟨S1x128, .f32⟩
  | .local _ .vmem, ⟨9, _⟩ => ⟨S1x64, .f32⟩
  | .local _ .vmem, ⟨10, _⟩ => ⟨S64x1, .f32⟩
  | .local _ .vmem, ⟨11, _⟩ => ⟨S512x512, .f32⟩
  | .local _ .vmem, ⟨12, _⟩ => ⟨S512x64, .f32⟩
  | .local _ .vmem, ⟨13, _⟩ => ⟨S512x64, .f32⟩
  | .local _ .vmem, ⟨14, _⟩ => ⟨S6x256, .f32⟩
  | .local _ .vmem, ⟨15, _⟩ => ⟨S3x128x256, .f32⟩
  | .local _ .vmem, ⟨16, _⟩ => ⟨S1x256, .f32⟩
  | .local _ .vmem, ⟨17, _⟩ => ⟨S6x128, .f32⟩
  | .local _ .vmem, ⟨18, _⟩ => ⟨S3x128x128, .f32⟩
  | .local _ .vmem, ⟨19, _⟩ => ⟨S1x128, .f32⟩
  | .local _ .vmem, ⟨20, _⟩ => ⟨S3x128x256, .f32⟩
  | .local _ .vmem, ⟨21, _⟩ => ⟨S3x128x256, .f32⟩
  | .local _ .vmem, ⟨22, _⟩ => ⟨S1x256, .f32⟩
  | .local _ .vmem, ⟨23, _⟩ => ⟨S3x128x128, .f32⟩
  | .local _ .vmem, ⟨24, _⟩ => ⟨S3x128x128, .f32⟩
  | .local _ .vmem, ⟨25, _⟩ => ⟨S1x128, .f32⟩
  | .local _ .vmem, ⟨26, _⟩ => ⟨S128x2, .f32⟩
  | .local _ .vmem, ⟨27, _⟩ => ⟨S512x512, .f32⟩
  | .local _ .vmem, ⟨28, _⟩ => ⟨S2x512x3, .f32⟩
  | .local _ .vmem, ⟨29, _⟩ => ⟨S2x512x3, .f32⟩
  | .local _ .vmem, ⟨30, _⟩ => ⟨S2x512x64, .f32⟩
  | .local _ .vmem, ⟨31, _⟩ => ⟨S2x512x64, .f32⟩
  | .local _ .vmem, ⟨32, _⟩ => ⟨S2x512x64, .f32⟩
  | .local _ .vmem, ⟨33, _⟩ => ⟨S2x512x64, .f32⟩
  | .local _ .vmem, ⟨34, _⟩ => ⟨S6x256, .f32⟩
  | .local _ .vmem, ⟨35, _⟩ => ⟨S3x128x256, .f32⟩
  | .local _ .vmem, ⟨36, _⟩ => ⟨S1x256, .f32⟩
  | .local _ .vmem, ⟨37, _⟩ => ⟨S6x128, .f32⟩
  | .local _ .vmem, ⟨38, _⟩ => ⟨S3x128x128, .f32⟩
  | .local _ .vmem, ⟨39, _⟩ => ⟨S1x128, .f32⟩
  | .local _ .vmem, ⟨40, _⟩ => ⟨S3x128x256, .f32⟩
  | .local _ .vmem, ⟨41, _⟩ => ⟨S3x128x256, .f32⟩
  | .local _ .vmem, ⟨42, _⟩ => ⟨S1x256, .f32⟩
  | .local _ .vmem, ⟨43, _⟩ => ⟨S3x128x128, .f32⟩
  | .local _ .vmem, ⟨44, _⟩ => ⟨S3x128x128, .f32⟩
  | .local _ .vmem, ⟨45, _⟩ => ⟨S1x128, .f32⟩
  | .local _ .vmem, ⟨46, _⟩ => ⟨S128x2, .f32⟩
  | .local _ .vmem, ⟨47, _⟩ => ⟨S1x1, .f32⟩
  | .local _ .vmem, ⟨48, _⟩ => ⟨S2x512x1, .f32⟩
  | .local _ .vmem, ⟨49, _⟩ => ⟨S2x512x1, .f32⟩
  | .local _ .vmem, ⟨50, _⟩ => ⟨S2x2x512x64, .f32⟩
  | .local _ .vmem, ⟨51, _⟩ => ⟨S2x2x512x64, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev main_v14_4 : Ref sig .tc := ⟨.hbm, 31, rfl⟩
abbrev main_v14_5 : Ref sig .tc := ⟨.hbm, 32, rfl⟩
abbrev main_v14_6 : Ref sig .tc := ⟨.hbm, 33, rfl⟩
abbrev main_v14_7 : Ref sig .tc := ⟨.hbm, 34, rfl⟩
abbrev main_v14_8 : Ref sig .tc := ⟨.hbm, 35, rfl⟩
abbrev main_v14_9 : Ref sig .tc := ⟨.hbm, 36, rfl⟩
abbrev main_v14_10 : Ref sig .tc := ⟨.hbm, 37, rfl⟩
abbrev main_v14_11 : Ref sig .tc := ⟨.hbm, 38, rfl⟩
abbrev main_v14_12 : Ref sig .tc := ⟨.hbm, 39, rfl⟩
abbrev main_v14_13 : Ref sig .tc := ⟨.hbm, 40, rfl⟩
abbrev main_v14_14 : Ref sig .tc := ⟨.hbm, 41, rfl⟩
abbrev main_v14_15 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25_0 : Ref sig .tc := ⟨.hbm, 53, rfl⟩
abbrev main_v25_1 : Ref sig .tc := ⟨.hbm, 54, rfl⟩
abbrev main_v26 : Ref sig .tc := ⟨.hbm, 55, rfl⟩
abbrev main_v27 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc1_stg0_0 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg5_0 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg9_0 : Ref sig .tc := ⟨.vmem, 39, rfl⟩
abbrev cc1_stg10_0 : Ref sig .tc := ⟨.vmem, 40, rfl⟩
abbrev cc1_stg11_0 : Ref sig .tc := ⟨.vmem, 41, rfl⟩
abbrev cc1_stg12_0 : Ref sig .tc := ⟨.vmem, 42, rfl⟩
abbrev cc1_stg13_0 : Ref sig .tc := ⟨.vmem, 43, rfl⟩
abbrev cc1_stg14_0 : Ref sig .tc := ⟨.vmem, 44, rfl⟩
abbrev cc1_stg15_0 : Ref sig .tc := ⟨.vmem, 45, rfl⟩
abbrev cc1_stg16_0 : Ref sig .tc := ⟨.vmem, 46, rfl⟩
abbrev cc1_stg17_0 : Ref sig .tc := ⟨.vmem, 47, rfl⟩
abbrev cc1_stg18_0 : Ref sig .tc := ⟨.vmem, 48, rfl⟩
abbrev cc1_stg18_1 : Ref sig .tc := ⟨.vmem, 49, rfl⟩
abbrev cc1_stg19_0 : Ref sig .tc := ⟨.vmem, 50, rfl⟩
abbrev cc1_stg19_1 : Ref sig .tc := ⟨.vmem, 51, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc1_sem0_0 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem5_0 : DmaSem sig := 35
abbrev cc1_sem6_0 : DmaSem sig := 36
abbrev cc1_sem7_0 : DmaSem sig := 37
abbrev cc1_sem8_0 : DmaSem sig := 38
abbrev cc1_sem9_0 : DmaSem sig := 39
abbrev cc1_sem10_0 : DmaSem sig := 40
abbrev cc1_sem11_0 : DmaSem sig := 41
abbrev cc1_sem12_0 : DmaSem sig := 42
abbrev cc1_sem13_0 : DmaSem sig := 43
abbrev cc1_sem14_0 : DmaSem sig := 44
abbrev cc1_sem15_0 : DmaSem sig := 45
abbrev cc1_sem16_0 : DmaSem sig := 46
abbrev cc1_sem17_0 : DmaSem sig := 47
abbrev cc1_sem18_0 : DmaSem sig := 48
abbrev cc1_sem18_1 : DmaSem sig := 49
abbrev cc1_sem19_0 : DmaSem sig := 50
abbrev cc1_sem19_1 : DmaSem sig := 51

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x65x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x65x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x128x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x128x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S3x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S3x128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S128x2 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_19 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S6x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S6x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3x128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3x128x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S3x128x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S3x128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S3x128x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S128x2 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S2x512x1 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S2x2x512x64 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

class Facts₀ : Prop where
  transposes_S64x512_S512x64_1_0 : S64x512.Transposes [1, 0] S512x64
  shapeCasts_S2x64x32768_S2x64x512x64 : S2x64x32768.ShapeCasts S2x64x512x64
  shapeCasts_S195x128_S65x3x128 : S195x128.ShapeCasts S65x3x128
  transposes_S65x3x128_S3x65x128_1_0_2 : S65x3x128.Transposes [1, 0, 2] S3x65x128
  shapeCasts_S195x64_S65x3x64 : S195x64.ShapeCasts S65x3x64
  transposes_S65x3x64_S3x65x64_1_0_2 : S65x3x64.Transposes [1, 0, 2] S3x65x64
  shapeCasts_S384x128_S128x3x128 : S384x128.ShapeCasts S128x3x128
  transposes_S128x3x128_S3x128x128_1_0_2 : S128x3x128.Transposes [1, 0, 2] S3x128x128
  shapeCasts_S384x64_S128x3x64 : S384x64.ShapeCasts S128x3x64
  transposes_S128x3x64_S3x128x64_1_0_2 : S128x3x64.Transposes [1, 0, 2] S3x128x64
  shapeCasts_S128_S1x128 : S128.ShapeCasts S1x128
  shapeCasts_S64_S1x64 : S64.ShapeCasts S1x64
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  broadcasts_S512x1_S512x512 : S512x1.Broadcasts S512x512
  broadcasts_S1x512_S512x512 : S1x512.Broadcasts S512x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S6x256_S6x256_0_0 : ∀ a, (![0, 0] : Fin 2 → Nat) a + S6x256.size a ≤ S6x256.size a
  h_S6x256 : 0 < S6x256.numel
  inb_S6x128_S6x128_0_0 : ∀ a, (![0, 0] : Fin 2 → Nat) a + S6x128.size a ≤ S6x128.size a
  h_S6x128 : 0 < S6x128.numel
  inb_S3x128x256_S3x128x256_0_0_0 : ∀ a, (![0, 0, 0] : Fin 3 → Nat) a + S3x128x256.size a ≤ S3x128x256.size a
  h_S3x128x256 : 0 < S3x128x256.numel
  inb_S3x128x128_S3x128x128_0_0_0 : ∀ a, (![0, 0, 0] : Fin 3 → Nat) a + S3x128x128.size a ≤ S3x128x128.size a
  h_S3x128x128 : 0 < S3x128x128.numel
  inb_S3x65x128_S1x1x64_0_0_0 : ∀ a, (![0, 0, 0] : Fin 3 → Nat) a + S1x1x64.size a ≤ S3x65x128.size a
  h_S1x1x64 : 0 < S1x1x64.numel
  shapeCasts_S1x1x64_S64 : S1x1x64.ShapeCasts S64
  inb_S6x256_S1x64_0_0 : ∀ a, (![0, 0] : Fin 2 → Nat) a + S1x64.size a ≤ S6x256.size a
  h_S1x64 : 0 < S1x64.numel
  shapeCasts_S1x64_S64 : S1x64.ShapeCasts S64
  inb_S3x65x128_S1x1x64_0_0_64 : ∀ a, (![0, 0, 64] : Fin 3 → Nat) a + S1x1x64.size a ≤ S3x65x128.size a
  inb_S6x256_S1x64_0_128 : ∀ a, (![0, 128] : Fin 2 → Nat) a + S1x64.size a ≤ S6x256.size a
  inb_S6x256_S1x64_3_64 : ∀ a, (![3, 64] : Fin 2 → Nat) a + S1x64.size a ≤ S6x256.size a
  inb_S6x256_S1x64_3_192 : ∀ a, (![3, 192] : Fin 2 → Nat) a + S1x64.size a ≤ S6x256.size a
  inb_S3x65x64_S1x1x64_0_0_0 : ∀ a, (![0, 0, 0] : Fin 3 → Nat) a + S1x1x64.size a ≤ S3x65x64.size a
  inb_S6x128_S1x64_0_0 : ∀ a, (![0, 0] : Fin 2 → Nat) a + S1x64.size a ≤ S6x128.size a
  inb_S6x128_S1x64_3_64 : ∀ a, (![3, 64] : Fin 2 → Nat) a + S1x64.size a ≤ S6x128.size a
  inb_S3x65x128_S1x64x64_0_1_0 : ∀ a, (![0, 1, 0] : Fin 3 → Nat) a + S1x64x64.size a ≤ S3x65x128.size a
  h_S1x64x64 : 0 < S1x64x64.numel
  shapeCasts_S1x64x64_S64x64 : S1x64x64.ShapeCasts S64x64
  inb_S3x65x128_S1x64x64_0_1_64 : ∀ a, (![0, 1, 64] : Fin 3 → Nat) a + S1x64x64.size a ≤ S3x65x128.size a
  inb_S3x128x256_S1x64x64_0_0_0 : ∀ a, (![0, 0, 0] : Fin 3 → Nat) a + S1x64x64.size a ≤ S3x128x256.size a
  shapeCasts_S64x64_S1x64x64 : S64x64.ShapeCasts S1x64x64
  inb_S3x128x256_S1x64x64_0_0_128 : ∀ a, (![0, 0, 128] : Fin 3 → Nat) a + S1x64x64.size a ≤ S3x128x256.size a
  inb_S3x128x256_S1x64x64_0_64_64 : ∀ a, (![0, 64, 64] : Fin 3 → Nat) a + S1x64x64.size a ≤ S3x128x256.size a
  inb_S3x128x256_S1x64x64_0_64_192 : ∀ a, (![0, 64, 192] : Fin 3 → Nat) a + S1x64x64.size a ≤ S3x128x256.size a
  inb_S3x65x64_S1x64x64_0_1_0 : ∀ a, (![0, 1, 0] : Fin 3 → Nat) a + S1x64x64.size a ≤ S3x65x64.size a
  inb_S3x128x128_S1x64x64_0_0_0 : ∀ a, (![0, 0, 0] : Fin 3 → Nat) a + S1x64x64.size a ≤ S3x128x128.size a
  inb_S3x128x128_S1x64x64_0_64_64 : ∀ a, (![0, 64, 64] : Fin 3 → Nat) a + S1x64x64.size a ≤ S3x128x128.size a
  inb_S3x128x128_S1x64x64_0_0_64 : ∀ a, (![0, 0, 64] : Fin 3 → Nat) a + S1x64x64.size a ≤ S3x128x128.size a
  inb_S3x128x128_S1x64x64_0_64_0 : ∀ a, (![0, 64, 0] : Fin 3 → Nat) a + S1x64x64.size a ≤ S3x128x128.size a
  inb_S3x128x64_S1x64x64_0_0_0 : ∀ a, (![0, 0, 0] : Fin 3 → Nat) a + S1x64x64.size a ≤ S3x128x64.size a
  inb_S3x128x64_S1x64x64_0_64_0 : ∀ a, (![0, 64, 0] : Fin 3 → Nat) a + S1x64x64.size a ≤ S3x128x64.size a
  inb_S3x65x128_S1x1x64_1_0_0 : ∀ a, (![1, 0, 0] : Fin 3 → Nat) a + S1x1x64.size a ≤ S3x65x128.size a
  inb_S6x256_S1x64_1_0 : ∀ a, (![1, 0] : Fin 2 → Nat) a + S1x64.size a ≤ S6x256.size a
  inb_S3x65x128_S1x1x64_1_0_64 : ∀ a, (![1, 0, 64] : Fin 3 → Nat) a + S1x1x64.size a ≤ S3x65x128.size a
  inb_S6x256_S1x64_1_128 : ∀ a, (![1, 128] : Fin 2 → Nat) a + S1x64.size a ≤ S6x256.size a
  inb_S6x256_S1x64_4_64 : ∀ a, (![4, 64] : Fin 2 → Nat) a + S1x64.size a ≤ S6x256.size a
  inb_S6x256_S1x64_4_192 : ∀ a, (![4, 192] : Fin 2 → Nat) a + S1x64.size a ≤ S6x256.size a
  inb_S3x65x64_S1x1x64_1_0_0 : ∀ a, (![1, 0, 0] : Fin 3 → Nat) a + S1x1x64.size a ≤ S3x65x64.size a
  inb_S6x128_S1x64_1_0 : ∀ a, (![1, 0] : Fin 2 → Nat) a + S1x64.size a ≤ S6x128.size a
  inb_S6x128_S1x64_4_64 : ∀ a, (![4, 64] : Fin 2 → Nat) a + S1x64.size a ≤ S6x128.size a
  inb_S3x65x128_S1x64x64_1_1_0 : ∀ a, (![1, 1, 0] : Fin 3 → Nat) a + S1x64x64.size a ≤ S3x65x128.size a
  inb_S3x65x128_S1x64x64_1_1_64 : ∀ a, (![1, 1, 64] : Fin 3 → Nat) a + S1x64x64.size a ≤ S3x65x128.size a
  inb_S3x128x256_S1x64x64_1_0_0 : ∀ a, (![1, 0, 0] : Fin 3 → Nat) a + S1x64x64.size a ≤ S3x128x256.size a
  inb_S3x128x256_S1x64x64_1_0_128 : ∀ a, (![1, 0, 128] : Fin 3 → Nat) a + S1x64x64.size a ≤ S3x128x256.size a
  inb_S3x128x256_S1x64x64_1_64_64 : ∀ a, (![1, 64, 64] : Fin 3 → Nat) a + S1x64x64.size a ≤ S3x128x256.size a
  inb_S3x128x256_S1x64x64_1_64_192 : ∀ a, (![1, 64, 192] : Fin 3 → Nat) a + S1x64x64.size a ≤ S3x128x256.size a
  inb_S3x65x64_S1x64x64_1_1_0 : ∀ a, (![1, 1, 0] : Fin 3 → Nat) a + S1x64x64.size a ≤ S3x65x64.size a
  inb_S3x128x128_S1x64x64_1_0_0 : ∀ a, (![1, 0, 0] : Fin 3 → Nat) a + S1x64x64.size a ≤ S3x128x128.size a
  inb_S3x128x128_S1x64x64_1_64_64 : ∀ a, (![1, 64, 64] : Fin 3 → Nat) a + S1x64x64.size a ≤ S3x128x128.size a
  inb_S3x128x128_S1x64x64_1_0_64 : ∀ a, (![1, 0, 64] : Fin 3 → Nat) a + S1x64x64.size a ≤ S3x128x128.size a
  inb_S3x128x128_S1x64x64_1_64_0 : ∀ a, (![1, 64, 0] : Fin 3 → Nat) a + S1x64x64.size a ≤ S3x128x128.size a
  inb_S3x128x64_S1x64x64_1_0_0 : ∀ a, (![1, 0, 0] : Fin 3 → Nat) a + S1x64x64.size a ≤ S3x128x64.size a
  inb_S3x128x64_S1x64x64_1_64_0 : ∀ a, (![1, 64, 0] : Fin 3 → Nat) a + S1x64x64.size a ≤ S3x128x64.size a
  inb_S3x65x128_S1x1x64_2_0_0 : ∀ a, (![2, 0, 0] : Fin 3 → Nat) a + S1x1x64.size a ≤ S3x65x128.size a
  inb_S6x256_S1x64_2_0 : ∀ a, (![2, 0] : Fin 2 → Nat) a + S1x64.size a ≤ S6x256.size a
  inb_S3x65x128_S1x1x64_2_0_64 : ∀ a, (![2, 0, 64] : Fin 3 → Nat) a + S1x1x64.size a ≤ S3x65x128.size a
  inb_S6x256_S1x64_2_128 : ∀ a, (![2, 128] : Fin 2 → Nat) a + S1x64.size a ≤ S6x256.size a
  inb_S6x256_S1x64_5_64 : ∀ a, (![5, 64] : Fin 2 → Nat) a + S1x64.size a ≤ S6x256.size a
  inb_S6x256_S1x64_5_192 : ∀ a, (![5, 192] : Fin 2 → Nat) a + S1x64.size a ≤ S6x256.size a
  inb_S3x65x64_S1x1x64_2_0_0 : ∀ a, (![2, 0, 0] : Fin 3 → Nat) a + S1x1x64.size a ≤ S3x65x64.size a
  inb_S6x128_S1x64_2_0 : ∀ a, (![2, 0] : Fin 2 → Nat) a + S1x64.size a ≤ S6x128.size a
  inb_S6x128_S1x64_5_64 : ∀ a, (![5, 64] : Fin 2 → Nat) a + S1x64.size a ≤ S6x128.size a
  inb_S3x65x128_S1x64x64_2_1_0 : ∀ a, (![2, 1, 0] : Fin 3 → Nat) a + S1x64x64.size a ≤ S3x65x128.size a
  inb_S3x65x128_S1x64x64_2_1_64 : ∀ a, (![2, 1, 64] : Fin 3 → Nat) a + S1x64x64.size a ≤ S3x65x128.size a
  inb_S3x128x256_S1x64x64_2_0_0 : ∀ a, (![2, 0, 0] : Fin 3 → Nat) a + S1x64x64.size a ≤ S3x128x256.size a
  inb_S3x128x256_S1x64x64_2_0_128 : ∀ a, (![2, 0, 128] : Fin 3 → Nat) a + S1x64x64.size a ≤ S3x128x256.size a
  inb_S3x128x256_S1x64x64_2_64_64 : ∀ a, (![2, 64, 64] : Fin 3 → Nat) a + S1x64x64.size a ≤ S3x128x256.size a
  inb_S3x128x256_S1x64x64_2_64_192 : ∀ a, (![2, 64, 192] : Fin 3 → Nat) a + S1x64x64.size a ≤ S3x128x256.size a
  inb_S3x65x64_S1x64x64_2_1_0 : ∀ a, (![2, 1, 0] : Fin 3 → Nat) a + S1x64x64.size a ≤ S3x65x64.size a
  inb_S3x128x128_S1x64x64_2_0_0 : ∀ a, (![2, 0, 0] : Fin 3 → Nat) a + S1x64x64.size a ≤ S3x128x128.size a
  inb_S3x128x128_S1x64x64_2_64_64 : ∀ a, (![2, 64, 64] : Fin 3 → Nat) a + S1x64x64.size a ≤ S3x128x128.size a
  inb_S3x128x128_S1x64x64_2_0_64 : ∀ a, (![2, 0, 64] : Fin 3 → Nat) a + S1x64x64.size a ≤ S3x128x128.size a
  inb_S3x128x128_S1x64x64_2_64_0 : ∀ a, (![2, 64, 0] : Fin 3 → Nat) a + S1x64x64.size a ≤ S3x128x128.size a
  inb_S3x128x64_S1x64x64_2_0_0 : ∀ a, (![2, 0, 0] : Fin 3 → Nat) a + S1x64x64.size a ≤ S3x128x64.size a
  inb_S3x128x64_S1x64x64_2_64_0 : ∀ a, (![2, 64, 0] : Fin 3 → Nat) a + S1x64x64.size a ≤ S3x128x64.size a
  inb_S1x128_S1x64_0_0 : ∀ a, (![0, 0] : Fin 2 → Nat) a + S1x64.size a ≤ S1x128.size a
  inb_S1x256_S1x64_0_0 : ∀ a, (![0, 0] : Fin 2 → Nat) a + S1x64.size a ≤ S1x256.size a
  inb_S1x256_S1x64_0_64 : ∀ a, (![0, 64] : Fin 2 → Nat) a + S1x64.size a ≤ S1x256.size a
  inb_S1x128_S1x64_0_64 : ∀ a, (![0, 64] : Fin 2 → Nat) a + S1x64.size a ≤ S1x128.size a
  inb_S1x256_S1x64_0_128 : ∀ a, (![0, 128] : Fin 2 → Nat) a + S1x64.size a ≤ S1x256.size a
  inb_S1x256_S1x64_0_192 : ∀ a, (![0, 192] : Fin 2 → Nat) a + S1x64.size a ≤ S1x256.size a
  inb_S1x64_S1x64_0_0 : ∀ a, (![0, 0] : Fin 2 → Nat) a + S1x64.size a ≤ S1x64.size a
  inb_S128x2_S128x2_0_0 : ∀ a, (![0, 0] : Fin 2 → Nat) a + S128x2.size a ≤ S128x2.size a
  h_S128x2 : 0 < S128x2.numel
  inb_S64x1_S64x1_0_0 : ∀ a, (![0, 0] : Fin 2 → Nat) a + S64x1.size a ≤ S64x1.size a
  h_S64x1 : 0 < S64x1.numel
  inb_S128x2_S64x1_0_0 : ∀ a, (![0, 0] : Fin 2 → Nat) a + S64x1.size a ≤ S128x2.size a
  inb_S128x2_S64x1_64_1 : ∀ a, (![64, 1] : Fin 2 → Nat) a + S64x1.size a ≤ S128x2.size a
  bcast_S512x64_S512x64x1_0_1 : S512x64.BroadcastsInDim S512x64x1 (![0, 1] : Fin 2 → Fin S512x64x1.rank)
  concatenates_S512x64x1_S512x64x1_S512x64x1_S512x64x3_d2 : Shape.Concatenates [S512x64x1, S512x64x1, S512x64x1] S512x64x3 2
  transposes_S512x64x3_S64x512x3_1_0_2 : S512x64x3.Transposes [1, 0, 2] S64x512x3
  slices_S2x64x512x64_S1x64x512x64_0_0_0_0 : S2x64x512x64.Slices ![0, 0, 0, 0] S1x64x512x64
  shapeCasts_S1x64x512x64_S64x512x64 : S1x64x512x64.ShapeCasts S64x512x64
  slices_S2x64x512x64_S1x64x512x64_1_0_0_0 : S2x64x512x64.Slices ![1, 0, 0, 0] S1x64x512x64
  shapeCasts_S1_S1x1 : S1.ShapeCasts S1x1
  shapeCasts_S512x512_S512x512 : S512x512.ShapeCasts S512x512
  inb_S2x512x3_S1x512x3_0_0_0 : ∀ a, (![0, 0, 0] : Fin 3 → Nat) a + S1x512x3.size a ≤ S2x512x3.size a
  h_S1x512x3 : 0 < S1x512x3.numel
  shapeCasts_S1x512x3_S512x3 : S1x512x3.ShapeCasts S512x3
  inb_S2x512x3_S1x512x3_1_0_0 : ∀ a, (![1, 0, 0] : Fin 3 → Nat) a + S1x512x3.size a ≤ S2x512x3.size a
  concatenates_S512x3_S512x3_S512x6_d1 : Shape.Concatenates [S512x3, S512x3] S512x6 1
  inb_S2x512x64_S1x512x64_0_0_0 : ∀ a, (![0, 0, 0] : Fin 3 → Nat) a + S1x512x64.size a ≤ S2x512x64.size a
  h_S1x512x64 : 0 < S1x512x64.numel
  shapeCasts_S1x512x64_S512x64 : S1x512x64.ShapeCasts S512x64
  inb_S2x512x64_S1x512x64_1_0_0 : ∀ a, (![1, 0, 0] : Fin 3 → Nat) a + S1x512x64.size a ≤ S2x512x64.size a
  concatenates_S512x64_S512x64_S512x128_d1 : Shape.Concatenates [S512x64, S512x64] S512x128 1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S6x256_S6x256 : S6x256.ShapeCasts S6x256
  broadcasts_S1x256_S512x256 : S1x256.Broadcasts S512x256
  inb_S3x128x256_S1x128x256_0_0_0 : ∀ a, (![0, 0, 0] : Fin 3 → Nat) a + S1x128x256.size a ≤ S3x128x256.size a
  h_S1x128x256 : 0 < S1x128x256.numel
  shapeCasts_S1x128x256_S128x256 : S1x128x256.ShapeCasts S128x256
  inb_S3x128x256_S1x128x256_1_0_0 : ∀ a, (![1, 0, 0] : Fin 3 → Nat) a + S1x128x256.size a ≤ S3x128x256.size a
  inb_S3x128x256_S1x128x256_2_0_0 : ∀ a, (![2, 0, 0] : Fin 3 → Nat) a + S1x128x256.size a ≤ S3x128x256.size a
  slices_S512x256_o0_0_S512x128 : S512x256.Slices ![0, 0] S512x128
  slices_S512x256_o0_128_S512x128 : S512x256.Slices ![0, 128] S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S6x128_S6x128 : S6x128.ShapeCasts S6x128
  broadcasts_S1x128_S512x128 : S1x128.Broadcasts S512x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  slices_S512x128_o0_0_S512x64 : S512x128.Slices ![0, 0] S512x64
  inb_S2x2x512x64_S1x1x512x64_0_0_0_0 : ∀ a, (![0, 0, 0, 0] : Fin 4 → Nat) a + S1x1x512x64.size a ≤ S2x2x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  slices_S512x128_o0_64_S512x64 : S512x128.Slices ![0, 64] S512x64
  inb_S2x2x512x64_S1x1x512x64_0_1_0_0 : ∀ a, (![0, 1, 0, 0] : Fin 4 → Nat) a + S1x1x512x64.size a ≤ S2x2x512x64.size a
  inb_S2x2x512x64_S1x1x512x64_1_0_0_0 : ∀ a, (![1, 0, 0, 0] : Fin 4 → Nat) a + S1x1x512x64.size a ≤ S2x2x512x64.size a
  inb_S2x2x512x64_S1x1x512x64_1_1_0_0 : ∀ a, (![1, 1, 0, 0] : Fin 4 → Nat) a + S1x1x512x64.size a ≤ S2x2x512x64.size a
  shapeCasts_S128x2_S128x2 : S128x2.ShapeCasts S128x2
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2 : S1x1.Broadcasts S512x2
  slices_S512x2_o0_0_S512x1 : S512x2.Slices ![0, 0] S512x1
  inb_S2x512x1_S1x512x1_0_0_0 : ∀ a, (![0, 0, 0] : Fin 3 → Nat) a + S1x512x1.size a ≤ S2x512x1.size a
  h_S1x512x1 : 0 < S1x512x1.numel
  shapeCasts_S1x512x1_S512x1 : S1x512x1.ShapeCasts S512x1
  shapeCasts_S512x1_S1x512x1 : S512x1.ShapeCasts S1x512x1
  slices_S512x2_o0_1_S512x1 : S512x2.Slices ![0, 1] S512x1
  inb_S2x512x1_S1x512x1_1_0_0 : ∀ a, (![1, 0, 0] : Fin 3 → Nat) a + S1x512x1.size a ≤ S2x512x1.size a
  shapeCasts_S64x512x1_S64x512 : S64x512x1.ShapeCasts S64x512
  shapeCasts_S2x64x512x64_S2x64x32768 : S2x64x512x64.ShapeCasts S2x64x32768
  dot_S512x512_S512x64_S512x64_1_0_0_1_n_n_wf : DotDims.WF S512x512 S512x64 S512x64 [1] [0] [0] [1] [] []
  dot_S512x6_S6x256_S512x256_1_0_0_1_n_n_wf : DotDims.WF S512x6 S6x256 S512x256 [1] [0] [0] [1] [] []
  dot_S512x128_S128x256_S512x256_1_0_0_1_n_n_wf : DotDims.WF S512x128 S128x256 S512x256 [1] [0] [0] [1] [] []
  dot_S512x512_S512x128_S512x128_1_0_0_1_n_n_wf : DotDims.WF S512x512 S512x128 S512x128 [1] [0] [0] [1] [] []
  dot_S512x6_S6x128_S512x128_1_0_0_1_n_n_wf : DotDims.WF S512x6 S6x128 S512x128 [1] [0] [0] [1] [] []
  dot_S512x128_S128x128_S512x128_1_0_0_1_n_n_wf : DotDims.WF S512x128 S128x128 S512x128 [1] [0] [0] [1] [] []
  dot_S512x128_S128x2_S512x2_1_0_0_1_n_n_wf : DotDims.WF S512x128 S128x2 S512x2 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole
  hstage0_19 : ∀ j, (stage0_19 j).IsWhole
  hstage0_20 : ∀ j, (stage0_20 j).IsWhole
  hstage0_21 : ∀ j, (stage0_21 j).IsWhole
  hstage0_22 : ∀ j, (stage0_22 j).IsWhole
  hstage0_23 : ∀ j, (stage0_23 j).IsWhole
  hstage0_24 : ∀ j, (stage0_24 j).IsWhole
  hstage0_25 : ∀ j, (stage0_25 j).IsWhole
  hstage0_26 : ∀ j, (stage0_26 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x512x3.size a ≤ S64x512x3.size a
  hwx1_1 : ∀ i : grid1.Coords, EltTy.bits .f32 = 32 ∨ (Rect.block (s := S64x512x3) S2x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512x64.size a ≤ S64x512x64.size a
  hwx1_2 : ∀ i : grid1.Coords, EltTy.bits .f32 = 32 ∨ (Rect.block (s := S64x512x64) S2x512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x512x64.size a ≤ S64x512x64.size a
  hwx1_3 : ∀ i : grid1.Coords, EltTy.bits .f32 = 32 ∨ (Rect.block (s := S64x512x64) S2x512x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S6x256.size a ≤ S6x256.size a
  hwx1_4 : ∀ i : grid1.Coords, EltTy.bits .f32 = 32 ∨ (Rect.block (s := S6x256) S6x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x128x256.size a ≤ S3x128x256.size a
  hwx1_5 : ∀ i : grid1.Coords, EltTy.bits .f32 = 32 ∨ (Rect.block (s := S3x128x256) S3x128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S6x128.size a ≤ S6x128.size a
  hwx1_7 : ∀ i : grid1.Coords, EltTy.bits .f32 = 32 ∨ (Rect.block (s := S6x128) S6x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3x128x128.size a ≤ S3x128x128.size a
  hwx1_8 : ∀ i : grid1.Coords, EltTy.bits .f32 = 32 ∨ (Rect.block (s := S3x128x128) S3x128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S3x128x256.size a ≤ S3x128x256.size a
  hwx1_10 : ∀ i : grid1.Coords, EltTy.bits .f32 = 32 ∨ (Rect.block (s := S3x128x256) S3x128x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S3x128x256.size a ≤ S3x128x256.size a
  hwx1_11 : ∀ i : grid1.Coords, EltTy.bits .f32 = 32 ∨ (Rect.block (s := S3x128x256) S3x128x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S3x128x128.size a ≤ S3x128x128.size a
  hwx1_13 : ∀ i : grid1.Coords, EltTy.bits .f32 = 32 ∨ (Rect.block (s := S3x128x128) S3x128x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S3x128x128.size a ≤ S3x128x128.size a
  hwx1_14 : ∀ i : grid1.Coords, EltTy.bits .f32 = 32 ∨ (Rect.block (s := S3x128x128) S3x128x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x128.size a ≤ S1x128.size a
  hwx1_15 : ∀ i : grid1.Coords, EltTy.bits .f32 = 32 ∨ (Rect.block (s := S1x128) S1x128.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S128x2.size a ≤ S128x2.size a
  hwx1_16 : ∀ i : grid1.Coords, EltTy.bits .f32 = 32 ∨ (Rect.block (s := S128x2) S128x2.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x1.size a ≤ S1x1.size a
  hwx1_17 : ∀ i : grid1.Coords, EltTy.bits .f32 = 32 ∨ (Rect.block (s := S1x1) S1x1.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S2x512x1.size a ≤ S64x512x1.size a
  hwx1_18 : ∀ i : grid1.Coords, EltTy.bits .f32 = 32 ∨ (Rect.block (s := S64x512x1) S2x512x1.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S2x2x512x64.size a ≤ S2x64x512x64.size a
  hwx1_19 : ∀ i : grid1.Coords, EltTy.bits .f32 = 32 ∨ (Rect.block (s := S2x64x512x64) S2x2x512x64.size (cc1_transform_19 i) (hinb1_19 i)).WholeWords (EltTy.packing .f32)

variable [Facts₀]

def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x6_S6x256_S512x256_1_0_0_1_n_n : DotDims S512x6 S6x256 S512x256 where
  lhsContracting := [1]
  rhsContracting := [0]
  lhsNonContracting := [0]
  rhsNonContracting := [1]
  lhsBatch := []
  rhsBatch := []
  wf := dot_S512x6_S6x256_S512x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x6_S6x128_S512x128_1_0_0_1_n_n : DotDims S512x6 S6x128 S512x128 where
  lhsContracting := [1]
  rhsContracting := [0]
  lhsNonContracting := [0]
  rhsNonContracting := [1]
  lhsBatch := []
  rhsBatch := []
  wf := dot_S512x6_S6x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v3) false false (stage0_2 0) (sem0_2 0) (Memref.isWhole_whole _) (hstage0_2 0)

abbrev win0_3 : Pipeline.Window sig grid0 :=
  Pipeline.Window.whole (Memref.whole main_v5) false false (stage0_3 0) (sem0_3 0) (Memref.isWhole_whole _) (hstage0_3 0)

abbrev win0_4 : Pipeline.Window sig grid0 :=
  Pipeline.Window.whole (Memref.whole main_v7) false false (stage0_4 0) (sem0_4 0) (Memref.isWhole_whole _) (hstage0_4 0)

abbrev win0_5 : Pipeline.Window sig grid0 :=
  Pipeline.Window.whole (Memref.whole main_v9) false false (stage0_5 0) (sem0_5 0) (Memref.isWhole_whole _) (hstage0_5 0)

abbrev win0_6 : Pipeline.Window sig grid0 :=
  Pipeline.Window.whole (Memref.whole main_v10) false false (stage0_6 0) (sem0_6 0) (Memref.isWhole_whole _) (hstage0_6 0)

abbrev win0_7 : Pipeline.Window sig grid0 :=
  Pipeline.Window.whole (Memref.whole main_v11) false false (stage0_7 0) (sem0_7 0) (Memref.isWhole_whole _) (hstage0_7 0)

abbrev win0_8 : Pipeline.Window sig grid0 :=
  Pipeline.Window.whole (Memref.whole main_v12) false false (stage0_8 0) (sem0_8 0) (Memref.isWhole_whole _) (hstage0_8 0)

abbrev win0_9 : Pipeline.Window sig grid0 :=
  Pipeline.Window.whole (Memref.whole main_v13) false false (stage0_9 0) (sem0_9 0) (Memref.isWhole_whole _) (hstage0_9 0)

abbrev win0_10 : Pipeline.Window sig grid0 :=
  Pipeline.Window.whole (Memref.whole main_arg11) false false (stage0_10 0) (sem0_10 0) (Memref.isWhole_whole _) (hstage0_10 0)

abbrev win0_11 : Pipeline.Window sig grid0 :=
  Pipeline.Window.whole (Memref.whole main_v14_0) true false (stage0_11 0) (sem0_11 0) (Memref.isWhole_whole _) (hstage0_11 0)

abbrev win0_12 : Pipeline.Window sig grid0 :=
  Pipeline.Window.whole (Memref.whole main_v14_1) true false (stage0_12 0) (sem0_12 0) (Memref.isWhole_whole _) (hstage0_12 0)

abbrev win0_13 : Pipeline.Window sig grid0 :=
  Pipeline.Window.whole (Memref.whole main_v14_2) true false (stage0_13 0) (sem0_13 0) (Memref.isWhole_whole _) (hstage0_13 0)

abbrev win0_14 : Pipeline.Window sig grid0 :=
  Pipeline.Window.whole (Memref.whole main_v14_3) true false (stage0_14 0) (sem0_14 0) (Memref.isWhole_whole _) (hstage0_14 0)

abbrev win0_15 : Pipeline.Window sig grid0 :=
  Pipeline.Window.whole (Memref.whole main_v14_4) true false (stage0_15 0) (sem0_15 0) (Memref.isWhole_whole _) (hstage0_15 0)

abbrev win0_16 : Pipeline.Window sig grid0 :=
  Pipeline.Window.whole (Memref.whole main_v14_5) true false (stage0_16 0) (sem0_16 0) (Memref.isWhole_whole _) (hstage0_16 0)

abbrev win0_17 : Pipeline.Window sig grid0 :=
  Pipeline.Window.whole (Memref.whole main_v14_6) true false (stage0_17 0) (sem0_17 0) (Memref.isWhole_whole _) (hstage0_17 0)

abbrev win0_18 : Pipeline.Window sig grid0 :=
  Pipeline.Window.whole (Memref.whole main_v14_7) true false (stage0_18 0) (sem0_18 0) (Memref.isWhole_whole _) (hstage0_18 0)

abbrev win0_19 : Pipeline.Window sig grid0 :=
  Pipeline.Window.whole (Memref.whole main_v14_8) true false (stage0_19 0) (sem0_19 0) (Memref.isWhole_whole _) (hstage0_19 0)

abbrev win0_20 : Pipeline.Window sig grid0 :=
  Pipeline.Window.whole (Memref.whole main_v14_9) true false (stage0_20 0) (sem0_20 0) (Memref.isWhole_whole _) (hstage0_20 0)

abbrev win0_21 : Pipeline.Window sig grid0 :=
  Pipeline.Window.whole (Memref.whole main_v14_10) true false (stage0_21 0) (sem0_21 0) (Memref.isWhole_whole _) (hstage0_21 0)

abbrev win0_22 : Pipeline.Window sig grid0 :=
  Pipeline.Window.whole (Memref.whole main_v14_11) true false (stage0_22 0) (sem0_22 0) (Memref.isWhole_whole _) (hstage0_22 0)

abbrev win0_23 : Pipeline.Window sig grid0 :=
  Pipeline.Window.whole (Memref.whole main_v14_12) true false (stage0_23 0) (sem0_23 0) (Memref.isWhole_whole _) (hstage0_23 0)

abbrev win0_24 : Pipeline.Window sig grid0 :=
  Pipeline.Window.whole (Memref.whole main_v14_13) true false (stage0_24 0) (sem0_24 0) (Memref.isWhole_whole _) (hstage0_24 0)

abbrev win0_25 : Pipeline.Window sig grid0 :=
  Pipeline.Window.whole (Memref.whole main_v14_14) true false (stage0_25 0) (sem0_25 0) (Memref.isWhole_whole _) (hstage0_25 0)

abbrev win0_26 : Pipeline.Window sig grid0 :=
  Pipeline.Window.whole (Memref.whole main_v14_15) true false (stage0_26 0) (sem0_26 0) (Memref.isWhole_whole _) (hstage0_26 0)

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

abbrev win1_0 : Pipeline.Window sig grid1 :=
  Pipeline.Window.ofSpec (Memref.whole main_v14_0) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2x512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14_3) S6x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14_4) S3x128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14_5) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v14_6) S6x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14_7) S3x128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v14_8) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v14_9) S3x128x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v14_10) S3x128x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v14_11) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v14_12) S3x128x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v14_13) S3x128x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v14_14) S1x128.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v14_15) S128x2.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v24) S1x1.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v25_0) S2x512x1.size cc1_transform_18 reads1_18 true false 2 stage1_18 sem1_18
    hrank1 hreads1_18 hinb1_18 nbuf1_18 (Memref.isWhole_whole _) hwx1_18 hstage1_18

abbrev win1_19 : Pipeline.Window sig grid1 :=
  Pipeline.Window.ofSpec (Memref.whole main_v25_1) S2x2x512x64.size cc1_transform_19 reads1_19 true false 2 stage1_19 sem1_19
    hrank1 hreads1_19 hinb1_19 nbuf1_19 (Memref.isWhole_whole _) hwx1_19 hstage1_19

abbrev win1 : Fin 20 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | ⟨_ + 20, h⟩ => absurd h (Nat.not_lt.2 (Nat.le_add_left _ _))
abbrev spec1 : Fin 20 → Pipeline.WinSpec sig grid1.rank := fun w => (win1 w).toWinSpec

class Facts : Prop extends Facts₀ where

variable [Facts]
-- ==== ReferenceIdeal.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩
abbrev S512 : Shape := ⟨1, ![512]⟩
abbrev S512x1 : Shape := ⟨2, ![512, 1]⟩
abbrev S1x512 : Shape := ⟨2, ![1, 512]⟩
abbrev S1x64x32768 : Shape := ⟨3, ![1, 64, 32768]⟩
abbrev S64x32768 : Shape := ⟨2, ![64, 32768]⟩
abbrev S64x512x1 : Shape := ⟨3, ![64, 512, 1]⟩
abbrev S64x512x64 : Shape := ⟨3, ![64, 512, 64]⟩
abbrev S64x512x65 : Shape := ⟨3, ![64, 512, 65]⟩
abbrev S512x65x64 : Shape := ⟨3, ![512, 65, 64]⟩
abbrev S512x4160 : Shape := ⟨2, ![512, 4160]⟩
abbrev S1x512x4160 : Shape := ⟨3, ![1, 512, 4160]⟩
abbrev S3x512x4160 : Shape := ⟨3, ![3, 512, 4160]⟩
abbrev S3x512x65x64 : Shape := ⟨4, ![3, 512, 65, 64]⟩
abbrev S64x512x65x3 : Shape := ⟨4, ![64, 512, 65, 3]⟩
abbrev S32768x195 : Shape := ⟨2, ![32768, 195]⟩
abbrev S32768x128 : Shape := ⟨2, ![32768, 128]⟩
abbrev S1x128 : Shape := ⟨2, ![1, 128]⟩
abbrev S64x65536 : Shape := ⟨2, ![64, 65536]⟩
abbrev S64x512x128 : Shape := ⟨3, ![64, 512, 128]⟩
abbrev S32768x64 : Shape := ⟨2, ![32768, 64]⟩
abbrev S1x64 : Shape := ⟨2, ![1, 64]⟩
abbrev S512x128x64 : Shape := ⟨3, ![512, 128, 64]⟩
abbrev S512x8192 : Shape := ⟨2, ![512, 8192]⟩
abbrev S1x512x8192 : Shape := ⟨3, ![1, 512, 8192]⟩
abbrev S3x512x8192 : Shape := ⟨3, ![3, 512, 8192]⟩
abbrev S3x512x128x64 : Shape := ⟨4, ![3, 512, 128, 64]⟩
abbrev S64x512x128x3 : Shape := ⟨4, ![64, 512, 128, 3]⟩
abbrev S32768x384 : Shape := ⟨2, ![32768, 384]⟩
abbrev S32768x1 : Shape := ⟨2, ![32768, 1]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S64x512, .f32⟩
  | 1 => ⟨S2x64x32768, .f32⟩
  | 2 => ⟨S512x512, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S512x512, .f32⟩
  | 14 => ⟨S512x512, .f32⟩
  | 15 => ⟨S_, .f32⟩
  | 16 => ⟨S512, .f32⟩
  | 17 => ⟨S_, .f32⟩
  | 18 => ⟨S512, .f32⟩
  | 19 => ⟨S512, .i1⟩
  | 20 => ⟨S512, .f32⟩
  | 21 => ⟨S_, .f32⟩
  | 22 => ⟨S512, .f32⟩
  | 23 => ⟨S512, .f32⟩
  | 24 => ⟨S_, .f32⟩
  | 25 => ⟨S_, .f32⟩
  | 26 => ⟨S512, .f32⟩
  | 27 => ⟨S512, .f32⟩
  | 28 => ⟨S512x512, .i32⟩
  | 29 => ⟨S512x512, .i32⟩
  | 30 => ⟨S_, .i32⟩
  | 31 => ⟨S512x512, .i32⟩
  | 32 => ⟨S512x512, .i32⟩
  | 33 => ⟨S512x512, .i1⟩
  | 34 => ⟨S512x512, .f32⟩
  | 35 => ⟨S512x1, .f32⟩
  | 36 => ⟨S512x512, .f32⟩
  | 37 => ⟨S512x512, .f32⟩
  | 38 => ⟨S1x512, .f32⟩
  | 39 => ⟨S512x512, .f32⟩
  | 40 => ⟨S512x512, .f32⟩
  | 41 => ⟨S512x512, .f32⟩
  | 42 => ⟨S_, .f32⟩
  | 43 => ⟨S512x512, .f32⟩
  | 44 => ⟨S512x512, .f32⟩
  | 45 => ⟨S512x512, .i32⟩
  | 46 => ⟨S512x512, .i32⟩
  | 47 => ⟨S_, .i32⟩
  | 48 => ⟨S512x512, .i32⟩
  | 49 => ⟨S512x512, .i32⟩
  | 50 => ⟨S512x512, .i1⟩
  | 51 => ⟨S512x512, .f32⟩
  | 52 => ⟨S512x512, .f32⟩
  | 53 => ⟨S1x64x32768, .f32⟩
  | 54 => ⟨S64x32768, .f32⟩
  | 55 => ⟨S64x512x1, .f32⟩
  | 56 => ⟨S64x512x64, .f32⟩
  | 57 => ⟨S64x512x65, .f32⟩
  | 58 => ⟨S512x65x64, .f32⟩
  | 59 => ⟨S512x4160, .f32⟩
  | 60 => ⟨S512x4160, .f32⟩
  | 61 => ⟨S512x4160, .f32⟩
  | 62 => ⟨S_, .f32⟩
  | 63 => ⟨S512x4160, .f32⟩
  | 64 => ⟨S512x4160, .f32⟩
  | 65 => ⟨S512x4160, .f32⟩
  | 66 => ⟨S1x512x4160, .f32⟩
  | 67 => ⟨S1x512x4160, .f32⟩
  | 68 => ⟨S1x512x4160, .f32⟩
  | 69 => ⟨S3x512x4160, .f32⟩
  | 70 => ⟨S3x512x65x64, .f32⟩
  | 71 => ⟨S64x512x65x3, .f32⟩
  | 72 => ⟨S32768x195, .f32⟩
  | 73 => ⟨S32768x128, .f32⟩
  | 74 => ⟨S1x128, .f32⟩
  | 75 => ⟨S32768x128, .f32⟩
  | 76 => ⟨S32768x128, .f32⟩
  | 77 => ⟨S64x65536, .f32⟩
  | 78 => ⟨S64x65536, .f32⟩
  | 79 => ⟨S64x65536, .f32⟩
  | 80 => ⟨S_, .f32⟩
  | 81 => ⟨S64x65536, .f32⟩
  | 82 => ⟨S64x65536, .f32⟩
  | 83 => ⟨S_, .f32⟩
  | 84 => ⟨S64x65536, .f32⟩
  | 85 => ⟨S64x65536, .f32⟩
  | 86 => ⟨S64x512x128, .f32⟩
  | 87 => ⟨S64x512x64, .f32⟩
  | 88 => ⟨S64x32768, .f32⟩
  | 89 => ⟨S64x512x64, .f32⟩
  | 90 => ⟨S64x32768, .f32⟩
  | 91 => ⟨S64x32768, .f32⟩
  | 92 => ⟨S64x512x1, .f32⟩
  | 93 => ⟨S64x512x64, .f32⟩
  | 94 => ⟨S64x512x65, .f32⟩
  | 95 => ⟨S512x65x64, .f32⟩
  | 96 => ⟨S512x4160, .f32⟩
  | 97 => ⟨S512x4160, .f32⟩
  | 98 => ⟨S512x4160, .f32⟩
  | 99 => ⟨S_, .f32⟩
  | 100 => ⟨S512x4160, .f32⟩
  | 101 => ⟨S512x4160, .f32⟩
  | 102 => ⟨S512x4160, .f32⟩
  | 103 => ⟨S1x512x4160, .f32⟩
  | 104 => ⟨S1x512x4160, .f32⟩
  | 105 => ⟨S1x512x4160, .f32⟩
  | 106 => ⟨S3x512x4160, .f32⟩
  | 107 => ⟨S3x512x65x64, .f32⟩
  | 108 => ⟨S64x512x65x3, .f32⟩
  | 109 => ⟨S32768x195, .f32⟩
  | 110 => ⟨S32768x64, .f32⟩
  | 111 => ⟨S1x64, .f32⟩
  | 112 => ⟨S32768x64, .f32⟩
  | 113 => ⟨S32768x64, .f32⟩
  | 114 => ⟨S64x32768, .f32⟩
  | 115 => ⟨S64x32768, .f32⟩
  | 116 => ⟨S64x32768, .f32⟩
  | 117 => ⟨S_, .f32⟩
  | 118 => ⟨S64x32768, .f32⟩
  | 119 => ⟨S64x32768, .f32⟩
  | 120 => ⟨S64x32768, .f32⟩
  | 121 => ⟨S64x32768, .f32⟩
  | 122 => ⟨S1x64x32768, .f32⟩
  | 123 => ⟨S64x32768, .f32⟩
  | 124 => ⟨S64x512x64, .f32⟩
  | 125 => ⟨S64x512x64, .f32⟩
  | 126 => ⟨S64x512x128, .f32⟩
  | 127 => ⟨S512x128x64, .f32⟩
  | _ => ⟨S64x512, .f32⟩

abbrev hbmTy0_1 (i : Nat) : BufTy := match i % 128 with
  | 0 => ⟨S512x8192, .f32⟩
  | 1 => ⟨S512x8192, .f32⟩
  | 2 => ⟨S512x8192, .f32⟩
  | 3 => ⟨S_, .f32⟩
  | 4 => ⟨S512x8192, .f32⟩
  | 5 => ⟨S512x8192, .f32⟩
  | 6 => ⟨S512x8192, .f32⟩
  | 7 => ⟨S1x512x8192, .f32⟩
  | 8 => ⟨S1x512x8192, .f32⟩
  | 9 => ⟨S1x512x8192, .f32⟩
  | 10 => ⟨S3x512x8192, .f32⟩
  | 11 => ⟨S3x512x128x64, .f32⟩
  | 12 => ⟨S64x512x128x3, .f32⟩
  | 13 => ⟨S32768x384, .f32⟩
  | 14 => ⟨S32768x128, .f32⟩
  | 15 => ⟨S1x128, .f32⟩
  | 16 => ⟨S32768x128, .f32⟩
  | 17 => ⟨S32768x128, .f32⟩
  | 18 => ⟨S64x65536, .f32⟩
  | 19 => ⟨S64x65536, .f32⟩
  | 20 => ⟨S64x65536, .f32⟩
  | 21 => ⟨S_, .f32⟩
  | 22 => ⟨S64x65536, .f32⟩
  | 23 => ⟨S64x65536, .f32⟩
  | 24 => ⟨S_, .f32⟩
  | 25 => ⟨S64x65536, .f32⟩
  | 26 => ⟨S64x65536, .f32⟩
  | 27 => ⟨S64x512x128, .f32⟩
  | 28 => ⟨S64x512x64, .f32⟩
  | 29 => ⟨S64x32768, .f32⟩
  | 30 => ⟨S64x512x64, .f32⟩
  | 31 => ⟨S64x32768, .f32⟩
  | 32 => ⟨S64x32768, .f32⟩
  | 33 => ⟨S64x512x64, .f32⟩
  | 34 => ⟨S64x512x64, .f32⟩
  | 35 => ⟨S64x512x128, .f32⟩
  | 36 => ⟨S512x128x64, .f32⟩
  | 37 => ⟨S512x8192, .f32⟩
  | 38 => ⟨S512x8192, .f32⟩
  | 39 => ⟨S512x8192, .f32⟩
  | 40 => ⟨S_, .f32⟩
  | 41 => ⟨S512x8192, .f32⟩
  | 42 => ⟨S512x8192, .f32⟩
  | 43 => ⟨S512x8192, .f32⟩
  | 44 => ⟨S1x512x8192, .f32⟩
  | 45 => ⟨S1x512x8192, .f32⟩
  | 46 => ⟨S1x512x8192, .f32⟩
  | 47 => ⟨S3x512x8192, .f32⟩
  | 48 => ⟨S3x512x128x64, .f32⟩
  | 49 => ⟨S64x512x128x3, .f32⟩
  | 50 => ⟨S32768x384, .f32⟩
  | 51 => ⟨S32768x64, .f32⟩
  | 52 => ⟨S1x64, .f32⟩
  | 53 => ⟨S32768x64, .f32⟩
  | 54 => ⟨S32768x64, .f32⟩
  | 55 => ⟨S64x32768, .f32⟩
  | 56 => ⟨S64x32768, .f32⟩
  | 57 => ⟨S64x32768, .f32⟩
  | 58 => ⟨S_, .f32⟩
  | 59 => ⟨S64x32768, .f32⟩
  | 60 => ⟨S64x32768, .f32⟩
  | 61 => ⟨S64x32768, .f32⟩
  | 62 => ⟨S64x32768, .f32⟩
  | 63 => ⟨S32768x64, .f32⟩
  | 64 => ⟨S32768x1, .f32⟩
  | 65 => ⟨S1x1, .f32⟩
  | 66 => ⟨S32768x1, .f32⟩
  | 67 => ⟨S32768x1, .f32⟩
  | 68 => ⟨S64x512, .f32⟩
  | 69 => ⟨S1x64x32768, .f32⟩
  | 70 => ⟨S1x64x32768, .f32⟩
  | 71 => ⟨S2x64x32768, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_6 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_8 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_9 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_10 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_11 : Ref sig .tc := ⟨.hbm, 149, rfl⟩
abbrev main_v121 : Ref sig .tc := ⟨.hbm, 150, rfl⟩
abbrev main_v122 : Ref sig .tc := ⟨.hbm, 151, rfl⟩
abbrev main_cst_12 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_13 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_14 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩

abbrev nD : Nat := 1
abbrev τ : Topo := Topo.v7x

variable {F : FTy → Type} [FloatOps F]

class Facts₀ : Prop where
  transposes_S512x512_S512x512_1_0 : S512x512.Transposes [1, 0] S512x512
  reducesTo_S512x512_S512_d1 : S512x512.ReducesTo [1] S512
  h_S_ : 0 < S_.numel
  bcast_S_S512 : S_.BroadcastsInDim S512 (![] : Fin 0 → Fin S512.rank)
  bcast_S_S512x512 : S_.BroadcastsInDim S512x512 (![] : Fin 0 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  slices_S2x64x32768_S1x64x32768_0_0_0 : S2x64x32768.Slices ![0, 0, 0] S1x64x32768
  shapeCasts_S1x64x32768_S64x32768 : S1x64x32768.ShapeCasts S64x32768
  shapeCasts_S64x512_S64x512x1 : S64x512.ShapeCasts S64x512x1
  shapeCasts_S64x32768_S64x512x64 : S64x32768.ShapeCasts S64x512x64
  concatenates_S64x512x1_S64x512x64_S64x512x65_d2 : Shape.Concatenates [S64x512x1, S64x512x64] S64x512x65 2
  transposes_S64x512x65_S512x65x64_1_2_0 : S64x512x65.Transposes [1, 2, 0] S512x65x64
  shapeCasts_S512x65x64_S512x4160 : S512x65x64.ShapeCasts S512x4160
  bcast_S_S512x4160 : S_.BroadcastsInDim S512x4160 (![] : Fin 0 → Fin S512x4160.rank)
  bcast_S512x4160_S1x512x4160_1_2 : S512x4160.BroadcastsInDim S1x512x4160 (![1, 2] : Fin 2 → Fin S1x512x4160.rank)
  concatenates_S1x512x4160_S1x512x4160_S1x512x4160_S3x512x4160_d0 : Shape.Concatenates [S1x512x4160, S1x512x4160, S1x512x4160] S3x512x4160 0
  shapeCasts_S3x512x4160_S3x512x65x64 : S3x512x4160.ShapeCasts S3x512x65x64
  transposes_S3x512x65x64_S64x512x65x3_3_1_2_0 : S3x512x65x64.Transposes [3, 1, 2, 0] S64x512x65x3
  shapeCasts_S64x512x65x3_S32768x195 : S64x512x65x3.ShapeCasts S32768x195
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S64x65536 : S32768x128.ShapeCasts S64x65536
  bcast_S_S64x65536 : S_.BroadcastsInDim S64x65536 (![] : Fin 0 → Fin S64x65536.rank)
  shapeCasts_S64x65536_S64x512x128 : S64x65536.ShapeCasts S64x512x128
  slices_S64x512x128_S64x512x64_0_0_0 : S64x512x128.Slices ![0, 0, 0] S64x512x64
  shapeCasts_S64x512x64_S64x32768 : S64x512x64.ShapeCasts S64x32768
  slices_S64x512x128_S64x512x64_0_0_64 : S64x512x128.Slices ![0, 0, 64] S64x512x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  shapeCasts_S32768x64_S64x32768 : S32768x64.ShapeCasts S64x32768
  bcast_S_S64x32768 : S_.BroadcastsInDim S64x32768 (![] : Fin 0 → Fin S64x32768.rank)
  slices_S2x64x32768_S1x64x32768_1_0_0 : S2x64x32768.Slices ![1, 0, 0] S1x64x32768
  concatenates_S64x512x64_S64x512x64_S64x512x128_d2 : Shape.Concatenates [S64x512x64, S64x512x64] S64x512x128 2
  transposes_S64x512x128_S512x128x64_1_2_0 : S64x512x128.Transposes [1, 2, 0] S512x128x64
  shapeCasts_S512x128x64_S512x8192 : S512x128x64.ShapeCasts S512x8192
  bcast_S_S512x8192 : S_.BroadcastsInDim S512x8192 (![] : Fin 0 → Fin S512x8192.rank)
  bcast_S512x8192_S1x512x8192_1_2 : S512x8192.BroadcastsInDim S1x512x8192 (![1, 2] : Fin 2 → Fin S1x512x8192.rank)
  concatenates_S1x512x8192_S1x512x8192_S1x512x8192_S3x512x8192_d0 : Shape.Concatenates [S1x512x8192, S1x512x8192, S1x512x8192] S3x512x8192 0
  shapeCasts_S3x512x8192_S3x512x128x64 : S3x512x8192.ShapeCasts S3x512x128x64
  transposes_S3x512x128x64_S64x512x128x3_3_1_2_0 : S3x512x128x64.Transposes [3, 1, 2, 0] S64x512x128x3
  shapeCasts_S64x512x128x3_S32768x384 : S64x512x128x3.ShapeCasts S32768x384
  shapeCasts_S64x32768_S32768x64 : S64x32768.ShapeCasts S32768x64
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S64x512 : S32768x1.ShapeCasts S64x512
  bcast_S64x32768_S1x64x32768_1_2 : S64x32768.BroadcastsInDim S1x64x32768 (![1, 2] : Fin 2 → Fin S1x64x32768.rank)
  concatenates_S1x64x32768_S1x64x32768_S2x64x32768_d0 : Shape.Concatenates [S1x64x32768, S1x64x32768] S2x64x32768 0
  dot_S512x512_S512x4160_S512x4160_1_0_0_1_n_n_wf : DotDims.WF S512x512 S512x4160 S512x4160 [1] [0] [0] [1] [] []
  dot_S32768x195_S195x128_S32768x128_1_0_0_1_n_n_wf : DotDims.WF S32768x195 S195x128 S32768x128 [1] [0] [0] [1] [] []
  dot_S32768x195_S195x64_S32768x64_1_0_0_1_n_n_wf : DotDims.WF S32768x195 S195x64 S32768x64 [1] [0] [0] [1] [] []
  dot_S512x512_S512x8192_S512x8192_1_0_0_1_n_n_wf : DotDims.WF S512x512 S512x8192 S512x8192 [1] [0] [0] [1] [] []
  dot_S32768x384_S384x128_S32768x128_1_0_0_1_n_n_wf : DotDims.WF S32768x384 S384x128 S32768x128 [1] [0] [0] [1] [] []
  dot_S32768x384_S384x64_S32768x64_1_0_0_1_n_n_wf : DotDims.WF S32768x384 S384x64 S32768x64 [1] [0] [0] [1] [] []
  dot_S32768x64_S64x1_S32768x1_1_0_0_1_n_n_wf : DotDims.WF S32768x64 S64x1 S32768x1 [1] [0] [0] [1] [] []

variable [Facts₀]

def dot_S512x512_S512x4160_S512x4160_1_0_0_1_n_n : DotDims S512x512 S512x4160 S512x4160 where
  lhsContracting := [1]
  rhsContracting := [0]
  lhsNonContracting := [0]
  rhsNonContracting := [1]
  lhsBatch := []
  rhsBatch := []
  wf := dot_S512x512_S512x4160_S512x4160_1_0_0_1_n_n_wf
def dot_S32768x195_S195x128_S32768x128_1_0_0_1_n_n : DotDims S32768x195 S195x128 S32768x128 where
  lhsContracting := [1]
  rhsContracting := [0]
  lhsNonContracting := [0]
  rhsNonContracting := [1]
  lhsBatch := []
  rhsBatch := []
  wf := dot_S32768x195_S195x128_S32768x128_1_0_0_1_n_n_wf
def dot_S32768x195_S195x64_S32768x64_1_0_0_1_n_n : DotDims S32768x195 S195x64 S32768x64 where
  lhsContracting := [1]
  rhsContracting := [0]
  lhsNonContracting := [0]
  rhsNonContracting := [1]
  lhsBatch := []
  rhsBatch := []
  wf := dot_S32768x195_S195x64_S32768x64_1_0_0_1_n_n_wf
def dot_S512x512_S512x8192_S512x8192_1_0_0_1_n_n : DotDims S512x512 S512x8192 S512x8192 where
  lhsContracting := [1]
  rhsContracting := [0]
  lhsNonContracting := [0]
  rhsNonContracting := [1]
  lhsBatch := []
  rhsBatch := []
  wf := dot_S512x512_S512x8192_S512x8192_1_0_0_1_n_n_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf
def dot_S32768x384_S384x64_S32768x64_1_0_0_1_n_n : DotDims S32768x384 S384x64 S32768x64 where
  lhsContracting := [1]
  rhsContracting := [0]
  lhsNonContracting := [0]
  rhsNonContracting := [1]
  lhsBatch := []
  rhsBatch := []
  wf := dot_S32768x384_S384x64_S32768x64_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf

class Facts : Prop extends Facts₀ where

variable [Facts]
-- ==== Proof.OutsK.lean ====
import proofs.«162860_g19069654794669_cont_sun_m_30_12_alg».proof.Proof.Gen.Kernel.Skeleton
import Idealize.ShloMosaic.Lib.Pipeline.FrameBody

/-! What each kernel body leaves in each of its output blocks, as a function of its input blocks.
    Every value the body loads from an input block is named (`a_vN` for the preparation kernel, `b_vN` for the
    recurrent-cell kernel), every value one part of the body hands to the next likewise, and each output block is
    the list of the rectangles stored into it, the last store first, each with the stored value. -/

set_option maxRecDepth 16384

noncomputable section

namespace Cert.Kernel.Fr

open Idealize.ShloMosaic Idealize.SL.Sem Cert.Kernel Cert.Kernel.Gen

variable {F : FTy → Type} [FloatOps F]

/-! ## Kernel 0 -/

def a_v0 (x0 : Vec F S512x512 .f32) := View.ld x0 (Rect.unit (s := S512x512) ![0, 0] S512x512.size inb_S512x512_S512x512_0_0)
def a_v28 (x1 : Vec F S512x64 .f32) := View.ld x1 (Rect.unit (s := S512x64) ![0, 0] S512x64.size inb_S512x64_S512x64_0_0)
def a_v35 (x0 : Vec F S512x512 .f32) (x1 : Vec F S512x64 .f32) := k0_pay4 (a_v0 x0) (a_v28 x1)
def a_v53 (x2 : Vec F S3x65x128 .f32) := View.ld x2 (Rect.unit (s := S3x65x128) ![0, 0, 0] S1x1x64.size inb_S3x65x128_S1x1x64_0_0_0)
def a_v58 (x2 : Vec F S3x65x128 .f32) := View.ld x2 (Rect.unit (s := S3x65x128) ![0, 0, 64] S1x1x64.size inb_S3x65x128_S1x1x64_0_0_64)
def a_v63 (x2 : Vec F S3x65x128 .f32) := View.ld x2 (Rect.unit (s := S3x65x128) ![0, 0, 0] S1x1x64.size inb_S3x65x128_S1x1x64_0_0_0)
def a_v68 (x2 : Vec F S3x65x128 .f32) := View.ld x2 (Rect.unit (s := S3x65x128) ![0, 0, 64] S1x1x64.size inb_S3x65x128_S1x1x64_0_0_64)
def a_v73 (x3 : Vec F S3x65x64 .f32) := View.ld x3 (Rect.unit (s := S3x65x64) ![0, 0, 0] S1x1x64.size inb_S3x65x64_S1x1x64_0_0_0)
def a_v78 (x3 : Vec F S3x65x64 .f32) := View.ld x3 (Rect.unit (s := S3x65x64) ![0, 0, 0] S1x1x64.size inb_S3x65x64_S1x1x64_0_0_0)
def a_v79 (x3 : Vec F S3x65x64 .f32) := k0_pay18 (a_v78 x3)
def a_v83 (x2 : Vec F S3x65x128 .f32) := View.ld x2 (Rect.unit (s := S3x65x128) ![0, 1, 0] S1x64x64.size inb_S3x65x128_S1x64x64_0_1_0)
def a_v85 (x2 : Vec F S3x65x128 .f32) := View.ld x2 (Rect.unit (s := S3x65x128) ![0, 1, 64] S1x64x64.size inb_S3x65x128_S1x64x64_0_1_64)
def a_v99 (x3 : Vec F S3x65x64 .f32) := View.ld x3 (Rect.unit (s := S3x65x64) ![0, 1, 0] S1x64x64.size inb_S3x65x64_S1x64x64_0_1_0)
def a_v107 (x4 : Vec F S3x128x128 .f32) := View.ld x4 (Rect.unit (s := S3x128x128) ![0, 0, 0] S1x64x64.size inb_S3x128x128_S1x64x64_0_0_0)
def a_v109 (x4 : Vec F S3x128x128 .f32) := View.ld x4 (Rect.unit (s := S3x128x128) ![0, 0, 64] S1x64x64.size inb_S3x128x128_S1x64x64_0_0_64)
def a_v123 (x4 : Vec F S3x128x128 .f32) := View.ld x4 (Rect.unit (s := S3x128x128) ![0, 64, 0] S1x64x64.size inb_S3x128x128_S1x64x64_0_64_0)
def a_v125 (x4 : Vec F S3x128x128 .f32) := View.ld x4 (Rect.unit (s := S3x128x128) ![0, 64, 64] S1x64x64.size inb_S3x128x128_S1x64x64_0_64_64)
def a_v124 (x4 : Vec F S3x128x128 .f32) := k0_pay35 (a_v123 x4)
def a_v126 (x4 : Vec F S3x128x128 .f32) := k0_pay36 (a_v125 x4)
def a_v132 (x4 : Vec F S3x128x128 .f32) := k0_pay38 (a_v125 x4)
def a_v139 (x5 : Vec F S3x128x64 .f32) := View.ld x5 (Rect.unit (s := S3x128x64) ![0, 0, 0] S1x64x64.size inb_S3x128x64_S1x64x64_0_0_0)
def a_v147 (x5 : Vec F S3x128x64 .f32) := View.ld x5 (Rect.unit (s := S3x128x64) ![0, 64, 0] S1x64x64.size inb_S3x128x64_S1x64x64_0_64_0)
def a_v155 (x2 : Vec F S3x65x128 .f32) := View.ld x2 (Rect.unit (s := S3x65x128) ![1, 0, 0] S1x1x64.size inb_S3x65x128_S1x1x64_1_0_0)
def a_v156 (x2 : Vec F S3x65x128 .f32) := k0_pay47 (a_v155 x2)
def a_v160 (x2 : Vec F S3x65x128 .f32) := View.ld x2 (Rect.unit (s := S3x65x128) ![1, 0, 64] S1x1x64.size inb_S3x65x128_S1x1x64_1_0_64)
def a_v165 (x2 : Vec F S3x65x128 .f32) := View.ld x2 (Rect.unit (s := S3x65x128) ![1, 0, 0] S1x1x64.size inb_S3x65x128_S1x1x64_1_0_0)
def a_v170 (x2 : Vec F S3x65x128 .f32) := View.ld x2 (Rect.unit (s := S3x65x128) ![1, 0, 64] S1x1x64.size inb_S3x65x128_S1x1x64_1_0_64)
def a_v175 (x3 : Vec F S3x65x64 .f32) := View.ld x3 (Rect.unit (s := S3x65x64) ![1, 0, 0] S1x1x64.size inb_S3x65x64_S1x1x64_1_0_0)
def a_v180 (x3 : Vec F S3x65x64 .f32) := View.ld x3 (Rect.unit (s := S3x65x64) ![1, 0, 0] S1x1x64.size inb_S3x65x64_S1x1x64_1_0_0)
def a_v185 (x2 : Vec F S3x65x128 .f32) := View.ld x2 (Rect.unit (s := S3x65x128) ![1, 1, 0] S1x64x64.size inb_S3x65x128_S1x64x64_1_1_0)
def a_v187 (x2 : Vec F S3x65x128 .f32) := View.ld x2 (Rect.unit (s := S3x65x128) ![1, 1, 64] S1x64x64.size inb_S3x65x128_S1x64x64_1_1_64)
def a_v201 (x3 : Vec F S3x65x64 .f32) := View.ld x3 (Rect.unit (s := S3x65x64) ![1, 1, 0] S1x64x64.size inb_S3x65x64_S1x64x64_1_1_0)
def a_v209 (x4 : Vec F S3x128x128 .f32) := View.ld x4 (Rect.unit (s := S3x128x128) ![1, 0, 0] S1x64x64.size inb_S3x128x128_S1x64x64_1_0_0)
def a_v211 (x4 : Vec F S3x128x128 .f32) := View.ld x4 (Rect.unit (s := S3x128x128) ![1, 0, 64] S1x64x64.size inb_S3x128x128_S1x64x64_1_0_64)
def a_v225 (x4 : Vec F S3x128x128 .f32) := View.ld x4 (Rect.unit (s := S3x128x128) ![1, 64, 0] S1x64x64.size inb_S3x128x128_S1x64x64_1_64_0)
def a_v227 (x4 : Vec F S3x128x128 .f32) := View.ld x4 (Rect.unit (s := S3x128x128) ![1, 64, 64] S1x64x64.size inb_S3x128x128_S1x64x64_1_64_64)
def a_v226 (x4 : Vec F S3x128x128 .f32) := k0_pay69 (a_v225 x4)
def a_v228 (x4 : Vec F S3x128x128 .f32) := k0_pay70 (a_v227 x4)
def a_v241 (x5 : Vec F S3x128x64 .f32) := View.ld x5 (Rect.unit (s := S3x128x64) ![1, 0, 0] S1x64x64.size inb_S3x128x64_S1x64x64_1_0_0)
def a_v249 (x5 : Vec F S3x128x64 .f32) := View.ld x5 (Rect.unit (s := S3x128x64) ![1, 64, 0] S1x64x64.size inb_S3x128x64_S1x64x64_1_64_0)
def a_v257 (x2 : Vec F S3x65x128 .f32) := View.ld x2 (Rect.unit (s := S3x65x128) ![2, 0, 0] S1x1x64.size inb_S3x65x128_S1x1x64_2_0_0)
def a_v261 (x2 : Vec F S3x65x128 .f32) := k0_pay81 (a_v257 x2)
def a_v262 (x2 : Vec F S3x65x128 .f32) := View.ld x2 (Rect.unit (s := S3x65x128) ![2, 0, 64] S1x1x64.size inb_S3x65x128_S1x1x64_2_0_64)
def a_v267 (x2 : Vec F S3x65x128 .f32) := View.ld x2 (Rect.unit (s := S3x65x128) ![2, 0, 0] S1x1x64.size inb_S3x65x128_S1x1x64_2_0_0)
def a_v272 (x2 : Vec F S3x65x128 .f32) := View.ld x2 (Rect.unit (s := S3x65x128) ![2, 0, 64] S1x1x64.size inb_S3x65x128_S1x1x64_2_0_64)
def a_v277 (x3 : Vec F S3x65x64 .f32) := View.ld x3 (Rect.unit (s := S3x65x64) ![2, 0, 0] S1x1x64.size inb_S3x65x64_S1x1x64_2_0_0)
def a_v282 (x3 : Vec F S3x65x64 .f32) := View.ld x3 (Rect.unit (s := S3x65x64) ![2, 0, 0] S1x1x64.size inb_S3x65x64_S1x1x64_2_0_0)
def a_v287 (x2 : Vec F S3x65x128 .f32) := View.ld x2 (Rect.unit (s := S3x65x128) ![2, 1, 0] S1x64x64.size inb_S3x65x128_S1x64x64_2_1_0)
def a_v289 (x2 : Vec F S3x65x128 .f32) := View.ld x2 (Rect.unit (s := S3x65x128) ![2, 1, 64] S1x64x64.size inb_S3x65x128_S1x64x64_2_1_64)
def a_v303 (x3 : Vec F S3x65x64 .f32) := View.ld x3 (Rect.unit (s := S3x65x64) ![2, 1, 0] S1x64x64.size inb_S3x65x64_S1x64x64_2_1_0)
def a_v311 (x4 : Vec F S3x128x128 .f32) := View.ld x4 (Rect.unit (s := S3x128x128) ![2, 0, 0] S1x64x64.size inb_S3x128x128_S1x64x64_2_0_0)
def a_v312 (x4 : Vec F S3x128x128 .f32) := k0_pay96 (a_v311 x4)
def a_v313 (x4 : Vec F S3x128x128 .f32) := View.ld x4 (Rect.unit (s := S3x128x128) ![2, 0, 64] S1x64x64.size inb_S3x128x128_S1x64x64_2_0_64)
def a_v327 (x4 : Vec F S3x128x128 .f32) := View.ld x4 (Rect.unit (s := S3x128x128) ![2, 64, 0] S1x64x64.size inb_S3x128x128_S1x64x64_2_64_0)
def a_v329 (x4 : Vec F S3x128x128 .f32) := View.ld x4 (Rect.unit (s := S3x128x128) ![2, 64, 64] S1x64x64.size inb_S3x128x128_S1x64x64_2_64_64)
def a_v328 (x4 : Vec F S3x128x128 .f32) := k0_pay102 (a_v327 x4)
def a_v330 (x4 : Vec F S3x128x128 .f32) := k0_pay103 (a_v329 x4)
def a_v343 (x5 : Vec F S3x128x64 .f32) := View.ld x5 (Rect.unit (s := S3x128x64) ![2, 0, 0] S1x64x64.size inb_S3x128x64_S1x64x64_2_0_0)
def a_v351 (x5 : Vec F S3x128x64 .f32) := View.ld x5 (Rect.unit (s := S3x128x64) ![2, 64, 0] S1x64x64.size inb_S3x128x64_S1x64x64_2_64_0)
def a_v359 (x6 : Vec F S1x128 .f32) := View.ld x6 (Rect.unit (s := S1x128) ![0, 0] S1x64.size inb_S1x128_S1x64_0_0)
def a_v364 (x6 : Vec F S1x128 .f32) := View.ld x6 (Rect.unit (s := S1x128) ![0, 0] S1x64.size inb_S1x128_S1x64_0_0)
def a_v369 (x6 : Vec F S1x128 .f32) := View.ld x6 (Rect.unit (s := S1x128) ![0, 64] S1x64.size inb_S1x128_S1x64_0_64)
def a_v374 (x6 : Vec F S1x128 .f32) := View.ld x6 (Rect.unit (s := S1x128) ![0, 64] S1x64.size inb_S1x128_S1x64_0_64)
def a_v379 (x7 : Vec F S1x64 .f32) := View.ld x7 (Rect.unit (s := S1x64) ![0, 0] S1x64.size inb_S1x64_S1x64_0_0)
def a_v384 (x7 : Vec F S1x64 .f32) := View.ld x7 (Rect.unit (s := S1x64) ![0, 0] S1x64.size inb_S1x64_S1x64_0_0)
def a_v389 (x8 : Vec F S1x128 .f32) := View.ld x8 (Rect.unit (s := S1x128) ![0, 0] S1x64.size inb_S1x128_S1x64_0_0)
def a_v394 (x8 : Vec F S1x128 .f32) := View.ld x8 (Rect.unit (s := S1x128) ![0, 0] S1x64.size inb_S1x128_S1x64_0_0)
def a_v399 (x8 : Vec F S1x128 .f32) := View.ld x8 (Rect.unit (s := S1x128) ![0, 64] S1x64.size inb_S1x128_S1x64_0_64)
def a_v404 (x8 : Vec F S1x128 .f32) := View.ld x8 (Rect.unit (s := S1x128) ![0, 64] S1x64.size inb_S1x128_S1x64_0_64)
def a_v409 (x9 : Vec F S1x64 .f32) := View.ld x9 (Rect.unit (s := S1x64) ![0, 0] S1x64.size inb_S1x64_S1x64_0_0)
def a_v414 (x9 : Vec F S1x64 .f32) := View.ld x9 (Rect.unit (s := S1x64) ![0, 0] S1x64.size inb_S1x64_S1x64_0_0)
def a_v421 (x10 : Vec F S64x1 .f32) := View.ld x10 (Rect.unit (s := S64x1) ![0, 0] S64x1.size inb_S64x1_S64x1_0_0)
def a_v423 (x10 : Vec F S64x1 .f32) := View.ld x10 (Rect.unit (s := S64x1) ![0, 0] S64x1.size inb_S64x1_S64x1_0_0)

/-- Output block 11 of kernel 0 after the body: its 1 store, the last first. -/
def out0_11 (x0 : Vec F S512x512 .f32) : Vec F S512x512 .f32 :=
  View.canon [⟨Rect.unit (s := S512x512) ![0, 0] S512x512.size inb_S512x512_S512x512_0_0, k0_pay1 (a_v0 x0)⟩]
/-- Output block 12 of kernel 0 after the body: its 1 store, the last first. -/
def out0_12 (x0 : Vec F S512x512 .f32) (x1 : Vec F S512x64 .f32) : Vec F S512x64 .f32 :=
  View.canon [⟨Rect.unit (s := S512x64) ![0, 0] S512x64.size inb_S512x64_S512x64_0_0, k0_pay3 (a_v0 x0) (a_v28 x1)⟩]
/-- Output block 13 of kernel 0 after the body: its 1 store, the last first. -/
def out0_13 (x0 : Vec F S512x512 .f32) (x1 : Vec F S512x64 .f32) : Vec F S512x64 .f32 :=
  View.canon [⟨Rect.unit (s := S512x64) ![0, 0] S512x64.size inb_S512x64_S512x64_0_0, (a_v35 x0 x1)⟩]
/-- Output block 14 of kernel 0 after the body: its 13 stores, the last first. -/
def out0_14 (x2 : Vec F S3x65x128 .f32) : Vec F S6x256 .f32 :=
  View.canon [⟨Rect.unit (s := S6x256) ![5, 192] S1x64.size inb_S6x256_S1x64_5_192, k0_pay84 (a_v272 x2)⟩,
    ⟨Rect.unit (s := S6x256) ![5, 64] S1x64.size inb_S6x256_S1x64_5_64, k0_pay83 (a_v267 x2)⟩,
    ⟨Rect.unit (s := S6x256) ![2, 128] S1x64.size inb_S6x256_S1x64_2_128, k0_pay82 (a_v262 x2)⟩,
    ⟨Rect.unit (s := S6x256) ![2, 0] S1x64.size inb_S6x256_S1x64_2_0, (a_v261 x2)⟩,
    ⟨Rect.unit (s := S6x256) ![4, 192] S1x64.size inb_S6x256_S1x64_4_192, k0_pay51 (a_v170 x2)⟩,
    ⟨Rect.unit (s := S6x256) ![4, 64] S1x64.size inb_S6x256_S1x64_4_64, k0_pay50 (a_v165 x2)⟩,
    ⟨Rect.unit (s := S6x256) ![1, 128] S1x64.size inb_S6x256_S1x64_1_128, k0_pay49 (a_v160 x2)⟩,
    ⟨Rect.unit (s := S6x256) ![1, 0] S1x64.size inb_S6x256_S1x64_1_0, k0_pay48 (a_v156 x2)⟩,
    ⟨Rect.unit (s := S6x256) ![3, 192] S1x64.size inb_S6x256_S1x64_3_192, k0_pay16 (a_v68 x2)⟩,
    ⟨Rect.unit (s := S6x256) ![3, 64] S1x64.size inb_S6x256_S1x64_3_64, k0_pay15 (a_v63 x2)⟩,
    ⟨Rect.unit (s := S6x256) ![0, 128] S1x64.size inb_S6x256_S1x64_0_128, k0_pay14 (a_v58 x2)⟩,
    ⟨Rect.unit (s := S6x256) ![0, 0] S1x64.size inb_S6x256_S1x64_0_0, k0_pay13 (a_v53 x2)⟩,
    ⟨Rect.unit (s := S6x256) ![0, 0] S6x256.size inb_S6x256_S6x256_0_0, k0_pay5 (F := F)⟩]
/-- Output block 15 of kernel 0 after the body: its 13 stores, the last first. -/
def out0_15 (x2 : Vec F S3x65x128 .f32) : Vec F S3x128x256 .f32 :=
  View.canon [⟨Rect.unit (s := S3x128x256) ![2, 64, 192] S1x64x64.size inb_S3x128x256_S1x64x64_2_64_192, k0_pay92 (a_v289 x2)⟩,
    ⟨Rect.unit (s := S3x128x256) ![2, 64, 64] S1x64x64.size inb_S3x128x256_S1x64x64_2_64_64, k0_pay91 (a_v287 x2)⟩,
    ⟨Rect.unit (s := S3x128x256) ![2, 0, 128] S1x64x64.size inb_S3x128x256_S1x64x64_2_0_128, k0_pay90 (a_v289 x2)⟩,
    ⟨Rect.unit (s := S3x128x256) ![2, 0, 0] S1x64x64.size inb_S3x128x256_S1x64x64_2_0_0, k0_pay89 (a_v287 x2)⟩,
    ⟨Rect.unit (s := S3x128x256) ![1, 64, 192] S1x64x64.size inb_S3x128x256_S1x64x64_1_64_192, k0_pay59 (a_v187 x2)⟩,
    ⟨Rect.unit (s := S3x128x256) ![1, 64, 64] S1x64x64.size inb_S3x128x256_S1x64x64_1_64_64, k0_pay58 (a_v185 x2)⟩,
    ⟨Rect.unit (s := S3x128x256) ![1, 0, 128] S1x64x64.size inb_S3x128x256_S1x64x64_1_0_128, k0_pay57 (a_v187 x2)⟩,
    ⟨Rect.unit (s := S3x128x256) ![1, 0, 0] S1x64x64.size inb_S3x128x256_S1x64x64_1_0_0, k0_pay56 (a_v185 x2)⟩,
    ⟨Rect.unit (s := S3x128x256) ![0, 64, 192] S1x64x64.size inb_S3x128x256_S1x64x64_0_64_192, k0_pay25 (a_v85 x2)⟩,
    ⟨Rect.unit (s := S3x128x256) ![0, 64, 64] S1x64x64.size inb_S3x128x256_S1x64x64_0_64_64, k0_pay24 (a_v83 x2)⟩,
    ⟨Rect.unit (s := S3x128x256) ![0, 0, 128] S1x64x64.size inb_S3x128x256_S1x64x64_0_0_128, k0_pay23 (a_v85 x2)⟩,
    ⟨Rect.unit (s := S3x128x256) ![0, 0, 0] S1x64x64.size inb_S3x128x256_S1x64x64_0_0_0, k0_pay22 (a_v83 x2)⟩,
    ⟨Rect.unit (s := S3x128x256) ![0, 0, 0] S3x128x256.size inb_S3x128x256_S3x128x256_0_0_0, k0_pay7 (F := F)⟩]
/-- Output block 16 of kernel 0 after the body: its 4 stores, the last first. -/
def out0_16 (x6 : Vec F S1x128 .f32) : Vec F S1x256 .f32 :=
  View.canon [⟨Rect.unit (s := S1x256) ![0, 192] S1x64.size inb_S1x256_S1x64_0_192, k0_pay117 (a_v374 x6)⟩,
    ⟨Rect.unit (s := S1x256) ![0, 128] S1x64.size inb_S1x256_S1x64_0_128, k0_pay116 (a_v369 x6)⟩,
    ⟨Rect.unit (s := S1x256) ![0, 64] S1x64.size inb_S1x256_S1x64_0_64, k0_pay115 (a_v364 x6)⟩,
    ⟨Rect.unit (s := S1x256) ![0, 0] S1x64.size inb_S1x256_S1x64_0_0, k0_pay114 (a_v359 x6)⟩]
/-- Output block 17 of kernel 0 after the body: its 7 stores, the last first. -/
def out0_17 (x3 : Vec F S3x65x64 .f32) : Vec F S6x128 .f32 :=
  View.canon [⟨Rect.unit (s := S6x128) ![5, 64] S1x64.size inb_S6x128_S1x64_5_64, k0_pay86 (a_v282 x3)⟩,
    ⟨Rect.unit (s := S6x128) ![2, 0] S1x64.size inb_S6x128_S1x64_2_0, k0_pay85 (a_v277 x3)⟩,
    ⟨Rect.unit (s := S6x128) ![4, 64] S1x64.size inb_S6x128_S1x64_4_64, k0_pay53 (a_v180 x3)⟩,
    ⟨Rect.unit (s := S6x128) ![1, 0] S1x64.size inb_S6x128_S1x64_1_0, k0_pay52 (a_v175 x3)⟩,
    ⟨Rect.unit (s := S6x128) ![3, 64] S1x64.size inb_S6x128_S1x64_3_64, k0_pay19 (a_v79 x3)⟩,
    ⟨Rect.unit (s := S6x128) ![0, 0] S1x64.size inb_S6x128_S1x64_0_0, k0_pay17 (a_v73 x3)⟩,
    ⟨Rect.unit (s := S6x128) ![0, 0] S6x128.size inb_S6x128_S6x128_0_0, k0_pay6 (F := F)⟩]
/-- Output block 18 of kernel 0 after the body: its 7 stores, the last first. -/
def out0_18 (x3 : Vec F S3x65x64 .f32) : Vec F S3x128x128 .f32 :=
  View.canon [⟨Rect.unit (s := S3x128x128) ![2, 64, 64] S1x64x64.size inb_S3x128x128_S1x64x64_2_64_64, k0_pay95 (a_v303 x3)⟩,
    ⟨Rect.unit (s := S3x128x128) ![2, 0, 0] S1x64x64.size inb_S3x128x128_S1x64x64_2_0_0, k0_pay94 (a_v303 x3)⟩,
    ⟨Rect.unit (s := S3x128x128) ![1, 64, 64] S1x64x64.size inb_S3x128x128_S1x64x64_1_64_64, k0_pay62 (a_v201 x3)⟩,
    ⟨Rect.unit (s := S3x128x128) ![1, 0, 0] S1x64x64.size inb_S3x128x128_S1x64x64_1_0_0, k0_pay61 (a_v201 x3)⟩,
    ⟨Rect.unit (s := S3x128x128) ![0, 64, 64] S1x64x64.size inb_S3x128x128_S1x64x64_0_64_64, k0_pay28 (a_v99 x3)⟩,
    ⟨Rect.unit (s := S3x128x128) ![0, 0, 0] S1x64x64.size inb_S3x128x128_S1x64x64_0_0_0, k0_pay27 (a_v99 x3)⟩,
    ⟨Rect.unit (s := S3x128x128) ![0, 0, 0] S3x128x128.size inb_S3x128x128_S3x128x128_0_0_0, k0_pay8 (F := F)⟩]
/-- Output block 19 of kernel 0 after the body: its 2 stores, the last first. -/
def out0_19 (x7 : Vec F S1x64 .f32) : Vec F S1x128 .f32 :=
  View.canon [⟨Rect.unit (s := S1x128) ![0, 64] S1x64.size inb_S1x128_S1x64_0_64, k0_pay119 (a_v384 x7)⟩,
    ⟨Rect.unit (s := S1x128) ![0, 0] S1x64.size inb_S1x128_S1x64_0_0, k0_pay118 (a_v379 x7)⟩]
/-- Output block 20 of kernel 0 after the body: its 13 stores, the last first. -/
def out0_20 (x4 : Vec F S3x128x128 .f32) : Vec F S3x128x256 .f32 :=
  View.canon [⟨Rect.unit (s := S3x128x256) ![2, 64, 192] S1x64x64.size inb_S3x128x256_S1x64x64_2_64_192, k0_pay101 (a_v313 x4)⟩,
    ⟨Rect.unit (s := S3x128x256) ![2, 64, 64] S1x64x64.size inb_S3x128x256_S1x64x64_2_64_64, k0_pay100 (a_v312 x4)⟩,
    ⟨Rect.unit (s := S3x128x256) ![2, 0, 128] S1x64x64.size inb_S3x128x256_S1x64x64_2_0_128, k0_pay99 (a_v313 x4)⟩,
    ⟨Rect.unit (s := S3x128x256) ![2, 0, 0] S1x64x64.size inb_S3x128x256_S1x64x64_2_0_0, k0_pay98 (a_v312 x4)⟩,
    ⟨Rect.unit (s := S3x128x256) ![1, 64, 192] S1x64x64.size inb_S3x128x256_S1x64x64_1_64_192, k0_pay68 (a_v211 x4)⟩,
    ⟨Rect.unit (s := S3x128x256) ![1, 64, 64] S1x64x64.size inb_S3x128x256_S1x64x64_1_64_64, k0_pay67 (a_v209 x4)⟩,
    ⟨Rect.unit (s := S3x128x256) ![1, 0, 128] S1x64x64.size inb_S3x128x256_S1x64x64_1_0_128, k0_pay66 (a_v211 x4)⟩,
    ⟨Rect.unit (s := S3x128x256) ![1, 0, 0] S1x64x64.size inb_S3x128x256_S1x64x64_1_0_0, k0_pay65 (a_v209 x4)⟩,
    ⟨Rect.unit (s := S3x128x256) ![0, 64, 192] S1x64x64.size inb_S3x128x256_S1x64x64_0_64_192, k0_pay34 (a_v109 x4)⟩,
    ⟨Rect.unit (s := S3x128x256) ![0, 64, 64] S1x64x64.size inb_S3x128x256_S1x64x64_0_64_64, k0_pay33 (a_v107 x4)⟩,
    ⟨Rect.unit (s := S3x128x256) ![0, 0, 128] S1x64x64.size inb_S3x128x256_S1x64x64_0_0_128, k0_pay32 (a_v109 x4)⟩,
    ⟨Rect.unit (s := S3x128x256) ![0, 0, 0] S1x64x64.size inb_S3x128x256_S1x64x64_0_0_0, k0_pay31 (a_v107 x4)⟩,
    ⟨Rect.unit (s := S3x128x256) ![0, 0, 0] S3x128x256.size inb_S3x128x256_S3x128x256_0_0_0, k0_pay9 (F := F)⟩]
/-- Output block 21 of kernel 0 after the body: its 13 stores, the last first. -/
def out0_21 (x4 : Vec F S3x128x128 .f32) : Vec F S3x128x256 .f32 :=
  View.canon [⟨Rect.unit (s := S3x128x256) ![2, 64, 192] S1x64x64.size inb_S3x128x256_S1x64x64_2_64_192, k0_pay107 (a_v330 x4)⟩,
    ⟨Rect.unit (s := S3x128x256) ![2, 64, 64] S1x64x64.size inb_S3x128x256_S1x64x64_2_64_64, k0_pay106 (a_v328 x4)⟩,
    ⟨Rect.unit (s := S3x128x256) ![2, 0, 128] S1x64x64.size inb_S3x128x256_S1x64x64_2_0_128, k0_pay105 (a_v329 x4)⟩,
    ⟨Rect.unit (s := S3x128x256) ![2, 0, 0] S1x64x64.size inb_S3x128x256_S1x64x64_2_0_0, k0_pay104 (a_v327 x4)⟩,
    ⟨Rect.unit (s := S3x128x256) ![1, 64, 192] S1x64x64.size inb_S3x128x256_S1x64x64_1_64_192, k0_pay74 (a_v228 x4)⟩,
    ⟨Rect.unit (s := S3x128x256) ![1, 64, 64] S1x64x64.size inb_S3x128x256_S1x64x64_1_64_64, k0_pay73 (a_v226 x4)⟩,
    ⟨Rect.unit (s := S3x128x256) ![1, 0, 128] S1x64x64.size inb_S3x128x256_S1x64x64_1_0_128, k0_pay72 (a_v227 x4)⟩,
    ⟨Rect.unit (s := S3x128x256) ![1, 0, 0] S1x64x64.size inb_S3x128x256_S1x64x64_1_0_0, k0_pay71 (a_v225 x4)⟩,
    ⟨Rect.unit (s := S3x128x256) ![0, 64, 192] S1x64x64.size inb_S3x128x256_S1x64x64_0_64_192, k0_pay40 (a_v126 x4)⟩,
    ⟨Rect.unit (s := S3x128x256) ![0, 64, 64] S1x64x64.size inb_S3x128x256_S1x64x64_0_64_64, k0_pay39 (a_v124 x4)⟩,
    ⟨Rect.unit (s := S3x128x256) ![0, 0, 128] S1x64x64.size inb_S3x128x256_S1x64x64_0_0_128, (a_v132 x4)⟩,
    ⟨Rect.unit (s := S3x128x256) ![0, 0, 0] S1x64x64.size inb_S3x128x256_S1x64x64_0_0_0, k0_pay37 (a_v123 x4)⟩,
    ⟨Rect.unit (s := S3x128x256) ![0, 0, 0] S3x128x256.size inb_S3x128x256_S3x128x256_0_0_0, k0_pay10 (F := F)⟩]
/-- Output block 22 of kernel 0 after the body: its 4 stores, the last first. -/
def out0_22 (x8 : Vec F S1x128 .f32) : Vec F S1x256 .f32 :=
  View.canon [⟨Rect.unit (s := S1x256) ![0, 192] S1x64.size inb_S1x256_S1x64_0_192, k0_pay123 (a_v404 x8)⟩,
    ⟨Rect.unit (s := S1x256) ![0, 128] S1x64.size inb_S1x256_S1x64_0_128, k0_pay122 (a_v399 x8)⟩,
    ⟨Rect.unit (s := S1x256) ![0, 64] S1x64.size inb_S1x256_S1x64_0_64, k0_pay121 (a_v394 x8)⟩,
    ⟨Rect.unit (s := S1x256) ![0, 0] S1x64.size inb_S1x256_S1x64_0_0, k0_pay120 (a_v389 x8)⟩]
/-- Output block 23 of kernel 0 after the body: its 7 stores, the last first. -/
def out0_23 (x5 : Vec F S3x128x64 .f32) : Vec F S3x128x128 .f32 :=
  View.canon [⟨Rect.unit (s := S3x128x128) ![2, 64, 64] S1x64x64.size inb_S3x128x128_S1x64x64_2_64_64, k0_pay110 (a_v343 x5)⟩,
    ⟨Rect.unit (s := S3x128x128) ![2, 0, 0] S1x64x64.size inb_S3x128x128_S1x64x64_2_0_0, k0_pay109 (a_v343 x5)⟩,
    ⟨Rect.unit (s := S3x128x128) ![1, 64, 64] S1x64x64.size inb_S3x128x128_S1x64x64_1_64_64, k0_pay77 (a_v241 x5)⟩,
    ⟨Rect.unit (s := S3x128x128) ![1, 0, 0] S1x64x64.size inb_S3x128x128_S1x64x64_1_0_0, k0_pay76 (a_v241 x5)⟩,
    ⟨Rect.unit (s := S3x128x128) ![0, 64, 64] S1x64x64.size inb_S3x128x128_S1x64x64_0_64_64, k0_pay43 (a_v139 x5)⟩,
    ⟨Rect.unit (s := S3x128x128) ![0, 0, 0] S1x64x64.size inb_S3x128x128_S1x64x64_0_0_0, k0_pay42 (a_v139 x5)⟩,
    ⟨Rect.unit (s := S3x128x128) ![0, 0, 0] S3x128x128.size inb_S3x128x128_S3x128x128_0_0_0, k0_pay11 (F := F)⟩]
/-- Output block 24 of kernel 0 after the body: its 7 stores, the last first. -/
def out0_24 (x5 : Vec F S3x128x64 .f32) : Vec F S3x128x128 .f32 :=
  View.canon [⟨Rect.unit (s := S3x128x128) ![2, 64, 64] S1x64x64.size inb_S3x128x128_S1x64x64_2_64_64, k0_pay113 (a_v351 x5)⟩,
    ⟨Rect.unit (s := S3x128x128) ![2, 0, 0] S1x64x64.size inb_S3x128x128_S1x64x64_2_0_0, k0_pay112 (a_v351 x5)⟩,
    ⟨Rect.unit (s := S3x128x128) ![1, 64, 64] S1x64x64.size inb_S3x128x128_S1x64x64_1_64_64, k0_pay80 (a_v249 x5)⟩,
    ⟨Rect.unit (s := S3x128x128) ![1, 0, 0] S1x64x64.size inb_S3x128x128_S1x64x64_1_0_0, k0_pay79 (a_v249 x5)⟩,
    ⟨Rect.unit (s := S3x128x128) ![0, 64, 64] S1x64x64.size inb_S3x128x128_S1x64x64_0_64_64, k0_pay46 (a_v147 x5)⟩,
    ⟨Rect.unit (s := S3x128x128) ![0, 0, 0] S1x64x64.size inb_S3x128x128_S1x64x64_0_0_0, k0_pay45 (a_v147 x5)⟩,
    ⟨Rect.unit (s := S3x128x128) ![0, 0, 0] S3x128x128.size inb_S3x128x128_S3x128x128_0_0_0, k0_pay12 (F := F)⟩]
/-- Output block 25 of kernel 0 after the body: its 2 stores, the last first. -/
def out0_25 (x9 : Vec F S1x64 .f32) : Vec F S1x128 .f32 :=
  View.canon [⟨Rect.unit (s := S1x128) ![0, 64] S1x64.size inb_S1x128_S1x64_0_64, k0_pay125 (a_v414 x9)⟩,
    ⟨Rect.unit (s := S1x128) ![0, 0] S1x64.size inb_S1x128_S1x64_0_0, k0_pay124 (a_v409 x9)⟩]
/-- Output block 26 of kernel 0 after the body: its 3 stores, the last first. -/
def out0_26 (x10 : Vec F S64x1 .f32) : Vec F S128x2 .f32 :=
  View.canon [⟨Rect.unit (s := S128x2) ![64, 1] S64x1.size inb_S128x2_S64x1_64_1, (a_v423 x10)⟩,
    ⟨Rect.unit (s := S128x2) ![0, 0] S64x1.size inb_S128x2_S64x1_0_0, (a_v421 x10)⟩,
    ⟨Rect.unit (s := S128x2) ![0, 0] S128x2.size inb_S128x2_S128x2_0_0, k0_pay126 (F := F)⟩]

/-! ## Kernel 1 -/

def b_v0 (y0 : Vec F S512x512 .f32) := View.ld y0 (Rect.unit (s := S512x512) ![0, 0] S512x512.size inb_S512x512_S512x512_0_0)
def b_v2 (y1 : Vec F S2x512x3 .f32) := View.ld y1 (Rect.unit (s := S2x512x3) ![0, 0, 0] S1x512x3.size inb_S2x512x3_S1x512x3_0_0_0)
def b_v4 (y1 : Vec F S2x512x3 .f32) := View.ld y1 (Rect.unit (s := S2x512x3) ![1, 0, 0] S1x512x3.size inb_S2x512x3_S1x512x3_1_0_0)
def b_v7 (y2 : Vec F S2x512x64 .f32) := View.ld y2 (Rect.unit (s := S2x512x64) ![0, 0, 0] S1x512x64.size inb_S2x512x64_S1x512x64_0_0_0)
def b_v9 (y2 : Vec F S2x512x64 .f32) := View.ld y2 (Rect.unit (s := S2x512x64) ![1, 0, 0] S1x512x64.size inb_S2x512x64_S1x512x64_1_0_0)
def b_v12 (y6 : Vec F S1x256 .f32) := View.ld y6 (Rect.unit (s := S1x256) ![0, 0] S1x256.size inb_S1x256_S1x256_0_0)
def b_v14 (y4 : Vec F S6x256 .f32) := View.ld y4 (Rect.unit (s := S6x256) ![0, 0] S6x256.size inb_S6x256_S6x256_0_0)
def b_v19 (y5 : Vec F S3x128x256 .f32) := View.ld y5 (Rect.unit (s := S3x128x256) ![0, 0, 0] S1x128x256.size inb_S3x128x256_S1x128x256_0_0_0)
def b_v24 (y5 : Vec F S3x128x256 .f32) := View.ld y5 (Rect.unit (s := S3x128x256) ![1, 0, 0] S1x128x256.size inb_S3x128x256_S1x128x256_1_0_0)
def b_cst_26 : F .f32 := Scalar.ofBits .f32 0x40000000#32
def b_v1 (y0 : Vec F S512x512 .f32) := k1_pay6 (b_v0 y0)
def b_v6 (y1 : Vec F S2x512x3 .f32) := k1_pay7 (b_v2 y1) (b_v4 y1)
def b_v11 (y2 : Vec F S2x512x64 .f32) := k1_pay8 (b_v7 y2) (b_v9 y2)
def b_v27 (y0 : Vec F S512x512 .f32) (y1 : Vec F S2x512x3 .f32) (y2 : Vec F S2x512x64 .f32) (y4 : Vec F S6x256 .f32) (y5 : Vec F S3x128x256 .f32) (y6 : Vec F S1x256 .f32) := k1_pay10 (b_v0 y0) (b_v2 y1) (b_v4 y1) (b_v7 y2) (b_v9 y2) (b_v12 y6) (b_v14 y4) (b_v19 y5) (b_v24 y5)
def b_v28 (y0 : Vec F S512x512 .f32) (y2 : Vec F S2x512x64 .f32) := k1_pay11 (b_v0 y0) (b_v7 y2) (b_v9 y2)
def b_v32 (y5 : Vec F S3x128x256 .f32) := View.ld y5 (Rect.unit (s := S3x128x256) ![2, 0, 0] S1x128x256.size inb_S3x128x256_S1x128x256_2_0_0)
def b_v40 (y9 : Vec F S1x128 .f32) := View.ld y9 (Rect.unit (s := S1x128) ![0, 0] S1x128.size inb_S1x128_S1x128_0_0)
def b_v42 (y7 : Vec F S6x128 .f32) := View.ld y7 (Rect.unit (s := S6x128) ![0, 0] S6x128.size inb_S6x128_S6x128_0_0)
def b_v47 (y8 : Vec F S3x128x128 .f32) := View.ld y8 (Rect.unit (s := S3x128x128) ![0, 0, 0] S1x128x128.size inb_S3x128x128_S1x128x128_0_0_0)
def b_v52 (y8 : Vec F S3x128x128 .f32) := View.ld y8 (Rect.unit (s := S3x128x128) ![1, 0, 0] S1x128x128.size inb_S3x128x128_S1x128x128_1_0_0)
def b_v60 (y8 : Vec F S3x128x128 .f32) := View.ld y8 (Rect.unit (s := S3x128x128) ![2, 0, 0] S1x128x128.size inb_S3x128x128_S1x128x128_2_0_0)
def b_v38 (y0 : Vec F S512x512 .f32) (y1 : Vec F S2x512x3 .f32) (y2 : Vec F S2x512x64 .f32) (y4 : Vec F S6x256 .f32) (y5 : Vec F S3x128x256 .f32) (y6 : Vec F S1x256 .f32) := k1_pay13 (b_v11 y2) (b_v27 y0 y1 y2 y4 y5 y6) (b_v28 y0 y2) b_cst_26 (b_v32 y5)
def b_v64 (y0 : Vec F S512x512 .f32) (y1 : Vec F S2x512x3 .f32) (y2 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) := k1_pay14 (b_v1 y0) (b_v6 y1) (b_v11 y2) (b_v27 y0 y1 y2 y4 y5 y6) (b_v28 y0 y2) b_cst_26 (b_v32 y5) (b_v40 y9) (b_v42 y7) (b_v47 y8) (b_v52 y8) (b_v60 y8)
def b_v78 (y3 : Vec F S2x512x64 .f32) := View.ld y3 (Rect.unit (s := S2x512x64) ![0, 0, 0] S1x512x64.size inb_S2x512x64_S1x512x64_0_0_0)
def b_v80 (y3 : Vec F S2x512x64 .f32) := View.ld y3 (Rect.unit (s := S2x512x64) ![1, 0, 0] S1x512x64.size inb_S2x512x64_S1x512x64_1_0_0)
def b_v83 (y12 : Vec F S1x256 .f32) := View.ld y12 (Rect.unit (s := S1x256) ![0, 0] S1x256.size inb_S1x256_S1x256_0_0)
def b_v85 (y10 : Vec F S3x128x256 .f32) := View.ld y10 (Rect.unit (s := S3x128x256) ![0, 0, 0] S1x128x256.size inb_S3x128x256_S1x128x256_0_0_0)
def b_v90 (y11 : Vec F S3x128x256 .f32) := View.ld y11 (Rect.unit (s := S3x128x256) ![0, 0, 0] S1x128x256.size inb_S3x128x256_S1x128x256_0_0_0)
def b_v69 (y0 : Vec F S512x512 .f32) (y1 : Vec F S2x512x3 .f32) (y2 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) := k1_pay15 (b_v11 y2) (b_v38 y0 y1 y2 y4 y5 y6) (b_v64 y0 y1 y2 y4 y5 y6 y7 y8 y9)
def b_v82 (y3 : Vec F S2x512x64 .f32) := k1_pay18 (b_v78 y3) (b_v80 y3)
def b_v93 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) := k1_pay19 (b_v11 y2) (b_v38 y0 y1 y2 y4 y5 y6) (b_v64 y0 y1 y2 y4 y5 y6 y7 y8 y9) (b_v78 y3) (b_v80 y3) (b_v83 y12) (b_v85 y10) (b_v90 y11)
def b_v94 (y0 : Vec F S512x512 .f32) (y1 : Vec F S2x512x3 .f32) (y2 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) := k1_pay20 (b_v1 y0) (b_v11 y2) (b_v38 y0 y1 y2 y4 y5 y6) (b_v64 y0 y1 y2 y4 y5 y6 y7 y8 y9)
def b_v95 (y10 : Vec F S3x128x256 .f32) := View.ld y10 (Rect.unit (s := S3x128x256) ![1, 0, 0] S1x128x256.size inb_S3x128x256_S1x128x256_1_0_0)
def b_v100 (y11 : Vec F S3x128x256 .f32) := View.ld y11 (Rect.unit (s := S3x128x256) ![1, 0, 0] S1x128x256.size inb_S3x128x256_S1x128x256_1_0_0)
def b_v108 (y10 : Vec F S3x128x256 .f32) := View.ld y10 (Rect.unit (s := S3x128x256) ![2, 0, 0] S1x128x256.size inb_S3x128x256_S1x128x256_2_0_0)
def b_v116 (y11 : Vec F S3x128x256 .f32) := View.ld y11 (Rect.unit (s := S3x128x256) ![2, 0, 0] S1x128x256.size inb_S3x128x256_S1x128x256_2_0_0)
def b_v124 (y15 : Vec F S1x128 .f32) := View.ld y15 (Rect.unit (s := S1x128) ![0, 0] S1x128.size inb_S1x128_S1x128_0_0)
def b_v126 (y13 : Vec F S3x128x128 .f32) := View.ld y13 (Rect.unit (s := S3x128x128) ![0, 0, 0] S1x128x128.size inb_S3x128x128_S1x128x128_0_0_0)
def b_v107 (y0 : Vec F S512x512 .f32) (y1 : Vec F S2x512x3 .f32) (y2 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) := k1_pay21 (b_v1 y0) (b_v69 y0 y1 y2 y4 y5 y6 y7 y8 y9) (b_v94 y0 y1 y2 y4 y5 y6 y7 y8 y9)
def b_v122 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) := k1_pay23 (b_v1 y0) (b_v69 y0 y1 y2 y4 y5 y6 y7 y8 y9) (b_v82 y3) (b_v93 y0 y1 y2 y3 y4 y5 y6 y7 y8 y9 y10 y11 y12) (b_v94 y0 y1 y2 y4 y5 y6 y7 y8 y9) (b_v95 y10) (b_v100 y11) (b_v108 y10) (b_v116 y11)
def b_v123 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) := k1_pay24 (b_v1 y0) (b_v69 y0 y1 y2 y4 y5 y6 y7 y8 y9) (b_v82 y3) (b_v93 y0 y1 y2 y3 y4 y5 y6 y7 y8 y9 y10 y11 y12) (b_v94 y0 y1 y2 y4 y5 y6 y7 y8 y9) (b_v95 y10) (b_v100 y11) (b_v108 y10) (b_v116 y11)
def b_v128 (y0 : Vec F S512x512 .f32) (y1 : Vec F S2x512x3 .f32) (y2 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y13 : Vec F S3x128x128 .f32) := k1_pay25 (b_v69 y0 y1 y2 y4 y5 y6 y7 y8 y9) (b_v126 y13)
def b_v129 (y15 : Vec F S1x128 .f32) := k1_pay26 (b_v124 y15)
def b_v131 (y13 : Vec F S3x128x128 .f32) := View.ld y13 (Rect.unit (s := S3x128x128) ![1, 0, 0] S1x128x128.size inb_S3x128x128_S1x128x128_1_0_0)
def b_v135 (y13 : Vec F S3x128x128 .f32) := View.ld y13 (Rect.unit (s := S3x128x128) ![2, 0, 0] S1x128x128.size inb_S3x128x128_S1x128x128_2_0_0)
def b_v139 (y14 : Vec F S3x128x128 .f32) := View.ld y14 (Rect.unit (s := S3x128x128) ![0, 0, 0] S1x128x128.size inb_S3x128x128_S1x128x128_0_0_0)
def b_v144 (y14 : Vec F S3x128x128 .f32) := View.ld y14 (Rect.unit (s := S3x128x128) ![1, 0, 0] S1x128x128.size inb_S3x128x128_S1x128x128_1_0_0)
def b_v152 (y14 : Vec F S3x128x128 .f32) := View.ld y14 (Rect.unit (s := S3x128x128) ![2, 0, 0] S1x128x128.size inb_S3x128x128_S1x128x128_2_0_0)
def b_v161 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) (y13 : Vec F S3x128x128 .f32) (y14 : Vec F S3x128x128 .f32) (y15 : Vec F S1x128 .f32) := k1_pay27 (b_v1 y0) (b_v82 y3) (b_v94 y0 y1 y2 y4 y5 y6 y7 y8 y9) (b_v107 y0 y1 y2 y4 y5 y6 y7 y8 y9) (b_v122 y0 y1 y2 y3 y4 y5 y6 y7 y8 y9 y10 y11 y12) (b_v123 y0 y1 y2 y3 y4 y5 y6 y7 y8 y9 y10 y11 y12) (b_v128 y0 y1 y2 y4 y5 y6 y7 y8 y9 y13) (b_v129 y15) (b_v131 y13) (b_v135 y13) (b_v139 y14) (b_v144 y14) (b_v152 y14)
def b_v162 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) (y13 : Vec F S3x128x128 .f32) (y14 : Vec F S3x128x128 .f32) (y15 : Vec F S1x128 .f32) := k1_pay28 (b_v1 y0) (b_v82 y3) (b_v94 y0 y1 y2 y4 y5 y6 y7 y8 y9) (b_v107 y0 y1 y2 y4 y5 y6 y7 y8 y9) (b_v122 y0 y1 y2 y3 y4 y5 y6 y7 y8 y9 y10 y11 y12) (b_v123 y0 y1 y2 y3 y4 y5 y6 y7 y8 y9 y10 y11 y12) (b_v128 y0 y1 y2 y4 y5 y6 y7 y8 y9 y13) (b_v129 y15) (b_v131 y13) (b_v135 y13) (b_v139 y14) (b_v144 y14) (b_v152 y14)
def b_v170 (y16 : Vec F S128x2 .f32) := View.ld y16 (Rect.unit (s := S128x2) ![0, 0] S128x2.size inb_S128x2_S128x2_0_0)
def b_v173 (y17 : Vec F S1x1 .f32) := View.ld y17 (Rect.unit (s := S1x1) ![0, 0] S1x1.size inb_S1x1_S1x1_0_0)

/-- Output block 18 of kernel 1 after the body: its 2 stores, the last first. -/
def out1_18 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) (y13 : Vec F S3x128x128 .f32) (y14 : Vec F S3x128x128 .f32) (y15 : Vec F S1x128 .f32) (y16 : Vec F S128x2 .f32) (y17 : Vec F S1x1 .f32) : Vec F S2x512x1 .f32 :=
  View.canon [⟨Rect.unit (s := S2x512x1) ![1, 0, 0] S1x512x1.size inb_S2x512x1_S1x512x1_1_0_0, k1_pay5 (b_v161 y0 y1 y2 y3 y4 y5 y6 y7 y8 y9 y10 y11 y12 y13 y14 y15) (b_v170 y16) (b_v173 y17)⟩,
    ⟨Rect.unit (s := S2x512x1) ![0, 0, 0] S1x512x1.size inb_S2x512x1_S1x512x1_0_0_0, k1_pay4 (b_v161 y0 y1 y2 y3 y4 y5 y6 y7 y8 y9 y10 y11 y12 y13 y14 y15) (b_v170 y16) (b_v173 y17)⟩]
/-- Output block 19 of kernel 1 after the body: its 4 stores, the last first. -/
def out1_19 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) (y13 : Vec F S3x128x128 .f32) (y14 : Vec F S3x128x128 .f32) (y15 : Vec F S1x128 .f32) : Vec F S2x2x512x64 .f32 :=
  View.canon [⟨Rect.unit (s := S2x2x512x64) ![1, 1, 0, 0] S1x1x512x64.size inb_S2x2x512x64_S1x1x512x64_1_1_0_0, k1_pay2 (b_v161 y0 y1 y2 y3 y4 y5 y6 y7 y8 y9 y10 y11 y12 y13 y14 y15)⟩,
    ⟨Rect.unit (s := S2x2x512x64) ![1, 0, 0, 0] S1x1x512x64.size inb_S2x2x512x64_S1x1x512x64_1_0_0_0, k1_pay1 (b_v162 y0 y1 y2 y3 y4 y5 y6 y7 y8 y9 y10 y11 y12 y13 y14 y15)⟩,
    ⟨Rect.unit (s := S2x2x512x64) ![0, 1, 0, 0] S1x1x512x64.size inb_S2x2x512x64_S1x1x512x64_0_1_0_0, k1_pay17 (b_v11 y2) (b_v38 y0 y1 y2 y4 y5 y6) (b_v64 y0 y1 y2 y4 y5 y6 y7 y8 y9)⟩,
    ⟨Rect.unit (s := S2x2x512x64) ![0, 0, 0, 0] S1x1x512x64.size inb_S2x2x512x64_S1x1x512x64_0_0_0_0, k1_pay16 (b_v11 y2) (b_v38 y0 y1 y2 y4 y5 y6) (b_v64 y0 y1 y2 y4 y5 y6 y7 y8 y9)⟩]

end Cert.Kernel.Fr

end
-- ==== Proof.Outs.lean ====
import proofs.«162860_g19069654794669_cont_sun_m_30_12_alg».proof.Proof.Gen.KernelIdeal.Skeleton
import Idealize.ShloMosaic.Lib.Pipeline.FrameBody

/-! What each kernel body leaves in each of its output blocks, as a function of its input blocks.
    Every value the body loads from an input block is named (`a_vN` for the preparation kernel, `b_vN` for the
    recurrent-cell kernel), every value one part of the body hands to the next likewise, and each output block is
    the list of the rectangles stored into it, the last store first, each with the stored value. -/

set_option maxRecDepth 16384

noncomputable section

namespace Cert.KernelIdeal.Fr

open Idealize.ShloMosaic Idealize.SL.Sem Cert.KernelIdeal Cert.KernelIdeal.Gen

variable {F : FTy → Type} [FloatOps F]

/-! ## Kernel 0 -/

def a_v0 (x0 : Vec F S512x512 .f32) := View.ld x0 (Rect.unit (s := S512x512) ![0, 0] S512x512.size inb_S512x512_S512x512_0_0)
def a_v28 (x1 : Vec F S512x64 .f32) := View.ld x1 (Rect.unit (s := S512x64) ![0, 0] S512x64.size inb_S512x64_S512x64_0_0)
def a_v35 (x0 : Vec F S512x512 .f32) (x1 : Vec F S512x64 .f32) := k0_pay4 (a_v0 x0) (a_v28 x1)
def a_v53 (x2 : Vec F S3x65x128 .f32) := View.ld x2 (Rect.unit (s := S3x65x128) ![0, 0, 0] S1x1x64.size inb_S3x65x128_S1x1x64_0_0_0)
def a_v58 (x2 : Vec F S3x65x128 .f32) := View.ld x2 (Rect.unit (s := S3x65x128) ![0, 0, 64] S1x1x64.size inb_S3x65x128_S1x1x64_0_0_64)
def a_v63 (x2 : Vec F S3x65x128 .f32) := View.ld x2 (Rect.unit (s := S3x65x128) ![0, 0, 0] S1x1x64.size inb_S3x65x128_S1x1x64_0_0_0)
def a_v68 (x2 : Vec F S3x65x128 .f32) := View.ld x2 (Rect.unit (s := S3x65x128) ![0, 0, 64] S1x1x64.size inb_S3x65x128_S1x1x64_0_0_64)
def a_v73 (x3 : Vec F S3x65x64 .f32) := View.ld x3 (Rect.unit (s := S3x65x64) ![0, 0, 0] S1x1x64.size inb_S3x65x64_S1x1x64_0_0_0)
def a_v78 (x3 : Vec F S3x65x64 .f32) := View.ld x3 (Rect.unit (s := S3x65x64) ![0, 0, 0] S1x1x64.size inb_S3x65x64_S1x1x64_0_0_0)
def a_v79 (x3 : Vec F S3x65x64 .f32) := k0_pay18 (a_v78 x3)
def a_v83 (x2 : Vec F S3x65x128 .f32) := View.ld x2 (Rect.unit (s := S3x65x128) ![0, 1, 0] S1x64x64.size inb_S3x65x128_S1x64x64_0_1_0)
def a_v85 (x2 : Vec F S3x65x128 .f32) := View.ld x2 (Rect.unit (s := S3x65x128) ![0, 1, 64] S1x64x64.size inb_S3x65x128_S1x64x64_0_1_64)
def a_v99 (x3 : Vec F S3x65x64 .f32) := View.ld x3 (Rect.unit (s := S3x65x64) ![0, 1, 0] S1x64x64.size inb_S3x65x64_S1x64x64_0_1_0)
def a_v107 (x4 : Vec F S3x128x128 .f32) := View.ld x4 (Rect.unit (s := S3x128x128) ![0, 0, 0] S1x64x64.size inb_S3x128x128_S1x64x64_0_0_0)
def a_v109 (x4 : Vec F S3x128x128 .f32) := View.ld x4 (Rect.unit (s := S3x128x128) ![0, 0, 64] S1x64x64.size inb_S3x128x128_S1x64x64_0_0_64)
def a_v123 (x4 : Vec F S3x128x128 .f32) := View.ld x4 (Rect.unit (s := S3x128x128) ![0, 64, 0] S1x64x64.size inb_S3x128x128_S1x64x64_0_64_0)
def a_v125 (x4 : Vec F S3x128x128 .f32) := View.ld x4 (Rect.unit (s := S3x128x128) ![0, 64, 64] S1x64x64.size inb_S3x128x128_S1x64x64_0_64_64)
def a_v124 (x4 : Vec F S3x128x128 .f32) := k0_pay35 (a_v123 x4)
def a_v126 (x4 : Vec F S3x128x128 .f32) := k0_pay36 (a_v125 x4)
def a_v132 (x4 : Vec F S3x128x128 .f32) := k0_pay38 (a_v125 x4)
def a_v139 (x5 : Vec F S3x128x64 .f32) := View.ld x5 (Rect.unit (s := S3x128x64) ![0, 0, 0] S1x64x64.size inb_S3x128x64_S1x64x64_0_0_0)
def a_v147 (x5 : Vec F S3x128x64 .f32) := View.ld x5 (Rect.unit (s := S3x128x64) ![0, 64, 0] S1x64x64.size inb_S3x128x64_S1x64x64_0_64_0)
def a_v155 (x2 : Vec F S3x65x128 .f32) := View.ld x2 (Rect.unit (s := S3x65x128) ![1, 0, 0] S1x1x64.size inb_S3x65x128_S1x1x64_1_0_0)
def a_v156 (x2 : Vec F S3x65x128 .f32) := k0_pay47 (a_v155 x2)
def a_v160 (x2 : Vec F S3x65x128 .f32) := View.ld x2 (Rect.unit (s := S3x65x128) ![1, 0, 64] S1x1x64.size inb_S3x65x128_S1x1x64_1_0_64)
def a_v165 (x2 : Vec F S3x65x128 .f32) := View.ld x2 (Rect.unit (s := S3x65x128) ![1, 0, 0] S1x1x64.size inb_S3x65x128_S1x1x64_1_0_0)
def a_v170 (x2 : Vec F S3x65x128 .f32) := View.ld x2 (Rect.unit (s := S3x65x128) ![1, 0, 64] S1x1x64.size inb_S3x65x128_S1x1x64_1_0_64)
def a_v175 (x3 : Vec F S3x65x64 .f32) := View.ld x3 (Rect.unit (s := S3x65x64) ![1, 0, 0] S1x1x64.size inb_S3x65x64_S1x1x64_1_0_0)
def a_v180 (x3 : Vec F S3x65x64 .f32) := View.ld x3 (Rect.unit (s := S3x65x64) ![1, 0, 0] S1x1x64.size inb_S3x65x64_S1x1x64_1_0_0)
def a_v185 (x2 : Vec F S3x65x128 .f32) := View.ld x2 (Rect.unit (s := S3x65x128) ![1, 1, 0] S1x64x64.size inb_S3x65x128_S1x64x64_1_1_0)
def a_v187 (x2 : Vec F S3x65x128 .f32) := View.ld x2 (Rect.unit (s := S3x65x128) ![1, 1, 64] S1x64x64.size inb_S3x65x128_S1x64x64_1_1_64)
def a_v201 (x3 : Vec F S3x65x64 .f32) := View.ld x3 (Rect.unit (s := S3x65x64) ![1, 1, 0] S1x64x64.size inb_S3x65x64_S1x64x64_1_1_0)
def a_v209 (x4 : Vec F S3x128x128 .f32) := View.ld x4 (Rect.unit (s := S3x128x128) ![1, 0, 0] S1x64x64.size inb_S3x128x128_S1x64x64_1_0_0)
def a_v211 (x4 : Vec F S3x128x128 .f32) := View.ld x4 (Rect.unit (s := S3x128x128) ![1, 0, 64] S1x64x64.size inb_S3x128x128_S1x64x64_1_0_64)
def a_v225 (x4 : Vec F S3x128x128 .f32) := View.ld x4 (Rect.unit (s := S3x128x128) ![1, 64, 0] S1x64x64.size inb_S3x128x128_S1x64x64_1_64_0)
def a_v227 (x4 : Vec F S3x128x128 .f32) := View.ld x4 (Rect.unit (s := S3x128x128) ![1, 64, 64] S1x64x64.size inb_S3x128x128_S1x64x64_1_64_64)
def a_v226 (x4 : Vec F S3x128x128 .f32) := k0_pay69 (a_v225 x4)
def a_v228 (x4 : Vec F S3x128x128 .f32) := k0_pay70 (a_v227 x4)
def a_v241 (x5 : Vec F S3x128x64 .f32) := View.ld x5 (Rect.unit (s := S3x128x64) ![1, 0, 0] S1x64x64.size inb_S3x128x64_S1x64x64_1_0_0)
def a_v249 (x5 : Vec F S3x128x64 .f32) := View.ld x5 (Rect.unit (s := S3x128x64) ![1, 64, 0] S1x64x64.size inb_S3x128x64_S1x64x64_1_64_0)
def a_v257 (x2 : Vec F S3x65x128 .f32) := View.ld x2 (Rect.unit (s := S3x65x128) ![2, 0, 0] S1x1x64.size inb_S3x65x128_S1x1x64_2_0_0)
def a_v261 (x2 : Vec F S3x65x128 .f32) := k0_pay81 (a_v257 x2)
def a_v262 (x2 : Vec F S3x65x128 .f32) := View.ld x2 (Rect.unit (s := S3x65x128) ![2, 0, 64] S1x1x64.size inb_S3x65x128_S1x1x64_2_0_64)
def a_v267 (x2 : Vec F S3x65x128 .f32) := View.ld x2 (Rect.unit (s := S3x65x128) ![2, 0, 0] S1x1x64.size inb_S3x65x128_S1x1x64_2_0_0)
def a_v272 (x2 : Vec F S3x65x128 .f32) := View.ld x2 (Rect.unit (s := S3x65x128) ![2, 0, 64] S1x1x64.size inb_S3x65x128_S1x1x64_2_0_64)
def a_v277 (x3 : Vec F S3x65x64 .f32) := View.ld x3 (Rect.unit (s := S3x65x64) ![2, 0, 0] S1x1x64.size inb_S3x65x64_S1x1x64_2_0_0)
def a_v282 (x3 : Vec F S3x65x64 .f32) := View.ld x3 (Rect.unit (s := S3x65x64) ![2, 0, 0] S1x1x64.size inb_S3x65x64_S1x1x64_2_0_0)
def a_v287 (x2 : Vec F S3x65x128 .f32) := View.ld x2 (Rect.unit (s := S3x65x128) ![2, 1, 0] S1x64x64.size inb_S3x65x128_S1x64x64_2_1_0)
def a_v289 (x2 : Vec F S3x65x128 .f32) := View.ld x2 (Rect.unit (s := S3x65x128) ![2, 1, 64] S1x64x64.size inb_S3x65x128_S1x64x64_2_1_64)
def a_v303 (x3 : Vec F S3x65x64 .f32) := View.ld x3 (Rect.unit (s := S3x65x64) ![2, 1, 0] S1x64x64.size inb_S3x65x64_S1x64x64_2_1_0)
def a_v311 (x4 : Vec F S3x128x128 .f32) := View.ld x4 (Rect.unit (s := S3x128x128) ![2, 0, 0] S1x64x64.size inb_S3x128x128_S1x64x64_2_0_0)
def a_v312 (x4 : Vec F S3x128x128 .f32) := k0_pay96 (a_v311 x4)
def a_v313 (x4 : Vec F S3x128x128 .f32) := View.ld x4 (Rect.unit (s := S3x128x128) ![2, 0, 64] S1x64x64.size inb_S3x128x128_S1x64x64_2_0_64)
def a_v327 (x4 : Vec F S3x128x128 .f32) := View.ld x4 (Rect.unit (s := S3x128x128) ![2, 64, 0] S1x64x64.size inb_S3x128x128_S1x64x64_2_64_0)
def a_v329 (x4 : Vec F S3x128x128 .f32) := View.ld x4 (Rect.unit (s := S3x128x128) ![2, 64, 64] S1x64x64.size inb_S3x128x128_S1x64x64_2_64_64)
def a_v328 (x4 : Vec F S3x128x128 .f32) := k0_pay102 (a_v327 x4)
def a_v330 (x4 : Vec F S3x128x128 .f32) := k0_pay103 (a_v329 x4)
def a_v343 (x5 : Vec F S3x128x64 .f32) := View.ld x5 (Rect.unit (s := S3x128x64) ![2, 0, 0] S1x64x64.size inb_S3x128x64_S1x64x64_2_0_0)
def a_v351 (x5 : Vec F S3x128x64 .f32) := View.ld x5 (Rect.unit (s := S3x128x64) ![2, 64, 0] S1x64x64.size inb_S3x128x64_S1x64x64_2_64_0)
def a_v359 (x6 : Vec F S1x128 .f32) := View.ld x6 (Rect.unit (s := S1x128) ![0, 0] S1x64.size inb_S1x128_S1x64_0_0)
def a_v364 (x6 : Vec F S1x128 .f32) := View.ld x6 (Rect.unit (s := S1x128) ![0, 0] S1x64.size inb_S1x128_S1x64_0_0)
def a_v369 (x6 : Vec F S1x128 .f32) := View.ld x6 (Rect.unit (s := S1x128) ![0, 64] S1x64.size inb_S1x128_S1x64_0_64)
def a_v374 (x6 : Vec F S1x128 .f32) := View.ld x6 (Rect.unit (s := S1x128) ![0, 64] S1x64.size inb_S1x128_S1x64_0_64)
def a_v379 (x7 : Vec F S1x64 .f32) := View.ld x7 (Rect.unit (s := S1x64) ![0, 0] S1x64.size inb_S1x64_S1x64_0_0)
def a_v384 (x7 : Vec F S1x64 .f32) := View.ld x7 (Rect.unit (s := S1x64) ![0, 0] S1x64.size inb_S1x64_S1x64_0_0)
def a_v389 (x8 : Vec F S1x128 .f32) := View.ld x8 (Rect.unit (s := S1x128) ![0, 0] S1x64.size inb_S1x128_S1x64_0_0)
def a_v394 (x8 : Vec F S1x128 .f32) := View.ld x8 (Rect.unit (s := S1x128) ![0, 0] S1x64.size inb_S1x128_S1x64_0_0)
def a_v399 (x8 : Vec F S1x128 .f32) := View.ld x8 (Rect.unit (s := S1x128) ![0, 64] S1x64.size inb_S1x128_S1x64_0_64)
def a_v404 (x8 : Vec F S1x128 .f32) := View.ld x8 (Rect.unit (s := S1x128) ![0, 64] S1x64.size inb_S1x128_S1x64_0_64)
def a_v409 (x9 : Vec F S1x64 .f32) := View.ld x9 (Rect.unit (s := S1x64) ![0, 0] S1x64.size inb_S1x64_S1x64_0_0)
def a_v414 (x9 : Vec F S1x64 .f32) := View.ld x9 (Rect.unit (s := S1x64) ![0, 0] S1x64.size inb_S1x64_S1x64_0_0)
def a_v421 (x10 : Vec F S64x1 .f32) := View.ld x10 (Rect.unit (s := S64x1) ![0, 0] S64x1.size inb_S64x1_S64x1_0_0)
def a_v423 (x10 : Vec F S64x1 .f32) := View.ld x10 (Rect.unit (s := S64x1) ![0, 0] S64x1.size inb_S64x1_S64x1_0_0)

/-- Output block 11 of kernel 0 after the body: its 1 store, the last first. -/
def out0_11 (x0 : Vec F S512x512 .f32) : Vec F S512x512 .f32 :=
  View.canon [⟨Rect.unit (s := S512x512) ![0, 0] S512x512.size inb_S512x512_S512x512_0_0, k0_pay1 (a_v0 x0)⟩]
/-- Output block 12 of kernel 0 after the body: its 1 store, the last first. -/
def out0_12 (x0 : Vec F S512x512 .f32) (x1 : Vec F S512x64 .f32) : Vec F S512x64 .f32 :=
  View.canon [⟨Rect.unit (s := S512x64) ![0, 0] S512x64.size inb_S512x64_S512x64_0_0, k0_pay3 (a_v0 x0) (a_v28 x1)⟩]
/-- Output block 13 of kernel 0 after the body: its 1 store, the last first. -/
def out0_13 (x0 : Vec F S512x512 .f32) (x1 : Vec F S512x64 .f32) : Vec F S512x64 .f32 :=
  View.canon [⟨Rect.unit (s := S512x64) ![0, 0] S512x64.size inb_S512x64_S512x64_0_0, (a_v35 x0 x1)⟩]
/-- Output block 14 of kernel 0 after the body: its 13 stores, the last first. -/
def out0_14 (x2 : Vec F S3x65x128 .f32) : Vec F S6x256 .f32 :=
  View.canon [⟨Rect.unit (s := S6x256) ![5, 192] S1x64.size inb_S6x256_S1x64_5_192, k0_pay84 (a_v272 x2)⟩,
    ⟨Rect.unit (s := S6x256) ![5, 64] S1x64.size inb_S6x256_S1x64_5_64, k0_pay83 (a_v267 x2)⟩,
    ⟨Rect.unit (s := S6x256) ![2, 128] S1x64.size inb_S6x256_S1x64_2_128, k0_pay82 (a_v262 x2)⟩,
    ⟨Rect.unit (s := S6x256) ![2, 0] S1x64.size inb_S6x256_S1x64_2_0, (a_v261 x2)⟩,
    ⟨Rect.unit (s := S6x256) ![4, 192] S1x64.size inb_S6x256_S1x64_4_192, k0_pay51 (a_v170 x2)⟩,
    ⟨Rect.unit (s := S6x256) ![4, 64] S1x64.size inb_S6x256_S1x64_4_64, k0_pay50 (a_v165 x2)⟩,
    ⟨Rect.unit (s := S6x256) ![1, 128] S1x64.size inb_S6x256_S1x64_1_128, k0_pay49 (a_v160 x2)⟩,
    ⟨Rect.unit (s := S6x256) ![1, 0] S1x64.size inb_S6x256_S1x64_1_0, k0_pay48 (a_v156 x2)⟩,
    ⟨Rect.unit (s := S6x256) ![3, 192] S1x64.size inb_S6x256_S1x64_3_192, k0_pay16 (a_v68 x2)⟩,
    ⟨Rect.unit (s := S6x256) ![3, 64] S1x64.size inb_S6x256_S1x64_3_64, k0_pay15 (a_v63 x2)⟩,
    ⟨Rect.unit (s := S6x256) ![0, 128] S1x64.size inb_S6x256_S1x64_0_128, k0_pay14 (a_v58 x2)⟩,
    ⟨Rect.unit (s := S6x256) ![0, 0] S1x64.size inb_S6x256_S1x64_0_0, k0_pay13 (a_v53 x2)⟩,
    ⟨Rect.unit (s := S6x256) ![0, 0] S6x256.size inb_S6x256_S6x256_0_0, k0_pay5 (F := F)⟩]
/-- Output block 15 of kernel 0 after the body: its 13 stores, the last first. -/
def out0_15 (x2 : Vec F S3x65x128 .f32) : Vec F S3x128x256 .f32 :=
  View.canon [⟨Rect.unit (s := S3x128x256) ![2, 64, 192] S1x64x64.size inb_S3x128x256_S1x64x64_2_64_192, k0_pay92 (a_v289 x2)⟩,
    ⟨Rect.unit (s := S3x128x256) ![2, 64, 64] S1x64x64.size inb_S3x128x256_S1x64x64_2_64_64, k0_pay91 (a_v287 x2)⟩,
    ⟨Rect.unit (s := S3x128x256) ![2, 0, 128] S1x64x64.size inb_S3x128x256_S1x64x64_2_0_128, k0_pay90 (a_v289 x2)⟩,
    ⟨Rect.unit (s := S3x128x256) ![2, 0, 0] S1x64x64.size inb_S3x128x256_S1x64x64_2_0_0, k0_pay89 (a_v287 x2)⟩,
    ⟨Rect.unit (s := S3x128x256) ![1, 64, 192] S1x64x64.size inb_S3x128x256_S1x64x64_1_64_192, k0_pay59 (a_v187 x2)⟩,
    ⟨Rect.unit (s := S3x128x256) ![1, 64, 64] S1x64x64.size inb_S3x128x256_S1x64x64_1_64_64, k0_pay58 (a_v185 x2)⟩,
    ⟨Rect.unit (s := S3x128x256) ![1, 0, 128] S1x64x64.size inb_S3x128x256_S1x64x64_1_0_128, k0_pay57 (a_v187 x2)⟩,
    ⟨Rect.unit (s := S3x128x256) ![1, 0, 0] S1x64x64.size inb_S3x128x256_S1x64x64_1_0_0, k0_pay56 (a_v185 x2)⟩,
    ⟨Rect.unit (s := S3x128x256) ![0, 64, 192] S1x64x64.size inb_S3x128x256_S1x64x64_0_64_192, k0_pay25 (a_v85 x2)⟩,
    ⟨Rect.unit (s := S3x128x256) ![0, 64, 64] S1x64x64.size inb_S3x128x256_S1x64x64_0_64_64, k0_pay24 (a_v83 x2)⟩,
    ⟨Rect.unit (s := S3x128x256) ![0, 0, 128] S1x64x64.size inb_S3x128x256_S1x64x64_0_0_128, k0_pay23 (a_v85 x2)⟩,
    ⟨Rect.unit (s := S3x128x256) ![0, 0, 0] S1x64x64.size inb_S3x128x256_S1x64x64_0_0_0, k0_pay22 (a_v83 x2)⟩,
    ⟨Rect.unit (s := S3x128x256) ![0, 0, 0] S3x128x256.size inb_S3x128x256_S3x128x256_0_0_0, k0_pay7 (F := F)⟩]
/-- Output block 16 of kernel 0 after the body: its 4 stores, the last first. -/
def out0_16 (x6 : Vec F S1x128 .f32) : Vec F S1x256 .f32 :=
  View.canon [⟨Rect.unit (s := S1x256) ![0, 192] S1x64.size inb_S1x256_S1x64_0_192, k0_pay117 (a_v374 x6)⟩,
    ⟨Rect.unit (s := S1x256) ![0, 128] S1x64.size inb_S1x256_S1x64_0_128, k0_pay116 (a_v369 x6)⟩,
    ⟨Rect.unit (s := S1x256) ![0, 64] S1x64.size inb_S1x256_S1x64_0_64, k0_pay115 (a_v364 x6)⟩,
    ⟨Rect.unit (s := S1x256) ![0, 0] S1x64.size inb_S1x256_S1x64_0_0, k0_pay114 (a_v359 x6)⟩]
/-- Output block 17 of kernel 0 after the body: its 7 stores, the last first. -/
def out0_17 (x3 : Vec F S3x65x64 .f32) : Vec F S6x128 .f32 :=
  View.canon [⟨Rect.unit (s := S6x128) ![5, 64] S1x64.size inb_S6x128_S1x64_5_64, k0_pay86 (a_v282 x3)⟩,
    ⟨Rect.unit (s := S6x128) ![2, 0] S1x64.size inb_S6x128_S1x64_2_0, k0_pay85 (a_v277 x3)⟩,
    ⟨Rect.unit (s := S6x128) ![4, 64] S1x64.size inb_S6x128_S1x64_4_64, k0_pay53 (a_v180 x3)⟩,
    ⟨Rect.unit (s := S6x128) ![1, 0] S1x64.size inb_S6x128_S1x64_1_0, k0_pay52 (a_v175 x3)⟩,
    ⟨Rect.unit (s := S6x128) ![3, 64] S1x64.size inb_S6x128_S1x64_3_64, k0_pay19 (a_v79 x3)⟩,
    ⟨Rect.unit (s := S6x128) ![0, 0] S1x64.size inb_S6x128_S1x64_0_0, k0_pay17 (a_v73 x3)⟩,
    ⟨Rect.unit (s := S6x128) ![0, 0] S6x128.size inb_S6x128_S6x128_0_0, k0_pay6 (F := F)⟩]
/-- Output block 18 of kernel 0 after the body: its 7 stores, the last first. -/
def out0_18 (x3 : Vec F S3x65x64 .f32) : Vec F S3x128x128 .f32 :=
  View.canon [⟨Rect.unit (s := S3x128x128) ![2, 64, 64] S1x64x64.size inb_S3x128x128_S1x64x64_2_64_64, k0_pay95 (a_v303 x3)⟩,
    ⟨Rect.unit (s := S3x128x128) ![2, 0, 0] S1x64x64.size inb_S3x128x128_S1x64x64_2_0_0, k0_pay94 (a_v303 x3)⟩,
    ⟨Rect.unit (s := S3x128x128) ![1, 64, 64] S1x64x64.size inb_S3x128x128_S1x64x64_1_64_64, k0_pay62 (a_v201 x3)⟩,
    ⟨Rect.unit (s := S3x128x128) ![1, 0, 0] S1x64x64.size inb_S3x128x128_S1x64x64_1_0_0, k0_pay61 (a_v201 x3)⟩,
    ⟨Rect.unit (s := S3x128x128) ![0, 64, 64] S1x64x64.size inb_S3x128x128_S1x64x64_0_64_64, k0_pay28 (a_v99 x3)⟩,
    ⟨Rect.unit (s := S3x128x128) ![0, 0, 0] S1x64x64.size inb_S3x128x128_S1x64x64_0_0_0, k0_pay27 (a_v99 x3)⟩,
    ⟨Rect.unit (s := S3x128x128) ![0, 0, 0] S3x128x128.size inb_S3x128x128_S3x128x128_0_0_0, k0_pay8 (F := F)⟩]
/-- Output block 19 of kernel 0 after the body: its 2 stores, the last first. -/
def out0_19 (x7 : Vec F S1x64 .f32) : Vec F S1x128 .f32 :=
  View.canon [⟨Rect.unit (s := S1x128) ![0, 64] S1x64.size inb_S1x128_S1x64_0_64, k0_pay119 (a_v384 x7)⟩,
    ⟨Rect.unit (s := S1x128) ![0, 0] S1x64.size inb_S1x128_S1x64_0_0, k0_pay118 (a_v379 x7)⟩]
/-- Output block 20 of kernel 0 after the body: its 13 stores, the last first. -/
def out0_20 (x4 : Vec F S3x128x128 .f32) : Vec F S3x128x256 .f32 :=
  View.canon [⟨Rect.unit (s := S3x128x256) ![2, 64, 192] S1x64x64.size inb_S3x128x256_S1x64x64_2_64_192, k0_pay101 (a_v313 x4)⟩,
    ⟨Rect.unit (s := S3x128x256) ![2, 64, 64] S1x64x64.size inb_S3x128x256_S1x64x64_2_64_64, k0_pay100 (a_v312 x4)⟩,
    ⟨Rect.unit (s := S3x128x256) ![2, 0, 128] S1x64x64.size inb_S3x128x256_S1x64x64_2_0_128, k0_pay99 (a_v313 x4)⟩,
    ⟨Rect.unit (s := S3x128x256) ![2, 0, 0] S1x64x64.size inb_S3x128x256_S1x64x64_2_0_0, k0_pay98 (a_v312 x4)⟩,
    ⟨Rect.unit (s := S3x128x256) ![1, 64, 192] S1x64x64.size inb_S3x128x256_S1x64x64_1_64_192, k0_pay68 (a_v211 x4)⟩,
    ⟨Rect.unit (s := S3x128x256) ![1, 64, 64] S1x64x64.size inb_S3x128x256_S1x64x64_1_64_64, k0_pay67 (a_v209 x4)⟩,
    ⟨Rect.unit (s := S3x128x256) ![1, 0, 128] S1x64x64.size inb_S3x128x256_S1x64x64_1_0_128, k0_pay66 (a_v211 x4)⟩,
    ⟨Rect.unit (s := S3x128x256) ![1, 0, 0] S1x64x64.size inb_S3x128x256_S1x64x64_1_0_0, k0_pay65 (a_v209 x4)⟩,
    ⟨Rect.unit (s := S3x128x256) ![0, 64, 192] S1x64x64.size inb_S3x128x256_S1x64x64_0_64_192, k0_pay34 (a_v109 x4)⟩,
    ⟨Rect.unit (s := S3x128x256) ![0, 64, 64] S1x64x64.size inb_S3x128x256_S1x64x64_0_64_64, k0_pay33 (a_v107 x4)⟩,
    ⟨Rect.unit (s := S3x128x256) ![0, 0, 128] S1x64x64.size inb_S3x128x256_S1x64x64_0_0_128, k0_pay32 (a_v109 x4)⟩,
    ⟨Rect.unit (s := S3x128x256) ![0, 0, 0] S1x64x64.size inb_S3x128x256_S1x64x64_0_0_0, k0_pay31 (a_v107 x4)⟩,
    ⟨Rect.unit (s := S3x128x256) ![0, 0, 0] S3x128x256.size inb_S3x128x256_S3x128x256_0_0_0, k0_pay9 (F := F)⟩]
/-- Output block 21 of kernel 0 after the body: its 13 stores, the last first. -/
def out0_21 (x4 : Vec F S3x128x128 .f32) : Vec F S3x128x256 .f32 :=
  View.canon [⟨Rect.unit (s := S3x128x256) ![2, 64, 192] S1x64x64.size inb_S3x128x256_S1x64x64_2_64_192, k0_pay107 (a_v330 x4)⟩,
    ⟨Rect.unit (s := S3x128x256) ![2, 64, 64] S1x64x64.size inb_S3x128x256_S1x64x64_2_64_64, k0_pay106 (a_v328 x4)⟩,
    ⟨Rect.unit (s := S3x128x256) ![2, 0, 128] S1x64x64.size inb_S3x128x256_S1x64x64_2_0_128, k0_pay105 (a_v329 x4)⟩,
    ⟨Rect.unit (s := S3x128x256) ![2, 0, 0] S1x64x64.size inb_S3x128x256_S1x64x64_2_0_0, k0_pay104 (a_v327 x4)⟩,
    ⟨Rect.unit (s := S3x128x256) ![1, 64, 192] S1x64x64.size inb_S3x128x256_S1x64x64_1_64_192, k0_pay74 (a_v228 x4)⟩,
    ⟨Rect.unit (s := S3x128x256) ![1, 64, 64] S1x64x64.size inb_S3x128x256_S1x64x64_1_64_64, k0_pay73 (a_v226 x4)⟩,
    ⟨Rect.unit (s := S3x128x256) ![1, 0, 128] S1x64x64.size inb_S3x128x256_S1x64x64_1_0_128, k0_pay72 (a_v227 x4)⟩,
    ⟨Rect.unit (s := S3x128x256) ![1, 0, 0] S1x64x64.size inb_S3x128x256_S1x64x64_1_0_0, k0_pay71 (a_v225 x4)⟩,
    ⟨Rect.unit (s := S3x128x256) ![0, 64, 192] S1x64x64.size inb_S3x128x256_S1x64x64_0_64_192, k0_pay40 (a_v126 x4)⟩,
    ⟨Rect.unit (s := S3x128x256) ![0, 64, 64] S1x64x64.size inb_S3x128x256_S1x64x64_0_64_64, k0_pay39 (a_v124 x4)⟩,
    ⟨Rect.unit (s := S3x128x256) ![0, 0, 128] S1x64x64.size inb_S3x128x256_S1x64x64_0_0_128, (a_v132 x4)⟩,
    ⟨Rect.unit (s := S3x128x256) ![0, 0, 0] S1x64x64.size inb_S3x128x256_S1x64x64_0_0_0, k0_pay37 (a_v123 x4)⟩,
    ⟨Rect.unit (s := S3x128x256) ![0, 0, 0] S3x128x256.size inb_S3x128x256_S3x128x256_0_0_0, k0_pay10 (F := F)⟩]
/-- Output block 22 of kernel 0 after the body: its 4 stores, the last first. -/
def out0_22 (x8 : Vec F S1x128 .f32) : Vec F S1x256 .f32 :=
  View.canon [⟨Rect.unit (s := S1x256) ![0, 192] S1x64.size inb_S1x256_S1x64_0_192, k0_pay123 (a_v404 x8)⟩,
    ⟨Rect.unit (s := S1x256) ![0, 128] S1x64.size inb_S1x256_S1x64_0_128, k0_pay122 (a_v399 x8)⟩,
    ⟨Rect.unit (s := S1x256) ![0, 64] S1x64.size inb_S1x256_S1x64_0_64, k0_pay121 (a_v394 x8)⟩,
    ⟨Rect.unit (s := S1x256) ![0, 0] S1x64.size inb_S1x256_S1x64_0_0, k0_pay120 (a_v389 x8)⟩]
/-- Output block 23 of kernel 0 after the body: its 7 stores, the last first. -/
def out0_23 (x5 : Vec F S3x128x64 .f32) : Vec F S3x128x128 .f32 :=
  View.canon [⟨Rect.unit (s := S3x128x128) ![2, 64, 64] S1x64x64.size inb_S3x128x128_S1x64x64_2_64_64, k0_pay110 (a_v343 x5)⟩,
    ⟨Rect.unit (s := S3x128x128) ![2, 0, 0] S1x64x64.size inb_S3x128x128_S1x64x64_2_0_0, k0_pay109 (a_v343 x5)⟩,
    ⟨Rect.unit (s := S3x128x128) ![1, 64, 64] S1x64x64.size inb_S3x128x128_S1x64x64_1_64_64, k0_pay77 (a_v241 x5)⟩,
    ⟨Rect.unit (s := S3x128x128) ![1, 0, 0] S1x64x64.size inb_S3x128x128_S1x64x64_1_0_0, k0_pay76 (a_v241 x5)⟩,
    ⟨Rect.unit (s := S3x128x128) ![0, 64, 64] S1x64x64.size inb_S3x128x128_S1x64x64_0_64_64, k0_pay43 (a_v139 x5)⟩,
    ⟨Rect.unit (s := S3x128x128) ![0, 0, 0] S1x64x64.size inb_S3x128x128_S1x64x64_0_0_0, k0_pay42 (a_v139 x5)⟩,
    ⟨Rect.unit (s := S3x128x128) ![0, 0, 0] S3x128x128.size inb_S3x128x128_S3x128x128_0_0_0, k0_pay11 (F := F)⟩]
/-- Output block 24 of kernel 0 after the body: its 7 stores, the last first. -/
def out0_24 (x5 : Vec F S3x128x64 .f32) : Vec F S3x128x128 .f32 :=
  View.canon [⟨Rect.unit (s := S3x128x128) ![2, 64, 64] S1x64x64.size inb_S3x128x128_S1x64x64_2_64_64, k0_pay113 (a_v351 x5)⟩,
    ⟨Rect.unit (s := S3x128x128) ![2, 0, 0] S1x64x64.size inb_S3x128x128_S1x64x64_2_0_0, k0_pay112 (a_v351 x5)⟩,
    ⟨Rect.unit (s := S3x128x128) ![1, 64, 64] S1x64x64.size inb_S3x128x128_S1x64x64_1_64_64, k0_pay80 (a_v249 x5)⟩,
    ⟨Rect.unit (s := S3x128x128) ![1, 0, 0] S1x64x64.size inb_S3x128x128_S1x64x64_1_0_0, k0_pay79 (a_v249 x5)⟩,
    ⟨Rect.unit (s := S3x128x128) ![0, 64, 64] S1x64x64.size inb_S3x128x128_S1x64x64_0_64_64, k0_pay46 (a_v147 x5)⟩,
    ⟨Rect.unit (s := S3x128x128) ![0, 0, 0] S1x64x64.size inb_S3x128x128_S1x64x64_0_0_0, k0_pay45 (a_v147 x5)⟩,
    ⟨Rect.unit (s := S3x128x128) ![0, 0, 0] S3x128x128.size inb_S3x128x128_S3x128x128_0_0_0, k0_pay12 (F := F)⟩]
/-- Output block 25 of kernel 0 after the body: its 2 stores, the last first. -/
def out0_25 (x9 : Vec F S1x64 .f32) : Vec F S1x128 .f32 :=
  View.canon [⟨Rect.unit (s := S1x128) ![0, 64] S1x64.size inb_S1x128_S1x64_0_64, k0_pay125 (a_v414 x9)⟩,
    ⟨Rect.unit (s := S1x128) ![0, 0] S1x64.size inb_S1x128_S1x64_0_0, k0_pay124 (a_v409 x9)⟩]
/-- Output block 26 of kernel 0 after the body: its 3 stores, the last first. -/
def out0_26 (x10 : Vec F S64x1 .f32) : Vec F S128x2 .f32 :=
  View.canon [⟨Rect.unit (s := S128x2) ![64, 1] S64x1.size inb_S128x2_S64x1_64_1, (a_v423 x10)⟩,
    ⟨Rect.unit (s := S128x2) ![0, 0] S64x1.size inb_S128x2_S64x1_0_0, (a_v421 x10)⟩,
    ⟨Rect.unit (s := S128x2) ![0, 0] S128x2.size inb_S128x2_S128x2_0_0, k0_pay126 (F := F)⟩]

/-! ## Kernel 1 -/

def b_v0 (y0 : Vec F S512x512 .f32) := View.ld y0 (Rect.unit (s := S512x512) ![0, 0] S512x512.size inb_S512x512_S512x512_0_0)
def b_v2 (y1 : Vec F S2x512x3 .f32) := View.ld y1 (Rect.unit (s := S2x512x3) ![0, 0, 0] S1x512x3.size inb_S2x512x3_S1x512x3_0_0_0)
def b_v4 (y1 : Vec F S2x512x3 .f32) := View.ld y1 (Rect.unit (s := S2x512x3) ![1, 0, 0] S1x512x3.size inb_S2x512x3_S1x512x3_1_0_0)
def b_v7 (y2 : Vec F S2x512x64 .f32) := View.ld y2 (Rect.unit (s := S2x512x64) ![0, 0, 0] S1x512x64.size inb_S2x512x64_S1x512x64_0_0_0)
def b_v9 (y2 : Vec F S2x512x64 .f32) := View.ld y2 (Rect.unit (s := S2x512x64) ![1, 0, 0] S1x512x64.size inb_S2x512x64_S1x512x64_1_0_0)
def b_v12 (y6 : Vec F S1x256 .f32) := View.ld y6 (Rect.unit (s := S1x256) ![0, 0] S1x256.size inb_S1x256_S1x256_0_0)
def b_v14 (y4 : Vec F S6x256 .f32) := View.ld y4 (Rect.unit (s := S6x256) ![0, 0] S6x256.size inb_S6x256_S6x256_0_0)
def b_v19 (y5 : Vec F S3x128x256 .f32) := View.ld y5 (Rect.unit (s := S3x128x256) ![0, 0, 0] S1x128x256.size inb_S3x128x256_S1x128x256_0_0_0)
def b_v24 (y5 : Vec F S3x128x256 .f32) := View.ld y5 (Rect.unit (s := S3x128x256) ![1, 0, 0] S1x128x256.size inb_S3x128x256_S1x128x256_1_0_0)
def b_cst_26 : F .f32 := Scalar.ofBits .f32 0x40000000#32
def b_v1 (y0 : Vec F S512x512 .f32) := k1_pay6 (b_v0 y0)
def b_v6 (y1 : Vec F S2x512x3 .f32) := k1_pay7 (b_v2 y1) (b_v4 y1)
def b_v11 (y2 : Vec F S2x512x64 .f32) := k1_pay8 (b_v7 y2) (b_v9 y2)
def b_v27 (y0 : Vec F S512x512 .f32) (y1 : Vec F S2x512x3 .f32) (y2 : Vec F S2x512x64 .f32) (y4 : Vec F S6x256 .f32) (y5 : Vec F S3x128x256 .f32) (y6 : Vec F S1x256 .f32) := k1_pay10 (b_v0 y0) (b_v2 y1) (b_v4 y1) (b_v7 y2) (b_v9 y2) (b_v12 y6) (b_v14 y4) (b_v19 y5) (b_v24 y5)
def b_v28 (y0 : Vec F S512x512 .f32) (y2 : Vec F S2x512x64 .f32) := k1_pay11 (b_v0 y0) (b_v7 y2) (b_v9 y2)
def b_v32 (y5 : Vec F S3x128x256 .f32) := View.ld y5 (Rect.unit (s := S3x128x256) ![2, 0, 0] S1x128x256.size inb_S3x128x256_S1x128x256_2_0_0)
def b_v40 (y9 : Vec F S1x128 .f32) := View.ld y9 (Rect.unit (s := S1x128) ![0, 0] S1x128.size inb_S1x128_S1x128_0_0)
def b_v42 (y7 : Vec F S6x128 .f32) := View.ld y7 (Rect.unit (s := S6x128) ![0, 0] S6x128.size inb_S6x128_S6x128_0_0)
def b_v47 (y8 : Vec F S3x128x128 .f32) := View.ld y8 (Rect.unit (s := S3x128x128) ![0, 0, 0] S1x128x128.size inb_S3x128x128_S1x128x128_0_0_0)
def b_v52 (y8 : Vec F S3x128x128 .f32) := View.ld y8 (Rect.unit (s := S3x128x128) ![1, 0, 0] S1x128x128.size inb_S3x128x128_S1x128x128_1_0_0)
def b_v60 (y8 : Vec F S3x128x128 .f32) := View.ld y8 (Rect.unit (s := S3x128x128) ![2, 0, 0] S1x128x128.size inb_S3x128x128_S1x128x128_2_0_0)
def b_v38 (y0 : Vec F S512x512 .f32) (y1 : Vec F S2x512x3 .f32) (y2 : Vec F S2x512x64 .f32) (y4 : Vec F S6x256 .f32) (y5 : Vec F S3x128x256 .f32) (y6 : Vec F S1x256 .f32) := k1_pay13 (b_v11 y2) (b_v27 y0 y1 y2 y4 y5 y6) (b_v28 y0 y2) b_cst_26 (b_v32 y5)
def b_v64 (y0 : Vec F S512x512 .f32) (y1 : Vec F S2x512x3 .f32) (y2 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) := k1_pay14 (b_v1 y0) (b_v6 y1) (b_v11 y2) (b_v27 y0 y1 y2 y4 y5 y6) (b_v28 y0 y2) b_cst_26 (b_v32 y5) (b_v40 y9) (b_v42 y7) (b_v47 y8) (b_v52 y8) (b_v60 y8)
def b_v78 (y3 : Vec F S2x512x64 .f32) := View.ld y3 (Rect.unit (s := S2x512x64) ![0, 0, 0] S1x512x64.size inb_S2x512x64_S1x512x64_0_0_0)
def b_v80 (y3 : Vec F S2x512x64 .f32) := View.ld y3 (Rect.unit (s := S2x512x64) ![1, 0, 0] S1x512x64.size inb_S2x512x64_S1x512x64_1_0_0)
def b_v83 (y12 : Vec F S1x256 .f32) := View.ld y12 (Rect.unit (s := S1x256) ![0, 0] S1x256.size inb_S1x256_S1x256_0_0)
def b_v85 (y10 : Vec F S3x128x256 .f32) := View.ld y10 (Rect.unit (s := S3x128x256) ![0, 0, 0] S1x128x256.size inb_S3x128x256_S1x128x256_0_0_0)
def b_v90 (y11 : Vec F S3x128x256 .f32) := View.ld y11 (Rect.unit (s := S3x128x256) ![0, 0, 0] S1x128x256.size inb_S3x128x256_S1x128x256_0_0_0)
def b_v69 (y0 : Vec F S512x512 .f32) (y1 : Vec F S2x512x3 .f32) (y2 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) := k1_pay15 (b_v11 y2) (b_v38 y0 y1 y2 y4 y5 y6) (b_v64 y0 y1 y2 y4 y5 y6 y7 y8 y9)
def b_v82 (y3 : Vec F S2x512x64 .f32) := k1_pay18 (b_v78 y3) (b_v80 y3)
def b_v93 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) := k1_pay19 (b_v11 y2) (b_v38 y0 y1 y2 y4 y5 y6) (b_v64 y0 y1 y2 y4 y5 y6 y7 y8 y9) (b_v78 y3) (b_v80 y3) (b_v83 y12) (b_v85 y10) (b_v90 y11)
def b_v94 (y0 : Vec F S512x512 .f32) (y1 : Vec F S2x512x3 .f32) (y2 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) := k1_pay20 (b_v1 y0) (b_v11 y2) (b_v38 y0 y1 y2 y4 y5 y6) (b_v64 y0 y1 y2 y4 y5 y6 y7 y8 y9)
def b_v95 (y10 : Vec F S3x128x256 .f32) := View.ld y10 (Rect.unit (s := S3x128x256) ![1, 0, 0] S1x128x256.size inb_S3x128x256_S1x128x256_1_0_0)
def b_v100 (y11 : Vec F S3x128x256 .f32) := View.ld y11 (Rect.unit (s := S3x128x256) ![1, 0, 0] S1x128x256.size inb_S3x128x256_S1x128x256_1_0_0)
def b_v108 (y10 : Vec F S3x128x256 .f32) := View.ld y10 (Rect.unit (s := S3x128x256) ![2, 0, 0] S1x128x256.size inb_S3x128x256_S1x128x256_2_0_0)
def b_v116 (y11 : Vec F S3x128x256 .f32) := View.ld y11 (Rect.unit (s := S3x128x256) ![2, 0, 0] S1x128x256.size inb_S3x128x256_S1x128x256_2_0_0)
def b_v124 (y15 : Vec F S1x128 .f32) := View.ld y15 (Rect.unit (s := S1x128) ![0, 0] S1x128.size inb_S1x128_S1x128_0_0)
def b_v126 (y13 : Vec F S3x128x128 .f32) := View.ld y13 (Rect.unit (s := S3x128x128) ![0, 0, 0] S1x128x128.size inb_S3x128x128_S1x128x128_0_0_0)
def b_v107 (y0 : Vec F S512x512 .f32) (y1 : Vec F S2x512x3 .f32) (y2 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) := k1_pay21 (b_v1 y0) (b_v69 y0 y1 y2 y4 y5 y6 y7 y8 y9) (b_v94 y0 y1 y2 y4 y5 y6 y7 y8 y9)
def b_v122 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) := k1_pay23 (b_v1 y0) (b_v69 y0 y1 y2 y4 y5 y6 y7 y8 y9) (b_v82 y3) (b_v93 y0 y1 y2 y3 y4 y5 y6 y7 y8 y9 y10 y11 y12) (b_v94 y0 y1 y2 y4 y5 y6 y7 y8 y9) (b_v95 y10) (b_v100 y11) (b_v108 y10) (b_v116 y11)
def b_v123 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) := k1_pay24 (b_v1 y0) (b_v69 y0 y1 y2 y4 y5 y6 y7 y8 y9) (b_v82 y3) (b_v93 y0 y1 y2 y3 y4 y5 y6 y7 y8 y9 y10 y11 y12) (b_v94 y0 y1 y2 y4 y5 y6 y7 y8 y9) (b_v95 y10) (b_v100 y11) (b_v108 y10) (b_v116 y11)
def b_v128 (y0 : Vec F S512x512 .f32) (y1 : Vec F S2x512x3 .f32) (y2 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y13 : Vec F S3x128x128 .f32) := k1_pay25 (b_v69 y0 y1 y2 y4 y5 y6 y7 y8 y9) (b_v126 y13)
def b_v129 (y15 : Vec F S1x128 .f32) := k1_pay26 (b_v124 y15)
def b_v131 (y13 : Vec F S3x128x128 .f32) := View.ld y13 (Rect.unit (s := S3x128x128) ![1, 0, 0] S1x128x128.size inb_S3x128x128_S1x128x128_1_0_0)
def b_v135 (y13 : Vec F S3x128x128 .f32) := View.ld y13 (Rect.unit (s := S3x128x128) ![2, 0, 0] S1x128x128.size inb_S3x128x128_S1x128x128_2_0_0)
def b_v139 (y14 : Vec F S3x128x128 .f32) := View.ld y14 (Rect.unit (s := S3x128x128) ![0, 0, 0] S1x128x128.size inb_S3x128x128_S1x128x128_0_0_0)
def b_v144 (y14 : Vec F S3x128x128 .f32) := View.ld y14 (Rect.unit (s := S3x128x128) ![1, 0, 0] S1x128x128.size inb_S3x128x128_S1x128x128_1_0_0)
def b_v152 (y14 : Vec F S3x128x128 .f32) := View.ld y14 (Rect.unit (s := S3x128x128) ![2, 0, 0] S1x128x128.size inb_S3x128x128_S1x128x128_2_0_0)
def b_v161 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) (y13 : Vec F S3x128x128 .f32) (y14 : Vec F S3x128x128 .f32) (y15 : Vec F S1x128 .f32) := k1_pay27 (b_v1 y0) (b_v82 y3) (b_v94 y0 y1 y2 y4 y5 y6 y7 y8 y9) (b_v107 y0 y1 y2 y4 y5 y6 y7 y8 y9) (b_v122 y0 y1 y2 y3 y4 y5 y6 y7 y8 y9 y10 y11 y12) (b_v123 y0 y1 y2 y3 y4 y5 y6 y7 y8 y9 y10 y11 y12) (b_v128 y0 y1 y2 y4 y5 y6 y7 y8 y9 y13) (b_v129 y15) (b_v131 y13) (b_v135 y13) (b_v139 y14) (b_v144 y14) (b_v152 y14)
def b_v162 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) (y13 : Vec F S3x128x128 .f32) (y14 : Vec F S3x128x128 .f32) (y15 : Vec F S1x128 .f32) := k1_pay28 (b_v1 y0) (b_v82 y3) (b_v94 y0 y1 y2 y4 y5 y6 y7 y8 y9) (b_v107 y0 y1 y2 y4 y5 y6 y7 y8 y9) (b_v122 y0 y1 y2 y3 y4 y5 y6 y7 y8 y9 y10 y11 y12) (b_v123 y0 y1 y2 y3 y4 y5 y6 y7 y8 y9 y10 y11 y12) (b_v128 y0 y1 y2 y4 y5 y6 y7 y8 y9 y13) (b_v129 y15) (b_v131 y13) (b_v135 y13) (b_v139 y14) (b_v144 y14) (b_v152 y14)
def b_v170 (y16 : Vec F S128x2 .f32) := View.ld y16 (Rect.unit (s := S128x2) ![0, 0] S128x2.size inb_S128x2_S128x2_0_0)
def b_v173 (y17 : Vec F S1x1 .f32) := View.ld y17 (Rect.unit (s := S1x1) ![0, 0] S1x1.size inb_S1x1_S1x1_0_0)

/-- Output block 18 of kernel 1 after the body: its 2 stores, the last first. -/
def out1_18 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) (y13 : Vec F S3x128x128 .f32) (y14 : Vec F S3x128x128 .f32) (y15 : Vec F S1x128 .f32) (y16 : Vec F S128x2 .f32) (y17 : Vec F S1x1 .f32) : Vec F S2x512x1 .f32 :=
  View.canon [⟨Rect.unit (s := S2x512x1) ![1, 0, 0] S1x512x1.size inb_S2x512x1_S1x512x1_1_0_0, k1_pay5 (b_v161 y0 y1 y2 y3 y4 y5 y6 y7 y8 y9 y10 y11 y12 y13 y14 y15) (b_v170 y16) (b_v173 y17)⟩,
    ⟨Rect.unit (s := S2x512x1) ![0, 0, 0] S1x512x1.size inb_S2x512x1_S1x512x1_0_0_0, k1_pay4 (b_v161 y0 y1 y2 y3 y4 y5 y6 y7 y8 y9 y10 y11 y12 y13 y14 y15) (b_v170 y16) (b_v173 y17)⟩]
/-- Output block 19 of kernel 1 after the body: its 4 stores, the last first. -/
def out1_19 (y0 : Vec F S512x512 .f32) (y1 : Vec F S2x512x3 .f32) (y2 : Vec F S2x512x64 .f32) (y3 : Vec F S2x512x64 .f32) (y4 : Vec F S6x256 .f32) (y5 : Vec F S3x128x256 .f32) (y6 : Vec F S1x256 .f32) (y7 : Vec F S6x128 .f32) (y8 : Vec F S3x128x128 .f32) (y9 : Vec F S1x128 .f32) (y10 : Vec F S3x128x256 .f32) (y11 : Vec F S3x128x256 .f32) (y12 : Vec F S1x256 .f32) (y13 : Vec F S3x128x128 .f32) (y14 : Vec F S3x128x128 .f32) (y15 : Vec F S1x128 .f32) : Vec F S2x2x512x64 .f32 :=
  View.canon [⟨Rect.unit (s := S2x2x512x64) ![1, 1, 0, 0] S1x1x512x64.size inb_S2x2x512x64_S1x1x512x64_1_1_0_0, k1_pay2 (b_v161 y0 y1 y2 y3 y4 y5 y6 y7 y8 y9 y10 y11 y12 y13 y14 y15)⟩,
    ⟨Rect.unit (s := S2x2x512x64) ![1, 0, 0, 0] S1x1x512x64.size inb_S2x2x512x64_S1x1x512x64_1_0_0_0, k1_pay1 (b_v162 y0 y1 y2 y3 y4 y5 y6 y7 y8 y9 y10 y11 y12 y13 y14 y15)⟩,
    ⟨Rect.unit (s := S2x2x512x64) ![0, 1, 0, 0] S1x1x512x64.size inb_S2x2x512x64_S1x1x512x64_0_1_0_0, k1_pay17 (b_v11 y2) (b_v38 y0 y1 y2 y4 y5 y6) (b_v64 y0 y1 y2 y4 y5 y6 y7 y8 y9)⟩,
    ⟨Rect.unit (s := S2x2x512x64) ![0, 0, 0, 0] S1x1x512x64.size inb_S2x2x512x64_S1x1x512x64_0_0_0_0, k1_pay16 (b_v11 y2) (b_v38 y0 y1 y2 y4 y5 y6) (b_v64 y0 y1 y2 y4 y5 y6 y7 y8 y9)⟩]

end Cert.KernelIdeal.Fr

end
-- ==== Proof.Pack.lean ====
import Idealize.ShloMosaic.PureOps.Ideal.Laws

noncomputable section

namespace Cert.Pack

open scoped BigOperators

/-- Flattened indices: two slots of 64 lanes, two gates of two slots, three orders per feature, 64 features per node, 512 nodes per batch element. -/
def pk (bb : Fin 2) (f : Fin 64) : Fin 128 := ⟨bb.val * 64 + f.val, by have := bb.isLt; have := f.isLt; omega⟩
def ruc (g bb : Fin 2) (o : Fin 64) : Fin 256 :=
  ⟨g.val * 128 + bb.val * 64 + o.val, by have := g.isLt; have := bb.isLt; have := o.isLt; omega⟩
def ar (bb : Fin 2) (k : Fin 3) : Fin 6 := ⟨bb.val * 3 + k.val, by have := bb.isLt; have := k.isLt; omega⟩
def w195 (f : Fin 65) (k : Fin 3) : Fin 195 := ⟨f.val * 3 + k.val, by have := f.isLt; have := k.isLt; omega⟩
def w384 (f : Fin 128) (k : Fin 3) : Fin 384 := ⟨f.val * 3 + k.val, by have := f.isLt; have := k.isLt; omega⟩
def s1 (f : Fin 64) : Fin 65 := ⟨1 + f.val, by have := f.isLt; omega⟩
def nf (n : Fin 512) (f : Fin 64) : Fin 32768 := ⟨n.val * 64 + f.val, by have := n.isLt; have := f.isLt; omega⟩
def bn (b : Fin 64) (n : Fin 512) : Fin 32768 := ⟨b.val * 512 + n.val, by have := b.isLt; have := n.isLt; omega⟩
def bat (g : Fin 32) (bb : Fin 2) : Fin 64 := ⟨g.val * 2 + bb.val, by have := g.isLt; have := bb.isLt; omega⟩

theorem pk_surj (j : Fin 128) : ∃ bb f, j = pk bb f := by
  have hj := j.isLt
  refine ⟨⟨j.val / 64, by omega⟩, ⟨j.val % 64, by omega⟩, ?_⟩
  apply Fin.ext
  show j.val = j.val / 64 * 64 + j.val % 64
  omega
theorem ruc_surj (j : Fin 256) : ∃ g bb o, j = ruc g bb o := by
  have hj := j.isLt
  refine ⟨⟨j.val / 128, by omega⟩, ⟨j.val % 128 / 64, by omega⟩, ⟨j.val % 64, by omega⟩, ?_⟩
  apply Fin.ext
  show j.val = j.val / 128 * 128 + j.val % 128 / 64 * 64 + j.val % 64
  omega
theorem ar_surj (r : Fin 6) : ∃ bb k, r = ar bb k := by
  have hr := r.isLt
  refine ⟨⟨r.val / 3, by omega⟩, ⟨r.val % 3, by omega⟩, ?_⟩
  apply Fin.ext
  show r.val = r.val / 3 * 3 + r.val % 3
  omega
theorem nf_surj (p : Fin 32768) : ∃ n f, p = nf n f := by
  have hp := p.isLt
  refine ⟨⟨p.val / 64, by omega⟩, ⟨p.val % 64, by omega⟩, ?_⟩
  apply Fin.ext
  show p.val = p.val / 64 * 64 + p.val % 64
  omega
theorem bn_surj (p : Fin 32768) : ∃ b n, p = bn b n := by
  have hp := p.isLt
  refine ⟨⟨p.val / 512, by omega⟩, ⟨p.val % 512, by omega⟩, ?_⟩
  apply Fin.ext
  show p.val = p.val / 512 * 512 + p.val % 512
  omega
theorem bat_surj (b : Fin 64) : ∃ g bb, b = bat g bb := by
  have hb := b.isLt
  refine ⟨⟨b.val / 2, by omega⟩, ⟨b.val % 2, by omega⟩, ?_⟩
  apply Fin.ext
  show b.val = b.val / 2 * 2 + b.val % 2
  omega
theorem pk_inj {bb bb' : Fin 2} {f f' : Fin 64} (h : pk bb f = pk bb' f') : bb = bb' ∧ f = f' := by
  have hv : bb.val * 64 + f.val = bb'.val * 64 + f'.val := congrArg Fin.val h
  have h1 := f.isLt
  have h2 := f'.isLt
  exact ⟨Fin.ext (by omega), Fin.ext (by omega)⟩

variable {M : Type*} [AddCommMonoid M]

/-- A sum over `m * n` indices is a double sum over `m` blocks of `n`. -/
theorem sum_split (m n : ℕ) (F : Fin (m * n) → M) :
    ∑ j, F j = ∑ a : Fin m, ∑ b : Fin n, F (finProdFinEquiv (a, b)) :=
  (Equiv.sum_comp finProdFinEquiv F).symm.trans
    (Fintype.sum_prod_type (fun x : Fin m × Fin n => F (finProdFinEquiv x)))

theorem sum_pk (F : Fin 128 → M) : ∑ j, F j = ∑ bb, ∑ f, F (pk bb f) :=
  (sum_split 2 64 F).trans <| Finset.sum_congr rfl fun bb _ => Finset.sum_congr rfl fun f _ =>
    congrArg F (Fin.ext (show f.val + 64 * bb.val = bb.val * 64 + f.val by omega))
theorem sum_ar (F : Fin 6 → M) : ∑ r, F r = ∑ bb, ∑ k, F (ar bb k) :=
  (sum_split 2 3 F).trans <| Finset.sum_congr rfl fun bb _ => Finset.sum_congr rfl fun k _ =>
    congrArg F (Fin.ext (show k.val + 3 * bb.val = bb.val * 3 + k.val by omega))
theorem sum_w195 (F : Fin 195 → M) : ∑ j, F j = ∑ f, ∑ k, F (w195 f k) :=
  (sum_split 65 3 F).trans <| Finset.sum_congr rfl fun f _ => Finset.sum_congr rfl fun k _ =>
    congrArg F (Fin.ext (show k.val + 3 * f.val = f.val * 3 + k.val by omega))
theorem sum_w384 (F : Fin 384 → M) : ∑ j, F j = ∑ f, ∑ k, F (w384 f k) :=
  (sum_split 128 3 F).trans <| Finset.sum_congr rfl fun f _ => Finset.sum_congr rfl fun k _ =>
    congrArg F (Fin.ext (show k.val + 3 * f.val = f.val * 3 + k.val by omega))
theorem sum_s1 (F : Fin 65 → M) : ∑ f, F f = F 0 + ∑ f, F (s1 f) :=
  (Fin.sum_univ_succ (n := 64) F).trans <| congrArg (F 0 + ·) <| Finset.sum_congr rfl fun f _ =>
    congrArg F (Fin.ext (show f.val + 1 = 1 + f.val by omega))
theorem sum_halves (F : Fin 128 → M) : ∑ f, F f = ∑ f, F (pk 0 f) + ∑ f, F (pk 1 f) :=
  (sum_pk F).trans (Fin.sum_univ_two _)

theorem two_cases (bb : Fin 2) : bb = 0 ∨ bb = 1 := by
  rcases bb with ⟨v, hv⟩
  have hv' : v = 0 ∨ v = 1 := by omega
  rcases hv' with rfl | rfl
  · exact Or.inl rfl
  · exact Or.inr rfl

theorem one_ne_zero' : ¬ ((1 : Fin 2) = 0) := by decide
theorem zero_ne_one' : ¬ ((0 : Fin 2) = 1) := by decide

/-- Against a column that vanishes outside slot `bb`, only slot `bb`'s lanes contribute. -/
theorem sum_blockdiag (H W : Fin 128 → EReal) (w : Fin 64 → EReal) (bb : Fin 2)
    (hW : ∀ bb' f, W (pk bb' f) = if bb' = bb then w f else 0) :
    ∑ j, H j * W j = ∑ f, H (pk bb f) * w f := by
  rw [sum_halves]
  simp only [hW]
  rcases two_cases bb with rfl | rfl
  · simp only [if_neg one_ne_zero', if_true, mul_zero, Finset.sum_const_zero, add_zero]
  · simp only [if_neg zero_ne_one', if_true, mul_zero, Finset.sum_const_zero, zero_add]

theorem sum_blockdiag6 (A W : Fin 6 → EReal) (w : Fin 3 → EReal) (bb : Fin 2)
    (hW : ∀ bb' k, W (ar bb' k) = if bb' = bb then w k else 0) :
    ∑ r, A r * W r = ∑ k, A (ar bb k) * w k := by
  rw [sum_ar, Fin.sum_univ_two]
  simp only [hW]
  rcases two_cases bb with rfl | rfl
  · simp only [if_neg one_ne_zero', if_true, mul_zero, Finset.sum_const_zero, add_zero]
  · simp only [if_neg zero_ne_one', if_true, mul_zero, Finset.sum_const_zero, zero_add]

end Cert.Pack

end
-- ==== Proof.Region0Val.lean ====
import proofs.«162860_g19069654794669_cont_sun_m_30_12_alg».proof.Proof.FrameI
import proofs.«162860_g19069654794669_cont_sun_m_30_12_alg».proof.Proof.Pack
import Idealize.ShloMosaic.Lib.ValueIdx
import Idealize.ShloMosaic.Lib.ValueLayout
import Idealize.ShloMosaic.Lib.Pipeline.Value

noncomputable section

namespace Cert.KernelIdeal.Asm0

open Idealize.ShloMosaic Idealize.ShloMosaic.ValueIdx Idealize.ShloMosaic.TcCoe Idealize.SL.Sem
open Cert.KernelIdeal Cert.KernelIdeal.Gen Cert.KernelIdeal.Fr Cert.Pack
open Idealize.ShloMosaic.Pipeline (Dat)

variable (V : (c : Dev nD) → (b : Ref sig .tc) → Buf (Elt Ideal) ((c : Thread nD τ).loc b))

-- A block cut at zero offsets with the array's own sizes holds every index of the array.
theorem mem_access_unit_zero {κ : Kind} (b : Ref sig κ) {off : Fin b.ty.shape.rank → Nat} (h : off = fun _ => 0)
    (inb : ∀ a, off a + b.ty.shape.size a ≤ b.ty.shape.size a) (i : b.ty.Idx) :
    i ∈ ((Memref.whole b).access (Rect.unit off b.ty.shape.size inb) : View sig κ _ _ _).set := by
  subst h
  exact (Finset.ext_iff.mp (Memref.set_access_whole b) i).mpr (Finset.mem_univ i)

theorem iblk0_0 (c : Dev nD) (t : Fin cfg0.N) :
    (iblk0 V c 0 t : Vec Ideal S512x512 .f32) = (V c main_arg2 : Vec Ideal S512x512 .f32) :=
  Memref.read_access_unit_zero (Elt Ideal) main_arg2 (funext fun _ => Nat.zero_mul _) _ _
theorem iblk0_1 (c : Dev nD) (t : Fin cfg0.N) :
    (iblk0 V c 1 t : Vec Ideal S512x64 .f32) = (V c main_v0 : Vec Ideal S512x64 .f32) :=
  Memref.read_access_unit_zero (Elt Ideal) main_v0 (funext fun _ => Nat.zero_mul _) _ _
theorem iblk0_2 (c : Dev nD) (t : Fin cfg0.N) :
    (iblk0 V c 2 t : Vec Ideal S3x65x128 .f32) = (V c main_v3 : Vec Ideal S3x65x128 .f32) :=
  Memref.read_access_unit_zero (Elt Ideal) main_v3 (funext fun _ => Nat.zero_mul _) _ _
theorem iblk0_3 (c : Dev nD) (t : Fin cfg0.N) :
    (iblk0 V c 3 t : Vec Ideal S3x65x64 .f32) = (V c main_v5 : Vec Ideal S3x65x64 .f32) :=
  Memref.read_access_unit_zero (Elt Ideal) main_v5 (funext fun _ => Nat.zero_mul _) _ _
theorem iblk0_4 (c : Dev nD) (t : Fin cfg0.N) :
    (iblk0 V c 4 t : Vec Ideal S3x128x128 .f32) = (V c main_v7 : Vec Ideal S3x128x128 .f32) :=
  Memref.read_access_unit_zero (Elt Ideal) main_v7 (funext fun _ => Nat.zero_mul _) _ _
theorem iblk0_5 (c : Dev nD) (t : Fin cfg0.N) :
    (iblk0 V c 5 t : Vec Ideal S3x128x64 .f32) = (V c main_v9 : Vec Ideal S3x128x64 .f32) :=
  Memref.read_access_unit_zero (Elt Ideal) main_v9 (funext fun _ => Nat.zero_mul _) _ _
theorem iblk0_6 (c : Dev nD) (t : Fin cfg0.N) :
    (iblk0 V c 6 t : Vec Ideal S1x128 .f32) = (V c main_v10 : Vec Ideal S1x128 .f32) :=
  Memref.read_access_unit_zero (Elt Ideal) main_v10 (funext fun _ => Nat.zero_mul _) _ _
theorem iblk0_7 (c : Dev nD) (t : Fin cfg0.N) :
    (iblk0 V c 7 t : Vec Ideal S1x64 .f32) = (V c main_v11 : Vec Ideal S1x64 .f32) :=
  Memref.read_access_unit_zero (Elt Ideal) main_v11 (funext fun _ => Nat.zero_mul _) _ _
theorem iblk0_8 (c : Dev nD) (t : Fin cfg0.N) :
    (iblk0 V c 8 t : Vec Ideal S1x128 .f32) = (V c main_v12 : Vec Ideal S1x128 .f32) :=
  Memref.read_access_unit_zero (Elt Ideal) main_v12 (funext fun _ => Nat.zero_mul _) _ _
theorem iblk0_9 (c : Dev nD) (t : Fin cfg0.N) :
    (iblk0 V c 9 t : Vec Ideal S1x64 .f32) = (V c main_v13 : Vec Ideal S1x64 .f32) :=
  Memref.read_access_unit_zero (Elt Ideal) main_v13 (funext fun _ => Nat.zero_mul _) _ _
theorem iblk0_10 (c : Dev nD) (t : Fin cfg0.N) :
    (iblk0 V c 10 t : Vec Ideal S64x1 .f32) = (V c main_arg11 : Vec Ideal S64x1 .f32) :=
  Memref.read_access_unit_zero (Elt Ideal) main_arg11 (funext fun _ => Nat.zero_mul _) _ _

variable (m : (ℓ : Loc nD τ sig) → Buf (Elt Ideal) ℓ) (ρ : Dev nD → PrngReg)

theorem region0_out_0 (c : Dev nD) :
    (W2 m ρ c (Proc.devRef .tc main_v14_0) : Vec Ideal S512x512 .f32)
      = out0_11 (W1 m ρ c (Proc.devRef .tc main_arg2)) :=
  (W2_arr m ρ c 11).trans <| (dat0 (VV1 m ρ) c).arrAt_eq_of_cover 11 _
    (fun t _ => by
      rw [Dat.flushed, after0_11, iblk0_0]
      exact (Memref.read_access_unit_zero (Elt Ideal) main_v14_0 (funext fun _ => Nat.zero_mul _) _ _).symm)
    fun i => ⟨t0_0, flush0_11 t0_0, mem_access_unit_zero main_v14_0 (funext fun _ => Nat.zero_mul _) _ i⟩
theorem region0_out_1 (c : Dev nD) :
    (W2 m ρ c (Proc.devRef .tc main_v14_1) : Vec Ideal S512x64 .f32)
      = out0_12 (W1 m ρ c (Proc.devRef .tc main_arg2)) (W1 m ρ c (Proc.devRef .tc main_v0)) :=
  (W2_arr m ρ c 12).trans <| (dat0 (VV1 m ρ) c).arrAt_eq_of_cover 12 _
    (fun t _ => by
      rw [Dat.flushed, after0_12, iblk0_0, iblk0_1]
      exact (Memref.read_access_unit_zero (Elt Ideal) main_v14_1 (funext fun _ => Nat.zero_mul _) _ _).symm)
    fun i => ⟨t0_0, flush0_12 t0_0, mem_access_unit_zero main_v14_1 (funext fun _ => Nat.zero_mul _) _ i⟩
theorem region0_out_2 (c : Dev nD) :
    (W2 m ρ c (Proc.devRef .tc main_v14_2) : Vec Ideal S512x64 .f32)
      = out0_13 (W1 m ρ c (Proc.devRef .tc main_arg2)) (W1 m ρ c (Proc.devRef .tc main_v0)) :=
  (W2_arr m ρ c 13).trans <| (dat0 (VV1 m ρ) c).arrAt_eq_of_cover 13 _
    (fun t _ => by
      rw [Dat.flushed, after0_13, iblk0_0, iblk0_1]
      exact (Memref.read_access_unit_zero (Elt Ideal) main_v14_2 (funext fun _ => Nat.zero_mul _) _ _).symm)
    fun i => ⟨t0_0, flush0_13 t0_0, mem_access_unit_zero main_v14_2 (funext fun _ => Nat.zero_mul _) _ i⟩
theorem region0_out_3 (c : Dev nD) :
    (W2 m ρ c (Proc.devRef .tc main_v14_3) : Vec Ideal S6x256 .f32) = out0_14 (W1 m ρ c (Proc.devRef .tc main_v3)) :=
  (W2_arr m ρ c 14).trans <| (dat0 (VV1 m ρ) c).arrAt_eq_of_cover 14 _
    (fun t _ => by
      rw [Dat.flushed, after0_14, iblk0_2]
      exact (Memref.read_access_unit_zero (Elt Ideal) main_v14_3 (funext fun _ => Nat.zero_mul _) _ _).symm)
    fun i => ⟨t0_0, flush0_14 t0_0, mem_access_unit_zero main_v14_3 (funext fun _ => Nat.zero_mul _) _ i⟩
theorem region0_out_4 (c : Dev nD) :
    (W2 m ρ c (Proc.devRef .tc main_v14_4) : Vec Ideal S3x128x256 .f32) = out0_15 (W1 m ρ c (Proc.devRef .tc main_v3)) :=
  (W2_arr m ρ c 15).trans <| (dat0 (VV1 m ρ) c).arrAt_eq_of_cover 15 _
    (fun t _ => by
      rw [Dat.flushed, after0_15, iblk0_2]
      exact (Memref.read_access_unit_zero (Elt Ideal) main_v14_4 (funext fun _ => Nat.zero_mul _) _ _).symm)
    fun i => ⟨t0_0, flush0_15 t0_0, mem_access_unit_zero main_v14_4 (funext fun _ => Nat.zero_mul _) _ i⟩
theorem region0_out_5 (c : Dev nD) :
    (W2 m ρ c (Proc.devRef .tc main_v14_5) : Vec Ideal S1x256 .f32) = out0_16 (W1 m ρ c (Proc.devRef .tc main_v10)) :=
  (W2_arr m ρ c 16).trans <| (dat0 (VV1 m ρ) c).arrAt_eq_of_cover 16 _
    (fun t _ => by
      rw [Dat.flushed, after0_16, iblk0_6]
      exact (Memref.read_access_unit_zero (Elt Ideal) main_v14_5 (funext fun _ => Nat.zero_mul _) _ _).symm)
    fun i => ⟨t0_0, flush0_16 t0_0, mem_access_unit_zero main_v14_5 (funext fun _ => Nat.zero_mul _) _ i⟩
theorem region0_out_6 (c : Dev nD) :
    (W2 m ρ c (Proc.devRef .tc main_v14_6) : Vec Ideal S6x128 .f32) = out0_17 (W1 m ρ c (Proc.devRef .tc main_v5)) :=
  (W2_arr m ρ c 17).trans <| (dat0 (VV1 m ρ) c).arrAt_eq_of_cover 17 _
    (fun t _ => by
      rw [Dat.flushed, after0_17, iblk0_3]
      exact (Memref.read_access_unit_zero (Elt Ideal) main_v14_6 (funext fun _ => Nat.zero_mul _) _ _).symm)
    fun i => ⟨t0_0, flush0_17 t0_0, mem_access_unit_zero main_v14_6 (funext fun _ => Nat.zero_mul _) _ i⟩
theorem region0_out_7 (c : Dev nD) :
    (W2 m ρ c (Proc.devRef .tc main_v14_7) : Vec Ideal S3x128x128 .f32) = out0_18 (W1 m ρ c (Proc.devRef .tc main_v5)) :=
  (W2_arr m ρ c 18).trans <| (dat0 (VV1 m ρ) c).arrAt_eq_of_cover 18 _
    (fun t _ => by
      rw [Dat.flushed, after0_18, iblk0_3]
      exact (Memref.read_access_unit_zero (Elt Ideal) main_v14_7 (funext fun _ => Nat.zero_mul _) _ _).symm)
    fun i => ⟨t0_0, flush0_18 t0_0, mem_access_unit_zero main_v14_7 (funext fun _ => Nat.zero_mul _) _ i⟩
theorem region0_out_8 (c : Dev nD) :
    (W2 m ρ c (Proc.devRef .tc main_v14_8) : Vec Ideal S1x128 .f32) = out0_19 (W1 m ρ c (Proc.devRef .tc main_v11)) :=
  (W2_arr m ρ c 19).trans <| (dat0 (VV1 m ρ) c).arrAt_eq_of_cover 19 _
    (fun t _ => by
      rw [Dat.flushed, after0_19, iblk0_7]
      exact (Memref.read_access_unit_zero (Elt Ideal) main_v14_8 (funext fun _ => Nat.zero_mul _) _ _).symm)
    fun i => ⟨t0_0, flush0_19 t0_0, mem_access_unit_zero main_v14_8 (funext fun _ => Nat.zero_mul _) _ i⟩
theorem region0_out_9 (c : Dev nD) :
    (W2 m ρ c (Proc.devRef .tc main_v14_9) : Vec Ideal S3x128x256 .f32) = out0_20 (W1 m ρ c (Proc.devRef .tc main_v7)) :=
  (W2_arr m ρ c 20).trans <| (dat0 (VV1 m ρ) c).arrAt_eq_of_cover 20 _
    (fun t _ => by
      rw [Dat.flushed, after0_20, iblk0_4]
      exact (Memref.read_access_unit_zero (Elt Ideal) main_v14_9 (funext fun _ => Nat.zero_mul _) _ _).symm)
    fun i => ⟨t0_0, flush0_20 t0_0, mem_access_unit_zero main_v14_9 (funext fun _ => Nat.zero_mul _) _ i⟩
theorem region0_out_10 (c : Dev nD) :
    (W2 m ρ c (Proc.devRef .tc main_v14_10) : Vec Ideal S3x128x256 .f32) = out0_21 (W1 m ρ c (Proc.devRef .tc main_v7)) :=
  (W2_arr m ρ c 21).trans <| (dat0 (VV1 m ρ) c).arrAt_eq_of_cover 21 _
    (fun t _ => by
      rw [Dat.flushed, after0_21, iblk0_4]
      exact (Memref.read_access_unit_zero (Elt Ideal) main_v14_10 (funext fun _ => Nat.zero_mul _) _ _).symm)
    fun i => ⟨t0_0, flush0_21 t0_0, mem_access_unit_zero main_v14_10 (funext fun _ => Nat.zero_mul _) _ i⟩
theorem region0_out_11 (c : Dev nD) :
    (W2 m ρ c (Proc.devRef .tc main_v14_11) : Vec Ideal S1x256 .f32) = out0_22 (W1 m ρ c (Proc.devRef .tc main_v12)) :=
  (W2_arr m ρ c 22).trans <| (dat0 (VV1 m ρ) c).arrAt_eq_of_cover 22 _
    (fun t _ => by
      rw [Dat.flushed, after0_22, iblk0_8]
      exact (Memref.read_access_unit_zero (Elt Ideal) main_v14_11 (funext fun _ => Nat.zero_mul _) _ _).symm)
    fun i => ⟨t0_0, flush0_22 t0_0, mem_access_unit_zero main_v14_11 (funext fun _ => Nat.zero_mul _) _ i⟩
theorem region0_out_12 (c : Dev nD) :
    (W2 m ρ c (Proc.devRef .tc main_v14_12) : Vec Ideal S3x128x128 .f32) = out0_23 (W1 m ρ c (Proc.devRef .tc main_v9)) :=
  (W2_arr m ρ c 23).trans <| (dat0 (VV1 m ρ) c).arrAt_eq_of_cover 23 _
    (fun t _ => by
      rw [Dat.flushed, after0_23, iblk0_5]
      exact (Memref.read_access_unit_zero (Elt Ideal) main_v14_12 (funext fun _ => Nat.zero_mul _) _ _).symm)
    fun i => ⟨t0_0, flush0_23 t0_0, mem_access_unit_zero main_v14_12 (funext fun _ => Nat.zero_mul _) _ i⟩
theorem region0_out_13 (c : Dev nD) :
    (W2 m ρ c (Proc.devRef .tc main_v14_13) : Vec Ideal S3x128x128 .f32) = out0_24 (W1 m ρ c (Proc.devRef .tc main_v9)) :=
  (W2_arr m ρ c 24).trans <| (dat0 (VV1 m ρ) c).arrAt_eq_of_cover 24 _
    (fun t _ => by
      rw [Dat.flushed, after0_24, iblk0_5]
      exact (Memref.read_access_unit_zero (Elt Ideal) main_v14_13 (funext fun _ => Nat.zero_mul _) _ _).symm)
    fun i => ⟨t0_0, flush0_24 t0_0, mem_access_unit_zero main_v14_13 (funext fun _ => Nat.zero_mul _) _ i⟩
theorem region0_out_14 (c : Dev nD) :
    (W2 m ρ c (Proc.devRef .tc main_v14_14) : Vec Ideal S1x128 .f32) = out0_25 (W1 m ρ c (Proc.devRef .tc main_v13)) :=
  (W2_arr m ρ c 25).trans <| (dat0 (VV1 m ρ) c).arrAt_eq_of_cover 25 _
    (fun t _ => by
      rw [Dat.flushed, after0_25, iblk0_9]
      exact (Memref.read_access_unit_zero (Elt Ideal) main_v14_14 (funext fun _ => Nat.zero_mul _) _ _).symm)
    fun i => ⟨t0_0, flush0_25 t0_0, mem_access_unit_zero main_v14_14 (funext fun _ => Nat.zero_mul _) _ i⟩
theorem region0_out_15 (c : Dev nD) :
    (W2 m ρ c (Proc.devRef .tc main_v14_15) : Vec Ideal S128x2 .f32) = out0_26 (W1 m ρ c (Proc.devRef .tc main_arg11)) :=
  (W2_arr m ρ c 26).trans <| (dat0 (VV1 m ρ) c).arrAt_eq_of_cover 26 _
    (fun t _ => by
      rw [Dat.flushed, after0_26, iblk0_10]
      exact (Memref.read_access_unit_zero (Elt Ideal) main_v14_15 (funext fun _ => Nat.zero_mul _) _ _).symm)
    fun i => ⟨t0_0, flush0_26 t0_0, mem_access_unit_zero main_v14_15 (funext fun _ => Nat.zero_mul _) _ i⟩

end Cert.KernelIdeal.Asm0

end
-- ==== Proof.Region1Val.lean ====
import proofs.«162860_g19069654794669_cont_sun_m_30_12_alg».proof.Proof.FrameI
import proofs.«162860_g19069654794669_cont_sun_m_30_12_alg».proof.Proof.Pack
import Idealize.ShloMosaic.Lib.ValueIdx
import Idealize.ShloMosaic.Lib.Pipeline.Value

noncomputable section

namespace Cert.KernelIdeal.Asm1

open Idealize.ShloMosaic Idealize.ShloMosaic.TcCoe Idealize.ShloMosaic.ValueIdx Idealize.SL.Sem
open Cert.KernelIdeal Cert.KernelIdeal.Gen Cert.KernelIdeal.Fr Cert.Pack
open Idealize.ShloMosaic.Pipeline (Dat)

def pt (t : Fin cfg1.N) : Fin 32 := ⟨t.val, Nat.lt_of_lt_of_eq t.isLt N_1⟩

theorem zero1 : ∀ w : Fin cfg1.W, w.val ∉ [1, 2, 3, 18, 19] →
    ∀ (t : Fin cfg1.N) (a : Fin (cfg1.win w).shape.rank), (cfg1.win w).index t a = 0 :=
  (by decide +kernel : ∀ w : Fin cfg1.W, w.val ∉ [1, 2, 3, 18, 19] → ∀ (t : Fin grid1.N) a, _)

theorem emb0 (w : Fin cfg1.W) (hw : w.val ∉ [1, 2, 3, 18, 19]) (t : Fin cfg1.N)
    (y : ((cfg1.win w).xblock (grid1.coords t)).Idx) (a : Fin (cfg1.win w).shape.rank) :
    (((cfg1.win w).rect t).emb y a : Nat) = y a :=
  (cfg1.win w).rect_emb_val_of_index_zero t a (zero1 w hw t a) y

theorem idx1 : ∀ w : Fin cfg1.W, w.val ∈ [1, 2, 3, 18, 19] → ∀ (t : Fin cfg1.N) (a : Fin (cfg1.win w).shape.rank),
    (cfg1.win w).index t a = if a.val = w.val / 19 then t.val else 0 :=
  (by decide +kernel : ∀ w : Fin cfg1.W, w.val ∈ [1, 2, 3, 18, 19] → ∀ (t : Fin grid1.N) a, _)

theorem emb1 (w : Fin cfg1.W) (hw : w.val ∈ [1, 2, 3, 18, 19]) (t : Fin cfg1.N)
    (y : ((cfg1.win w).xblock (grid1.coords t)).Idx) (a : Fin (cfg1.win w).shape.rank) :
    (((cfg1.win w).rect t).emb y a : Nat) = (if a.val = w.val / 19 then t.val else 0) * (cfg1.win w).size a + y a := by
  rw [Pipeline.Window.rect_emb_val, idx1 w hw t a]

theorem whole {s : Shape} {α : Type} (g : s.Idx → α) {em : s.Idx → s.Idx} (h : ∀ y a, (em y a : Nat) = y a) :
    (fun y => g (em y)) = g :=
  funext fun y => congrArg g (funext fun a => Fin.ext (h y a))

section Region1

variable (V : (c : Dev nD) → (b : Ref sig .tc) → Buf (Elt Ideal) ((c : Thread nD τ).loc b)) (c : Dev nD)

theorem iblk1_1_at (t : Fin cfg1.N) (bb : Fin 2) (n : Fin 512) (k : Fin 3) :
    (iblk1 V c 1 t : Vec Ideal S2x512x3 .f32) (ix3 bb n k) = (V c main_v19 : Vec Ideal S64x512x3 .f32) (ix3 (bat (pt t) bb) n k) :=
  congrArg (V c main_v19 : Vec Ideal S64x512x3 .f32) (funext fun a => Fin.ext ((emb1 1 (by decide) t _ a).trans
    (match a with | ⟨0, _⟩ => rfl | ⟨1, _⟩ => Nat.zero_add _ | ⟨2, _⟩ => Nat.zero_add _)))

theorem iblk1_2_at (t : Fin cfg1.N) (bb : Fin 2) (n : Fin 512) (f : Fin 64) :
    (iblk1 V c 2 t : Vec Ideal S2x512x64 .f32) (ix3 bb n f) = (V c main_v21 : Vec Ideal S64x512x64 .f32) (ix3 (bat (pt t) bb) n f) :=
  congrArg (V c main_v21 : Vec Ideal S64x512x64 .f32) (funext fun a => Fin.ext ((emb1 2 (by decide) t _ a).trans
    (match a with | ⟨0, _⟩ => rfl | ⟨1, _⟩ => Nat.zero_add _ | ⟨2, _⟩ => Nat.zero_add _)))

theorem iblk1_3_at (t : Fin cfg1.N) (bb : Fin 2) (n : Fin 512) (f : Fin 64) :
    (iblk1 V c 3 t : Vec Ideal S2x512x64 .f32) (ix3 bb n f) = (V c main_v23 : Vec Ideal S64x512x64 .f32) (ix3 (bat (pt t) bb) n f) :=
  congrArg (V c main_v23 : Vec Ideal S64x512x64 .f32) (funext fun a => Fin.ext ((emb1 3 (by decide) t _ a).trans
    (match a with | ⟨0, _⟩ => rfl | ⟨1, _⟩ => Nat.zero_add _ | ⟨2, _⟩ => Nat.zero_add _)))

theorem iblk1_0_eq (t : Fin cfg1.N) : (iblk1 V c 0 t : Vec Ideal S512x512 .f32) = V c main_v14_0 :=
  whole (V c main_v14_0 : Vec Ideal S512x512 .f32) (emb0 0 (by decide) t)
theorem iblk1_4_eq (t : Fin cfg1.N) : (iblk1 V c 4 t : Vec Ideal S6x256 .f32) = V c main_v14_3 :=
  whole (V c main_v14_3 : Vec Ideal S6x256 .f32) (emb0 4 (by decide) t)
theorem iblk1_5_eq (t : Fin cfg1.N) : (iblk1 V c 5 t : Vec Ideal S3x128x256 .f32) = V c main_v14_4 :=
  whole (V c main_v14_4 : Vec Ideal S3x128x256 .f32) (emb0 5 (by decide) t)
theorem iblk1_6_eq (t : Fin cfg1.N) : (iblk1 V c 6 t : Vec Ideal S1x256 .f32) = V c main_v14_5 :=
  whole (V c main_v14_5 : Vec Ideal S1x256 .f32) (emb0 6 (by decide) t)
theorem iblk1_7_eq (t : Fin cfg1.N) : (iblk1 V c 7 t : Vec Ideal S6x128 .f32) = V c main_v14_6 :=
  whole (V c main_v14_6 : Vec Ideal S6x128 .f32) (emb0 7 (by decide) t)
theorem iblk1_8_eq (t : Fin cfg1.N) : (iblk1 V c 8 t : Vec Ideal S3x128x128 .f32) = V c main_v14_7 :=
  whole (V c main_v14_7 : Vec Ideal S3x128x128 .f32) (emb0 8 (by decide) t)
theorem iblk1_9_eq (t : Fin cfg1.N) : (iblk1 V c 9 t : Vec Ideal S1x128 .f32) = V c main_v14_8 :=
  whole (V c main_v14_8 : Vec Ideal S1x128 .f32) (emb0 9 (by decide) t)
theorem iblk1_10_eq (t : Fin cfg1.N) : (iblk1 V c 10 t : Vec Ideal S3x128x256 .f32) = V c main_v14_9 :=
  whole (V c main_v14_9 : Vec Ideal S3x128x256 .f32) (emb0 10 (by decide) t)
theorem iblk1_11_eq (t : Fin cfg1.N) : (iblk1 V c 11 t : Vec Ideal S3x128x256 .f32) = V c main_v14_10 :=
  whole (V c main_v14_10 : Vec Ideal S3x128x256 .f32) (emb0 11 (by decide) t)
theorem iblk1_12_eq (t : Fin cfg1.N) : (iblk1 V c 12 t : Vec Ideal S1x256 .f32) = V c main_v14_11 :=
  whole (V c main_v14_11 : Vec Ideal S1x256 .f32) (emb0 12 (by decide) t)
theorem iblk1_13_eq (t : Fin cfg1.N) : (iblk1 V c 13 t : Vec Ideal S3x128x128 .f32) = V c main_v14_12 :=
  whole (V c main_v14_12 : Vec Ideal S3x128x128 .f32) (emb0 13 (by decide) t)
theorem iblk1_14_eq (t : Fin cfg1.N) : (iblk1 V c 14 t : Vec Ideal S3x128x128 .f32) = V c main_v14_13 :=
  whole (V c main_v14_13 : Vec Ideal S3x128x128 .f32) (emb0 14 (by decide) t)
theorem iblk1_15_eq (t : Fin cfg1.N) : (iblk1 V c 15 t : Vec Ideal S1x128 .f32) = V c main_v14_14 :=
  whole (V c main_v14_14 : Vec Ideal S1x128 .f32) (emb0 15 (by decide) t)
theorem iblk1_16_eq (t : Fin cfg1.N) : (iblk1 V c 16 t : Vec Ideal S128x2 .f32) = V c main_v14_15 :=
  whole (V c main_v14_15 : Vec Ideal S128x2 .f32) (emb0 16 (by decide) t)
theorem iblk1_17_eq (t : Fin cfg1.N) : (iblk1 V c 17 t : Vec Ideal S1x1 .f32) = V c main_v24 :=
  whole (V c main_v24 : Vec Ideal S1x1 .f32) (emb0 17 (by decide) t)

theorem emb1_18 (t : Fin cfg1.N) (bb : Fin 2) (n : Fin 512) (z : Fin 1) :
    ((cfg1.win 18).blk t).view.emb (ix3 bb n z : S2x512x1.Idx) = (ix3 (bat (pt t) bb) n z : S64x512x1.Idx) :=
  funext fun a => Fin.ext ((emb1 18 (by decide) t _ a).trans
    (match a with | ⟨0, _⟩ => rfl | ⟨1, _⟩ => Nat.zero_add _ | ⟨2, _⟩ => Nat.zero_add _))

theorem emb1_19 (t : Fin cfg1.N) (l bb : Fin 2) (n : Fin 512) (f : Fin 64) :
    ((cfg1.win 19).blk t).view.emb (ix4 l bb n f : S2x2x512x64.Idx) = (ix4 l (bat (pt t) bb) n f : S2x64x512x64.Idx) :=
  funext fun a => Fin.ext ((emb1 19 (by decide) t _ a).trans
    (match a with | ⟨0, _⟩ => Nat.zero_add _ | ⟨1, _⟩ => rfl | ⟨2, _⟩ => Nat.zero_add _ | ⟨3, _⟩ => Nat.zero_add _))

theorem cut1_18_at (X : Vec Ideal S2x512x1 .f32) (G : Vec Ideal S64x512x1 .f32) (t : Fin cfg1.N)
    (hX : ∀ (bb : Fin 2) (n : Fin 512), X (ix3 bb n 0) = G (ix3 (bat (pt t) bb) n 0)) (y : S2x512x1.Idx) :
    (cfg1.win 18).cut (grid1.coords t) X y = ((cfg1.win 18).blk t).view.read (Elt Ideal) G y := by
  obtain ⟨bb, n, z, rfl⟩ : ∃ (bb : Fin 2) (n : Fin 512) (z : Fin 1), y = ix3 bb n z := ⟨y 0, y 1, y 2, eq_ix3 y⟩
  obtain rfl : z = 0 := Subsingleton.elim z 0
  exact (hX bb n).trans (congrArg G (emb1_18 t bb n 0)).symm

theorem cut1_19_at (X : Vec Ideal S2x2x512x64 .f32) (G : Vec Ideal S2x64x512x64 .f32) (t : Fin cfg1.N)
    (hX : ∀ (l bb : Fin 2) (n : Fin 512) (f : Fin 64), X (ix4 l bb n f) = G (ix4 l (bat (pt t) bb) n f))
    (y : S2x2x512x64.Idx) :
    (cfg1.win 19).cut (grid1.coords t) X y = ((cfg1.win 19).blk t).view.read (Elt Ideal) G y := by
  obtain ⟨l, bb, n, f, rfl⟩ : ∃ (l bb : Fin 2) (n : Fin 512) (f : Fin 64), y = ix4 l bb n f := ⟨y 0, y 1, y 2, y 3, eq_ix4 y⟩
  exact (hX l bb n f).trans (congrArg G (emb1_19 t l bb n f)).symm

-- Batch element b lies in the block of grid point b / 2.
theorem covered1_18 (i : S64x512x1.Idx) :
    ∃ t : Fin cfg1.N, (cfg1.win 18).flush t = true ∧ i ∈ ((cfg1.win 18).blk t).view.set := by
  obtain ⟨b, n, z, rfl⟩ : ∃ (b : Fin 64) (n : Fin 512) (z : Fin 1), i = ix3 b n z := ⟨i 0, i 1, i 2, eq_ix3 i⟩
  obtain ⟨g, bb, rfl⟩ := bat_surj b
  obtain ⟨t, rfl⟩ : ∃ t : Fin cfg1.N, g = pt t := ⟨⟨g.val, Nat.lt_of_lt_of_eq g.isLt N_1.symm⟩, rfl⟩
  refine ⟨t, flush1_18 t, ?_⟩
  rw [← emb1_18 t bb n z]
  exact ((cfg1.win 18).blk t).view.emb_mem_set _

theorem covered1_19 (i : S2x64x512x64.Idx) :
    ∃ t : Fin cfg1.N, (cfg1.win 19).flush t = true ∧ i ∈ ((cfg1.win 19).blk t).view.set := by
  obtain ⟨l, b, n, f, rfl⟩ : ∃ (l : Fin 2) (b : Fin 64) (n : Fin 512) (f : Fin 64), i = ix4 l b n f := ⟨i 0, i 1, i 2, i 3, eq_ix4 i⟩
  obtain ⟨g, bb, rfl⟩ := bat_surj b
  obtain ⟨t, rfl⟩ : ∃ t : Fin cfg1.N, g = pt t := ⟨⟨g.val, Nat.lt_of_lt_of_eq g.isLt N_1.symm⟩, rfl⟩
  refine ⟨t, flush1_19 t, ?_⟩
  rw [← emb1_19 t l bb n f]
  exact ((cfg1.win 19).blk t).view.emb_mem_set _

-- Every point writes its block of one function G of the array's index, and the blocks cover the array.
theorem arrAt1_18 (G : Vec Ideal S64x512x1 .f32)
    (hG : ∀ (t : Fin cfg1.N) (bb : Fin 2) (n : Fin 512),
      out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (ix3 bb n 0) = G (ix3 (bat (pt t) bb) n 0)) :
    ((dat1 V c).arrAt 18 cfg1.N : Vec Ideal S64x512x1 .f32) = G :=
  (dat1 V c).arrAt_eq_of_cover 18 G
    (fun t _ => by
      show (cfg1.win 18).cut (grid1.coords t) ((dat1 V c).after 18 t) = _
      rw [after1_18]
      exact funext (cut1_18_at _ G t (hG t)))
    covered1_18

theorem arrAt1_19 (G : Vec Ideal S2x64x512x64 .f32)
    (hG : ∀ (t : Fin cfg1.N) (l bb : Fin 2) (n : Fin 512) (f : Fin 64),
      out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (ix4 l bb n f) = G (ix4 l (bat (pt t) bb) n f)) :
    ((dat1 V c).arrAt 19 cfg1.N : Vec Ideal S2x64x512x64 .f32) = G :=
  (dat1 V c).arrAt_eq_of_cover 19 G
    (fun t _ => by
      show (cfg1.win 19).cut (grid1.coords t) ((dat1 V c).after 19 t) = _
      rw [after1_19]
      exact funext (cut1_19_at _ G t (hG t)))
    covered1_19

end Region1

section Fold

variable (m : (ℓ : Loc nD τ sig) → Buf (Elt Ideal) ℓ) (ρ : Dev nD → PrngReg) (c : Dev nD)

theorem region1_out : W4 m ρ c (Proc.devRef .tc main_v25_0) = (dat1 (VV3 m ρ) c).arrAt 18 cfg1.N :=
  W4_arr m ρ c 18

theorem region1_out1 : W4 m ρ c (Proc.devRef .tc main_v25_1) = (dat1 (VV3 m ρ) c).arrAt 19 cfg1.N :=
  W4_arr m ρ c 19

end Fold

end Cert.KernelIdeal.Asm1

end
-- ==== Proof.HostVal.lean ====
import proofs.«162860_g19069654794669_cont_sun_m_30_12_alg».proof.Proof.FrameI
import proofs.«162860_g19069654794669_cont_sun_m_30_12_alg».proof.Proof.Pack
import Idealize.ShloMosaic.Lib.ValueIdx
import Idealize.ShloMosaic.Lib.ValueLayout
import Idealize.ShloMosaic.Lib.Pipeline.Value

noncomputable section

namespace Cert.KernelIdeal.AsmH

open Idealize.ShloMosaic Idealize.ShloMosaic.ValueIdx Idealize.ShloMosaic.TcCoe Idealize.SL.Sem
open Cert.KernelIdeal Cert.KernelIdeal.Gen Cert.KernelIdeal.Fr Cert.Pack

section Stretch
variable {V : Valuation τ sig (Elt Ideal)}

theorem nf_val (n : Fin 512) (f : Fin 64) : (nf n f).val = n.val * 64 + f.val := rfl

theorem rm2 {n0 n1 : Nat} (a : Fin n0) (b : Fin n1) : ((⟨2, ![n0, n1]⟩ : Shape).rowMajor (ix2 a b)).val = a.val * n1 + b.val :=
  Shape.rowMajor_val_two (d := ![n0, n1]) (ix2 a b)
theorem rm3 {n0 n1 n2 : Nat} (a : Fin n0) (b : Fin n1) (c : Fin n2) :
    ((⟨3, ![n0, n1, n2]⟩ : Shape).rowMajor (ix3 a b c)).val = (a.val * n1 + b.val) * n2 + c.val :=
  Shape.rowMajor_val_three (d := ![n0, n1, n2]) (ix3 a b c)
theorem rm4 {n0 n1 n2 n3 : Nat} (a : Fin n0) (b : Fin n1) (c : Fin n2) (d : Fin n3) :
    ((⟨4, ![n0, n1, n2, n3]⟩ : Shape).rowMajor (ix4 a b c d)).val = ((a.val * n1 + b.val) * n2 + c.val) * n3 + d.val :=
  Shape.rowMajor_val_four (d := ![n0, n1, n2, n3]) (ix4 a b c d)

theorem h0_v0 (n : Fin 512) (b : Fin 64) : StableHlo.after (hostOps0 (F := Ideal)) V (Proc.devRef .tc main_v0) (ix2 n b) = V (Proc.devRef .tc main_arg0) (ix2 b n) := by
  after_results
  exact transpose_ix2_apply _ _ n b

-- A reshape keeps the row-major position.
theorem h0_v1 (l : Fin 2) (b : Fin 64) (n : Fin 512) (f : Fin 64) :
    StableHlo.after (hostOps0 (F := Ideal)) V (Proc.devRef .tc main_v1) (ix4 l b n f) = V (Proc.devRef .tc main_arg1) (ix3 l b (nf n f)) := by
  after_results
  refine shapeCast_apply _ _ _ _ ((rm3 l b (nf n f)).trans (Eq.trans ?_ (rm4 l b n f).symm))
  rw [nf_val]; omega

-- Rows running over (feature, order) pairs, regrouped by order.
theorem regroup {nf' no : Nat} (x : (⟨2, ![nf' * 3, no]⟩ : Shape).Idx → Ideal .f32)
    (h1 : (⟨2, ![nf' * 3, no]⟩ : Shape).ShapeCasts ⟨3, ![nf', 3, no]⟩)
    (h2 : (⟨3, ![nf', 3, no]⟩ : Shape).Transposes [1, 0, 2] ⟨3, ![3, nf', no]⟩)
    (k : Fin 3) (f : Fin nf') (o : Fin no) (r : Fin (nf' * 3)) (hr : r.val = f.val * 3 + k.val) :
    transpose ⟨3, ![3, nf', no]⟩ [1, 0, 2] (shapeCast ⟨3, ![nf', 3, no]⟩ x h1) h2 (ix3 k f o) = x (ix2 r o) :=
  (transpose_apply _ _ _ _ (ix3 f k o) (fun b => match b with | ⟨0, _⟩ => rfl | ⟨1, _⟩ => rfl | ⟨2, _⟩ => rfl)).trans
    (shapeCast_apply _ _ _ _ ((rm2 r o).trans ((congrArg (· * no + o.val) hr).trans (rm3 f k o).symm)))

theorem h0_v3 (k : Fin 3) (f : Fin 65) (o : Fin 128) :
    StableHlo.after (hostOps0 (F := Ideal)) V (Proc.devRef .tc main_v3) (ix3 k f o) = V (Proc.devRef .tc main_arg3) (ix2 (w195 f k) o) := by
  after_results
  exact regroup _ _ _ k f o _ rfl

theorem h0_v5 (k : Fin 3) (f : Fin 65) (o : Fin 64) :
    StableHlo.after (hostOps0 (F := Ideal)) V (Proc.devRef .tc main_v5) (ix3 k f o) = V (Proc.devRef .tc main_arg5) (ix2 (w195 f k) o) := by
  after_results
  exact regroup _ _ _ k f o _ rfl

theorem h0_v7 (k : Fin 3) (f : Fin 128) (o : Fin 128) :
    StableHlo.after (hostOps0 (F := Ideal)) V (Proc.devRef .tc main_v7) (ix3 k f o) = V (Proc.devRef .tc main_arg7) (ix2 (w384 f k) o) := by
  after_results
  exact regroup _ _ _ k f o _ rfl

theorem h0_v9 (k : Fin 3) (f : Fin 128) (o : Fin 64) :
    StableHlo.after (hostOps0 (F := Ideal)) V (Proc.devRef .tc main_v9) (ix3 k f o) = V (Proc.devRef .tc main_arg9) (ix2 (w384 f k) o) := by
  after_results
  exact regroup _ _ _ k f o _ rfl

theorem h0_v10 (o : Fin 128) : StableHlo.after (hostOps0 (F := Ideal)) V (Proc.devRef .tc main_v10) (ix2 0 o) = V (Proc.devRef .tc main_arg4) (ix1 o) := by
  after_results
  exact shapeCast_a_1a_apply _ _ 0 o

theorem h0_v11 (o : Fin 64) : StableHlo.after (hostOps0 (F := Ideal)) V (Proc.devRef .tc main_v11) (ix2 0 o) = V (Proc.devRef .tc main_arg6) (ix1 o) := by
  after_results
  exact shapeCast_a_1a_apply _ _ 0 o

theorem h0_v12 (o : Fin 128) : StableHlo.after (hostOps0 (F := Ideal)) V (Proc.devRef .tc main_v12) (ix2 0 o) = V (Proc.devRef .tc main_arg8) (ix1 o) := by
  after_results
  exact shapeCast_a_1a_apply _ _ 0 o

theorem h0_v13 (o : Fin 64) : StableHlo.after (hostOps0 (F := Ideal)) V (Proc.devRef .tc main_v13) (ix2 0 o) = V (Proc.devRef .tc main_arg10) (ix1 o) := by
  after_results
  exact shapeCast_a_1a_apply _ _ 0 o

theorem h0_keep (r : Ref sig .tc) (h : r ∉ hostOps0_W) : StableHlo.after (hostOps0 (F := Ideal)) V (Proc.devRef .tc r) = V (Proc.devRef .tc r) :=
  StableHlo.after_of_writes_sub hostOps0 _ hostOps0_writes h

theorem bcast_unit (x : Vec Ideal S512x64 .f32) (n : Fin 512) (b : Fin 64) (u : Fin 1) :
    broadcastInDim S512x64x1 ![0, 1] bcast_S512x64_S512x64x1_0_1 x (ix3 n b u) = x (ix2 n b) :=
  broadcastInDim_apply _ _ x _ (ix2 n b) (fun a => match a with
    | ⟨0, _⟩ => (if_neg (by show ¬ (512 : Nat) = 1; omega)).symm | ⟨1, _⟩ => (if_neg (by show ¬ (64 : Nat) = 1; omega)).symm)

theorem stack3 (x0 x1 x2 : Vec Ideal S512x64x1 .f32) (n : Fin 512) (b : Fin 64) (C : Vec Ideal S512x64x3 .f32)
    (hC : C = concatenate S512x64x3 2 [⟨S512x64x1, x0⟩, ⟨S512x64x1, x1⟩, ⟨S512x64x1, x2⟩]
      concatenates_S512x64x1_S512x64x1_S512x64x1_S512x64x3_d2) :
    C (ix3 n b 0) = x0 (ix3 n b 0) ∧ C (ix3 n b 1) = x1 (ix3 n b 0) ∧ C (ix3 n b 2) = x2 (ix3 n b 0) := by
  have h (j : Fin 3) := concatenate_ofFn_unit_apply (t := S512x64x3) (s₁ := S512x64x1) 2 ![x0, x1, x2]
    concatenates_S512x64x1_S512x64x1_S512x64x1_S512x64x3_d2 rfl rfl (ix3 n b j) j rfl (ix3 n b 0)
    fun a ha => match a with | ⟨0, _⟩ => rfl | ⟨1, _⟩ => rfl | ⟨2, _⟩ => absurd rfl ha
  subst hC
  exact ⟨h 0, h 1, h 2⟩

theorem h1_v19 (b : Fin 64) (n : Fin 512) :
    StableHlo.after (hostOps1 (F := Ideal)) V (Proc.devRef .tc main_v19) (ix3 b n 0) = V (Proc.devRef .tc main_v0) (ix2 n b)
    ∧ StableHlo.after (hostOps1 (F := Ideal)) V (Proc.devRef .tc main_v19) (ix3 b n 1) = V (Proc.devRef .tc main_v14_1) (ix2 n b)
    ∧ StableHlo.after (hostOps1 (F := Ideal)) V (Proc.devRef .tc main_v19) (ix3 b n 2) = V (Proc.devRef .tc main_v14_2) (ix2 n b) := by
  refine ⟨?_, ?_, ?_⟩
  · after_results
    refine ((transpose_apply _ _ _ _ (ix3 n b (0 : Fin 3)) (fun a => match a with | ⟨0, _⟩ => rfl | ⟨1, _⟩ => rfl | ⟨2, _⟩ => rfl)).trans (stack3 _ _ _ n b _ rfl).1).trans ?_
    show (StableHlo.unary _ _ _ _ _).result _ (Proc.devRef .tc main_v15) _ = _
    rw [StableHlo.unary_result_ne _ _ _ _ _ _ (by decide), StableHlo.unary_result_ne _ _ _ _ _ _ (by decide), StableHlo.unary_result]
    exact bcast_unit _ n b 0
  · after_results
    refine ((transpose_apply _ _ _ _ (ix3 n b (1 : Fin 3)) (fun a => match a with | ⟨0, _⟩ => rfl | ⟨1, _⟩ => rfl | ⟨2, _⟩ => rfl)).trans (stack3 _ _ _ n b _ rfl).2.1).trans ?_
    show (StableHlo.unary _ _ _ _ _).result _ (Proc.devRef .tc main_v16) _ = _
    rw [StableHlo.unary_result_ne _ _ _ _ _ _ (by decide), StableHlo.unary_result]
    exact bcast_unit _ n b 0
  · after_results
    refine ((transpose_apply _ _ _ _ (ix3 n b (2 : Fin 3)) (fun a => match a with | ⟨0, _⟩ => rfl | ⟨1, _⟩ => rfl | ⟨2, _⟩ => rfl)).trans (stack3 _ _ _ n b _ rfl).2.2).trans ?_
    show (StableHlo.unary _ _ _ _ _).result _ (Proc.devRef .tc main_v17) _ = _
    rw [StableHlo.unary_result]
    exact bcast_unit _ n b 0

theorem slice_layer (l : Fin 2) (x : Vec Ideal S2x64x512x64 .f32) (h : S2x64x512x64.Slices ![l.val, 0, 0, 0] S1x64x512x64)
    (b : Fin 64) (n : Fin 512) (f : Fin 64) :
    extractStridedSlice S1x64x512x64 ![l.val, 0, 0, 0] x h (ix4 0 b n f) = x (ix4 l b n f) :=
  extractStridedSlice_apply _ _ _ _ _ fun a => match a with
    | ⟨0, _⟩ => rfl | ⟨1, _⟩ => (Nat.zero_add _).symm | ⟨2, _⟩ => (Nat.zero_add _).symm | ⟨3, _⟩ => (Nat.zero_add _).symm

theorem h1_v21 (b : Fin 64) (n : Fin 512) (f : Fin 64) : StableHlo.after (hostOps1 (F := Ideal)) V (Proc.devRef .tc main_v21) (ix3 b n f) = V (Proc.devRef .tc main_v1) (ix4 0 b n f) := by
  after_results
  exact (shapeCast_1abc_abc_apply _ _ b n f).trans (slice_layer 0 _ _ b n f)

theorem h1_v23 (b : Fin 64) (n : Fin 512) (f : Fin 64) : StableHlo.after (hostOps1 (F := Ideal)) V (Proc.devRef .tc main_v23) (ix3 b n f) = V (Proc.devRef .tc main_v1) (ix4 1 b n f) := by
  after_results
  exact (shapeCast_1abc_abc_apply _ _ b n f).trans (slice_layer 1 _ _ b n f)

theorem h1_v24 : StableHlo.after (hostOps1 (F := Ideal)) V (Proc.devRef .tc main_v24) (ix2 0 0) = V (Proc.devRef .tc main_arg12) (ix1 0) := by
  after_results
  exact shapeCast_a_1a_apply _ _ 0 0

theorem h1_keep (r : Ref sig .tc) (h : r ∉ hostOps1_W) : StableHlo.after (hostOps1 (F := Ideal)) V (Proc.devRef .tc r) = V (Proc.devRef .tc r) :=
  StableHlo.after_of_writes_sub hostOps1 _ hostOps1_writes h

theorem h2_v26 (b : Fin 64) (n : Fin 512) : StableHlo.after (hostOps2 (F := Ideal)) V (Proc.devRef .tc main_v26) (ix2 b n) = V (Proc.devRef .tc main_v25_0) (ix3 b n 0) := by
  after_results
  refine shapeCast_apply _ _ _ _ ((rm3 b n (0 : Fin 1)).trans (Eq.trans ?_ (rm2 b n).symm))
  simp

theorem h2_v27 (l : Fin 2) (b : Fin 64) (n : Fin 512) (f : Fin 64) :
    StableHlo.after (hostOps2 (F := Ideal)) V (Proc.devRef .tc main_v27) (ix3 l b (nf n f)) = V (Proc.devRef .tc main_v25_1) (ix4 l b n f) := by
  after_results
  refine shapeCast_apply _ _ _ _ ((rm4 l b n f).trans (Eq.trans ?_ (rm3 l b (nf n f)).symm))
  rw [nf_val]; omega

end Stretch

section Fold
variable (m : (ℓ : Loc nD τ sig) → Buf (Elt Ideal) ℓ) (ρ : Dev nD → PrngReg) (c : Dev nD)

theorem w1_arg2 : W1 m ρ c (Proc.devRef .tc main_arg2) = m ((c : Thread nD τ).loc main_arg2) := h0_keep main_arg2 (by decide)
theorem w1_arg11 : W1 m ρ c (Proc.devRef .tc main_arg11) = m ((c : Thread nD τ).loc main_arg11) := h0_keep main_arg11 (by decide)
theorem w1_arg12 : W1 m ρ c (Proc.devRef .tc main_arg12) = m ((c : Thread nD τ).loc main_arg12) := h0_keep main_arg12 (by decide)

theorem w2_v0 : W2 m ρ c (Proc.devRef .tc main_v0) = W1 m ρ c (Proc.devRef .tc main_v0) :=
  (W2_arr m ρ c 1).trans (((dat0 (VV1 m ρ) c).arrAt_in 1 rfl _).trans (A_eq0 (VV1 m ρ) c 1))
theorem w2_v1 : W2 m ρ c (Proc.devRef .tc main_v1) = W1 m ρ c (Proc.devRef .tc main_v1) := W2_of_ne m ρ c main_v1 (by decide)
theorem w2_arg12 : W2 m ρ c (Proc.devRef .tc main_arg12) = W1 m ρ c (Proc.devRef .tc main_arg12) := W2_of_ne m ρ c main_arg12 (by decide)

end Fold

end Cert.KernelIdeal.AsmH

end
-- ==== Proof.Spec.lean ====
import Idealize.ShloMosaic.PureOps.Ideal.Laws

noncomputable section

namespace Cert.Spec

open scoped BigOperators

variable (S : Fin 512 → Fin 512 → EReal) (two one : EReal) (σ τ : EReal → EReal)

/-- One diffusion step: the support matrix applied to a vector over the nodes. -/
def diff (v : Fin 512 → EReal) : Fin 512 → EReal := fun n => ∑ j, S n j * v j

/-- The Chebyshev terms of orders 0, 1, 2 of a vector. -/
def cheb (k : Fin 3) (v : Fin 512 → EReal) : Fin 512 → EReal :=
  match k with
  | 0 => v
  | 1 => diff S v
  | 2 => fun n => two * diff S (diff S v) n - v n

/-- Diffusion convolution: every feature's Chebyshev terms against the weights, plus the bias. -/
def gconv {nf no : Nat} (φ : Fin nf → Fin 512 → EReal) (W : Fin nf → Fin 3 → Fin no → EReal) (b : Fin no → EReal)
    (n : Fin 512) (o : Fin no) : EReal :=
  (∑ f, ∑ k, cheb S two k (φ f) n * W f k o) + b o

def gates {nf : Nat} (mk : (Fin 64 → Fin 512 → EReal) → Fin nf → Fin 512 → EReal) (h : Fin 64 → Fin 512 → EReal)
    (Wru : Fin nf → Fin 3 → Fin 128 → EReal) (bru : Fin 128 → EReal) (n : Fin 512) (q : Fin 128) : EReal :=
  σ (gconv S two (mk h) Wru bru n q)

def rgate {nf : Nat} (mk : (Fin 64 → Fin 512 → EReal) → Fin nf → Fin 512 → EReal) (h : Fin 64 → Fin 512 → EReal)
    (Wru : Fin nf → Fin 3 → Fin 128 → EReal) (bru : Fin 128 → EReal) (f : Fin 64) (n : Fin 512) : EReal :=
  gates S two σ mk h Wru bru n ⟨f.val, by omega⟩

def ugate {nf : Nat} (mk : (Fin 64 → Fin 512 → EReal) → Fin nf → Fin 512 → EReal) (h : Fin 64 → Fin 512 → EReal)
    (Wru : Fin nf → Fin 3 → Fin 128 → EReal) (bru : Fin 128 → EReal) (f : Fin 64) (n : Fin 512) : EReal :=
  gates S two σ mk h Wru bru n ⟨64 + f.val, by omega⟩

def cand {nf : Nat} (mk : (Fin 64 → Fin 512 → EReal) → Fin nf → Fin 512 → EReal) (h : Fin 64 → Fin 512 → EReal)
    (Wru : Fin nf → Fin 3 → Fin 128 → EReal) (bru : Fin 128 → EReal)
    (Wc : Fin nf → Fin 3 → Fin 64 → EReal) (bc : Fin 64 → EReal) (f : Fin 64) (n : Fin 512) : EReal :=
  τ (gconv S two (mk fun f' n' => rgate S two σ mk h Wru bru f' n' * h f' n') Wc bc n f)

/-- The gated recurrent cell: `u * h + (1 - u) * c`. -/
def cell {nf : Nat} (mk : (Fin 64 → Fin 512 → EReal) → Fin nf → Fin 512 → EReal) (h : Fin 64 → Fin 512 → EReal)
    (Wru : Fin nf → Fin 3 → Fin 128 → EReal) (bru : Fin 128 → EReal)
    (Wc : Fin nf → Fin 3 → Fin 64 → EReal) (bc : Fin 64 → EReal) (f : Fin 64) (n : Fin 512) : EReal :=
  ugate S two σ mk h Wru bru f n * h f n
    + (one - ugate S two σ mk h Wru bru f n) * cand S two σ τ mk h Wru bru Wc bc f n

def mk0 (x : Fin 512 → EReal) (h : Fin 64 → Fin 512 → EReal) : Fin 65 → Fin 512 → EReal :=
  fun f => if hf : f.val = 0 then x else h ⟨f.val - 1, by omega⟩

def mk1 (g : Fin 64 → Fin 512 → EReal) (h : Fin 64 → Fin 512 → EReal) : Fin 128 → Fin 512 → EReal :=
  fun f => if hf : f.val < 64 then g ⟨f.val, hf⟩ else h ⟨f.val - 64, by omega⟩

section Net

variable (x : Fin 512 → EReal) (h0 h1 : Fin 64 → Fin 512 → EReal)
  (Wru0 : Fin 65 → Fin 3 → Fin 128 → EReal) (bru0 : Fin 128 → EReal)
  (Wc0 : Fin 65 → Fin 3 → Fin 64 → EReal) (bc0 : Fin 64 → EReal)
  (Wru1 : Fin 128 → Fin 3 → Fin 128 → EReal) (bru1 : Fin 128 → EReal)
  (Wc1 : Fin 128 → Fin 3 → Fin 64 → EReal) (bc1 : Fin 64 → EReal)
  (Wp : Fin 64 → EReal) (bp : EReal)

def new0 : Fin 64 → Fin 512 → EReal := cell S two one σ τ (mk0 x) h0 Wru0 bru0 Wc0 bc0

def new1 : Fin 64 → Fin 512 → EReal :=
  cell S two one σ τ (mk1 (new0 S two one σ τ x h0 Wru0 bru0 Wc0 bc0)) h1 Wru1 bru1 Wc1 bc1

/-- The linear read-out of the second layer's new state. -/
def proj (n : Fin 512) : EReal :=
  (∑ f, new1 S two one σ τ x h0 h1 Wru0 bru0 Wc0 bc0 Wru1 bru1 Wc1 bc1 f n * Wp f) + bp

end Net

end Cert.Spec

end
-- ==== Proof.SpecArgs.lean ====
import proofs.«162860_g19069654794669_cont_sun_m_30_12_alg».proof.Proof.Spec
import proofs.«162860_g19069654794669_cont_sun_m_30_12_alg».proof.Proof.Pack
import Idealize.ShloMosaic.Lib.ValueIdx

noncomputable section

namespace Cert.SpecArgs

open Idealize.ShloMosaic Idealize.ShloMosaic.ValueIdx Cert.Pack

abbrev cTwo : EReal := Ideal.ofBits .f32 0x40000000#32
abbrev cOne : EReal := Ideal.ofBits .f32 0x3F800000#32

/-- The specification's inputs read off the argument arrays: entry (b, n) of the input, (l, b, n * 64 + f) of the states, row f * 3 + k of a weight matrix. -/
def xOf (a0 : (⟨2, ![64, 512]⟩ : Shape).Idx → EReal) (b : Fin 64) : Fin 512 → EReal := fun n => a0 (ix2 b n)
def hOf (a1 : (⟨3, ![2, 64, 32768]⟩ : Shape).Idx → EReal) (l : Fin 2) (b : Fin 64) : Fin 64 → Fin 512 → EReal :=
  fun f n => a1 (ix3 l b (nf n f))
def wOf195 {no : Nat} (a : (⟨2, ![195, no]⟩ : Shape).Idx → EReal) : Fin 65 → Fin 3 → Fin no → EReal :=
  fun f k o => a (ix2 (w195 f k) o)
def wOf384 {no : Nat} (a : (⟨2, ![384, no]⟩ : Shape).Idx → EReal) : Fin 128 → Fin 3 → Fin no → EReal :=
  fun f k o => a (ix2 (w384 f k) o)
def bOf {no : Nat} (a : (⟨1, ![no]⟩ : Shape).Idx → EReal) : Fin no → EReal := fun o => a (ix1 o)
def pOf (a : (⟨2, ![64, 1]⟩ : Shape).Idx → EReal) : Fin 64 → EReal := fun f => a (ix2 f 0)
def pbOf (a : (⟨1, ![1]⟩ : Shape).Idx → EReal) : EReal := a (ix1 0)

section Net

variable (S : Fin 512 → Fin 512 → EReal)
  (a0 : (⟨2, ![64, 512]⟩ : Shape).Idx → EReal) (a1 : (⟨3, ![2, 64, 32768]⟩ : Shape).Idx → EReal)
  (a3 : (⟨2, ![195, 128]⟩ : Shape).Idx → EReal) (a4 : (⟨1, ![128]⟩ : Shape).Idx → EReal)
  (a5 : (⟨2, ![195, 64]⟩ : Shape).Idx → EReal) (a6 : (⟨1, ![64]⟩ : Shape).Idx → EReal)
  (a7 : (⟨2, ![384, 128]⟩ : Shape).Idx → EReal) (a8 : (⟨1, ![128]⟩ : Shape).Idx → EReal)
  (a9 : (⟨2, ![384, 64]⟩ : Shape).Idx → EReal) (a10 : (⟨1, ![64]⟩ : Shape).Idx → EReal)
  (a11 : (⟨2, ![64, 1]⟩ : Shape).Idx → EReal) (a12 : (⟨1, ![1]⟩ : Shape).Idx → EReal)

def new0 (b : Fin 64) : Fin 64 → Fin 512 → EReal :=
  Cert.Spec.new0 S cTwo cOne Ideal.logistic Ideal.tanh (xOf a0 b) (hOf a1 0 b) (wOf195 a3) (bOf a4) (wOf195 a5) (bOf a6)

def new1 (b : Fin 64) : Fin 64 → Fin 512 → EReal :=
  Cert.Spec.new1 S cTwo cOne Ideal.logistic Ideal.tanh (xOf a0 b) (hOf a1 0 b) (hOf a1 1 b) (wOf195 a3) (bOf a4)
    (wOf195 a5) (bOf a6) (wOf384 a7) (bOf a8) (wOf384 a9) (bOf a10)

def proj (b : Fin 64) (n : Fin 512) : EReal :=
  Cert.Spec.proj S cTwo cOne Ideal.logistic Ideal.tanh (xOf a0 b) (hOf a1 0 b) (hOf a1 1 b) (wOf195 a3) (bOf a4)
    (wOf195 a5) (bOf a6) (wOf384 a7) (bOf a8) (wOf384 a9) (bOf a10) (pOf a11) (pbOf a12) n

def res0 : (⟨2, ![64, 512]⟩ : Shape).Idx → EReal :=
  fun i => proj S a0 a1 a3 a4 a5 a6 a7 a8 a9 a10 a11 a12 ⟨(i 0).val, idx2_lt0 i⟩ ⟨(i 1).val, idx2_lt1 i⟩

def res1 : (⟨3, ![2, 64, 32768]⟩ : Shape).Idx → EReal :=
  fun i =>
    if (i 0).val = 0 then
      new0 S a0 a1 a3 a4 a5 a6 ⟨(i 1).val, (i 1).isLt⟩ ⟨(i 2).val % 64, Nat.mod_lt _ (by decide)⟩
        ⟨(i 2).val / 64, by have := (i 2).isLt; exact Nat.div_lt_of_lt_mul (by simpa using this)⟩
    else
      new1 S a0 a1 a3 a4 a5 a6 a7 a8 a9 a10 ⟨(i 1).val, (i 1).isLt⟩ ⟨(i 2).val % 64, Nat.mod_lt _ (by decide)⟩
        ⟨(i 2).val / 64, by have := (i 2).isLt; exact Nat.div_lt_of_lt_mul (by simpa using this)⟩

theorem res0_apply (b : Fin 64) (n : Fin 512) :
    res0 S a0 a1 a3 a4 a5 a6 a7 a8 a9 a10 a11 a12 (ix2 b n) = proj S a0 a1 a3 a4 a5 a6 a7 a8 a9 a10 a11 a12 b n := rfl

theorem res1_apply0 (b : Fin 64) (n : Fin 512) (f : Fin 64) :
    res1 S a0 a1 a3 a4 a5 a6 a7 a8 a9 a10 (ix3 0 b (nf n f)) = new0 S a0 a1 a3 a4 a5 a6 b f n := by
  have hm : (n.val * 64 + f.val) % 64 = f.val := by have := f.isLt; omega
  have hd : (n.val * 64 + f.val) / 64 = n.val := by have := f.isLt; omega
  unfold res1
  rw [if_pos (show ((ix3 (0 : Fin 2) b (nf n f) : (⟨3, ![2, 64, 32768]⟩ : Shape).Idx) 0).val = 0 from rfl)]
  exact congr (congr (congrArg (new0 S a0 a1 a3 a4 a5 a6) (Fin.ext rfl)) (Fin.ext hm)) (Fin.ext hd)

theorem res1_apply1 (b : Fin 64) (n : Fin 512) (f : Fin 64) :
    res1 S a0 a1 a3 a4 a5 a6 a7 a8 a9 a10 (ix3 1 b (nf n f)) = new1 S a0 a1 a3 a4 a5 a6 a7 a8 a9 a10 b f n := by
  have hm : (n.val * 64 + f.val) % 64 = f.val := by have := f.isLt; omega
  have hd : (n.val * 64 + f.val) / 64 = n.val := by have := f.isLt; omega
  unfold res1
  rw [if_neg (show ¬ ((ix3 (1 : Fin 2) b (nf n f) : (⟨3, ![2, 64, 32768]⟩ : Shape).Idx) 0).val = 0 from
    fun h => Nat.one_ne_zero h)]
  exact congr (congr (congrArg (new1 S a0 a1 a3 a4 a5 a6 a7 a8 a9 a10) (Fin.ext rfl)) (Fin.ext hm)) (Fin.ext hd)

end Net

end Cert.SpecArgs

end
-- ==== Proof.MainIn.lean ====
import proofs.«162860_g19069654794669_cont_sun_m_30_12_alg».proof.Proof.Outs
import proofs.«162860_g19069654794669_cont_sun_m_30_12_alg».proof.Proof.SpecArgs
import Idealize.ShloMosaic.Lib.ValueIdx

noncomputable section

namespace Cert.KernelIdeal.MainVal

open Idealize.ShloMosaic Idealize.ShloMosaic.ValueIdx Cert.KernelIdeal Cert.KernelIdeal.Gen Cert.Pack Cert.SpecArgs

structure Inputs (S : Fin 512 → Fin 512 → EReal) (xs : Fin 2 → Fin 512 → EReal) (h0 h1 : Fin 2 → Fin 64 → Fin 512 → EReal)
    (Wru0 : Fin 65 → Fin 3 → Fin 128 → EReal) (bru0 : Fin 128 → EReal)
    (Wc0 : Fin 65 → Fin 3 → Fin 64 → EReal) (bc0 : Fin 64 → EReal)
    (Wru1 : Fin 128 → Fin 3 → Fin 128 → EReal) (bru1 : Fin 128 → EReal)
    (Wc1 : Fin 128 → Fin 3 → Fin 64 → EReal) (bc1 : Fin 64 → EReal) (Wp : Fin 64 → EReal) (bp : EReal)
    (y0 : Vec Ideal S512x512 .f32) (y1 : Vec Ideal S2x512x3 .f32) (y2 y3 : Vec Ideal S2x512x64 .f32)
    (y4 : Vec Ideal S6x256 .f32) (y5 : Vec Ideal S3x128x256 .f32) (y6 : Vec Ideal S1x256 .f32)
    (y7 : Vec Ideal S6x128 .f32) (y8 : Vec Ideal S3x128x128 .f32) (y9 : Vec Ideal S1x128 .f32)
    (y10 y11 : Vec Ideal S3x128x256 .f32) (y12 : Vec Ideal S1x256 .f32)
    (y13 y14 : Vec Ideal S3x128x128 .f32) (y15 : Vec Ideal S1x128 .f32)
    (y16 : Vec Ideal S128x2 .f32) (y17 : Vec Ideal S1x1 .f32) : Prop where
  hy0 : ∀ i j : Fin 512, y0 (ix2 i j) = S i j
  hy1 : ∀ (bb : Fin 2) (n : Fin 512) (k : Fin 3), y1 (ix3 bb n k) = Cert.Spec.cheb S cTwo k (xs bb) n
  hy2 : ∀ (bb : Fin 2) (n : Fin 512) (f : Fin 64), y2 (ix3 bb n f) = h0 bb f n
  hy3 : ∀ (bb : Fin 2) (n : Fin 512) (f : Fin 64), y3 (ix3 bb n f) = h1 bb f n
  hy4 : ∀ (bb' : Fin 2) (k : Fin 3) (g bb : Fin 2) (o : Fin 64),
    y4 (ix2 (ar bb' k) (ruc g bb o)) = if bb' = bb then Wru0 0 k (pk g o) else 0
  hy5 : ∀ (k : Fin 3) (bb' : Fin 2) (f : Fin 64) (g bb : Fin 2) (o : Fin 64),
    y5 (ix3 k (pk bb' f) (ruc g bb o)) = if bb' = bb then Wru0 (s1 f) k (pk g o) else 0
  hy6 : ∀ (g bb : Fin 2) (o : Fin 64), y6 (ix2 0 (ruc g bb o)) = bru0 (pk g o)
  hy7 : ∀ (bb' : Fin 2) (k : Fin 3) (bb : Fin 2) (o : Fin 64),
    y7 (ix2 (ar bb' k) (pk bb o)) = if bb' = bb then Wc0 0 k o else 0
  hy8 : ∀ (k : Fin 3) (bb' : Fin 2) (f : Fin 64) (bb : Fin 2) (o : Fin 64),
    y8 (ix3 k (pk bb' f) (pk bb o)) = if bb' = bb then Wc0 (s1 f) k o else 0
  hy9 : ∀ (bb : Fin 2) (o : Fin 64), y9 (ix2 0 (pk bb o)) = bc0 o
  hy10 : ∀ (k : Fin 3) (bb' : Fin 2) (f : Fin 64) (g bb : Fin 2) (o : Fin 64),
    y10 (ix3 k (pk bb' f) (ruc g bb o)) = if bb' = bb then Wru1 (pk 0 f) k (pk g o) else 0
  hy11 : ∀ (k : Fin 3) (bb' : Fin 2) (f : Fin 64) (g bb : Fin 2) (o : Fin 64),
    y11 (ix3 k (pk bb' f) (ruc g bb o)) = if bb' = bb then Wru1 (pk 1 f) k (pk g o) else 0
  hy12 : ∀ (g bb : Fin 2) (o : Fin 64), y12 (ix2 0 (ruc g bb o)) = bru1 (pk g o)
  hy13 : ∀ (k : Fin 3) (bb' : Fin 2) (f : Fin 64) (bb : Fin 2) (o : Fin 64),
    y13 (ix3 k (pk bb' f) (pk bb o)) = if bb' = bb then Wc1 (pk 0 f) k o else 0
  hy14 : ∀ (k : Fin 3) (bb' : Fin 2) (f : Fin 64) (bb : Fin 2) (o : Fin 64),
    y14 (ix3 k (pk bb' f) (pk bb o)) = if bb' = bb then Wc1 (pk 1 f) k o else 0
  hy15 : ∀ (bb : Fin 2) (o : Fin 64), y15 (ix2 0 (pk bb o)) = bc1 o
  hy16 : ∀ (bb' : Fin 2) (f : Fin 64) (bb : Fin 2), y16 (ix2 (pk bb' f) bb) = if bb' = bb then Wp f else 0
  hy17 : y17 (ix2 0 0) = bp

namespace Dot

theorem SS : dot_S512x512_S512x128_S512x128_1_0_0_1_n_n = DotDims.plain 512 512 128 := rfl
theorem HG : dot_S512x128_S128x256_S512x256_1_0_0_1_n_n = DotDims.plain 512 128 256 := rfl
theorem HC : dot_S512x128_S128x128_S512x128_1_0_0_1_n_n = DotDims.plain 512 128 128 := rfl
theorem AG : dot_S512x6_S6x256_S512x256_1_0_0_1_n_n = DotDims.plain 512 6 256 := rfl
theorem AC : dot_S512x6_S6x128_S512x128_1_0_0_1_n_n = DotDims.plain 512 6 128 := rfl
theorem HP : dot_S512x128_S128x2_S512x2_1_0_0_1_n_n = DotDims.plain 512 128 2 := rfl

end Dot

end Cert.KernelIdeal.MainVal

end
-- ==== Proof.Sup.lean ====
import Idealize.ShloMosaic.PureOps.Ideal.Laws

noncomputable section

namespace Cert.Sup

open scoped BigOperators
open Idealize.ShloMosaic

variable (adj : Fin 512 → Fin 512 → EReal)

def sym (i j : Fin 512) : EReal := max (adj i j) (adj j i)
def deg (i : Fin 512) : EReal := ∑ j, sym adj i j
def dis (i : Fin 512) : EReal :=
  Scalar.select (FloatOps.cmpf (F := Ideal) (φ := .f32) .ogt (deg adj i) 0) (Ideal.div 1 (Ideal.sqrt (deg adj i))) 0
/-- The support as the kernel spells it: `-(d_i a_ij) d_j`. -/
def Sk (i j : Fin 512) : EReal := (0 - dis adj i * sym adj i j) * dis adj j
def eye (i j : Fin 512) : EReal := if i = j then 1 else 0
/-- The support as the reference spells it: `1 * (I - D A D) - I`. -/
def Sr (i j : Fin 512) : EReal := 1 * (eye i j - (dis adj i * sym adj i j) * dis adj j) - eye i j

theorem sym_comm (i j : Fin 512) : sym adj i j = sym adj j i := max_comm _ _

theorem deg_eq_col (j : Fin 512) : deg adj j = ∑ i, sym adj i j :=
  Finset.sum_congr rfl fun i _ => sym_comm adj j i

theorem zero_sub_sub_zero (x : EReal) : (0 - x) - 0 = -x := by
  rw [sub_zero, zero_sub]

theorem one_sub_sub_one (x : EReal) : (1 - x) - 1 = -x := by
  induction x using EReal.rec with
  | bot =>
    rw [← EReal.coe_one, EReal.coe_sub_bot, EReal.top_sub_coe, EReal.neg_bot]
  | coe r =>
    rw [← EReal.coe_one, ← EReal.coe_sub, ← EReal.coe_sub, ← EReal.coe_neg]
    congr 1
    ring
  | top =>
    rw [EReal.sub_top, EReal.bot_sub, EReal.neg_top]

theorem zero_sub_mul (p q : EReal) : (0 - p) * q = -(p * q) := by
  rw [zero_sub, EReal.neg_mul]

/-- `(e - x) - e = -x` on the extended reals for `e` zero or one, so the two spellings agree. -/
theorem Sr_eq_Sk (i j : Fin 512) : Sr adj i j = Sk adj i j := by
  unfold Sr Sk eye
  rw [zero_sub_mul, one_mul]
  by_cases h : i = j
  · rw [if_pos h]
    exact one_sub_sub_one _
  · rw [if_neg h]
    exact zero_sub_sub_zero _

end Cert.Sup

end
-- ==== Proof.PrepSup.lean ====
import proofs.«162860_g19069654794669_cont_sun_m_30_12_alg».proof.Proof.Outs
import proofs.«162860_g19069654794669_cont_sun_m_30_12_alg».proof.Proof.Sup
import proofs.«162860_g19069654794669_cont_sun_m_30_12_alg».proof.Proof.SpecArgs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PrepVal

open scoped BigOperators
open Idealize.ShloMosaic Idealize.ShloMosaic.ValueIdx Cert.KernelIdeal Cert.KernelIdeal.Gen Cert.KernelIdeal.Fr

abbrev adjOf (x0 : Vec Ideal S512x512 .f32) : Fin 512 → Fin 512 → EReal := fun i j => x0 (ix2 i j)

theorem zero2 : (![0, 0] : Fin 2 → Nat) = fun _ => 0 := funext fun a => by fin_cases a <;> rfl

theorem sym_apply (x0 : FVec Ideal S512x512 .f32) (h : S512x512.Transposes [1, 0] S512x512) (i j : Fin 512) :
    maximumf x0 (transpose S512x512 [1, 0] x0 h) (ix2 i j) = Cert.Sup.sym (adjOf x0) i j := by
  rw [maximumf_apply, transpose_ix2_apply]
  rfl

theorem rowsum_apply (v : FVec Ideal S512x512 .f32) (h : S512x512.Reduces [1] S512)
    (hφ : FKind.Formats .f32) (hacc : (0x00000000#32 : BitVec 32) = 0x00000000#32) (i : Fin 512) :
    multiReduction .add [1] S512 v 0x00000000#32 h hφ hacc (ix1 i) = ∑ k : Fin 512, v (ix2 i k) := by
  refine (Ideal.multiReduction_add_single v 0x00000000#32 h hφ hacc (ix1 i)).trans ?_
  exact Finset.sum_congr rfl fun k _ => congrArg v (Shape.idx_ext₂ rfl rfl)

theorem colsum_apply (v : FVec Ideal S512x512 .f32) (h : S512x512.Reduces [0] S512)
    (hφ : FKind.Formats .f32) (hacc : (0x00000000#32 : BitVec 32) = 0x00000000#32) (j : Fin 512) :
    multiReduction .add [0] S512 v 0x00000000#32 h hφ hacc (ix1 j) = ∑ k : Fin 512, v (ix2 k j) := by
  refine (Ideal.multiReduction_add_single v 0x00000000#32 h hφ hacc (ix1 j)).trans ?_
  exact Finset.sum_congr rfl fun k _ => congrArg v (Shape.idx_ext₂ rfl rfl)

theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem sqrt_apply {s : Shape} {φ : FTy} (a : FVec Ideal s φ) (i : s.Idx) : sqrt a i = Ideal.sqrt (a i) := rfl

theorem k0_pay1_apply (x0 : FVec Ideal S512x512 .f32) (i j : Fin 512) :
    k0_pay1 (F := Ideal) x0 (ix2 i j) = Cert.Sup.Sk (adjOf x0) i j := by
  unfold k0_pay1
  simp only [mulf_apply, subf_apply, broadcast_apply]
  rw [broadcastTo_a1_ab_apply, broadcastTo_1b_ab_apply]
  simp only [select_apply, cmpf_apply, divf_apply, sqrt_apply, broadcast_apply]
  rw [shapeCast_a_a1_apply, shapeCast_a_1a_apply, rowsum_apply, colsum_apply]
  have h1 : Ideal.ofBits .f32 0x3F800000#32 = 1 := IdealRules.sign_bit.ideal_onePat .f32
  simp only [Ideal.ofBits_def, IdealRules.sign_bit.ideal_zero .f32, h1]
  have hrow : (∑ k : Fin 512, maximumf x0 (transpose S512x512 [1, 0] x0 transposes_S512x512_p1_0_S512x512) (ix2 i k))
      = Cert.Sup.deg (adjOf x0) i := Finset.sum_congr rfl fun k _ => sym_apply x0 _ i k
  have hcol : (∑ k : Fin 512, maximumf x0 (transpose S512x512 [1, 0] x0 transposes_S512x512_p1_0_S512x512) (ix2 k j))
      = Cert.Sup.deg (adjOf x0) j :=
    (Finset.sum_congr rfl fun k _ => sym_apply x0 _ k j).trans (Cert.Sup.deg_eq_col (adjOf x0) j).symm
  rw [hrow, hcol, sym_apply x0 _ i j]
  rfl

theorem out0_11_apply (x0 : Vec Ideal S512x512 .f32) (i j : Fin 512) : out0_11 x0 (ix2 i j) = Cert.Sup.Sk (adjOf x0) i j := by
  unfold out0_11 a_v0
  rw [View.canon_unit_zero zero2, View.ld_unit_zero zero2]
  exact k0_pay1_apply x0 i j

theorem lhs_dot_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_dot_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhs_dot_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhs_dot_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

theorem matmul_zero_apply (A : FVec Ideal S512x512 .f32) (B : FVec Ideal S512x64 .f32) (n : Fin 512) (b : Fin 64) :
    matmul dot_S512x512_S512x64_S512x64_1_0_0_1_n_n none A B (constant (F := Ideal) S512x64 .f32 0x00000000#32) (ix2 n b)
      = ∑ k : Fin 512, A (ix2 n k) * B (ix2 k b) := by
  simp only [matmul]
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 n b) ((contrEquiv1 dot_S512x512_S512x64_S512x64_1_0_0_1_n_n 512 rfl rfl).symm k) = ix2 n k :=
    Shape.idx_ext₂ (lhs_dot_0 _ _) ((lhs_dot_1 _ _).trans hk)
  have er : dot_S512x512_S512x64_S512x64_1_0_0_1_n_n.rhsIdx (ix2 n b) ((contrEquiv1 dot_S512x512_S512x64_S512x64_1_0_0_1_n_n 512 rfl rfl).symm k) = ix2 k b :=
    Shape.idx_ext₂ ((rhs_dot_0 _ _).trans hk) (rhs_dot_1 _ _)
  rw [el, er]

theorem k0_pay2_eq (x1 : FVec Ideal S512x64 .f32) : k0_pay2 (F := Ideal) x1 = x1 := by
  unfold k0_pay2
  exact shapeCast_self x1 _

theorem k0_pay3_apply (x0 : FVec Ideal S512x512 .f32) (x1 : FVec Ideal S512x64 .f32) (n : Fin 512) (b : Fin 64) :
    k0_pay3 (F := Ideal) x0 x1 (ix2 n b) = Cert.Spec.diff (Cert.Sup.Sk (adjOf x0)) (fun j => x1 (ix2 j b)) n := by
  unfold k0_pay3
  refine (matmul_zero_apply (k0_pay1 x0) (k0_pay2 x1) n b).trans ?_
  rw [k0_pay2_eq]
  exact Finset.sum_congr rfl fun k _ => by rw [k0_pay1_apply]

theorem k0_pay4_apply (x0 : FVec Ideal S512x512 .f32) (x1 : FVec Ideal S512x64 .f32) (n : Fin 512) (b : Fin 64) :
    k0_pay4 (F := Ideal) x0 x1 (ix2 n b)
      = Cert.Spec.cheb (Cert.Sup.Sk (adjOf x0)) Cert.SpecArgs.cTwo 2 (fun j => x1 (ix2 j b)) n := by
  unfold k0_pay4
  simp only [subf_apply, mulf_apply, broadcast_apply]
  rw [matmul_zero_apply, k0_pay2_eq]
  have hs : (∑ k : Fin 512, k0_pay1 (F := Ideal) x0 (ix2 n k) * k0_pay3 (F := Ideal) x0 x1 (ix2 k b))
      = Cert.Spec.diff (Cert.Sup.Sk (adjOf x0)) (Cert.Spec.diff (Cert.Sup.Sk (adjOf x0)) (fun j => x1 (ix2 j b))) n :=
    Finset.sum_congr rfl fun k _ => by rw [k0_pay1_apply, k0_pay3_apply]
  rw [hs]
  rfl

theorem out0_12_apply (x0 : Vec Ideal S512x512 .f32) (x1 : Vec Ideal S512x64 .f32) (n : Fin 512) (b : Fin 64) :
    out0_12 x0 x1 (ix2 n b) = Cert.Spec.diff (Cert.Sup.Sk (adjOf x0)) (fun j => x1 (ix2 j b)) n := by
  unfold out0_12 a_v0 a_v28
  rw [View.canon_unit_zero zero2, View.ld_unit_zero zero2, View.ld_unit_zero zero2]
  exact k0_pay3_apply x0 x1 n b

theorem out0_13_apply (x0 : Vec Ideal S512x512 .f32) (x1 : Vec Ideal S512x64 .f32) (n : Fin 512) (b : Fin 64) :
    out0_13 x0 x1 (ix2 n b) = Cert.Spec.cheb (Cert.Sup.Sk (adjOf x0)) Cert.SpecArgs.cTwo 2 (fun j => x1 (ix2 j b)) n := by
  unfold out0_13 a_v35 a_v0 a_v28
  rw [View.canon_unit_zero zero2, View.ld_unit_zero zero2, View.ld_unit_zero zero2]
  exact k0_pay4_apply x0 x1 n b

end Cert.KernelIdeal.PrepVal

end
-- ==== Proof.LibWalk.lean ====
import proofs.«162860_g19069654794669_cont_sun_m_30_12_alg».proof.Proof.Pack
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.IdealRules

noncomputable section

namespace Cert.Walk

open Idealize.ShloMosaic Idealize.ShloMosaic.ValueIdx Cert.Pack

theorem pk_val (bb : Fin 2) (f : Fin 64) : (pk bb f).val = bb.val * 64 + f.val := rfl
theorem ruc_val (g bb : Fin 2) (o : Fin 64) : (ruc g bb o).val = g.val * 128 + bb.val * 64 + o.val := rfl
theorem ar_val (bb : Fin 2) (k : Fin 3) : (ar bb k).val = bb.val * 3 + k.val := rfl
theorem s1_val (f : Fin 64) : (s1 f).val = 1 + f.val := rfl

theorem fin2_val (b : Fin 2) : b.val = 0 ∨ b.val = 1 := by omega
theorem fin3_val (k : Fin 3) : k.val = 0 ∨ k.val = 1 ∨ k.val = 2 := by omega

section Walk

variable {Val : EltTy → Type} [∀ e, Nonempty (Val e)] {e : EltTy}

-- The last copy does not cover an index outside its rectangle on some axis.
theorem canon_miss2 {n0 n1 m0 m1 r c : ℕ}
    (inb : ∀ a, (![r, c] : Fin 2 → ℕ) a + (⟨2, ![m0, m1]⟩ : Shape).size a ≤ (⟨2, ![n0, n1]⟩ : Shape).size a)
    (w : (Rect.unit (s := ⟨2, ![n0, n1]⟩) ![r, c] (⟨2, ![m0, m1]⟩ : Shape).size inb).shape.Idx → Val e)
    (L : List (View.Piece Val (⟨2, ![n0, n1]⟩ : Shape) e)) (a : Fin n0) (b : Fin n1)
    (h : a.val < r ∨ r + m0 ≤ a.val ∨ b.val < c ∨ c + m1 ≤ b.val) :
    View.canon (⟨Rect.unit (s := ⟨2, ![n0, n1]⟩) ![r, c] (⟨2, ![m0, m1]⟩ : Shape).size inb, w⟩ :: L) (ix2 a b)
      = View.canon L (ix2 a b) := by
  refine View.canon_cons_of_not_mem _ L (fun hm => ?_)
  have hall := (Rect.mem_set_unit (s := ⟨2, ![n0, n1]⟩) (off := ![r, c]) (size := (⟨2, ![m0, m1]⟩ : Shape).size)
    (inb := inb) (i := ix2 a b)).mp hm
  have h0 : r ≤ a.val ∧ a.val < r + m0 := hall 0
  have h1 : c ≤ b.val ∧ b.val < c + m1 := hall 1
  omega

-- Inside the last copy's rectangle the array holds the copied value at the position within it.
theorem canon_hit2 {n0 n1 m0 m1 r c : ℕ}
    (inb : ∀ a, (![r, c] : Fin 2 → ℕ) a + (⟨2, ![m0, m1]⟩ : Shape).size a ≤ (⟨2, ![n0, n1]⟩ : Shape).size a)
    (w : (Rect.unit (s := ⟨2, ![n0, n1]⟩) ![r, c] (⟨2, ![m0, m1]⟩ : Shape).size inb).shape.Idx → Val e)
    (L : List (View.Piece Val (⟨2, ![n0, n1]⟩ : Shape) e)) (a : Fin n0) (b : Fin n1) (x0 : Fin m0) (x1 : Fin m1)
    (h0 : a.val = r + x0.val) (h1 : b.val = c + x1.val) :
    View.canon (⟨Rect.unit (s := ⟨2, ![n0, n1]⟩) ![r, c] (⟨2, ![m0, m1]⟩ : Shape).size inb, w⟩ :: L) (ix2 a b)
      = w (ix2 x0 x1) := by
  have hy : (Rect.unit (s := ⟨2, ![n0, n1]⟩) ![r, c] (⟨2, ![m0, m1]⟩ : Shape).size inb).emb (ix2 x0 x1) = ix2 a b := by
    funext ax
    match ax with
    | ⟨0, _⟩ => exact Fin.ext (show r + 1 * x0.val = a.val by omega)
    | ⟨1, _⟩ => exact Fin.ext (show c + 1 * x1.val = b.val by omega)
  rw [← hy]
  exact View.canon_cons_emb _ w L (ix2 x0 x1)

theorem canon_miss3 {n0 n1 n2 m0 m1 m2 r c d : ℕ}
    (inb : ∀ a, (![r, c, d] : Fin 3 → ℕ) a + (⟨3, ![m0, m1, m2]⟩ : Shape).size a ≤ (⟨3, ![n0, n1, n2]⟩ : Shape).size a)
    (w : (Rect.unit (s := ⟨3, ![n0, n1, n2]⟩) ![r, c, d] (⟨3, ![m0, m1, m2]⟩ : Shape).size inb).shape.Idx → Val e)
    (L : List (View.Piece Val (⟨3, ![n0, n1, n2]⟩ : Shape) e)) (a : Fin n0) (b : Fin n1) (cc : Fin n2)
    (h : a.val < r ∨ r + m0 ≤ a.val ∨ b.val < c ∨ c + m1 ≤ b.val ∨ cc.val < d ∨ d + m2 ≤ cc.val) :
    View.canon (⟨Rect.unit (s := ⟨3, ![n0, n1, n2]⟩) ![r, c, d] (⟨3, ![m0, m1, m2]⟩ : Shape).size inb, w⟩ :: L)
      (ix3 a b cc) = View.canon L (ix3 a b cc) := by
  refine View.canon_cons_of_not_mem _ L (fun hm => ?_)
  have hall := (Rect.mem_set_unit (s := ⟨3, ![n0, n1, n2]⟩) (off := ![r, c, d])
    (size := (⟨3, ![m0, m1, m2]⟩ : Shape).size) (inb := inb) (i := ix3 a b cc)).mp hm
  have h0 : r ≤ a.val ∧ a.val < r + m0 := hall 0
  have h1 : c ≤ b.val ∧ b.val < c + m1 := hall 1
  have h2 : d ≤ cc.val ∧ cc.val < d + m2 := hall 2
  omega

theorem canon_hit3 {n0 n1 n2 m0 m1 m2 r c d : ℕ}
    (inb : ∀ a, (![r, c, d] : Fin 3 → ℕ) a + (⟨3, ![m0, m1, m2]⟩ : Shape).size a ≤ (⟨3, ![n0, n1, n2]⟩ : Shape).size a)
    (w : (Rect.unit (s := ⟨3, ![n0, n1, n2]⟩) ![r, c, d] (⟨3, ![m0, m1, m2]⟩ : Shape).size inb).shape.Idx → Val e)
    (L : List (View.Piece Val (⟨3, ![n0, n1, n2]⟩ : Shape) e)) (a : Fin n0) (b : Fin n1) (cc : Fin n2)
    (x0 : Fin m0) (x1 : Fin m1) (x2 : Fin m2)
    (h0 : a.val = r + x0.val) (h1 : b.val = c + x1.val) (h2 : cc.val = d + x2.val) :
    View.canon (⟨Rect.unit (s := ⟨3, ![n0, n1, n2]⟩) ![r, c, d] (⟨3, ![m0, m1, m2]⟩ : Shape).size inb, w⟩ :: L)
      (ix3 a b cc) = w (ix3 x0 x1 x2) := by
  have hy : (Rect.unit (s := ⟨3, ![n0, n1, n2]⟩) ![r, c, d] (⟨3, ![m0, m1, m2]⟩ : Shape).size inb).emb (ix3 x0 x1 x2)
      = ix3 a b cc := by
    funext ax
    match ax with
    | ⟨0, _⟩ => exact Fin.ext (show r + 1 * x0.val = a.val by omega)
    | ⟨1, _⟩ => exact Fin.ext (show c + 1 * x1.val = b.val by omega)
    | ⟨2, _⟩ => exact Fin.ext (show d + 1 * x2.val = cc.val by omega)
  rw [← hy]
  exact View.canon_cons_emb _ w L (ix3 x0 x1 x2)

end Walk

section Load

variable {Val : EltTy → Type} {e : EltTy}

-- A block of an array at a position of the block is the array at the block's offsets plus the position.
theorem ld2_apply {n0 n1 m0 m1 r c : ℕ} (X : (⟨2, ![n0, n1]⟩ : Shape).Idx → Val e)
    (inb : ∀ a, (![r, c] : Fin 2 → ℕ) a + (⟨2, ![m0, m1]⟩ : Shape).size a ≤ (⟨2, ![n0, n1]⟩ : Shape).size a)
    (x0 : Fin m0) (x1 : Fin m1) (a : Fin n0) (b : Fin n1) (h0 : a.val = r + x0.val) (h1 : b.val = c + x1.val) :
    View.ld X (Rect.unit (s := ⟨2, ![n0, n1]⟩) ![r, c] (⟨2, ![m0, m1]⟩ : Shape).size inb) (ix2 x0 x1) = X (ix2 a b) := by
  refine congrArg X (funext fun ax => ?_)
  match ax with
  | ⟨0, _⟩ => exact Fin.ext (show r + 1 * x0.val = a.val by omega)
  | ⟨1, _⟩ => exact Fin.ext (show c + 1 * x1.val = b.val by omega)

theorem ld3_apply {n0 n1 n2 m0 m1 m2 r c d : ℕ} (X : (⟨3, ![n0, n1, n2]⟩ : Shape).Idx → Val e)
    (inb : ∀ a, (![r, c, d] : Fin 3 → ℕ) a + (⟨3, ![m0, m1, m2]⟩ : Shape).size a ≤ (⟨3, ![n0, n1, n2]⟩ : Shape).size a)
    (x0 : Fin m0) (x1 : Fin m1) (x2 : Fin m2) (a : Fin n0) (b : Fin n1) (cc : Fin n2)
    (h0 : a.val = r + x0.val) (h1 : b.val = c + x1.val) (h2 : cc.val = d + x2.val) :
    View.ld X (Rect.unit (s := ⟨3, ![n0, n1, n2]⟩) ![r, c, d] (⟨3, ![m0, m1, m2]⟩ : Shape).size inb) (ix3 x0 x1 x2)
      = X (ix3 a b cc) := by
  refine congrArg X (funext fun ax => ?_)
  match ax with
  | ⟨0, _⟩ => exact Fin.ext (show r + 1 * x0.val = a.val by omega)
  | ⟨1, _⟩ => exact Fin.ext (show c + 1 * x1.val = b.val by omega)
  | ⟨2, _⟩ => exact Fin.ext (show d + 1 * x2.val = cc.val by omega)

end Load

-- Flattening a 1 × 1 × n block and making it a row keeps the row-major position.
theorem cast_11n_row {α : Type} {n : ℕ} (v : (⟨3, ![1, 1, n]⟩ : Shape).Idx → α)
    (h1 : (⟨3, ![1, 1, n]⟩ : Shape).ShapeCasts ⟨1, ![n]⟩) (h2 : (⟨1, ![n]⟩ : Shape).ShapeCasts ⟨2, ![1, n]⟩)
    (u : Fin 1) (i : Fin n) :
    shapeCast ⟨2, ![1, n]⟩ (shapeCast ⟨1, ![n]⟩ v h1) h2 (ix2 u i) = v (ix3 (0 : Fin 1) (0 : Fin 1) i) :=
  (shapeCast_a_1a_apply _ h2 u i).trans (shapeCast_apply v h1 _ _ (by
    rw [Shape.rowMajor_val_three, Shape.rowMajor_val_one]
    show (0 * 1 + 0) * n + i.val = i.val
    omega))

theorem zero_word : Scalar.ofBits (F := Ideal) .f32 0x00000000#32 = (0 : EReal) :=
  IdealRules.sign_bit.ideal_zero .f32

macro "walk_arith" : tactic =>
  `(tactic| first
    | (simp only [pk_val, ruc_val, ar_val, s1_val, Fin.val_zero, Fin.val_mk, Fin.isValue]; first | done | omega)
    | omega)

section Hit

variable {Val : EltTy → Type} [∀ e, Nonempty (Val e)] {e : EltTy}

-- A row copied out of a matrix, through a flattening and back, reads the matrix at the source position.
theorem hit_row_of2 {n0 n1 N0 N1 n r c r' c' : ℕ} (X : (⟨2, ![N0, N1]⟩ : Shape).Idx → Val e)
    (inb : ∀ a, (![r, c] : Fin 2 → ℕ) a + (⟨2, ![1, n]⟩ : Shape).size a ≤ (⟨2, ![n0, n1]⟩ : Shape).size a)
    (inb' : ∀ a, (![r', c'] : Fin 2 → ℕ) a + (⟨2, ![1, n]⟩ : Shape).size a ≤ (⟨2, ![N0, N1]⟩ : Shape).size a)
    (h1 : (⟨2, ![1, n]⟩ : Shape).ShapeCasts ⟨1, ![n]⟩) (h2 : (⟨1, ![n]⟩ : Shape).ShapeCasts ⟨2, ![1, n]⟩)
    (L : List (View.Piece Val (⟨2, ![n0, n1]⟩ : Shape) e)) (a : Fin n0) (b : Fin n1) (i : Fin n)
    (a' : Fin N0) (b' : Fin N1) (ha : a.val = r) (hb : b.val = c + i.val) (ha' : a'.val = r')
    (hb' : b'.val = c' + i.val) :
    View.canon (⟨Rect.unit (s := ⟨2, ![n0, n1]⟩) ![r, c] (⟨2, ![1, n]⟩ : Shape).size inb,
        shapeCast ⟨2, ![1, n]⟩ (shapeCast ⟨1, ![n]⟩
          (View.ld X (Rect.unit (s := ⟨2, ![N0, N1]⟩) ![r', c'] (⟨2, ![1, n]⟩ : Shape).size inb')) h1) h2⟩ :: L)
      (ix2 a b) = X (ix2 a' b') :=
  (canon_hit2 inb _ L a b (0 : Fin 1) i (by rw [ha]; rfl) hb).trans
    ((congrFun (shapeCast_shapeCast _ h1 h2) _).trans (ld2_apply X inb' 0 i a' b' (by rw [ha']; rfl) hb'))

-- The same for a row taken out of a rank-3 array.
theorem hit_row_of3 {n0 n1 N0 N1 N2 n r c r' c' d' : ℕ} (X : (⟨3, ![N0, N1, N2]⟩ : Shape).Idx → Val e)
    (inb : ∀ a, (![r, c] : Fin 2 → ℕ) a + (⟨2, ![1, n]⟩ : Shape).size a ≤ (⟨2, ![n0, n1]⟩ : Shape).size a)
    (inb' : ∀ a, (![r', c', d'] : Fin 3 → ℕ) a + (⟨3, ![1, 1, n]⟩ : Shape).size a ≤ (⟨3, ![N0, N1, N2]⟩ : Shape).size a)
    (h1 : (⟨3, ![1, 1, n]⟩ : Shape).ShapeCasts ⟨1, ![n]⟩) (h2 : (⟨1, ![n]⟩ : Shape).ShapeCasts ⟨2, ![1, n]⟩)
    (L : List (View.Piece Val (⟨2, ![n0, n1]⟩ : Shape) e)) (a : Fin n0) (b : Fin n1) (i : Fin n)
    (a' : Fin N0) (b' : Fin N1) (cc' : Fin N2) (ha : a.val = r) (hb : b.val = c + i.val) (ha' : a'.val = r')
    (hb' : b'.val = c') (hc' : cc'.val = d' + i.val) :
    View.canon (⟨Rect.unit (s := ⟨2, ![n0, n1]⟩) ![r, c] (⟨2, ![1, n]⟩ : Shape).size inb,
        shapeCast ⟨2, ![1, n]⟩ (shapeCast ⟨1, ![n]⟩
          (View.ld X (Rect.unit (s := ⟨3, ![N0, N1, N2]⟩) ![r', c', d'] (⟨3, ![1, 1, n]⟩ : Shape).size inb')) h1) h2⟩ :: L)
      (ix2 a b) = X (ix3 a' b' cc') :=
  (canon_hit2 inb _ L a b (0 : Fin 1) i (by rw [ha]; rfl) hb).trans
    ((cast_11n_row _ h1 h2 0 i).trans
      (ld3_apply X inb' 0 0 i a' b' cc' (by rw [ha']; rfl) (by rw [hb']; rfl) hc'))

-- An m × n block copied between rank-3 arrays, through a matrix and back.
theorem hit_blk3 {n0 n1 n2 N0 N1 N2 m n r c d r' c' d' : ℕ} (X : (⟨3, ![N0, N1, N2]⟩ : Shape).Idx → Val e)
    (inb : ∀ a, (![r, c, d] : Fin 3 → ℕ) a + (⟨3, ![1, m, n]⟩ : Shape).size a ≤ (⟨3, ![n0, n1, n2]⟩ : Shape).size a)
    (inb' : ∀ a, (![r', c', d'] : Fin 3 → ℕ) a + (⟨3, ![1, m, n]⟩ : Shape).size a ≤ (⟨3, ![N0, N1, N2]⟩ : Shape).size a)
    (h1 : (⟨3, ![1, m, n]⟩ : Shape).ShapeCasts ⟨2, ![m, n]⟩) (h2 : (⟨2, ![m, n]⟩ : Shape).ShapeCasts ⟨3, ![1, m, n]⟩)
    (L : List (View.Piece Val (⟨3, ![n0, n1, n2]⟩ : Shape) e)) (a : Fin n0) (b : Fin n1) (cc : Fin n2)
    (i : Fin m) (j : Fin n) (a' : Fin N0) (b' : Fin N1) (cc' : Fin N2)
    (ha : a.val = r) (hb : b.val = c + i.val) (hc : cc.val = d + j.val)
    (ha' : a'.val = r') (hb' : b'.val = c' + i.val) (hc' : cc'.val = d' + j.val) :
    View.canon (⟨Rect.unit (s := ⟨3, ![n0, n1, n2]⟩) ![r, c, d] (⟨3, ![1, m, n]⟩ : Shape).size inb,
        shapeCast ⟨3, ![1, m, n]⟩ (shapeCast ⟨2, ![m, n]⟩
          (View.ld X (Rect.unit (s := ⟨3, ![N0, N1, N2]⟩) ![r', c', d'] (⟨3, ![1, m, n]⟩ : Shape).size inb')) h1) h2⟩ :: L)
      (ix3 a b cc) = X (ix3 a' b' cc') :=
  (canon_hit3 inb _ L a b cc (0 : Fin 1) i j (by rw [ha]; rfl) hb hc).trans
    ((congrFun (shapeCast_shapeCast _ h1 h2) _).trans (ld3_apply X inb' 0 i j a' b' cc' (by rw [ha']; rfl) hb' hc'))

end Hit

-- The zero fill under every copy reads zero.
theorem hit_zero2 {n0 n1 : ℕ}
    (inb : ∀ a, (![0, 0] : Fin 2 → ℕ) a + (⟨2, ![n0, n1]⟩ : Shape).size a ≤ (⟨2, ![n0, n1]⟩ : Shape).size a)
    (L : List (View.Piece (Elt Ideal) (⟨2, ![n0, n1]⟩ : Shape) .f32)) (a : Fin n0) (b : Fin n1) :
    View.canon (⟨Rect.unit (s := ⟨2, ![n0, n1]⟩) ![0, 0] (⟨2, ![n0, n1]⟩ : Shape).size inb,
        broadcast ⟨2, ![n0, n1]⟩ (Scalar.ofBits (F := Ideal) .f32 0x00000000#32)⟩ :: L) (ix2 a b) = (0 : EReal) :=
  (canon_hit2 inb _ L a b a b (Nat.zero_add _).symm (Nat.zero_add _).symm).trans zero_word

theorem hit_zero3 {n0 n1 n2 : ℕ}
    (inb : ∀ a, (![0, 0, 0] : Fin 3 → ℕ) a + (⟨3, ![n0, n1, n2]⟩ : Shape).size a ≤ (⟨3, ![n0, n1, n2]⟩ : Shape).size a)
    (L : List (View.Piece (Elt Ideal) (⟨3, ![n0, n1, n2]⟩ : Shape) .f32)) (a : Fin n0) (b : Fin n1) (cc : Fin n2) :
    View.canon (⟨Rect.unit (s := ⟨3, ![n0, n1, n2]⟩) ![0, 0, 0] (⟨3, ![n0, n1, n2]⟩ : Shape).size inb,
        broadcast ⟨3, ![n0, n1, n2]⟩ (Scalar.ofBits (F := Ideal) .f32 0x00000000#32)⟩ :: L) (ix3 a b cc) = (0 : EReal) :=
  (canon_hit3 inb _ L a b cc a b cc (Nat.zero_add _).symm (Nat.zero_add _).symm (Nat.zero_add _).symm).trans zero_word

macro "walk_miss2" : tactic => `(tactic| (refine Eq.trans (canon_miss2 _ _ _ _ _ ?_) ?_; walk_arith))
macro "walk_miss3" : tactic => `(tactic| (refine Eq.trans (canon_miss3 _ _ _ _ _ _ ?_) ?_; walk_arith))

end Cert.Walk

end
-- ==== Proof.PrepW0.lean ====
import proofs.«162860_g19069654794669_cont_sun_m_30_12_alg».proof.Proof.Outs
import proofs.«162860_g19069654794669_cont_sun_m_30_12_alg».proof.Proof.LibWalk

noncomputable section

namespace Cert.KernelIdeal.PrepVal

open Idealize.ShloMosaic Idealize.ShloMosaic.ValueIdx Cert.KernelIdeal Cert.KernelIdeal.Gen Cert.KernelIdeal.Fr Cert.Pack Cert.Walk

theorem out0_19_apply (x7 : Vec Ideal S1x64 .f32) (bb : Fin 2) (o : Fin 64) :
    out0_19 x7 (ix2 0 (pk bb o)) = x7 (ix2 0 o) := by
  unfold out0_19
  rcases fin2_val bb with hb | hb
  all_goals repeat walk_miss2
  all_goals refine hit_row_of2 x7 _ _ _ _ _ _ _ o _ _ ?_ ?_ ?_ ?_ <;> walk_arith

theorem out0_16_apply (x6 : Vec Ideal S1x128 .f32) (g bb : Fin 2) (o : Fin 64) :
    out0_16 x6 (ix2 0 (ruc g bb o)) = x6 (ix2 0 (pk g o)) := by
  unfold out0_16
  rcases fin2_val g with hg | hg <;> rcases fin2_val bb with hb | hb
  all_goals repeat walk_miss2
  all_goals refine hit_row_of2 x6 _ _ _ _ _ _ _ o _ _ ?_ ?_ ?_ ?_ <;> walk_arith

theorem out0_17_apply (x3 : Vec Ideal S3x65x64 .f32) (bb' : Fin 2) (k : Fin 3) (bb : Fin 2) (o : Fin 64) :
    out0_17 x3 (ix2 (ar bb' k) (pk bb o)) = if bb' = bb then x3 (ix3 k 0 o) else 0 := by
  unfold out0_17
  rcases fin2_val bb' with hb' | hb' <;> rcases fin3_val k with hk | hk | hk <;> rcases fin2_val bb with hb | hb
  all_goals repeat walk_miss2
  all_goals first
    | (rw [if_pos (by omega)]
       refine hit_row_of3 x3 _ _ _ _ _ _ _ o _ _ _ ?_ ?_ ?_ ?_ ?_ <;> walk_arith)
    | (rw [if_neg (by omega)]
       exact hit_zero2 _ _ _ _)

theorem out0_14_apply (x2 : Vec Ideal S3x65x128 .f32) (bb' : Fin 2) (k : Fin 3) (g bb : Fin 2) (o : Fin 64) :
    out0_14 x2 (ix2 (ar bb' k) (ruc g bb o)) = if bb' = bb then x2 (ix3 k 0 (pk g o)) else 0 := by
  unfold out0_14
  rcases fin2_val bb' with hb' | hb' <;> rcases fin3_val k with hk | hk | hk <;> rcases fin2_val g with hg | hg <;>
    rcases fin2_val bb with hb | hb
  all_goals repeat walk_miss2
  all_goals first
    | (rw [if_pos (by omega)]
       refine hit_row_of3 x2 _ _ _ _ _ _ _ o _ _ _ ?_ ?_ ?_ ?_ ?_ <;> walk_arith)
    | (rw [if_neg (by omega)]
       exact hit_zero2 _ _ _ _)

theorem out0_15_apply (x2 : Vec Ideal S3x65x128 .f32) (k : Fin 3) (bb' : Fin 2) (f : Fin 64) (g bb : Fin 2)
    (o : Fin 64) :
    out0_15 x2 (ix3 k (pk bb' f) (ruc g bb o)) = if bb' = bb then x2 (ix3 k (s1 f) (pk g o)) else 0 := by
  unfold out0_15
  rcases fin3_val k with hk | hk | hk <;> rcases fin2_val bb' with hb' | hb' <;> rcases fin2_val g with hg | hg <;>
    rcases fin2_val bb with hb | hb
  all_goals repeat walk_miss3
  all_goals first
    | (rw [if_pos (by omega)]
       refine hit_blk3 x2 _ _ _ _ _ _ _ _ f o _ _ _ ?_ ?_ ?_ ?_ ?_ ?_ <;> walk_arith)
    | (rw [if_neg (by omega)]
       exact hit_zero3 _ _ _ _ _)

end Cert.KernelIdeal.PrepVal

end
-- ==== Proof.PrepW1.lean ====
import proofs.«162860_g19069654794669_cont_sun_m_30_12_alg».proof.Proof.Outs
import proofs.«162860_g19069654794669_cont_sun_m_30_12_alg».proof.Proof.LibWalk

noncomputable section

namespace Cert.KernelIdeal.PrepVal

open Idealize.ShloMosaic Idealize.ShloMosaic.ValueIdx Cert.KernelIdeal Cert.KernelIdeal.Gen Cert.KernelIdeal.Fr Cert.Pack Cert.Walk

theorem out0_25_apply (x9 : Vec Ideal S1x64 .f32) (bb : Fin 2) (o : Fin 64) : out0_25 x9 (ix2 0 (pk bb o)) = x9 (ix2 0 o) := by
  unfold out0_25
  rcases fin2_val bb with hb | hb
  all_goals repeat walk_miss2
  all_goals refine hit_row_of2 x9 _ _ _ _ _ _ _ o _ _ ?_ ?_ ?_ ?_ <;> walk_arith

theorem out0_22_apply (x8 : Vec Ideal S1x128 .f32) (g bb : Fin 2) (o : Fin 64) : out0_22 x8 (ix2 0 (ruc g bb o)) = x8 (ix2 0 (pk g o)) := by
  unfold out0_22
  rcases fin2_val g with hg | hg <;> rcases fin2_val bb with hb | hb
  all_goals repeat walk_miss2
  all_goals refine hit_row_of2 x8 _ _ _ _ _ _ _ o _ _ ?_ ?_ ?_ ?_ <;> walk_arith

theorem out0_26_apply (x10 : Vec Ideal S64x1 .f32) (bb' : Fin 2) (f : Fin 64) (bb : Fin 2) :
    out0_26 x10 (ix2 (pk bb' f) bb) = if bb' = bb then x10 (ix2 f 0) else 0 := by
  unfold out0_26
  rcases fin2_val bb' with hb' | hb' <;> rcases fin2_val bb with hb | hb
  all_goals repeat walk_miss2
  all_goals first
    | (rw [if_pos (by omega)]
       refine (canon_hit2 _ _ _ _ _ f (0 : Fin 1) ?_ ?_).trans (ld2_apply x10 _ f 0 _ _ ?_ ?_) <;> walk_arith)
    | (rw [if_neg (by omega)]
       exact hit_zero2 _ _ _ _)

theorem out0_20_apply (x4 : Vec Ideal S3x128x128 .f32) (k : Fin 3) (bb' : Fin 2) (f : Fin 64) (g bb : Fin 2) (o : Fin 64) :
    out0_20 x4 (ix3 k (pk bb' f) (ruc g bb o)) = if bb' = bb then x4 (ix3 k (pk 0 f) (pk g o)) else 0 := by
  unfold out0_20
  rcases fin3_val k with hk | hk | hk <;> rcases fin2_val bb' with hb' | hb' <;> rcases fin2_val g with hg | hg <;>
    rcases fin2_val bb with hb | hb
  all_goals repeat walk_miss3
  all_goals first
    | (rw [if_pos (by omega)]
       refine hit_blk3 x4 _ _ _ _ _ _ _ _ f o _ _ _ ?_ ?_ ?_ ?_ ?_ ?_ <;> walk_arith)
    | (rw [if_neg (by omega)]
       exact hit_zero3 _ _ _ _ _)

theorem out0_21_apply (x4 : Vec Ideal S3x128x128 .f32) (k : Fin 3) (bb' : Fin 2) (f : Fin 64) (g bb : Fin 2) (o : Fin 64) :
    out0_21 x4 (ix3 k (pk bb' f) (ruc g bb o)) = if bb' = bb then x4 (ix3 k (pk 1 f) (pk g o)) else 0 := by
  unfold out0_21
  rcases fin3_val k with hk | hk | hk <;> rcases fin2_val bb' with hb' | hb' <;> rcases fin2_val g with hg | hg <;>
    rcases fin2_val bb with hb | hb
  all_goals repeat walk_miss3
  all_goals first
    | (rw [if_pos (by omega)]
       refine hit_blk3 x4 _ _ _ _ _ _ _ _ f o _ _ _ ?_ ?_ ?_ ?_ ?_ ?_ <;> walk_arith)
    | (rw [if_neg (by omega)]
       exact hit_zero3 _ _ _ _ _)

end Cert.KernelIdeal.PrepVal

end
-- ==== Proof.PrepW2.lean ====
import proofs.«162860_g19069654794669_cont_sun_m_30_12_alg».proof.Proof.Outs
import proofs.«162860_g19069654794669_cont_sun_m_30_12_alg».proof.Proof.LibWalk

noncomputable section

namespace Cert.KernelIdeal.PrepVal2

open Idealize.ShloMosaic Idealize.ShloMosaic.ValueIdx Cert.KernelIdeal Cert.KernelIdeal.Gen Cert.KernelIdeal.Fr Cert.Pack Cert.Walk

theorem out0_18_apply (x3 : Vec Ideal S3x65x64 .f32) (k : Fin 3) (bb' : Fin 2) (f : Fin 64) (bb : Fin 2) (o : Fin 64) :
    out0_18 x3 (ix3 k (pk bb' f) (pk bb o)) = if bb' = bb then x3 (ix3 k (s1 f) o) else 0 := by
  unfold out0_18
  rcases fin3_val k with hk | hk | hk <;> rcases fin2_val bb' with hb' | hb' <;> rcases fin2_val bb with hb | hb
  all_goals repeat walk_miss3
  all_goals first
    | (rw [if_pos (by omega)]
       refine hit_blk3 x3 _ _ _ _ _ _ _ _ f o _ _ _ ?_ ?_ ?_ ?_ ?_ ?_ <;> walk_arith)
    | (rw [if_neg (by omega)]
       exact hit_zero3 _ _ _ _ _)

theorem out0_23_apply (x5 : Vec Ideal S3x128x64 .f32) (k : Fin 3) (bb' : Fin 2) (f : Fin 64) (bb : Fin 2) (o : Fin 64) :
    out0_23 x5 (ix3 k (pk bb' f) (pk bb o)) = if bb' = bb then x5 (ix3 k (pk 0 f) o) else 0 := by
  unfold out0_23
  rcases fin3_val k with hk | hk | hk <;> rcases fin2_val bb' with hb' | hb' <;> rcases fin2_val bb with hb | hb
  all_goals repeat walk_miss3
  all_goals first
    | (rw [if_pos (by omega)]
       refine hit_blk3 x5 _ _ _ _ _ _ _ _ f o _ _ _ ?_ ?_ ?_ ?_ ?_ ?_ <;> walk_arith)
    | (rw [if_neg (by omega)]
       exact hit_zero3 _ _ _ _ _)

theorem out0_24_apply (x5 : Vec Ideal S3x128x64 .f32) (k : Fin 3) (bb' : Fin 2) (f : Fin 64) (bb : Fin 2) (o : Fin 64) :
    out0_24 x5 (ix3 k (pk bb' f) (pk bb o)) = if bb' = bb then x5 (ix3 k (pk 1 f) o) else 0 := by
  unfold out0_24
  rcases fin3_val k with hk | hk | hk <;> rcases fin2_val bb' with hb' | hb' <;> rcases fin2_val bb with hb | hb
  all_goals repeat walk_miss3
  all_goals first
    | (rw [if_pos (by omega)]
       refine hit_blk3 x5 _ _ _ _ _ _ _ _ f o _ _ _ ?_ ?_ ?_ ?_ ?_ ?_ <;> walk_arith)
    | (rw [if_neg (by omega)]
       exact hit_zero3 _ _ _ _ _)

end Cert.KernelIdeal.PrepVal2

end
-- ==== Proof.MainInst.lean ====
import proofs.«162860_g19069654794669_cont_sun_m_30_12_alg».proof.Proof.MainIn
import proofs.«162860_g19069654794669_cont_sun_m_30_12_alg».proof.Proof.PrepSup
import proofs.«162860_g19069654794669_cont_sun_m_30_12_alg».proof.Proof.PrepW0
import proofs.«162860_g19069654794669_cont_sun_m_30_12_alg».proof.Proof.PrepW1
import proofs.«162860_g19069654794669_cont_sun_m_30_12_alg».proof.Proof.PrepW2
import Idealize.ShloMosaic.Lib.ValueIdx

noncomputable section

namespace Cert.KernelIdeal.MainVal

open Idealize.ShloMosaic Idealize.ShloMosaic.ValueIdx Cert.KernelIdeal Cert.KernelIdeal.Gen Cert.KernelIdeal.Fr Cert.Pack Cert.SpecArgs

theorem inputs_of
    (a0 : (⟨2, ![64, 512]⟩ : Shape).Idx → EReal) (a1 : (⟨3, ![2, 64, 32768]⟩ : Shape).Idx → EReal)
    (a3 : (⟨2, ![195, 128]⟩ : Shape).Idx → EReal) (a4 : (⟨1, ![128]⟩ : Shape).Idx → EReal)
    (a5 : (⟨2, ![195, 64]⟩ : Shape).Idx → EReal) (a6 : (⟨1, ![64]⟩ : Shape).Idx → EReal)
    (a7 : (⟨2, ![384, 128]⟩ : Shape).Idx → EReal) (a8 : (⟨1, ![128]⟩ : Shape).Idx → EReal)
    (a9 : (⟨2, ![384, 64]⟩ : Shape).Idx → EReal) (a10 : (⟨1, ![64]⟩ : Shape).Idx → EReal)
    (a11 : (⟨2, ![64, 1]⟩ : Shape).Idx → EReal) (a12 : (⟨1, ![1]⟩ : Shape).Idx → EReal)
    (tt : Fin 32)
    (x0 : Vec Ideal S512x512 .f32) (x1 : Vec Ideal S512x64 .f32) (x2 : Vec Ideal S3x65x128 .f32)
    (x3 : Vec Ideal S3x65x64 .f32) (x4 : Vec Ideal S3x128x128 .f32) (x5 : Vec Ideal S3x128x64 .f32)
    (x6 : Vec Ideal S1x128 .f32) (x7 : Vec Ideal S1x64 .f32) (x8 : Vec Ideal S1x128 .f32) (x9 : Vec Ideal S1x64 .f32)
    (x10 : Vec Ideal S64x1 .f32)
    (hx1 : ∀ (n : Fin 512) (b : Fin 64), x1 (ix2 n b) = a0 (ix2 b n))
    (hx2 : ∀ (k : Fin 3) (f : Fin 65) (o : Fin 128), x2 (ix3 k f o) = a3 (ix2 (w195 f k) o))
    (hx3 : ∀ (k : Fin 3) (f : Fin 65) (o : Fin 64), x3 (ix3 k f o) = a5 (ix2 (w195 f k) o))
    (hx4 : ∀ (k : Fin 3) (f : Fin 128) (o : Fin 128), x4 (ix3 k f o) = a7 (ix2 (w384 f k) o))
    (hx5 : ∀ (k : Fin 3) (f : Fin 128) (o : Fin 64), x5 (ix3 k f o) = a9 (ix2 (w384 f k) o))
    (hx6 : ∀ o : Fin 128, x6 (ix2 0 o) = a4 (ix1 o)) (hx7 : ∀ o : Fin 64, x7 (ix2 0 o) = a6 (ix1 o))
    (hx8 : ∀ o : Fin 128, x8 (ix2 0 o) = a8 (ix1 o)) (hx9 : ∀ o : Fin 64, x9 (ix2 0 o) = a10 (ix1 o))
    (hx10 : ∀ f : Fin 64, x10 (ix2 f 0) = a11 (ix2 f 0))
    (y0 : Vec Ideal S512x512 .f32) (y1 : Vec Ideal S2x512x3 .f32) (y2 y3 : Vec Ideal S2x512x64 .f32)
    (y4 : Vec Ideal S6x256 .f32) (y5 : Vec Ideal S3x128x256 .f32) (y6 : Vec Ideal S1x256 .f32)
    (y7 : Vec Ideal S6x128 .f32) (y8 : Vec Ideal S3x128x128 .f32) (y9 : Vec Ideal S1x128 .f32)
    (y10 y11 : Vec Ideal S3x128x256 .f32) (y12 : Vec Ideal S1x256 .f32)
    (y13 y14 : Vec Ideal S3x128x128 .f32) (y15 : Vec Ideal S1x128 .f32) (y16 : Vec Ideal S128x2 .f32)
    (y17 : Vec Ideal S1x1 .f32)
    (hY0 : y0 = out0_11 x0)
    (hY1 : ∀ (bb : Fin 2) (n : Fin 512), y1 (ix3 bb n 0) = x1 (ix2 n (bat tt bb))
      ∧ y1 (ix3 bb n 1) = out0_12 x0 x1 (ix2 n (bat tt bb)) ∧ y1 (ix3 bb n 2) = out0_13 x0 x1 (ix2 n (bat tt bb)))
    (hY2 : ∀ (bb : Fin 2) (n : Fin 512) (f : Fin 64), y2 (ix3 bb n f) = a1 (ix3 0 (bat tt bb) (nf n f)))
    (hY3 : ∀ (bb : Fin 2) (n : Fin 512) (f : Fin 64), y3 (ix3 bb n f) = a1 (ix3 1 (bat tt bb) (nf n f)))
    (hY4 : y4 = out0_14 x2) (hY5 : y5 = out0_15 x2) (hY6 : y6 = out0_16 x6) (hY7 : y7 = out0_17 x3)
    (hY8 : y8 = out0_18 x3) (hY9 : y9 = out0_19 x7) (hY10 : y10 = out0_20 x4) (hY11 : y11 = out0_21 x4)
    (hY12 : y12 = out0_22 x8) (hY13 : y13 = out0_23 x5) (hY14 : y14 = out0_24 x5) (hY15 : y15 = out0_25 x9)
    (hY16 : y16 = out0_26 x10) (hY17 : y17 (ix2 0 0) = a12 (ix1 0)) :
    Inputs (Cert.Sup.Sk (Cert.KernelIdeal.PrepVal.adjOf x0)) (fun bb => xOf a0 (bat tt bb))
      (fun bb => hOf a1 0 (bat tt bb)) (fun bb => hOf a1 1 (bat tt bb))
      (wOf195 a3) (bOf a4) (wOf195 a5) (bOf a6) (wOf384 a7) (bOf a8) (wOf384 a9) (bOf a10) (pOf a11) (pbOf a12)
      y0 y1 y2 y3 y4 y5 y6 y7 y8 y9 y10 y11 y12 y13 y14 y15 y16 y17 := by
  subst hY0 hY4 hY5 hY6 hY7 hY8 hY9 hY10 hY11 hY12 hY13 hY14 hY15 hY16
  have hcol : ∀ b : Fin 64, (fun j : Fin 512 => x1 (ix2 j b)) = xOf a0 b := fun b => funext fun j => hx1 j b
  refine ⟨PrepVal.out0_11_apply x0, fun bb n k => ?_, hY2, hY3, ?_, ?_, ?_, ?_, ?_, ?_, ?_, ?_, ?_, ?_, ?_, ?_, ?_, hY17⟩ <;> intros
  · match k with
    | ⟨0, _⟩ => exact ((hY1 bb n).1).trans (hx1 n (bat tt bb))
    | ⟨1, _⟩ =>
      refine ((hY1 bb n).2.1).trans ?_
      rw [PrepVal.out0_12_apply, hcol]
      rfl
    | ⟨2, _⟩ =>
      refine ((hY1 bb n).2.2).trans ?_
      rw [PrepVal.out0_13_apply, hcol]
      rfl
  · rw [PrepVal.out0_14_apply, hx2]; rfl
  · rw [PrepVal.out0_15_apply, hx2]; rfl
  · rw [PrepVal.out0_16_apply, hx6]; rfl
  · rw [PrepVal.out0_17_apply, hx3]; rfl
  · rw [PrepVal2.out0_18_apply, hx3]; rfl
  · rw [PrepVal.out0_19_apply, hx7]; rfl
  · rw [PrepVal.out0_20_apply, hx4]; rfl
  · rw [PrepVal.out0_21_apply, hx4]; rfl
  · rw [PrepVal.out0_22_apply, hx8]; rfl
  · rw [PrepVal2.out0_23_apply, hx5]; rfl
  · rw [PrepVal2.out0_24_apply, hx5]; rfl
  · rw [PrepVal.out0_25_apply, hx9]; rfl
  · rw [PrepVal.out0_26_apply, hx10]; rfl

end Cert.KernelIdeal.MainVal

end
-- ==== Proof.LibLanes.lean ====
import Idealize.ShloMosaic.Lib.ValueIdx
import Idealize.ShloMosaic.Lib.ValueLayout
import Idealize.ShloMosaic.Lib.Pipeline.Value
import Idealize.ShloMosaic.Lib.Pipeline.FrameBody
import Idealize.ShloMosaic.PureOps.Ideal.Laws

noncomputable section

namespace Cert.Lanes

open Idealize.ShloMosaic Idealize.ShloMosaic.ValueIdx
open scoped BigOperators

-- A rows-by-contraction times contraction-by-columns product into zero: entry (i, j) sums X i q * Y q j over q.
theorem mm_plain {M K N : ℕ} (X : FVec Ideal ⟨2, ![M, K]⟩ .f32) (Y : FVec Ideal ⟨2, ![K, N]⟩ .f32) (i : Fin M) (j : Fin N) :
    matmul (DotDims.plain M K N) none X Y (constant ⟨2, ![M, N]⟩ .f32 0x00000000#32) (ix2 i j)
      = ∑ q : Fin K, X (ix2 i q) * Y (ix2 q j) := by
  show FloatOps.matmul (DotDims.plain M K N) none X Y (constant ⟨2, ![M, N]⟩ .f32 0x00000000#32) (ix2 i j) = _
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => rfl
      | ⟨1, _⟩ => exact hq)
  have er : (DotDims.plain M K N).rhsIdx (ix2 i j) ((contrEquiv1 (DotDims.plain M K N) K rfl rfl).symm q) = ix2 q j :=
    funext fun a => Fin.ext (by
      match a with
      | ⟨0, _⟩ => exact hq
      | ⟨1, _⟩ => rfl)
  rw [el, er]

section Rect
variable {Val : EltTy → Type} {s : Shape} {e : EltTy} {off size : Fin s.rank → ℕ} {inb : ∀ a, off a + size a ≤ s.size a}

-- A unit-stride rectangle embeds position x at offset plus x.
theorem emb_unit (x : (Rect.unit off size inb).shape.Idx) (y : s.Idx) (h : ∀ a, (y a).val = off a + (x a).val) :
    (Rect.unit off size inb).emb x = y :=
  funext fun a => Fin.ext (by show off a + 1 * (x a).val = (y a).val; rw [Nat.one_mul, h a])

theorem ld_unit (X : s.Idx → Val e) (x : (Rect.unit off size inb).shape.Idx) (y : s.Idx)
    (h : ∀ a, (y a).val = off a + (x a).val) : View.ld X (Rect.unit off size inb) x = X y :=
  congrArg X (emb_unit x y h)

variable [∀ e, Nonempty (Val e)]

-- Under the copy made last the block holds that copy's value.
theorem canon_hit (w : (Rect.unit off size inb).shape.Idx → Val e) (L : List (View.Piece Val s e))
    (x : (Rect.unit off size inb).shape.Idx) (y : s.Idx) (h : ∀ a, (y a).val = off a + (x a).val) :
    View.canon (⟨Rect.unit off size inb, w⟩ :: L) y = w x := by
  rw [← emb_unit x y h]; exact View.canon_cons_emb _ w L x

-- Off the copy made last, on some axis, the earlier copies decide.
theorem canon_miss (w : (Rect.unit off size inb).shape.Idx → Val e) (L : List (View.Piece Val s e)) (y : s.Idx)
    (a : Fin s.rank) (h : (y a).val < off a ∨ off a + size a ≤ (y a).val) :
    View.canon (⟨Rect.unit off size inb, w⟩ :: L) y = View.canon L y :=
  View.canon_cons_of_not_mem _ L fun hm => by
    have := (Rect.mem_set_unit (off := off) (size := size) (inb := inb) (i := y)).mp hm a; omega

end Rect

theorem off2_zero : (![0, 0] : Fin 2 → ℕ) = fun _ => 0 := by
  funext a; match a with | ⟨0, _⟩ => rfl | ⟨1, _⟩ => rfl

-- Slab o of a stack, loaded as a stack of one, read at an entry.
theorem ld3 {Val : EltTy → Type} {e : EltTy} {a b c : ℕ} (y : (⟨3, ![a, b, c]⟩ : Shape).Idx → Val e) (o : ℕ)
    (inb : ∀ x, (![o, 0, 0] : Fin 3 → ℕ) x + (⟨3, ![1, b, c]⟩ : Shape).size x ≤ (⟨3, ![a, b, c]⟩ : Shape).size x)
    (k : Fin a) (hk : k.val = o) (i : Fin b) (j : Fin c) :
    View.ld y (Rect.unit (s := ⟨3, ![a, b, c]⟩) ![o, 0, 0] (⟨3, ![1, b, c]⟩ : Shape).size inb) (ix3 (0 : Fin 1) i j) = y (ix3 k i j) :=
  ld_unit y _ _ fun x => by
    match x with
    | ⟨0, _⟩ => exact hk
    | ⟨1, _⟩ => exact (Nat.zero_add _).symm
    | ⟨2, _⟩ => exact (Nat.zero_add _).symm

-- Two matrices side by side along the lanes: lane j is lane j of the first below its width, else lane j - width of the second.
theorem concat_lanes {α : Type} {a b c : ℕ} (x₁ x₂ : (⟨2, ![a, b]⟩ : Shape).Idx → α)
    (h : Shape.Concatenates [(⟨2, ![a, b]⟩ : Shape), ⟨2, ![a, b]⟩] ⟨2, ![a, c]⟩ 1) (n : Fin a) (j : Fin c) (f : Fin b) :
    (j.val = f.val → concatenate ⟨2, ![a, c]⟩ 1 [⟨⟨2, ![a, b]⟩, x₁⟩, ⟨⟨2, ![a, b]⟩, x₂⟩] h (ix2 n j) = x₁ (ix2 n f))
    ∧ (j.val = b + f.val → concatenate ⟨2, ![a, c]⟩ 1 [⟨⟨2, ![a, b]⟩, x₁⟩, ⟨⟨2, ![a, b]⟩, x₂⟩] h (ix2 n j) = x₂ (ix2 n f)) :=
  ⟨fun hj => concatenate_pair_apply_left (1 : Fin 2) x₁ x₂ h (ix2 n j) rfl (ix2 n f) (fun d => by
      match d with
      | ⟨0, _⟩ => rfl
      | ⟨1, _⟩ => exact hj.symm),
   fun hj => concatenate_pair_apply_right (1 : Fin 2) x₁ x₂ h (ix2 n j) rfl rfl (ix2 n f) (fun d hd => by
      match d, hd with
      | ⟨0, _⟩, _ => rfl
      | ⟨1, _⟩, hd => exact absurd rfl hd) (by show f.val + b = j.val; omega)⟩

-- A matrix regrouped with two leading axes of extent one keeps the row-major order.
theorem cast_11mn {α : Type} {m n : ℕ} (v : (⟨2, ![m, n]⟩ : Shape).Idx → α)
    (h : (⟨2, ![m, n]⟩ : Shape).ShapeCasts ⟨4, ![1, 1, m, n]⟩) (u0 u1 : Fin 1) (i : Fin m) (j : Fin n) :
    shapeCast ⟨4, ![1, 1, m, n]⟩ v h (ix4 u0 u1 i j) = v (ix2 i j) :=
  shapeCast_apply v h _ _ (by
    have h0 : u0.val = 0 := by omega
    have h1 : u1.val = 0 := by omega
    rw [Shape.rowMajor_val_four, Shape.rowMajor_val_two]
    show i.val * n + j.val = ((u0.val * 1 + u1.val) * m + i.val) * n + j.val
    simp only [h0, h1, Nat.zero_mul, Nat.zero_add, Nat.mul_one, Nat.add_zero])

-- A band of lanes starting at lane o, regrouped as such a block: entry (i, f) is the matrix at (i, o + f).
theorem band_block {α : Type} {m n w : ℕ} (X : (⟨2, ![m, n]⟩ : Shape).Idx → α) (o : ℕ)
    (hs : (⟨2, ![m, n]⟩ : Shape).Slices ![0, o] ⟨2, ![m, w]⟩)
    (hc : (⟨2, ![m, w]⟩ : Shape).ShapeCasts ⟨4, ![1, 1, m, w]⟩) (u0 u1 : Fin 1) (i : Fin m) (f : Fin w) (j : Fin n)
    (hj : j.val = o + f.val) :
    shapeCast ⟨4, ![1, 1, m, w]⟩ (extractStridedSlice ⟨2, ![m, w]⟩ ![0, o] X hs) hc (ix4 u0 u1 i f) = X (ix2 i j) :=
  (cast_11mn _ hc u0 u1 i f).trans (slice2_axis1_apply o X hs i f j hj)

theorem logistic_at {s : Shape} {φ : FTy} (x : FVec Ideal s φ) (i : s.Idx) : logistic x i = Ideal.logistic (x i) := rfl
theorem tanh_at {s : Shape} {φ : FTy} (x : FVec Ideal s φ) (i : s.Idx) : tanh x i = Ideal.tanh (x i) := rfl

end Cert.Lanes

end
-- ==== Proof.MainL0.lean ====
import proofs.«162860_g19069654794669_cont_sun_m_30_12_alg».proof.Proof.MainIn
import proofs.«162860_g19069654794669_cont_sun_m_30_12_alg».proof.Proof.LibLanes

noncomputable section

namespace Cert.KernelIdeal.MainVal

open Idealize.ShloMosaic Idealize.ShloMosaic.ValueIdx Cert.KernelIdeal Cert.KernelIdeal.Gen Cert.KernelIdeal.Fr Cert.Pack Cert.SpecArgs Cert.Lanes
open scoped BigOperators

theorem ld_v7 (y2 : Vec Ideal S2x512x64 .f32) (n : Fin 512) (f : Fin 64) :
    b_v7 y2 (ix3 (0 : Fin 1) n f) = y2 (ix3 (0 : Fin 2) n f) := ld3 y2 0 _ 0 rfl n f
theorem ld_v9 (y2 : Vec Ideal S2x512x64 .f32) (n : Fin 512) (f : Fin 64) :
    b_v9 y2 (ix3 (0 : Fin 1) n f) = y2 (ix3 (1 : Fin 2) n f) := ld3 y2 1 _ 1 rfl n f
theorem ld_v2 (y1 : Vec Ideal S2x512x3 .f32) (n : Fin 512) (k : Fin 3) :
    b_v2 y1 (ix3 (0 : Fin 1) n k) = y1 (ix3 (0 : Fin 2) n k) := ld3 y1 0 _ 0 rfl n k
theorem ld_v4 (y1 : Vec Ideal S2x512x3 .f32) (n : Fin 512) (k : Fin 3) :
    b_v4 y1 (ix3 (0 : Fin 1) n k) = y1 (ix3 (1 : Fin 2) n k) := ld3 y1 1 _ 1 rfl n k
theorem ld_v19 (y5 : Vec Ideal S3x128x256 .f32) (i : Fin 128) (j : Fin 256) :
    b_v19 y5 (ix3 (0 : Fin 1) i j) = y5 (ix3 (0 : Fin 3) i j) := ld3 y5 0 _ 0 rfl i j
theorem ld_v24 (y5 : Vec Ideal S3x128x256 .f32) (i : Fin 128) (j : Fin 256) :
    b_v24 y5 (ix3 (0 : Fin 1) i j) = y5 (ix3 (1 : Fin 3) i j) := ld3 y5 1 _ 1 rfl i j
theorem ld_v32 (y5 : Vec Ideal S3x128x256 .f32) (i : Fin 128) (j : Fin 256) :
    b_v32 y5 (ix3 (0 : Fin 1) i j) = y5 (ix3 (2 : Fin 3) i j) := ld3 y5 2 _ 2 rfl i j
theorem ld_v47 (y8 : Vec Ideal S3x128x128 .f32) (i j : Fin 128) :
    b_v47 y8 (ix3 (0 : Fin 1) i j) = y8 (ix3 (0 : Fin 3) i j) := ld3 y8 0 _ 0 rfl i j
theorem ld_v52 (y8 : Vec Ideal S3x128x128 .f32) (i j : Fin 128) :
    b_v52 y8 (ix3 (0 : Fin 1) i j) = y8 (ix3 (1 : Fin 3) i j) := ld3 y8 1 _ 1 rfl i j
theorem ld_v60 (y8 : Vec Ideal S3x128x128 .f32) (i j : Fin 128) :
    b_v60 y8 (ix3 (0 : Fin 1) i j) = y8 (ix3 (2 : Fin 3) i j) := ld3 y8 2 _ 2 rfl i j
theorem ld_v0 (y0 : Vec Ideal S512x512 .f32) : b_v0 y0 = y0 := View.ld_unit_zero off2_zero _ y0
theorem ld_v12 (y6 : Vec Ideal S1x256 .f32) : b_v12 y6 = y6 := View.ld_unit_zero off2_zero _ y6
theorem ld_v14 (y4 : Vec Ideal S6x256 .f32) : b_v14 y4 = y4 := View.ld_unit_zero off2_zero _ y4
theorem ld_v40 (y9 : Vec Ideal S1x128 .f32) : b_v40 y9 = y9 := View.ld_unit_zero off2_zero _ y9
theorem ld_v42 (y7 : Vec Ideal S6x128 .f32) : b_v42 y7 = y7 := View.ld_unit_zero off2_zero _ y7

theorem v11_apply (y2 : Vec Ideal S2x512x64 .f32) (bb : Fin 2) (n : Fin 512) (f : Fin 64) :
    b_v11 y2 (ix2 n (pk bb f)) = y2 (ix3 bb n f) := by
  unfold b_v11 k1_pay8
  rcases two_cases bb with rfl | rfl
  · exact ((concat_lanes _ _ _ n (pk 0 f) f).1 (by simp [pk])).trans ((shapeCast_1ab_ab_apply _ _ n f).trans (ld_v7 y2 n f))
  · exact ((concat_lanes _ _ _ n (pk 1 f) f).2 (by simp [pk])).trans ((shapeCast_1ab_ab_apply _ _ n f).trans (ld_v9 y2 n f))

theorem v6_apply (y1 : Vec Ideal S2x512x3 .f32) (bb : Fin 2) (n : Fin 512) (k : Fin 3) :
    b_v6 y1 (ix2 n (ar bb k)) = y1 (ix3 bb n k) := by
  unfold b_v6 k1_pay7
  rcases two_cases bb with rfl | rfl
  · exact ((concat_lanes _ _ _ n (ar 0 k) k).1 (by simp [ar])).trans ((shapeCast_1ab_ab_apply _ _ n k).trans (ld_v2 y1 n k))
  · exact ((concat_lanes _ _ _ n (ar 1 k) k).2 (by simp [ar])).trans ((shapeCast_1ab_ab_apply _ _ n k).trans (ld_v4 y1 n k))

def lo (j : Fin 128) : Fin 256 := ⟨j.val, by have := j.isLt; omega⟩
def hi (j : Fin 128) : Fin 256 := ⟨128 + j.val, by have := j.isLt; omega⟩

theorem pay6_eq (v0 : Vec Ideal S512x512 .f32) : k1_pay6 v0 = v0 := shapeCast_self _ _

theorem pay9_apply (v0 : Vec Ideal S512x512 .f32) (v7 v9 : Vec Ideal S1x512x64 .f32) (n : Fin 512) (j : Fin 128) :
    k1_pay9 v0 v7 v9 (ix2 n j) = ∑ m : Fin 512, v0 (ix2 n m) * k1_pay8 v7 v9 (ix2 m j) := by
  unfold k1_pay9
  simp only [Dot.SS, mm_plain, pay6_eq]

theorem pay11_apply (v0 : Vec Ideal S512x512 .f32) (v7 v9 : Vec Ideal S1x512x64 .f32) (n : Fin 512) (j : Fin 128) :
    k1_pay11 v0 v7 v9 (ix2 n j) = ∑ m : Fin 512, v0 (ix2 n m) * k1_pay9 v0 v7 v9 (ix2 m j) := by
  unfold k1_pay11
  simp only [Dot.SS, mm_plain, pay6_eq]

theorem pay10_apply (v0 : Vec Ideal S512x512 .f32) (v2 v4 : Vec Ideal S1x512x3 .f32) (v7 v9 : Vec Ideal S1x512x64 .f32)
    (v12 : Vec Ideal S1x256 .f32) (v14 : Vec Ideal S6x256 .f32) (v19 v24 : Vec Ideal S1x128x256 .f32) (n : Fin 512) (q : Fin 256) :
    k1_pay10 v0 v2 v4 v7 v9 v12 v14 v19 v24 (ix2 n q)
      = ((v12 (ix2 (0 : Fin 1) q) + ∑ r : Fin 6, k1_pay7 v2 v4 (ix2 n r) * v14 (ix2 r q))
          + ∑ j : Fin 128, k1_pay8 v7 v9 (ix2 n j) * v19 (ix3 (0 : Fin 1) j q))
          + ∑ j : Fin 128, k1_pay9 v0 v7 v9 (ix2 n j) * v24 (ix3 (0 : Fin 1) j q) := by
  unfold k1_pay10
  simp only [addf_apply, Dot.AG, Dot.HG, mm_plain, shapeCast_self, shapeCast_1ab_ab_apply, broadcastTo_1b_ab_apply]

theorem pay12_apply (v11 : FVec Ideal S512x128 .f32) (v27 : FVec Ideal S512x256 .f32) (v28 : FVec Ideal S512x128 .f32)
    (c : Ideal .f32) (v32 : Vec Ideal S1x128x256 .f32) (n : Fin 512) (q : Fin 256) :
    k1_pay12 v11 v27 v28 c v32 (ix2 n q)
      = Ideal.logistic (v27 (ix2 n q) + ∑ j : Fin 128, (c * v28 (ix2 n j) - v11 (ix2 n j)) * v32 (ix3 (0 : Fin 1) j q)) := by
  unfold k1_pay12
  simp only [logistic_at, addf_apply, Dot.HG, mm_plain, subf_apply, mulf_apply, broadcast_apply, shapeCast_1ab_ab_apply]

theorem pay13_apply (v11 : FVec Ideal S512x128 .f32) (v27 : FVec Ideal S512x256 .f32) (v28 : FVec Ideal S512x128 .f32)
    (c : Ideal .f32) (v32 : Vec Ideal S1x128x256 .f32) (n : Fin 512) (j : Fin 128) :
    k1_pay13 v11 v27 v28 c v32 (ix2 n j) = k1_pay12 v11 v27 v28 c v32 (ix2 n (hi j)) := by
  unfold k1_pay13
  exact slice2_axis1_apply 128 _ _ n j (hi j) rfl

def rhOf (v11 : FVec Ideal S512x128 .f32) (G : FVec Ideal S512x256 .f32) (m : Fin 512) (j : Fin 128) : EReal :=
  G (ix2 m (lo j)) * v11 (ix2 m j)

theorem slice_lo (G : FVec Ideal S512x256 .f32) (n : Fin 512) (j : Fin 128) :
    extractStridedSlice S512x128 ![0, 0] G slices_S512x256_o0_0_S512x128 (ix2 n j) = G (ix2 n (lo j)) :=
  slice2_axis1_apply 0 _ _ n j (lo j) (Nat.zero_add _).symm

theorem pay14_apply (v1 : FVec Ideal S512x512 .f32) (v6 : FVec Ideal S512x6 .f32) (v11 : FVec Ideal S512x128 .f32)
    (v27 : FVec Ideal S512x256 .f32) (v28 : FVec Ideal S512x128 .f32) (c : Ideal .f32) (v32 : Vec Ideal S1x128x256 .f32)
    (v40 : Vec Ideal S1x128 .f32) (v42 : Vec Ideal S6x128 .f32) (v47 v52 v60 : Vec Ideal S1x128x128 .f32)
    (n : Fin 512) (j : Fin 128) :
    k1_pay14 v1 v6 v11 v27 v28 c v32 v40 v42 v47 v52 v60 (ix2 n j)
      = Ideal.tanh ((((v40 (ix2 (0 : Fin 1) j) + ∑ r : Fin 6, v6 (ix2 n r) * v42 (ix2 r j))
          + ∑ j' : Fin 128, rhOf v11 (k1_pay12 v11 v27 v28 c v32) n j' * v47 (ix3 (0 : Fin 1) j' j))
          + ∑ j' : Fin 128, (∑ m : Fin 512, v1 (ix2 n m) * rhOf v11 (k1_pay12 v11 v27 v28 c v32) m j') * v52 (ix3 (0 : Fin 1) j' j))
          + ∑ j' : Fin 128, (cTwo * (∑ m : Fin 512, v1 (ix2 n m) * ∑ m' : Fin 512, v1 (ix2 m m') * rhOf v11 (k1_pay12 v11 v27 v28 c v32) m' j')
              - rhOf v11 (k1_pay12 v11 v27 v28 c v32) n j') * v60 (ix3 (0 : Fin 1) j' j)) := by
  unfold k1_pay14
  simp only [tanh_at, addf_apply, Dot.AC, Dot.HC, Dot.SS, mm_plain, subf_apply, mulf_apply, broadcast_apply, shapeCast_self,
    shapeCast_1ab_ab_apply, broadcastTo_1b_ab_apply, slice_lo]
  rfl

theorem pay15_apply (v11 v38 v64 : FVec Ideal S512x128 .f32) (i : S512x128.Idx) :
    k1_pay15 v11 v38 v64 i = v38 i * v11 i + (cOne - v38 i) * v64 i := rfl

section Math

variable (S : Fin 512 → Fin 512 → EReal) (two : EReal)

theorem cheb_zero (v : Fin 512 → EReal) : Cert.Spec.cheb S two 0 v = v := rfl
theorem cheb_one (v : Fin 512 → EReal) : Cert.Spec.cheb S two 1 v = Cert.Spec.diff S v := rfl
theorem cheb_two (v : Fin 512 → EReal) (n : Fin 512) :
    Cert.Spec.cheb S two 2 v n = two * Cert.Spec.diff S (Cert.Spec.diff S v) n - v n := rfl
theorem diff_apply (v : Fin 512 → EReal) (n : Fin 512) : Cert.Spec.diff S v n = ∑ j, S n j * v j := rfl

theorem mk0_zero (x : Fin 512 → EReal) (φ : Fin 64 → Fin 512 → EReal) : Cert.Spec.mk0 x φ 0 = x := dif_pos rfl

theorem mk0_s1 (x : Fin 512 → EReal) (φ : Fin 64 → Fin 512 → EReal) (f : Fin 64) : Cert.Spec.mk0 x φ (s1 f) = φ f := by
  unfold Cert.Spec.mk0
  rw [dif_neg (by show ¬(1 + f.val = 0); omega)]
  exact congrArg φ (Fin.ext (by show 1 + f.val - 1 = f.val; omega))

-- Each block-diagonal weight column keeps one slot's rows; the rest is commutativity and associativity of addition.
theorem packed_conv {no : ℕ} (x : Fin 512 → EReal) (φ : Fin 64 → Fin 512 → EReal)
    (W : Fin 65 → Fin 3 → Fin no → EReal) (b : Fin no → EReal) (o : Fin no) (bb : Fin 2)
    (A : Fin 512 → Fin 6 → EReal) (Hs : Fin 512 → Fin 128 → EReal) (Wa : Fin 6 → EReal) (W0 W1 W2 : Fin 128 → EReal)
    (hA : ∀ n k, A n (ar bb k) = Cert.Spec.cheb S two k x n) (hH : ∀ m f, Hs m (pk bb f) = φ f m)
    (hWa : ∀ bb' k, Wa (ar bb' k) = if bb' = bb then W 0 k o else 0)
    (hW0 : ∀ bb' f, W0 (pk bb' f) = if bb' = bb then W (s1 f) 0 o else 0)
    (hW1 : ∀ bb' f, W1 (pk bb' f) = if bb' = bb then W (s1 f) 1 o else 0)
    (hW2 : ∀ bb' f, W2 (pk bb' f) = if bb' = bb then W (s1 f) 2 o else 0) (n : Fin 512) :
    (((b o + ∑ r, A n r * Wa r) + ∑ j, Hs n j * W0 j) + ∑ j, (∑ m, S n m * Hs m j) * W1 j)
        + ∑ j, (two * (∑ m, S n m * ∑ m', S m m' * Hs m' j) - Hs n j) * W2 j
      = Cert.Spec.gconv S two (Cert.Spec.mk0 x φ) W b n o := by
  have e0 := sum_blockdiag6 (A n) Wa (fun k => W 0 k o) bb hWa
  have e1 := sum_blockdiag (Hs n) W0 (fun f => W (s1 f) 0 o) bb hW0
  have e2 := sum_blockdiag (fun j => ∑ m, S n m * Hs m j) W1 (fun f => W (s1 f) 1 o) bb hW1
  have e3 := sum_blockdiag (fun j => two * (∑ m, S n m * ∑ m', S m m' * Hs m' j) - Hs n j) W2 (fun f => W (s1 f) 2 o) bb hW2
  beta_reduce at e2 e3
  rw [e0, e1, e2, e3, show ∀ b x t0 t1 t2 : EReal, (((b + x) + t0) + t1) + t2 = (x + ((t0 + t1) + t2)) + b from fun _ _ _ _ _ => by ac_rfl]
  simp only [hA, hH]
  unfold Cert.Spec.gconv
  rw [sum_s1]
  simp only [mk0_zero, mk0_s1, Fin.sum_univ_three, Finset.sum_add_distrib, cheb_zero, cheb_one, cheb_two, diff_apply]

end Math

variable {S : Fin 512 → Fin 512 → EReal} {xs : Fin 2 → Fin 512 → EReal} {h0 h1 : Fin 2 → Fin 64 → Fin 512 → EReal}
    {Wru0 : Fin 65 → Fin 3 → Fin 128 → EReal} {bru0 : Fin 128 → EReal} {Wc0 : Fin 65 → Fin 3 → Fin 64 → EReal} {bc0 : Fin 64 → EReal}
    {Wru1 : Fin 128 → Fin 3 → Fin 128 → EReal} {bru1 : Fin 128 → EReal} {Wc1 : Fin 128 → Fin 3 → Fin 64 → EReal} {bc1 : Fin 64 → EReal}
    {Wp : Fin 64 → EReal} {bp : EReal}
    {y0 : Vec Ideal S512x512 .f32} {y1 : Vec Ideal S2x512x3 .f32} {y2 y3 : Vec Ideal S2x512x64 .f32}
    {y4 : Vec Ideal S6x256 .f32} {y5 : Vec Ideal S3x128x256 .f32} {y6 : Vec Ideal S1x256 .f32}
    {y7 : Vec Ideal S6x128 .f32} {y8 : Vec Ideal S3x128x128 .f32} {y9 : Vec Ideal S1x128 .f32}
    {y10 y11 : Vec Ideal S3x128x256 .f32} {y12 : Vec Ideal S1x256 .f32}
    {y13 y14 : Vec Ideal S3x128x128 .f32} {y15 : Vec Ideal S1x128 .f32}
    {y16 : Vec Ideal S128x2 .f32} {y17 : Vec Ideal S1x1 .f32}

theorem lo_pk (bb : Fin 2) (o : Fin 64) : lo (pk bb o) = ruc 0 bb o := Fin.ext (by simp [lo, pk, ruc])
theorem hi_pk (bb : Fin 2) (o : Fin 64) : hi (pk bb o) = ruc 1 bb o := Fin.ext (by simp [hi, pk, ruc]; omega)

section
variable (hin : Inputs S xs h0 h1 Wru0 bru0 Wc0 bc0 Wru1 bru1 Wc1 bc1 Wp bp y0 y1 y2 y3 y4 y5 y6 y7 y8 y9 y10 y11 y12 y13 y14 y15 y16 y17)
include hin

theorem H0_sem (bb : Fin 2) (m : Fin 512) (f : Fin 64) : b_v11 y2 (ix2 m (pk bb f)) = h0 bb f m := by
  rw [v11_apply, hin.hy2]

theorem A_sem (bb : Fin 2) (n : Fin 512) (k : Fin 3) : b_v6 y1 (ix2 n (ar bb k)) = Cert.Spec.cheb S cTwo k (xs bb) n := by
  rw [v6_apply, hin.hy1]

theorem gate_pre (g bb : Fin 2) (o : Fin 64) (n : Fin 512) :
    b_v27 y0 y1 y2 y4 y5 y6 (ix2 n (ruc g bb o))
        + ∑ j : Fin 128, (b_cst_26 * b_v28 y0 y2 (ix2 n j) - b_v11 y2 (ix2 n j)) * b_v32 y5 (ix3 (0 : Fin 1) j (ruc g bb o))
      = Cert.Spec.gconv S cTwo (Cert.Spec.mk0 (xs bb) (h0 bb)) Wru0 bru0 n (pk g o) := by
  have e6 : k1_pay7 (b_v2 y1) (b_v4 y1) = b_v6 y1 := rfl
  have e11 : k1_pay8 (b_v7 y2) (b_v9 y2) = b_v11 y2 := rfl
  have ec : (b_cst_26 : Ideal .f32) = cTwo := rfl
  unfold b_v27 b_v28
  rw [pay10_apply]
  simp only [pay11_apply, pay9_apply, e6, e11, ld_v0, ld_v12, ld_v14, ld_v19, ld_v24, ld_v32, hin.hy0, hin.hy6, ec]
  exact packed_conv S cTwo (xs bb) (h0 bb) Wru0 bru0 (pk g o) bb (fun n r => b_v6 y1 (ix2 n r)) (fun m j => b_v11 y2 (ix2 m j))
    (fun r => y4 (ix2 r (ruc g bb o))) (fun j => y5 (ix3 0 j (ruc g bb o))) (fun j => y5 (ix3 1 j (ruc g bb o)))
    (fun j => y5 (ix3 2 j (ruc g bb o)))
    (A_sem hin bb) (H0_sem hin bb)
    (fun bb' k => hin.hy4 bb' k g bb o) (fun bb' f => hin.hy5 0 bb' f g bb o) (fun bb' f => hin.hy5 1 bb' f g bb o)
    (fun bb' f => hin.hy5 2 bb' f g bb o) n

theorem gate_apply (g bb : Fin 2) (o : Fin 64) (n : Fin 512) :
    k1_pay12 (b_v11 y2) (b_v27 y0 y1 y2 y4 y5 y6) (b_v28 y0 y2) b_cst_26 (b_v32 y5) (ix2 n (ruc g bb o))
      = Cert.Spec.gates S cTwo Ideal.logistic (Cert.Spec.mk0 (xs bb)) (h0 bb) Wru0 bru0 n (pk g o) := by
  rw [pay12_apply]
  exact congrArg Ideal.logistic (gate_pre hin g bb o n)

theorem u_sem (bb : Fin 2) (n : Fin 512) (f : Fin 64) :
    b_v38 y0 y1 y2 y4 y5 y6 (ix2 n (pk bb f))
      = Cert.Spec.ugate S cTwo Ideal.logistic (Cert.Spec.mk0 (xs bb)) (h0 bb) Wru0 bru0 f n := by
  unfold b_v38
  rw [pay13_apply, hi_pk, gate_apply hin]
  exact congrArg _ (Fin.ext (by simp [pk]))

theorem rh_sem (bb : Fin 2) (m : Fin 512) (f : Fin 64) :
    rhOf (b_v11 y2) (k1_pay12 (b_v11 y2) (b_v27 y0 y1 y2 y4 y5 y6) (b_v28 y0 y2) b_cst_26 (b_v32 y5)) m (pk bb f)
      = Cert.Spec.rgate S cTwo Ideal.logistic (Cert.Spec.mk0 (xs bb)) (h0 bb) Wru0 bru0 f m * h0 bb f m := by
  unfold rhOf
  rw [lo_pk, gate_apply hin, H0_sem hin]
  exact congrArg (fun q => Cert.Spec.gates S cTwo Ideal.logistic (Cert.Spec.mk0 (xs bb)) (h0 bb) Wru0 bru0 m q * h0 bb f m)
    (Fin.ext (by simp [pk]))

theorem c_sem (bb : Fin 2) (n : Fin 512) (f : Fin 64) :
    b_v64 y0 y1 y2 y4 y5 y6 y7 y8 y9 (ix2 n (pk bb f))
      = Cert.Spec.cand S cTwo Ideal.logistic Ideal.tanh (Cert.Spec.mk0 (xs bb)) (h0 bb) Wru0 bru0 Wc0 bc0 f n := by
  have e1 : ∀ i j : Fin 512, b_v1 y0 (ix2 i j) = S i j := fun i j => by
    unfold b_v1
    rw [pay6_eq, ld_v0, hin.hy0]
  unfold b_v64
  rw [pay14_apply]
  refine congrArg Ideal.tanh ?_
  simp only [e1, ld_v40, ld_v42, ld_v47, ld_v52, ld_v60, hin.hy9]
  exact packed_conv S cTwo (xs bb)
    (fun f' n' => Cert.Spec.rgate S cTwo Ideal.logistic (Cert.Spec.mk0 (xs bb)) (h0 bb) Wru0 bru0 f' n' * h0 bb f' n')
    Wc0 bc0 f bb (fun n r => b_v6 y1 (ix2 n r))
    (rhOf (b_v11 y2) (k1_pay12 (b_v11 y2) (b_v27 y0 y1 y2 y4 y5 y6) (b_v28 y0 y2) b_cst_26 (b_v32 y5)))
    (fun r => y7 (ix2 r (pk bb f))) (fun j => y8 (ix3 0 j (pk bb f))) (fun j => y8 (ix3 1 j (pk bb f)))
    (fun j => y8 (ix3 2 j (pk bb f)))
    (A_sem hin bb) (rh_sem hin bb)
    (fun bb' k => hin.hy7 bb' k bb f) (fun bb' f' => hin.hy8 0 bb' f' bb f) (fun bb' f' => hin.hy8 1 bb' f' bb f)
    (fun bb' f' => hin.hy8 2 bb' f' bb f) n

end

theorem new0_packed (hin : Inputs S xs h0 h1 Wru0 bru0 Wc0 bc0 Wru1 bru1 Wc1 bc1 Wp bp y0 y1 y2 y3 y4 y5 y6 y7 y8 y9 y10 y11 y12 y13 y14 y15 y16 y17) (bb : Fin 2) (n : Fin 512) (f : Fin 64) :
    b_v69 y0 y1 y2 y4 y5 y6 y7 y8 y9 (ix2 n (pk bb f)) = Cert.Spec.new0 S cTwo cOne Ideal.logistic Ideal.tanh (xs bb) (h0 bb) Wru0 bru0 Wc0 bc0 f n := by
  unfold b_v69
  rw [pay15_apply, u_sem hin, c_sem hin, H0_sem hin]
  rfl

end Cert.KernelIdeal.MainVal

end
-- ==== Proof.MainL1.lean ====
import proofs.«162860_g19069654794669_cont_sun_m_30_12_alg».proof.Proof.MainIn
import proofs.«162860_g19069654794669_cont_sun_m_30_12_alg».proof.Proof.LibLanes

noncomputable section

namespace Cert.KernelIdeal.MainVal

open Idealize.ShloMosaic Idealize.ShloMosaic.ValueIdx Cert.KernelIdeal Cert.KernelIdeal.Gen Cert.KernelIdeal.Fr Cert.Pack Cert.SpecArgs Cert.Lanes
open scoped BigOperators

namespace L1

section SpecSums
variable (S : Fin 512 → Fin 512 → EReal) (g h : Fin 64 → Fin 512 → EReal)

theorem mk1_pk0 (f : Fin 64) : Cert.Spec.mk1 g h (pk 0 f) = g f := by
  have hlt : (pk 0 f).val < 64 := by show 0 * 64 + f.val < 64; omega
  unfold Cert.Spec.mk1
  rw [dif_pos hlt]
  exact congrArg g (Fin.ext (by show 0 * 64 + f.val = f.val; omega))

theorem mk1_pk1 (f : Fin 64) : Cert.Spec.mk1 g h (pk 1 f) = h f := by
  have hnlt : ¬ (pk 1 f).val < 64 := by show ¬ 1 * 64 + f.val < 64; omega
  unfold Cert.Spec.mk1
  rw [dif_neg hnlt]
  exact congrArg h (Fin.ext (by show 1 * 64 + f.val - 64 = f.val; omega))

theorem gconv_mk1_gates {no : Nat} (W : Fin 128 → Fin 3 → Fin no → EReal) (b : Fin no → EReal) (n : Fin 512) (q : Fin no) :
    Cert.Spec.gconv S cTwo (Cert.Spec.mk1 g h) W b n q
      = (((((b q + ∑ f, g f n * W (pk 0 f) 0 q) + ∑ f, h f n * W (pk 1 f) 0 q)
          + ∑ f, Cert.Spec.diff S (g f) n * W (pk 0 f) 1 q) + ∑ f, Cert.Spec.diff S (h f) n * W (pk 1 f) 1 q)
          + ∑ f, (cTwo * Cert.Spec.diff S (Cert.Spec.diff S (g f)) n - g f n) * W (pk 0 f) 2 q)
          + ∑ f, (cTwo * Cert.Spec.diff S (Cert.Spec.diff S (h f)) n - h f n) * W (pk 1 f) 2 q := by
  unfold Cert.Spec.gconv
  rw [sum_halves]
  simp only [Fin.sum_univ_three, mk1_pk0, mk1_pk1, Finset.sum_add_distrib]
  show ((∑ f, g f n * W (pk 0 f) 0 q + ∑ f, Cert.Spec.diff S (g f) n * W (pk 0 f) 1 q
        + ∑ f, (cTwo * Cert.Spec.diff S (Cert.Spec.diff S (g f)) n - g f n) * W (pk 0 f) 2 q)
      + (∑ f, h f n * W (pk 1 f) 0 q + ∑ f, Cert.Spec.diff S (h f) n * W (pk 1 f) 1 q
        + ∑ f, (cTwo * Cert.Spec.diff S (Cert.Spec.diff S (h f)) n - h f n) * W (pk 1 f) 2 q)) + b q = _
  ac_rfl

theorem gconv_mk1_cand {no : Nat} (W : Fin 128 → Fin 3 → Fin no → EReal) (b : Fin no → EReal) (n : Fin 512) (q : Fin no) :
    Cert.Spec.gconv S cTwo (Cert.Spec.mk1 g h) W b n q
      = (((((b q + ∑ f, g f n * W (pk 0 f) 0 q) + ∑ f, Cert.Spec.diff S (g f) n * W (pk 0 f) 1 q)
          + ∑ f, (cTwo * Cert.Spec.diff S (Cert.Spec.diff S (g f)) n - g f n) * W (pk 0 f) 2 q)
          + ∑ f, h f n * W (pk 1 f) 0 q) + ∑ f, Cert.Spec.diff S (h f) n * W (pk 1 f) 1 q)
          + ∑ f, (cTwo * Cert.Spec.diff S (Cert.Spec.diff S (h f)) n - h f n) * W (pk 1 f) 2 q := by
  rw [gconv_mk1_gates]
  ac_rfl

end SpecSums

section Blocks
variable (S : Fin 512 → Fin 512 → EReal)

theorem mmS_col (v1 : FVec Ideal S512x512 .f32) (B : FVec Ideal S512x128 .f32) (hS : ∀ i j, v1 (ix2 i j) = S i j)
    (c : Fin 128) (v : Fin 512 → EReal) (hB : ∀ k, B (ix2 k c) = v k) (n : Fin 512) :
    matmul dot_S512x512_S512x128_S512x128_1_0_0_1_n_n none v1 B (constant S512x128 .f32 0x00000000#32) (ix2 n c)
      = Cert.Spec.diff S v n := by
  rw [Dot.SS, mm_plain]
  show _ = ∑ j, S n j * v j
  exact Finset.sum_congr rfl fun k _ => by rw [hS, hB]

theorem cheb2_col (v1 : FVec Ideal S512x512 .f32) (X SX : FVec Ideal S512x128 .f32) (hS : ∀ i j, v1 (ix2 i j) = S i j)
    (c : Fin 128) (v : Fin 512 → EReal) (hX : ∀ k, X (ix2 k c) = v k) (hSX : ∀ k, SX (ix2 k c) = Cert.Spec.diff S v k) (n : Fin 512) :
    subf (mulf (broadcast S512x128 (Scalar.ofBits (F := Ideal) .f32 0x40000000#32))
        (matmul dot_S512x512_S512x128_S512x128_1_0_0_1_n_n none v1 SX (constant S512x128 .f32 0x00000000#32))) X (ix2 n c)
      = cTwo * Cert.Spec.diff S (Cert.Spec.diff S v) n - v n := by
  rw [subf_apply, mulf_apply, broadcast_apply, mmS_col S v1 SX hS c _ hSX n, hX]
  rfl

end Blocks

-- A weight block that is block diagonal over the two slots: zero wherever the row's slot and the column's slot differ.
def DiagG (w : FVec Ideal S1x128x256 .f32) (W : Fin 64 → Fin 128 → EReal) : Prop :=
  ∀ (b' : Fin 2) (f : Fin 64) (gg b : Fin 2) (o : Fin 64),
    w (ix3 (0 : Fin 1) (pk b' f) (ruc gg b o)) = if b' = b then W f (pk gg o) else 0
def DiagC (w : FVec Ideal S1x128x128 .f32) (W : Fin 64 → Fin 64 → EReal) : Prop :=
  ∀ (b' : Fin 2) (f : Fin 64) (b : Fin 2) (o : Fin 64),
    w (ix3 (0 : Fin 1) (pk b' f) (pk b o)) = if b' = b then W f o else 0

theorem mmW_gates (H : FVec Ideal S512x128 .f32) (w : FVec Ideal S1x128x256 .f32) (W : Fin 64 → Fin 128 → EReal)
    (hw : DiagG w W)
    (n : Fin 512) (g bb : Fin 2) (o : Fin 64) :
    matmul dot_S512x128_S128x256_S512x256_1_0_0_1_n_n none H (shapeCast S128x256 w shapeCasts_S1x128x256_S128x256)
        (constant S512x256 .f32 0x00000000#32) (ix2 n (ruc g bb o))
      = ∑ f, H (ix2 n (pk bb f)) * W f (pk g o) := by
  rw [Dot.HG, mm_plain]
  simp only [shapeCast_1ab_ab_apply]
  exact sum_blockdiag (fun j => H (ix2 n j)) (fun j => w (ix3 (0 : Fin 1) j (ruc g bb o))) (fun f => W f (pk g o)) bb
    (fun bb' f => hw bb' f g bb o)

theorem mmW_cand (H : FVec Ideal S512x128 .f32) (w : FVec Ideal S1x128x128 .f32) (W : Fin 64 → Fin 64 → EReal)
    (hw : DiagC w W)
    (n : Fin 512) (bb : Fin 2) (o : Fin 64) :
    matmul dot_S512x128_S128x128_S512x128_1_0_0_1_n_n none H (shapeCast S128x128 w shapeCasts_S1x128x128_S128x128)
        (constant S512x128 .f32 0x00000000#32) (ix2 n (pk bb o))
      = ∑ f, H (ix2 n (pk bb f)) * W f o := by
  rw [Dot.HC, mm_plain]
  simp only [shapeCast_1ab_ab_apply]
  exact sum_blockdiag (fun j => H (ix2 n j)) (fun j => w (ix3 (0 : Fin 1) j (pk bb o))) (fun f => W f o) bb
    (fun bb' f => hw bb' f bb o)

theorem bias256_apply (v : Vec Ideal S1x256 .f32) (n : Fin 512) (c : Fin 256) :
    broadcastTo S512x256 (shapeCast S1x256 v shapeCasts_S1x256_S1x256) broadcasts_S1x256_S512x256 (ix2 n c) = v (ix2 (0 : Fin 1) c) := by
  rw [broadcastTo_1b_ab_apply, shapeCast_self]

theorem bias128_apply (v : Vec Ideal S1x128 .f32) (n : Fin 512) (c : Fin 128) :
    broadcastTo S512x128 (shapeCast S1x128 v shapeCasts_S1x128_S1x128) broadcasts_S1x128_S512x128 (ix2 n c) = v (ix2 (0 : Fin 1) c) := by
  rw [broadcastTo_1b_ab_apply, shapeCast_self]

section Layer1
variable (S : Fin 512 → Fin 512 → EReal) (g h : Fin 64 → Fin 512 → EReal)
  (Wru : Fin 128 → Fin 3 → Fin 128 → EReal) (bru : Fin 128 → EReal)
  (Wc : Fin 128 → Fin 3 → Fin 64 → EReal) (bc : Fin 64 → EReal) (bb : Fin 2)

theorem pay19_at (v11 v38 v64 : FVec Ideal S512x128 .f32) (v78 v80 : FVec Ideal S1x512x64 .f32) (v83 : FVec Ideal S1x256 .f32)
    (v85 v90 : FVec Ideal S1x128x256 .f32)
    (h69 : ∀ n f, k1_pay15 v11 v38 v64 (ix2 n (pk bb f)) = g f n)
    (h82 : ∀ n f, k1_pay18 (F := Ideal) v78 v80 (ix2 n (pk bb f)) = h f n)
    (h83 : ∀ gg o, v83 (ix2 (0 : Fin 1) (ruc gg bb o)) = bru (pk gg o))
    (h85 : DiagG v85 fun f q => Wru (pk 0 f) 0 q)
    (h90 : DiagG v90 fun f q => Wru (pk 1 f) 0 q)
    (n : Fin 512) (gg : Fin 2) (o : Fin 64) :
    k1_pay19 (F := Ideal) v11 v38 v64 v78 v80 v83 v85 v90 (ix2 n (ruc gg bb o))
      = (bru (pk gg o) + ∑ f, g f n * Wru (pk 0 f) 0 (pk gg o)) + ∑ f, h f n * Wru (pk 1 f) 0 (pk gg o) := by
  unfold k1_pay19
  simp only [addf_apply]
  rw [bias256_apply, mmW_gates _ v85 (fun f q => Wru (pk 0 f) 0 q) h85, mmW_gates _ v90 (fun f q => Wru (pk 1 f) 0 q) h90, h83]
  simp only [h69, h82]

theorem pay20_at (v1 : FVec Ideal S512x512 .f32) (v11 v38 v64 : FVec Ideal S512x128 .f32)
    (hS : ∀ i j, v1 (ix2 i j) = S i j)
    (h69 : ∀ n f, k1_pay15 v11 v38 v64 (ix2 n (pk bb f)) = g f n) (n : Fin 512) (f : Fin 64) :
    k1_pay20 v1 v11 v38 v64 (ix2 n (pk bb f)) = Cert.Spec.diff S (g f) n := by
  unfold k1_pay20
  exact mmS_col S v1 _ hS (pk bb f) (g f) (fun k => h69 k f) n

theorem pay21_at (v1 : FVec Ideal S512x512 .f32) (v69 v94 : FVec Ideal S512x128 .f32)
    (hS : ∀ i j, v1 (ix2 i j) = S i j)
    (h69 : ∀ n f, v69 (ix2 n (pk bb f)) = g f n)
    (h94 : ∀ n f, v94 (ix2 n (pk bb f)) = Cert.Spec.diff S (g f) n) (n : Fin 512) (f : Fin 64) :
    k1_pay21 v1 v69 v94 (ix2 n (pk bb f)) = cTwo * Cert.Spec.diff S (Cert.Spec.diff S (g f)) n - g f n := by
  unfold k1_pay21
  exact cheb2_col S v1 v69 v94 hS (pk bb f) (g f) (fun k => h69 k f) (fun k => h94 k f) n

theorem pay22_at (v1 : FVec Ideal S512x512 .f32) (v69 v82 : FVec Ideal S512x128 .f32) (v93 : FVec Ideal S512x256 .f32)
    (v94 : FVec Ideal S512x128 .f32) (v95 v100 v108 v116 : FVec Ideal S1x128x256 .f32)
    (hS : ∀ i j, v1 (ix2 i j) = S i j)
    (h69 : ∀ n f, v69 (ix2 n (pk bb f)) = g f n)
    (h82 : ∀ n f, v82 (ix2 n (pk bb f)) = h f n)
    (h94 : ∀ n f, v94 (ix2 n (pk bb f)) = Cert.Spec.diff S (g f) n)
    (h93 : ∀ n gg o, v93 (ix2 n (ruc gg bb o))
      = (bru (pk gg o) + ∑ f, g f n * Wru (pk 0 f) 0 (pk gg o)) + ∑ f, h f n * Wru (pk 1 f) 0 (pk gg o))
    (h95 : DiagG v95 fun f q => Wru (pk 0 f) 1 q)
    (h100 : DiagG v100 fun f q => Wru (pk 1 f) 1 q)
    (h108 : DiagG v108 fun f q => Wru (pk 0 f) 2 q)
    (h116 : DiagG v116 fun f q => Wru (pk 1 f) 2 q)
    (n : Fin 512) (gg : Fin 2) (o : Fin 64) :
    k1_pay22 (F := Ideal) v1 v69 v82 v93 v94 v95 v100 v108 v116 (ix2 n (ruc gg bb o))
      = Cert.Spec.gates S cTwo Ideal.logistic (Cert.Spec.mk1 g) h Wru bru n (pk gg o) := by
  have e2 : ∀ f, matmul dot_S512x512_S512x128_S512x128_1_0_0_1_n_n none v1 v82 (constant S512x128 .f32 0x00000000#32) (ix2 n (pk bb f))
      = Cert.Spec.diff S (h f) n := fun f => mmS_col S v1 v82 hS (pk bb f) (h f) (fun k => h82 k f) n
  have e3 : ∀ f, k1_pay21 v1 v69 v94 (ix2 n (pk bb f)) = cTwo * Cert.Spec.diff S (Cert.Spec.diff S (g f)) n - g f n :=
    fun f => pay21_at S g bb v1 v69 v94 hS h69 h94 n f
  have e4 : ∀ f, subf (mulf (broadcast S512x128 (Scalar.ofBits (F := Ideal) .f32 0x40000000#32))
        (matmul dot_S512x512_S512x128_S512x128_1_0_0_1_n_n none v1
          (matmul dot_S512x512_S512x128_S512x128_1_0_0_1_n_n none v1 v82 (constant S512x128 .f32 0x00000000#32))
          (constant S512x128 .f32 0x00000000#32))) v82 (ix2 n (pk bb f))
      = cTwo * Cert.Spec.diff S (Cert.Spec.diff S (h f)) n - h f n :=
    fun f => cheb2_col S v1 v82 _ hS (pk bb f) (h f) (fun k => h82 k f)
      (fun k => mmS_col S v1 v82 hS (pk bb f) (h f) (fun k' => h82 k' f) k) n
  unfold k1_pay22 Cert.Spec.gates
  simp only [logistic_at, addf_apply]
  rw [gconv_mk1_gates, mmW_gates v94 v95 (fun f q => Wru (pk 0 f) 1 q) h95, mmW_gates _ v100 (fun f q => Wru (pk 1 f) 1 q) h100,
    mmW_gates _ v108 (fun f q => Wru (pk 0 f) 2 q) h108, mmW_gates _ v116 (fun f q => Wru (pk 1 f) 2 q) h116, h93]
  simp only [h94, e2, e3, e4]

theorem pay23_at (v1 : FVec Ideal S512x512 .f32) (v69 v82 : FVec Ideal S512x128 .f32) (v93 : FVec Ideal S512x256 .f32)
    (v94 : FVec Ideal S512x128 .f32) (v95 v100 v108 v116 : FVec Ideal S1x128x256 .f32)
    (h22 : ∀ n gg o, k1_pay22 (F := Ideal) v1 v69 v82 v93 v94 v95 v100 v108 v116 (ix2 n (ruc gg bb o))
      = Cert.Spec.gates S cTwo Ideal.logistic (Cert.Spec.mk1 g) h Wru bru n (pk gg o)) (n : Fin 512) (o : Fin 64) :
    k1_pay23 (F := Ideal) v1 v69 v82 v93 v94 v95 v100 v108 v116 (ix2 n (pk bb o))
      = Cert.Spec.ugate S cTwo Ideal.logistic (Cert.Spec.mk1 g) h Wru bru o n := by
  unfold k1_pay23
  refine (slice2_axis1_apply 128 _ slices_S512x256_o0_128_S512x128 n (pk bb o) (ruc 1 bb o) ?_).trans ?_
  · show 1 * 128 + bb.val * 64 + o.val = 128 + (bb.val * 64 + o.val); omega
  · rw [h22 n 1 o]
    unfold Cert.Spec.ugate
    exact congrArg (Cert.Spec.gates S cTwo Ideal.logistic (Cert.Spec.mk1 g) h Wru bru n)
      (Fin.ext (by show 1 * 64 + o.val = 64 + o.val; omega))

theorem pay24_at (v1 : FVec Ideal S512x512 .f32) (v69 v82 : FVec Ideal S512x128 .f32) (v93 : FVec Ideal S512x256 .f32)
    (v94 : FVec Ideal S512x128 .f32) (v95 v100 v108 v116 : FVec Ideal S1x128x256 .f32)
    (h82 : ∀ n f, v82 (ix2 n (pk bb f)) = h f n)
    (h22 : ∀ n gg o, k1_pay22 (F := Ideal) v1 v69 v82 v93 v94 v95 v100 v108 v116 (ix2 n (ruc gg bb o))
      = Cert.Spec.gates S cTwo Ideal.logistic (Cert.Spec.mk1 g) h Wru bru n (pk gg o)) (n : Fin 512) (o : Fin 64) :
    k1_pay24 (F := Ideal) v1 v69 v82 v93 v94 v95 v100 v108 v116 (ix2 n (pk bb o))
      = Cert.Spec.rgate S cTwo Ideal.logistic (Cert.Spec.mk1 g) h Wru bru o n * h o n := by
  unfold k1_pay24
  simp only [mulf_apply]
  rw [slice2_axis1_apply 0 _ slices_S512x256_o0_0_S512x128 n (pk bb o) (ruc 0 bb o)
      (by show 0 * 128 + bb.val * 64 + o.val = 0 + (bb.val * 64 + o.val); omega), h22 n 0 o, h82]
  unfold Cert.Spec.rgate
  exact congrArg (fun q => Cert.Spec.gates S cTwo Ideal.logistic (Cert.Spec.mk1 g) h Wru bru n q * h o n)
    (Fin.ext (by show 0 * 64 + o.val = o.val; omega))

theorem pay25_at (v69 : FVec Ideal S512x128 .f32) (v126 : FVec Ideal S1x128x128 .f32)
    (h69 : ∀ n f, v69 (ix2 n (pk bb f)) = g f n)
    (h126 : DiagC v126 fun f q => Wc (pk 0 f) 0 q)
    (n : Fin 512) (o : Fin 64) :
    k1_pay25 (F := Ideal) v69 v126 (ix2 n (pk bb o)) = ∑ f, g f n * Wc (pk 0 f) 0 o := by
  unfold k1_pay25
  refine (mmW_cand v69 v126 (fun f q => Wc (pk 0 f) 0 q) h126 n bb o).trans ?_
  simp only [h69]

theorem pay26_at (v124 : FVec Ideal S1x128 .f32) (h124 : ∀ o, v124 (ix2 (0 : Fin 1) (pk bb o)) = bc o)
    (n : Fin 512) (o : Fin 64) : k1_pay26 (F := Ideal) v124 (ix2 n (pk bb o)) = bc o := by
  unfold k1_pay26
  exact (bias128_apply v124 n (pk bb o)).trans (h124 o)

def rstate : Fin 64 → Fin 512 → EReal :=
  fun f n => Cert.Spec.rgate S cTwo Ideal.logistic (Cert.Spec.mk1 g) h Wru bru f n * h f n

theorem cell_eq (f : Fin 64) (n : Fin 512) :
    Cert.Spec.cell S cTwo cOne Ideal.logistic Ideal.tanh (Cert.Spec.mk1 g) h Wru bru Wc bc f n
      = Cert.Spec.ugate S cTwo Ideal.logistic (Cert.Spec.mk1 g) h Wru bru f n * h f n
        + (cOne - Cert.Spec.ugate S cTwo Ideal.logistic (Cert.Spec.mk1 g) h Wru bru f n)
          * Ideal.tanh (Cert.Spec.gconv S cTwo (Cert.Spec.mk1 g (rstate S g h Wru bru)) Wc bc n f) := rfl

theorem pay27_at (v1 : FVec Ideal S512x512 .f32) (v82 v94 v107 v122 v123 v128 v129 : FVec Ideal S512x128 .f32)
    (v131 v135 v139 v144 v152 : FVec Ideal S1x128x128 .f32)
    (hS : ∀ i j, v1 (ix2 i j) = S i j)
    (h82 : ∀ n f, v82 (ix2 n (pk bb f)) = h f n)
    (h94 : ∀ n f, v94 (ix2 n (pk bb f)) = Cert.Spec.diff S (g f) n)
    (h107 : ∀ n f, v107 (ix2 n (pk bb f)) = cTwo * Cert.Spec.diff S (Cert.Spec.diff S (g f)) n - g f n)
    (h122 : ∀ n f, v122 (ix2 n (pk bb f)) = Cert.Spec.ugate S cTwo Ideal.logistic (Cert.Spec.mk1 g) h Wru bru f n)
    (h123 : ∀ n f, v123 (ix2 n (pk bb f)) = rstate S g h Wru bru f n)
    (h128 : ∀ n o, v128 (ix2 n (pk bb o)) = ∑ f, g f n * Wc (pk 0 f) 0 o)
    (h129 : ∀ n o, v129 (ix2 n (pk bb o)) = bc o)
    (h131 : DiagC v131 fun f q => Wc (pk 0 f) 1 q)
    (h135 : DiagC v135 fun f q => Wc (pk 0 f) 2 q)
    (h139 : DiagC v139 fun f q => Wc (pk 1 f) 0 q)
    (h144 : DiagC v144 fun f q => Wc (pk 1 f) 1 q)
    (h152 : DiagC v152 fun f q => Wc (pk 1 f) 2 q)
    (n : Fin 512) (f : Fin 64) :
    k1_pay27 (F := Ideal) v1 v82 v94 v107 v122 v123 v128 v129 v131 v135 v139 v144 v152 (ix2 n (pk bb f))
      = Cert.Spec.cell S cTwo cOne Ideal.logistic Ideal.tanh (Cert.Spec.mk1 g) h Wru bru Wc bc f n := by
  have e5 : ∀ f', matmul dot_S512x512_S512x128_S512x128_1_0_0_1_n_n none v1 v123 (constant S512x128 .f32 0x00000000#32) (ix2 n (pk bb f'))
      = Cert.Spec.diff S (rstate S g h Wru bru f') n :=
    fun f' => mmS_col S v1 v123 hS (pk bb f') (rstate S g h Wru bru f') (fun k => h123 k f') n
  have e6 : ∀ f', subf (mulf (broadcast S512x128 (Scalar.ofBits (F := Ideal) .f32 0x40000000#32))
        (matmul dot_S512x512_S512x128_S512x128_1_0_0_1_n_n none v1
          (matmul dot_S512x512_S512x128_S512x128_1_0_0_1_n_n none v1 v123 (constant S512x128 .f32 0x00000000#32))
          (constant S512x128 .f32 0x00000000#32))) v123 (ix2 n (pk bb f'))
      = cTwo * Cert.Spec.diff S (Cert.Spec.diff S (rstate S g h Wru bru f')) n - rstate S g h Wru bru f' n :=
    fun f' => cheb2_col S v1 v123 _ hS (pk bb f') (rstate S g h Wru bru f') (fun k => h123 k f')
      (fun k => mmS_col S v1 v123 hS (pk bb f') (rstate S g h Wru bru f') (fun k' => h123 k' f') k) n
  rw [cell_eq, gconv_mk1_cand]
  unfold k1_pay27
  simp only [addf_apply, mulf_apply, subf_apply, tanh_at, broadcast_apply]
  rw [mmW_cand v94 v131 (fun f q => Wc (pk 0 f) 1 q) h131, mmW_cand v107 v135 (fun f q => Wc (pk 0 f) 2 q) h135,
    mmW_cand v123 v139 (fun f q => Wc (pk 1 f) 0 q) h139, mmW_cand _ v144 (fun f q => Wc (pk 1 f) 1 q) h144,
    mmW_cand _ v152 (fun f q => Wc (pk 1 f) 2 q) h152, h122, h82, h129, h128]
  simp only [h94, h107, h123, e5, e6]
  rfl

end Layer1

theorem pay3_at (X : Fin 64 → Fin 512 → EReal) (Wp : Fin 64 → EReal) (bp : EReal) (bb : Fin 2)
    (v161 : FVec Ideal S512x128 .f32) (v170 : FVec Ideal S128x2 .f32) (v173 : FVec Ideal S1x1 .f32)
    (h161 : ∀ n f, v161 (ix2 n (pk bb f)) = X f n)
    (h170 : ∀ (b' : Fin 2) (f : Fin 64) (b : Fin 2), v170 (ix2 (pk b' f) b) = if b' = b then Wp f else 0)
    (h173 : v173 (ix2 (0 : Fin 1) (0 : Fin 1)) = bp) (n : Fin 512) :
    k1_pay3 (F := Ideal) v161 v170 v173 (ix2 n bb) = (∑ f, X f n * Wp f) + bp := by
  unfold k1_pay3
  simp only [addf_apply]
  rw [Dot.HP, mm_plain]
  simp only [shapeCast_self]
  rw [sum_blockdiag (fun j => v161 (ix2 n j)) (fun j => v170 (ix2 j bb)) Wp bb (fun b' f => h170 b' f bb),
    broadcastTo_apply v173 broadcasts_S1x1_S512x2 (ix2 n bb) (ix2 (0 : Fin 1) (0 : Fin 1))
      (fun a => by match a with | ⟨0, _⟩ => rfl | ⟨1, _⟩ => rfl), h173]
  simp only [h161]

theorem pay4_at (v161 : FVec Ideal S512x128 .f32) (v170 : FVec Ideal S128x2 .f32) (v173 : FVec Ideal S1x1 .f32) (n : Fin 512) :
    k1_pay4 (F := Ideal) v161 v170 v173 (ix3 (0 : Fin 1) n (0 : Fin 1)) = k1_pay3 (F := Ideal) v161 v170 v173 (ix2 n (0 : Fin 2)) := by
  unfold k1_pay4
  refine (shapeCast_ab_1ab_apply _ shapeCasts_S512x1_S1x512x1 (0 : Fin 1) n (0 : Fin 1)).trans ?_
  exact slice2_axis1_apply 0 _ slices_S512x2_o0_0_S512x1 n (0 : Fin 1) (0 : Fin 2) rfl

theorem pay5_at (v161 : FVec Ideal S512x128 .f32) (v170 : FVec Ideal S128x2 .f32) (v173 : FVec Ideal S1x1 .f32) (n : Fin 512) :
    k1_pay5 (F := Ideal) v161 v170 v173 (ix3 (0 : Fin 1) n (0 : Fin 1)) = k1_pay3 (F := Ideal) v161 v170 v173 (ix2 n (1 : Fin 2)) := by
  unfold k1_pay5
  refine (shapeCast_ab_1ab_apply _ shapeCasts_S512x1_S1x512x1 (0 : Fin 1) n (0 : Fin 1)).trans ?_
  exact slice2_axis1_apply 1 _ slices_S512x2_o0_1_S512x1 n (0 : Fin 1) (1 : Fin 2) rfl

theorem wg_at (y : Vec Ideal S3x128x256 .f32) (W : Fin 64 → Fin 3 → Fin 128 → EReal)
    (hy : ∀ (k : Fin 3) (b' : Fin 2) (f : Fin 64) (gg b : Fin 2) (o : Fin 64),
      y (ix3 k (pk b' f) (ruc gg b o)) = if b' = b then W f k (pk gg o) else 0)
    (o' : Nat) (inb : ∀ a, (![o', 0, 0] : Fin 3 → Nat) a + S1x128x256.size a ≤ S3x128x256.size a) (k : Fin 3) (hk : k.val = o') :
    DiagG (View.ld y (Rect.unit (s := S3x128x256) ![o', 0, 0] S1x128x256.size inb)) fun f q => W f k q :=
  fun b' f gg b o => (ld3 y o' inb k hk _ _).trans (hy k b' f gg b o)

theorem wc_at (y : Vec Ideal S3x128x128 .f32) (W : Fin 64 → Fin 3 → Fin 64 → EReal)
    (hy : ∀ (k : Fin 3) (b' : Fin 2) (f : Fin 64) (b : Fin 2) (o : Fin 64),
      y (ix3 k (pk b' f) (pk b o)) = if b' = b then W f k o else 0)
    (o' : Nat) (inb : ∀ a, (![o', 0, 0] : Fin 3 → Nat) a + S1x128x128.size a ≤ S3x128x128.size a) (k : Fin 3) (hk : k.val = o') :
    DiagC (View.ld y (Rect.unit (s := S3x128x128) ![o', 0, 0] S1x128x128.size inb)) fun f q => W f k q :=
  fun b' f b o => (ld3 y o' inb k hk _ _).trans (hy k b' f b o)

end L1

variable {S : Fin 512 → Fin 512 → EReal} {xs : Fin 2 → Fin 512 → EReal} {h0 h1 : Fin 2 → Fin 64 → Fin 512 → EReal}
    {Wru0 : Fin 65 → Fin 3 → Fin 128 → EReal} {bru0 : Fin 128 → EReal} {Wc0 : Fin 65 → Fin 3 → Fin 64 → EReal} {bc0 : Fin 64 → EReal}
    {Wru1 : Fin 128 → Fin 3 → Fin 128 → EReal} {bru1 : Fin 128 → EReal} {Wc1 : Fin 128 → Fin 3 → Fin 64 → EReal} {bc1 : Fin 64 → EReal}
    {Wp : Fin 64 → EReal} {bp : EReal}
    {y0 : Vec Ideal S512x512 .f32} {y1 : Vec Ideal S2x512x3 .f32} {y2 y3 : Vec Ideal S2x512x64 .f32}
    {y4 : Vec Ideal S6x256 .f32} {y5 : Vec Ideal S3x128x256 .f32} {y6 : Vec Ideal S1x256 .f32}
    {y7 : Vec Ideal S6x128 .f32} {y8 : Vec Ideal S3x128x128 .f32} {y9 : Vec Ideal S1x128 .f32}
    {y10 y11 : Vec Ideal S3x128x256 .f32} {y12 : Vec Ideal S1x256 .f32}
    {y13 y14 : Vec Ideal S3x128x128 .f32} {y15 : Vec Ideal S1x128 .f32}
    {y16 : Vec Ideal S128x2 .f32} {y17 : Vec Ideal S1x1 .f32}

namespace L1

section Inst
variable (hin : Inputs S xs h0 h1 Wru0 bru0 Wc0 bc0 Wru1 bru1 Wc1 bc1 Wp bp y0 y1 y2 y3 y4 y5 y6 y7 y8 y9 y10 y11 y12 y13 y14 y15 y16 y17)
include hin

theorem v1_at (i j : Fin 512) : b_v1 y0 (ix2 i j) = S i j := by
  unfold b_v1 k1_pay6 b_v0
  rw [shapeCast_self, View.ld_unit_zero off2_zero]
  exact hin.hy0 i j

theorem v82_at (bb : Fin 2) (n : Fin 512) (f : Fin 64) : b_v82 y3 (ix2 n (pk bb f)) = h1 bb f n := by
  unfold b_v82 k1_pay18
  rcases two_cases bb with rfl | rfl
  · exact ((concat_lanes _ _ _ n (pk 0 f) f).1 (by simp [pk])).trans
      ((shapeCast_1ab_ab_apply _ _ n f).trans ((ld3 y3 0 _ 0 rfl n f).trans (hin.hy3 0 n f)))
  · exact ((concat_lanes _ _ _ n (pk 1 f) f).2 (by simp [pk])).trans
      ((shapeCast_1ab_ab_apply _ _ n f).trans ((ld3 y3 1 _ 1 rfl n f).trans (hin.hy3 1 n f)))

variable (g : Fin 2 → Fin 64 → Fin 512 → EReal)
  (h69 : ∀ (bb : Fin 2) (n : Fin 512) (f : Fin 64), b_v69 y0 y1 y2 y4 y5 y6 y7 y8 y9 (ix2 n (pk bb f)) = g bb f n)
include h69

theorem v93_at (bb : Fin 2) (n : Fin 512) (gg : Fin 2) (o : Fin 64) :
    b_v93 y0 y1 y2 y3 y4 y5 y6 y7 y8 y9 y10 y11 y12 (ix2 n (ruc gg bb o))
      = (bru1 (pk gg o) + ∑ f, g bb f n * Wru1 (pk 0 f) 0 (pk gg o)) + ∑ f, h1 bb f n * Wru1 (pk 1 f) 0 (pk gg o) := by
  unfold b_v93
  exact pay19_at (g bb) (h1 bb) Wru1 bru1 bb _ _ _ _ _ (b_v83 y12) (b_v85 y10) (b_v90 y11) (h69 bb) (v82_at hin bb)
    (fun gg o => (congrFun (View.ld_unit_zero off2_zero _ y12) _).trans (hin.hy12 gg bb o))
    (wg_at y10 (fun f k q => Wru1 (pk 0 f) k q) hin.hy10 0 _ 0 rfl)
    (wg_at y11 (fun f k q => Wru1 (pk 1 f) k q) hin.hy11 0 _ 0 rfl) n gg o

theorem v94_at (bb : Fin 2) (n : Fin 512) (f : Fin 64) :
    b_v94 y0 y1 y2 y4 y5 y6 y7 y8 y9 (ix2 n (pk bb f)) = Cert.Spec.diff S (g bb f) n := by
  unfold b_v94
  exact pay20_at S (g bb) bb _ _ _ _ (v1_at hin) (h69 bb) n f

theorem v107_at (bb : Fin 2) (n : Fin 512) (f : Fin 64) :
    b_v107 y0 y1 y2 y4 y5 y6 y7 y8 y9 (ix2 n (pk bb f))
      = cTwo * Cert.Spec.diff S (Cert.Spec.diff S (g bb f)) n - g bb f n := by
  unfold b_v107
  exact pay21_at S (g bb) bb _ _ _ (v1_at hin) (h69 bb) (v94_at hin g h69 bb) n f

theorem g22_at (bb : Fin 2) (n : Fin 512) (gg : Fin 2) (o : Fin 64) :
    k1_pay22 (F := Ideal) (b_v1 y0) (b_v69 y0 y1 y2 y4 y5 y6 y7 y8 y9) (b_v82 y3) (b_v93 y0 y1 y2 y3 y4 y5 y6 y7 y8 y9 y10 y11 y12)
        (b_v94 y0 y1 y2 y4 y5 y6 y7 y8 y9) (b_v95 y10) (b_v100 y11) (b_v108 y10) (b_v116 y11) (ix2 n (ruc gg bb o))
      = Cert.Spec.gates S cTwo Ideal.logistic (Cert.Spec.mk1 (g bb)) (h1 bb) Wru1 bru1 n (pk gg o) :=
  pay22_at S (g bb) (h1 bb) Wru1 bru1 bb _ _ _ _ _ _ _ _ _
    (v1_at hin) (h69 bb) (v82_at hin bb) (v94_at hin g h69 bb) (v93_at hin g h69 bb)
    (wg_at y10 (fun f k q => Wru1 (pk 0 f) k q) hin.hy10 1 _ 1 rfl) (wg_at y11 (fun f k q => Wru1 (pk 1 f) k q) hin.hy11 1 _ 1 rfl)
    (wg_at y10 (fun f k q => Wru1 (pk 0 f) k q) hin.hy10 2 _ 2 rfl) (wg_at y11 (fun f k q => Wru1 (pk 1 f) k q) hin.hy11 2 _ 2 rfl) n gg o

theorem v122_at (bb : Fin 2) (n : Fin 512) (o : Fin 64) :
    b_v122 y0 y1 y2 y3 y4 y5 y6 y7 y8 y9 y10 y11 y12 (ix2 n (pk bb o))
      = Cert.Spec.ugate S cTwo Ideal.logistic (Cert.Spec.mk1 (g bb)) (h1 bb) Wru1 bru1 o n := by
  unfold b_v122
  exact pay23_at S (g bb) (h1 bb) Wru1 bru1 bb _ _ _ _ _ _ _ _ _ (g22_at hin g h69 bb) n o

theorem v123_at (bb : Fin 2) (n : Fin 512) (o : Fin 64) :
    b_v123 y0 y1 y2 y3 y4 y5 y6 y7 y8 y9 y10 y11 y12 (ix2 n (pk bb o))
      = rstate S (g bb) (h1 bb) Wru1 bru1 o n := by
  unfold b_v123
  exact pay24_at S (g bb) (h1 bb) Wru1 bru1 bb _ _ _ _ _ _ _ _ _ (v82_at hin bb) (g22_at hin g h69 bb) n o

theorem v128_at (bb : Fin 2) (n : Fin 512) (o : Fin 64) :
    b_v128 y0 y1 y2 y4 y5 y6 y7 y8 y9 y13 (ix2 n (pk bb o)) = ∑ f, g bb f n * Wc1 (pk 0 f) 0 o := by
  unfold b_v128
  exact pay25_at (g bb) Wc1 bb _ (b_v126 y13) (h69 bb) (wc_at y13 (fun f k q => Wc1 (pk 0 f) k q) hin.hy13 0 _ 0 rfl) n o

theorem v161_at (bb : Fin 2) (n : Fin 512) (f : Fin 64) :
    b_v161 y0 y1 y2 y3 y4 y5 y6 y7 y8 y9 y10 y11 y12 y13 y14 y15 (ix2 n (pk bb f))
      = Cert.Spec.cell S cTwo cOne Ideal.logistic Ideal.tanh (Cert.Spec.mk1 (g bb)) (h1 bb) Wru1 bru1 Wc1 bc1 f n := by
  unfold b_v161
  exact pay27_at S (g bb) (h1 bb) Wru1 bru1 Wc1 bc1 bb _ _ _ _ _ _ _ (b_v129 y15) (b_v131 y13) (b_v135 y13) (b_v139 y14) (b_v144 y14) (b_v152 y14)
    (v1_at hin) (v82_at hin bb) (v94_at hin g h69 bb) (v107_at hin g h69 bb) (v122_at hin g h69 bb) (v123_at hin g h69 bb)
    (v128_at hin g h69 bb)
    (fun n o => by
      unfold b_v129
      exact pay26_at bc1 bb (b_v124 y15) (fun o => (congrFun (View.ld_unit_zero off2_zero _ y15) _).trans (hin.hy15 bb o)) n o)
    (wc_at y13 (fun f k q => Wc1 (pk 0 f) k q) hin.hy13 1 _ 1 rfl)
    (wc_at y13 (fun f k q => Wc1 (pk 0 f) k q) hin.hy13 2 _ 2 rfl)
    (wc_at y14 (fun f k q => Wc1 (pk 1 f) k q) hin.hy14 0 _ 0 rfl)
    (wc_at y14 (fun f k q => Wc1 (pk 1 f) k q) hin.hy14 1 _ 1 rfl)
    (wc_at y14 (fun f k q => Wc1 (pk 1 f) k q) hin.hy14 2 _ 2 rfl) n f

end Inst

end L1

open L1

theorem new1_packed (hin : Inputs S xs h0 h1 Wru0 bru0 Wc0 bc0 Wru1 bru1 Wc1 bc1 Wp bp y0 y1 y2 y3 y4 y5 y6 y7 y8 y9 y10 y11 y12 y13 y14 y15 y16 y17)
    (h69 : ∀ (bb : Fin 2) (n : Fin 512) (f : Fin 64), b_v69 y0 y1 y2 y4 y5 y6 y7 y8 y9 (ix2 n (pk bb f)) = Cert.Spec.new0 S cTwo cOne Ideal.logistic Ideal.tanh (xs bb) (h0 bb) Wru0 bru0 Wc0 bc0 f n) (bb : Fin 2) (n : Fin 512) (f : Fin 64) :
    b_v161 y0 y1 y2 y3 y4 y5 y6 y7 y8 y9 y10 y11 y12 y13 y14 y15 (ix2 n (pk bb f)) = Cert.Spec.new1 S cTwo cOne Ideal.logistic Ideal.tanh (xs bb) (h0 bb) (h1 bb) Wru0 bru0 Wc0 bc0 Wru1 bru1 Wc1 bc1 f n :=
  v161_at hin (fun bb => Cert.Spec.new0 S cTwo cOne Ideal.logistic Ideal.tanh (xs bb) (h0 bb) Wru0 bru0 Wc0 bc0) h69 bb n f

theorem hid_layer1 (hin : Inputs S xs h0 h1 Wru0 bru0 Wc0 bc0 Wru1 bru1 Wc1 bc1 Wp bp y0 y1 y2 y3 y4 y5 y6 y7 y8 y9 y10 y11 y12 y13 y14 y15 y16 y17)
      (h69 : ∀ (bb : Fin 2) (n : Fin 512) (f : Fin 64), b_v69 y0 y1 y2 y4 y5 y6 y7 y8 y9 (ix2 n (pk bb f)) = Cert.Spec.new0 S cTwo cOne Ideal.logistic Ideal.tanh (xs bb) (h0 bb) Wru0 bru0 Wc0 bc0 f n)
      (bb : Fin 2) (n : Fin 512) (f : Fin 64) :
      out1_19 y0 y1 y2 y3 y4 y5 y6 y7 y8 y9 y10 y11 y12 y13 y14 y15 (ix4 1 bb n f) = Cert.Spec.new1 S cTwo cOne Ideal.logistic Ideal.tanh (xs bb) (h0 bb) (h1 bb) Wru0 bru0 Wc0 bc0 Wru1 bru1 Wc1 bc1 f n := by
  unfold out1_19
  rcases two_cases bb with rfl | rfl
  · refine (canon_miss _ _ _ 1 (Or.inl (by show (0 : ℕ) < 1; omega))).trans ?_
    refine (canon_hit _ _ (ix4 (0 : Fin 1) (0 : Fin 1) n f) _ fun a => ?_).trans ?_
    · match a with
      | ⟨0, _⟩ => rfl
      | ⟨1, _⟩ => rfl
      | ⟨2, _⟩ => exact (Nat.zero_add _).symm
      | ⟨3, _⟩ => exact (Nat.zero_add _).symm
    · unfold b_v162 k1_pay1 k1_pay28
      exact (band_block _ 0 _ _ 0 0 n f (pk 0 f) (by show 0 * 64 + f.val = 0 + f.val; omega)).trans (new1_packed hin h69 0 n f)
  · refine (canon_hit _ _ (ix4 (0 : Fin 1) (0 : Fin 1) n f) _ fun a => ?_).trans ?_
    · match a with
      | ⟨0, _⟩ => rfl
      | ⟨1, _⟩ => rfl
      | ⟨2, _⟩ => exact (Nat.zero_add _).symm
      | ⟨3, _⟩ => exact (Nat.zero_add _).symm
    · unfold k1_pay2
      exact (band_block _ 64 _ _ 0 0 n f (pk 1 f) (by show 1 * 64 + f.val = 64 + f.val; omega)).trans (new1_packed hin h69 1 n f)

theorem out_proj (hin : Inputs S xs h0 h1 Wru0 bru0 Wc0 bc0 Wru1 bru1 Wc1 bc1 Wp bp y0 y1 y2 y3 y4 y5 y6 y7 y8 y9 y10 y11 y12 y13 y14 y15 y16 y17)
      (h69 : ∀ (bb : Fin 2) (n : Fin 512) (f : Fin 64), b_v69 y0 y1 y2 y4 y5 y6 y7 y8 y9 (ix2 n (pk bb f)) = Cert.Spec.new0 S cTwo cOne Ideal.logistic Ideal.tanh (xs bb) (h0 bb) Wru0 bru0 Wc0 bc0 f n)
      (bb : Fin 2) (n : Fin 512) :
      out1_18 y0 y1 y2 y3 y4 y5 y6 y7 y8 y9 y10 y11 y12 y13 y14 y15 y16 y17 (ix3 bb n 0)
        = Cert.Spec.proj S cTwo cOne Ideal.logistic Ideal.tanh (xs bb) (h0 bb) (h1 bb) Wru0 bru0 Wc0 bc0 Wru1 bru1 Wc1 bc1 Wp bp n := by
  have hp : ∀ b : Fin 2, k1_pay3 (F := Ideal) (b_v161 y0 y1 y2 y3 y4 y5 y6 y7 y8 y9 y10 y11 y12 y13 y14 y15) (b_v170 y16) (b_v173 y17) (ix2 n b)
      = Cert.Spec.proj S cTwo cOne Ideal.logistic Ideal.tanh (xs b) (h0 b) (h1 b) Wru0 bru0 Wc0 bc0 Wru1 bru1 Wc1 bc1 Wp bp n := fun b =>
    pay3_at (Cert.Spec.new1 S cTwo cOne Ideal.logistic Ideal.tanh (xs b) (h0 b) (h1 b) Wru0 bru0 Wc0 bc0 Wru1 bru1 Wc1 bc1) Wp bp b
      _ (b_v170 y16) (b_v173 y17) (new1_packed hin h69 b)
      (fun b' f b'' => (congrFun (View.ld_unit_zero off2_zero _ y16) _).trans (hin.hy16 b' f b''))
      ((congrFun (View.ld_unit_zero off2_zero _ y17) _).trans hin.hy17) n
  unfold out1_18
  rcases two_cases bb with rfl | rfl
  · refine (canon_miss _ _ _ 0 (Or.inl (by show (0 : ℕ) < 1; omega))).trans ?_
    refine (canon_hit _ _ (ix3 (0 : Fin 1) n (0 : Fin 1)) _ fun a => ?_).trans ?_
    · match a with
      | ⟨0, _⟩ => rfl
      | ⟨1, _⟩ => exact (Nat.zero_add _).symm
      | ⟨2, _⟩ => rfl
    · rw [pay4_at]
      exact hp 0
  · refine (canon_hit _ _ (ix3 (0 : Fin 1) n (0 : Fin 1)) _ fun a => ?_).trans ?_
    · match a with
      | ⟨0, _⟩ => rfl
      | ⟨1, _⟩ => exact (Nat.zero_add _).symm
      | ⟨2, _⟩ => rfl
    · rw [pay5_at]
      exact hp 1

end Cert.KernelIdeal.MainVal

end
-- ==== Proof.MainOut.lean ====
import proofs.«162860_g19069654794669_cont_sun_m_30_12_alg».proof.Proof.MainIn
import proofs.«162860_g19069654794669_cont_sun_m_30_12_alg».proof.Proof.LibLanes

noncomputable section

namespace Cert.KernelIdeal.MainVal

open Idealize.ShloMosaic Idealize.ShloMosaic.ValueIdx Cert.KernelIdeal Cert.KernelIdeal.Gen Cert.KernelIdeal.Fr Cert.Pack
  Cert.SpecArgs Cert.Lanes

variable {S : Fin 512 → Fin 512 → EReal} {xs : Fin 2 → Fin 512 → EReal} {h0 : Fin 2 → Fin 64 → Fin 512 → EReal}
    {Wru0 : Fin 65 → Fin 3 → Fin 128 → EReal} {bru0 : Fin 128 → EReal} {Wc0 : Fin 65 → Fin 3 → Fin 64 → EReal} {bc0 : Fin 64 → EReal}
    {y0 : Vec Ideal S512x512 .f32} {y1 : Vec Ideal S2x512x3 .f32} {y2 y3 : Vec Ideal S2x512x64 .f32}
    {y4 : Vec Ideal S6x256 .f32} {y5 : Vec Ideal S3x128x256 .f32} {y6 : Vec Ideal S1x256 .f32}
    {y7 : Vec Ideal S6x128 .f32} {y8 : Vec Ideal S3x128x128 .f32} {y9 : Vec Ideal S1x128 .f32}
    {y10 y11 : Vec Ideal S3x128x256 .f32} {y12 : Vec Ideal S1x256 .f32}
    {y13 y14 : Vec Ideal S3x128x128 .f32} {y15 : Vec Ideal S1x128 .f32}

-- The first layer's rows lie off the two copies made last; slot bb's copy holds its 64 lanes of the packed new state.
theorem hid_layer0
    (h69 : ∀ (bb : Fin 2) (n : Fin 512) (f : Fin 64), b_v69 y0 y1 y2 y4 y5 y6 y7 y8 y9 (ix2 n (pk bb f))
      = Cert.Spec.new0 S cTwo cOne Ideal.logistic Ideal.tanh (xs bb) (h0 bb) Wru0 bru0 Wc0 bc0 f n)
    (bb : Fin 2) (n : Fin 512) (f : Fin 64) :
    out1_19 y0 y1 y2 y3 y4 y5 y6 y7 y8 y9 y10 y11 y12 y13 y14 y15 (ix4 0 bb n f)
      = Cert.Spec.new0 S cTwo cOne Ideal.logistic Ideal.tanh (xs bb) (h0 bb) Wru0 bru0 Wc0 bc0 f n := by
  have e69 : b_v69 y0 y1 y2 y4 y5 y6 y7 y8 y9
      = k1_pay15 (b_v11 y2) (b_v38 y0 y1 y2 y4 y5 y6) (b_v64 y0 y1 y2 y4 y5 y6 y7 y8 y9) := rfl
  have hx : ∀ a : Fin 4, ((ix4 (0 : Fin 2) bb n f) a).val
      = (![0, bb.val, 0, 0] : Fin 4 → ℕ) a + ((ix4 (0 : Fin 1) (0 : Fin 1) n f) a).val := fun a => by
    match a with
    | ⟨0, _⟩ => rfl
    | ⟨1, _⟩ => rfl
    | ⟨2, _⟩ => exact (Nat.zero_add _).symm
    | ⟨3, _⟩ => exact (Nat.zero_add _).symm
  unfold out1_19
  refine (canon_miss _ _ _ 0 (Or.inl (by show (0 : ℕ) < 1; omega))).trans ?_
  refine (canon_miss _ _ _ 0 (Or.inl (by show (0 : ℕ) < 1; omega))).trans ?_
  rcases two_cases bb with rfl | rfl
  · refine (canon_miss _ _ _ 1 (Or.inl (by show (0 : ℕ) < 1; omega))).trans ?_
    refine (canon_hit _ _ (ix4 (0 : Fin 1) (0 : Fin 1) n f) _ hx).trans ?_
    unfold k1_pay16
    refine (band_block _ 0 _ _ 0 0 n f (pk 0 f) (by show 0 * 64 + f.val = 0 + f.val; omega)).trans ?_
    rw [← e69]
    exact h69 0 n f
  · refine (canon_hit _ _ (ix4 (0 : Fin 1) (0 : Fin 1) n f) _ hx).trans ?_
    unfold k1_pay17
    refine (band_block _ 64 _ _ 0 0 n f (pk 1 f) (by show 1 * 64 + f.val = 64 + f.val; omega)).trans ?_
    rw [← e69]
    exact h69 1 n f

end Cert.KernelIdeal.MainVal

end
-- ==== Proof.SpecFin.lean ====
import proofs.«162860_g19069654794669_cont_sun_m_30_12_alg».proof.Proof.SpecArgs
import Idealize.ShloMosaic.Lib.ValueIdx

noncomputable section

namespace Cert.SpecArgs

open Idealize.ShloMosaic Idealize.ShloMosaic.ValueIdx Cert.Pack

section Net

variable (S : Fin 512 → Fin 512 → EReal)
  (a0 : (⟨2, ![64, 512]⟩ : Shape).Idx → EReal) (a1 : (⟨3, ![2, 64, 32768]⟩ : Shape).Idx → EReal)
  (a3 : (⟨2, ![195, 128]⟩ : Shape).Idx → EReal) (a4 : (⟨1, ![128]⟩ : Shape).Idx → EReal)
  (a5 : (⟨2, ![195, 64]⟩ : Shape).Idx → EReal) (a6 : (⟨1, ![64]⟩ : Shape).Idx → EReal)
  (a7 : (⟨2, ![384, 128]⟩ : Shape).Idx → EReal) (a8 : (⟨1, ![128]⟩ : Shape).Idx → EReal)
  (a9 : (⟨2, ![384, 64]⟩ : Shape).Idx → EReal) (a10 : (⟨1, ![64]⟩ : Shape).Idx → EReal)
  (a11 : (⟨2, ![64, 1]⟩ : Shape).Idx → EReal) (a12 : (⟨1, ![1]⟩ : Shape).Idx → EReal)

/-- An array that agrees with the specification at every named index is the specification's array. -/
theorem res0_of (A : (⟨2, ![64, 512]⟩ : Shape).Idx → EReal)
    (h : ∀ (b : Fin 64) (n : Fin 512), A (ix2 b n) = proj S a0 a1 a3 a4 a5 a6 a7 a8 a9 a10 a11 a12 b n) :
    A = res0 S a0 a1 a3 a4 a5 a6 a7 a8 a9 a10 a11 a12 := by
  funext i
  obtain ⟨b, n, rfl⟩ : ∃ (b : Fin 64) (n : Fin 512), i = ix2 b n := ⟨i 0, i 1, eq_ix2 i⟩
  exact (h b n).trans (res0_apply S a0 a1 a3 a4 a5 a6 a7 a8 a9 a10 a11 a12 b n).symm

theorem res1_of (A : (⟨3, ![2, 64, 32768]⟩ : Shape).Idx → EReal)
    (h0 : ∀ (b : Fin 64) (n : Fin 512) (f : Fin 64), A (ix3 0 b (nf n f)) = new0 S a0 a1 a3 a4 a5 a6 b f n)
    (h1 : ∀ (b : Fin 64) (n : Fin 512) (f : Fin 64),
      A (ix3 1 b (nf n f)) = new1 S a0 a1 a3 a4 a5 a6 a7 a8 a9 a10 b f n) :
    A = res1 S a0 a1 a3 a4 a5 a6 a7 a8 a9 a10 := by
  funext i
  obtain ⟨l, b, p, rfl⟩ : ∃ (l : Fin 2) (b : Fin 64) (p : Fin 32768), i = ix3 l b p := ⟨i 0, i 1, i 2, eq_ix3 i⟩
  obtain ⟨n, f, rfl⟩ := nf_surj p
  rcases two_cases l with rfl | rfl
  · exact (h0 b n f).trans (res1_apply0 S a0 a1 a3 a4 a5 a6 a7 a8 a9 a10 b n f).symm
  · exact (h1 b n f).trans (res1_apply1 S a0 a1 a3 a4 a5 a6 a7 a8 a9 a10 b n f).symm

end Net

end Cert.SpecArgs

end
-- ==== Proof.KAsm.lean ====
import proofs.«162860_g19069654794669_cont_sun_m_30_12_alg».proof.Proof.FrameI
import proofs.«162860_g19069654794669_cont_sun_m_30_12_alg».proof.Proof.Region0Val
import proofs.«162860_g19069654794669_cont_sun_m_30_12_alg».proof.Proof.Region1Val
import proofs.«162860_g19069654794669_cont_sun_m_30_12_alg».proof.Proof.HostVal
import proofs.«162860_g19069654794669_cont_sun_m_30_12_alg».proof.Proof.MainInst
import proofs.«162860_g19069654794669_cont_sun_m_30_12_alg».proof.Proof.MainL0
import proofs.«162860_g19069654794669_cont_sun_m_30_12_alg».proof.Proof.MainL1
import proofs.«162860_g19069654794669_cont_sun_m_30_12_alg».proof.Proof.MainOut
import proofs.«162860_g19069654794669_cont_sun_m_30_12_alg».proof.Proof.PrepSup
import proofs.«162860_g19069654794669_cont_sun_m_30_12_alg».proof.Proof.SpecFin
import proofs.«162860_g19069654794669_cont_sun_m_30_12_alg».proof.Proof.Sup
import Idealize.ShloMosaic.Lib.ValueIdx

noncomputable section

namespace Cert.KernelIdeal.Asm

open Idealize.ShloMosaic Idealize.ShloMosaic.ValueIdx Idealize.ShloMosaic.TcCoe Idealize.SL.Sem
open Cert.KernelIdeal Cert.KernelIdeal.Gen Cert.KernelIdeal.Fr Cert.Pack Cert.SpecArgs
open Cert.KernelIdeal.MainVal Cert.KernelIdeal.AsmH Cert.KernelIdeal.Asm0 Cert.KernelIdeal.Asm1

variable (m : (ℓ : Loc nD τ sig) → Buf (Elt Ideal) ℓ) (ρ : Dev nD → PrngReg) (c : Dev nD)

abbrev SS : Fin 512 → Fin 512 → EReal :=
  Cert.Sup.Sk (fun a b => (m ((c : Thread nD τ).loc main_arg2) : Vec Ideal S512x512 .f32) (ix2 a b))

-- At every grid point the input blocks hold the specification's data for the point's two batch elements.
theorem hin (t : Fin cfg1.N) :
    Inputs (SS m c) (fun bb => xOf (m ((c : Thread nD τ).loc main_arg0)) (bat (pt t) bb))
      (fun bb => hOf (m ((c : Thread nD τ).loc main_arg1)) 0 (bat (pt t) bb))
      (fun bb => hOf (m ((c : Thread nD τ).loc main_arg1)) 1 (bat (pt t) bb))
      (wOf195 (m ((c : Thread nD τ).loc main_arg3))) (bOf (m ((c : Thread nD τ).loc main_arg4)))
      (wOf195 (m ((c : Thread nD τ).loc main_arg5))) (bOf (m ((c : Thread nD τ).loc main_arg6)))
      (wOf384 (m ((c : Thread nD τ).loc main_arg7))) (bOf (m ((c : Thread nD τ).loc main_arg8)))
      (wOf384 (m ((c : Thread nD τ).loc main_arg9))) (bOf (m ((c : Thread nD τ).loc main_arg10)))
      (pOf (m ((c : Thread nD τ).loc main_arg11))) (pbOf (m ((c : Thread nD τ).loc main_arg12)))
      (iblk1 (VV3 m ρ) c 0 t) (iblk1 (VV3 m ρ) c 1 t) (iblk1 (VV3 m ρ) c 2 t) (iblk1 (VV3 m ρ) c 3 t) (iblk1 (VV3 m ρ) c 4 t) (iblk1 (VV3 m ρ) c 5 t) (iblk1 (VV3 m ρ) c 6 t) (iblk1 (VV3 m ρ) c 7 t) (iblk1 (VV3 m ρ) c 8 t) (iblk1 (VV3 m ρ) c 9 t) (iblk1 (VV3 m ρ) c 10 t) (iblk1 (VV3 m ρ) c 11 t) (iblk1 (VV3 m ρ) c 12 t) (iblk1 (VV3 m ρ) c 13 t) (iblk1 (VV3 m ρ) c 14 t) (iblk1 (VV3 m ρ) c 15 t) (iblk1 (VV3 m ρ) c 16 t) (iblk1 (VV3 m ρ) c 17 t) := by
  rw [show SS m c = Cert.Sup.Sk (Cert.KernelIdeal.PrepVal.adjOf (W1 m ρ c (Proc.devRef .tc main_arg2))) by rw [w1_arg2 m ρ c]]
  exact inputs_of _ _ _ _ _ _ _ _ _ _ _ _ (pt t)
    (W1 m ρ c (Proc.devRef .tc main_arg2)) (W1 m ρ c (Proc.devRef .tc main_v0)) (W1 m ρ c (Proc.devRef .tc main_v3))
    (W1 m ρ c (Proc.devRef .tc main_v5)) (W1 m ρ c (Proc.devRef .tc main_v7)) (W1 m ρ c (Proc.devRef .tc main_v9))
    (W1 m ρ c (Proc.devRef .tc main_v10)) (W1 m ρ c (Proc.devRef .tc main_v11)) (W1 m ρ c (Proc.devRef .tc main_v12))
    (W1 m ρ c (Proc.devRef .tc main_v13)) (W1 m ρ c (Proc.devRef .tc main_arg11))
    h0_v0 h0_v3 h0_v5 h0_v7 h0_v9 h0_v10 h0_v11 h0_v12 h0_v13 (fun f => by rw [w1_arg11 m ρ c])
    _ _ _ _ _ _ _ _ _ _ _ _ _ _ _ _ _ _
    ((iblk1_0_eq (VV3 m ρ) c t).trans ((h1_keep main_v14_0 (by decide)).trans (region0_out_0 m ρ c)))
    (fun bb n => ⟨((iblk1_1_at (VV3 m ρ) c t bb n 0).trans (h1_v19 (bat (pt t) bb) n).1).trans (congrFun (w2_v0 m ρ c) _),
      ((iblk1_1_at (VV3 m ρ) c t bb n 1).trans (h1_v19 (bat (pt t) bb) n).2.1).trans (congrFun (region0_out_1 m ρ c) _),
      ((iblk1_1_at (VV3 m ρ) c t bb n 2).trans (h1_v19 (bat (pt t) bb) n).2.2).trans (congrFun (region0_out_2 m ρ c) _)⟩)
    (fun bb n f => (((iblk1_2_at (VV3 m ρ) c t bb n f).trans (h1_v21 (bat (pt t) bb) n f)).trans (congrFun (w2_v1 m ρ c) _)).trans (h0_v1 0 (bat (pt t) bb) n f))
    (fun bb n f => (((iblk1_3_at (VV3 m ρ) c t bb n f).trans (h1_v23 (bat (pt t) bb) n f)).trans (congrFun (w2_v1 m ρ c) _)).trans (h0_v1 1 (bat (pt t) bb) n f))
    ((iblk1_4_eq (VV3 m ρ) c t).trans ((h1_keep main_v14_3 (by decide)).trans (region0_out_3 m ρ c)))
    ((iblk1_5_eq (VV3 m ρ) c t).trans ((h1_keep main_v14_4 (by decide)).trans (region0_out_4 m ρ c)))
    ((iblk1_6_eq (VV3 m ρ) c t).trans ((h1_keep main_v14_5 (by decide)).trans (region0_out_5 m ρ c)))
    ((iblk1_7_eq (VV3 m ρ) c t).trans ((h1_keep main_v14_6 (by decide)).trans (region0_out_6 m ρ c)))
    ((iblk1_8_eq (VV3 m ρ) c t).trans ((h1_keep main_v14_7 (by decide)).trans (region0_out_7 m ρ c)))
    ((iblk1_9_eq (VV3 m ρ) c t).trans ((h1_keep main_v14_8 (by decide)).trans (region0_out_8 m ρ c)))
    ((iblk1_10_eq (VV3 m ρ) c t).trans ((h1_keep main_v14_9 (by decide)).trans (region0_out_9 m ρ c)))
    ((iblk1_11_eq (VV3 m ρ) c t).trans ((h1_keep main_v14_10 (by decide)).trans (region0_out_10 m ρ c)))
    ((iblk1_12_eq (VV3 m ρ) c t).trans ((h1_keep main_v14_11 (by decide)).trans (region0_out_11 m ρ c)))
    ((iblk1_13_eq (VV3 m ρ) c t).trans ((h1_keep main_v14_12 (by decide)).trans (region0_out_12 m ρ c)))
    ((iblk1_14_eq (VV3 m ρ) c t).trans ((h1_keep main_v14_13 (by decide)).trans (region0_out_13 m ρ c)))
    ((iblk1_15_eq (VV3 m ρ) c t).trans ((h1_keep main_v14_14 (by decide)).trans (region0_out_14 m ρ c)))
    ((iblk1_16_eq (VV3 m ρ) c t).trans ((h1_keep main_v14_15 (by decide)).trans (region0_out_15 m ρ c)))
    (((congrFun (iblk1_17_eq (VV3 m ρ) c t) _).trans h1_v24).trans ((congrFun (w2_arg12 m ρ c) _).trans (congrFun (w1_arg12 m ρ c) _)))

-- Every batch element lies in one grid point's block, so the read-out array is, whole, the specification's read-out.
theorem res0_eq :
    W5 m ρ c (Proc.devRef .tc main_v26) = Cert.SpecArgs.res0 (SS m c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  obtain ⟨b, n, rfl⟩ : ∃ (b : Fin 64) (n : Fin 512), i = ix2 b n := ⟨i 0, i 1, eq_ix2 i⟩
  refine (h2_v26 b n).trans (congrFun ((region1_out m ρ c).trans (arrAt1_18 (VV3 m ρ) c
    (fun i => Cert.SpecArgs.res0 _ _ _ _ _ _ _ _ _ _ _ _ _ (ix2 (i 0) (i 1))) fun t bb n => ?_)) (ix3 b n 0))
  exact out_proj (hin m ρ c t) (new0_packed (hin m ρ c t)) bb n

theorem res1_eq :
    W5 m ρ c (Proc.devRef .tc main_v27) = Cert.SpecArgs.res1 (SS m c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨l, b, p, rfl⟩ : ∃ (l : Fin 2) (b : Fin 64) (p : Fin 32768), i = ix3 l b p := ⟨i 0, i 1, i 2, eq_ix3 i⟩
  obtain ⟨n, f, rfl⟩ := nf_surj p
  refine (h2_v27 l b n f).trans (congrFun ((region1_out1 m ρ c).trans (arrAt1_19 (VV3 m ρ) c
    (fun i => Cert.SpecArgs.res1 _ _ _ _ _ _ _ _ _ _ _ (ix3 (i 0) (i 1) (nf (i 2) (i 3)))) fun t l bb n f => ?_)) (ix4 l b n f))
  rcases two_cases l with rfl | rfl
  · exact (hid_layer0 (new0_packed (hin m ρ c t)) bb n f).trans (Cert.SpecArgs.res1_apply0 ..).symm
  · exact (hid_layer1 (hin m ρ c t) (new0_packed (hin m ρ c t)) bb n f).trans (Cert.SpecArgs.res1_apply1 ..).symm

end Cert.KernelIdeal.Asm

namespace Cert.KernelIdeal.Asm

open Idealize.ShloMosaic Idealize.ShloMosaic.ValueIdx Idealize.SL.Sem
open Cert.KernelIdeal Cert.KernelIdeal.Gen Cert.KernelIdeal.Fr

theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v26) = Cert.SpecArgs.res0 (Cert.Sup.Sk (fun a b => (m ((c.tc : Thread Cert.KernelIdeal.nD Cert.KernelIdeal.τ).loc Cert.KernelIdeal.main_arg2)) (ix2 a b))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_v27) = Cert.SpecArgs.res1 (Cert.Sup.Sk (fun a b => (m ((c.tc : Thread Cert.KernelIdeal.nD Cert.KernelIdeal.τ).loc Cert.KernelIdeal.main_arg2)) (ix2 a b))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run (Cert.KernelIdeal.defs (F := Ideal)) _ _).mono (fun _ h c => ⟨(h c _ (mem_uc main_v26 (by decide))).trans (res0_eq m ρ c),
    (h c _ (mem_uc main_v27 (by decide))).trans (res1_eq m ρ c),
    (h c _ (mem_uc main_arg0 (by decide))).trans (W5_main_arg0 m ρ c),
    (h c _ (mem_uc main_arg1 (by decide))).trans (W5_main_arg1 m ρ c),
    (h c _ (mem_uc main_arg2 (by decide))).trans (W5_main_arg2 m ρ c),
    (h c _ (mem_uc main_arg3 (by decide))).trans (W5_main_arg3 m ρ c),
    (h c _ (mem_uc main_arg4 (by decide))).trans (W5_main_arg4 m ρ c),
    (h c _ (mem_uc main_arg5 (by decide))).trans (W5_main_arg5 m ρ c),
    (h c _ (mem_uc main_arg6 (by decide))).trans (W5_main_arg6 m ρ c),
    (h c _ (mem_uc main_arg7 (by decide))).trans (W5_main_arg7 m ρ c),
    (h c _ (mem_uc main_arg8 (by decide))).trans (W5_main_arg8 m ρ c),
    (h c _ (mem_uc main_arg9 (by decide))).trans (W5_main_arg9 m ρ c),
    (h c _ (mem_uc main_arg10 (by decide))).trans (W5_main_arg10 m ρ c),
    (h c _ (mem_uc main_arg11 (by decide))).trans (W5_main_arg11 m ρ c),
    (h c _ (mem_uc main_arg12 (by decide))).trans (W5_main_arg12 m ρ c)⟩) (run_all (F := Ideal) m ρ)

end Cert.KernelIdeal.Asm

end
-- ==== Proof.RefGen.lean ====
import proofs.«162860_g19069654794669_cont_sun_m_30_12_alg».proof.Proof.RunP
import proofs.«162860_g19069654794669_cont_sun_m_30_12_alg».proof.Proof.ReadP
-- ==== Proof.LibIdx.lean ====
import Idealize.ShloMosaic.Lib.ValueIdx
import Idealize.ShloMosaic.Lib.Pipeline.Value

namespace Cert.Idx

open Idealize.ShloMosaic Idealize.ShloMosaic.ValueIdx

variable {n0 n1 n2 n3 : Nat}

-- Two indices with the same coordinates are equal.
theorem e1 {p q : (⟨1, ![n0]⟩ : Shape).Idx} (h0 : (p 0).val = (q 0).val) : p = q :=
  funext fun a => match a with | ⟨0, _⟩ => Fin.ext h0

theorem e2 {p q : (⟨2, ![n0, n1]⟩ : Shape).Idx} (h0 : (p 0).val = (q 0).val) (h1 : (p 1).val = (q 1).val) : p = q :=
  funext fun a => match a with | ⟨0, _⟩ => Fin.ext h0 | ⟨1, _⟩ => Fin.ext h1

theorem e3 {p q : (⟨3, ![n0, n1, n2]⟩ : Shape).Idx} (h0 : (p 0).val = (q 0).val) (h1 : (p 1).val = (q 1).val)
    (h2 : (p 2).val = (q 2).val) : p = q :=
  funext fun a => match a with | ⟨0, _⟩ => Fin.ext h0 | ⟨1, _⟩ => Fin.ext h1 | ⟨2, _⟩ => Fin.ext h2

theorem e4 {p q : (⟨4, ![n0, n1, n2, n3]⟩ : Shape).Idx} (h0 : (p 0).val = (q 0).val) (h1 : (p 1).val = (q 1).val)
    (h2 : (p 2).val = (q 2).val) (h3 : (p 3).val = (q 3).val) : p = q :=
  funext fun a => match a with | ⟨0, _⟩ => Fin.ext h0 | ⟨1, _⟩ => Fin.ext h1 | ⟨2, _⟩ => Fin.ext h2 | ⟨3, _⟩ => Fin.ext h3

-- Three slabs of unit height stacked along the first axis: slab k holds the entries of height k.
theorem stack3 {α : Type} (y0 y1 y2 : (⟨3, ![1, n1, n2]⟩ : Shape).Idx → α)
    (hc : Shape.Concatenates [(⟨3, ![1, n1, n2]⟩ : Shape), ⟨3, ![1, n1, n2]⟩, ⟨3, ![1, n1, n2]⟩] ⟨3, ![3, n1, n2]⟩ 0)
    (k : Fin 3) (n : Fin n1) (c : Fin n2) :
    concatenate ⟨3, ![3, n1, n2]⟩ 0 [⟨⟨3, ![1, n1, n2]⟩, y0⟩, ⟨⟨3, ![1, n1, n2]⟩, y1⟩, ⟨⟨3, ![1, n1, n2]⟩, y2⟩] hc (ix3 k n c)
      = (match k with | 0 => y0 | 1 => y1 | 2 => y2) (ix3 0 n c) := by
  have hi : ∀ (k : Fin 3) (d : Fin 3), d ≠ 0 → ((ix3 (0 : Fin 1) n c) d).val = ((ix3 k n c) d).val := fun k d hd =>
    match d, hd with
    | ⟨0, _⟩, hd => absurd rfl hd
    | ⟨1, _⟩, _ => rfl
    | ⟨2, _⟩, _ => rfl
  match k with
  | ⟨0, _⟩ => exact concatenate_apply_piece (t := ⟨3, ![3, n1, n2]⟩) 0 [⟨_, y0⟩, ⟨_, y1⟩, ⟨_, y2⟩] hc _ 0 (by show 0 < 3; omega) _ y0 rfl rfl 0 rfl (ix3 0 n c) (hi _) rfl
  | ⟨1, _⟩ => exact concatenate_apply_piece (t := ⟨3, ![3, n1, n2]⟩) 0 [⟨_, y0⟩, ⟨_, y1⟩, ⟨_, y2⟩] hc _ 1 (by show 1 < 3; omega) _ y1 rfl rfl 1 rfl (ix3 0 n c) (hi _) rfl
  | ⟨2, _⟩ => exact concatenate_apply_piece (t := ⟨3, ![3, n1, n2]⟩) 0 [⟨_, y0⟩, ⟨_, y1⟩, ⟨_, y2⟩] hc _ 2 (by show 2 < 3; omega) _ y2 rfl rfl 2 rfl (ix3 0 n c) (hi _) rfl

end Cert.Idx
-- ==== Proof.RefGates0.lean ====
import proofs.«162860_g19069654794669_cont_sun_m_30_12_alg».proof.Proof.RefGen
import proofs.«162860_g19069654794669_cont_sun_m_30_12_alg».proof.Proof.SpecArgs
import proofs.«162860_g19069654794669_cont_sun_m_30_12_alg».proof.Proof.Sup
import proofs.«162860_g19069654794669_cont_sun_m_30_12_alg».proof.Proof.LibIdx

noncomputable section

namespace Cert.ReferenceIdeal.RefVal

open scoped BigOperators
open Idealize.ShloMosaic Idealize.ShloMosaic.ValueIdx Cert.ReferenceIdeal Cert.ReferenceIdeal.Gen Cert.ReferenceIdeal.Read
  Cert.Pack Cert.SpecArgs Cert.Idx

variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal))

namespace Gates0

theorem lit_zero : Ideal.ofBits .f32 0x00000000#32 = 0 := IdealRules.sign_bit.ideal_zero .f32
theorem lit_one : Ideal.ofBits .f32 0x3F800000#32 = 1 := IdealRules.sign_bit.ideal_onePat .f32

theorem ref_sym (i j : Fin 512) :
    val_main_v1 (F := Ideal) x2 (ix2 i j) = Cert.Sup.sym (fun a b => x2 (ix2 a b)) i j := by
  have e : idx_main_v0 (ix2 i j) = ix2 j i := e2 rfl rfl
  rw [val_main_v1_apply, val_main_v0_apply, e]
  rfl

theorem ref_deg (i : Fin 512) :
    val_main_v2 (F := Ideal) x2 (ix1 i) = Cert.Sup.deg (fun a b => x2 (ix2 a b)) i := by
  rw [val_main_v2_apply, val_main_cst_apply, Ideal.ofBits_def, lit_zero, zero_add]
  unfold Cert.Sup.deg
  refine Finset.sum_congr rfl fun k _ => ?_
  have e : idx_main_v2 (ix1 i) k = ix2 i k := e2 rfl rfl
  rw [e]
  exact ref_sym x2 i k

theorem ref_dis (i : Fin 512) :
    val_main_v8 (F := Ideal) x2 (ix1 i) = Cert.Sup.dis (fun a b => x2 (ix2 a b)) i := by
  rw [val_main_v8_apply, val_main_v4_apply, val_main_v7_apply, val_main_v5_apply, val_main_v3_apply,
    val_main_cst_0_apply, val_main_v6_apply, val_main_cst_1_apply, val_main_call0_v1_apply, val_main_call0_v0_apply,
    val_main_cst_2_apply, ref_deg]
  simp only [Ideal.ofBits_def, lit_zero, lit_one, Ideal.hostDivf_def, Ideal.hostUnary_sqrt_def]
  rfl

-- Node numbers below 512 are equal as 32-bit words exactly when they are equal.
theorem cmpi_eq_ofNat (i j : Fin 512) :
    IntOp.cmpi .eq (IntOp.addi (BitVec.ofNat 32 i.val) 0#32) (BitVec.ofNat 32 j.val) = if i = j then 1#1 else 0#1 := by
  by_cases h : i = j
  · subst h
    simp [IntOp.cmpi, IntOp.addi]
  · rw [if_neg h]
    have hne : ¬ (BitVec.ofNat 32 i.val = BitVec.ofNat 32 j.val) := fun e => by
      have e' := congrArg BitVec.toNat e
      simp only [BitVec.toNat_ofNat] at e'
      exact h (Fin.ext (by omega))
    have hb : (BitVec.ofNat 32 i.val == BitVec.ofNat 32 j.val) = false := beq_eq_false_iff_ne.2 hne
    simp only [IntOp.cmpi, IntOp.addi, BitVec.add_zero, hb]
    rfl

theorem uitofp_bit (i j : Fin 512) :
    FloatOps.uitofp (F := Ideal) .f32 (if i = j then 1#1 else 0#1) = Cert.Sup.eye i j := by
  unfold Cert.Sup.eye
  by_cases h : i = j
  · rw [if_pos h, if_pos h]
    show (((1#1 : BitVec 1).toNat : ℝ) : EReal) = 1
    simp
  · rw [if_neg h, if_neg h]
    show (((0#1 : BitVec 1).toNat : ℝ) : EReal) = 0
    simp

theorem ref_eye14 (i j : Fin 512) : val_main_v14 (F := Ideal) (ix2 i j) = Cert.Sup.eye i j := by
  rw [val_main_v14_apply, val_main_v13_apply, val_main_v12_apply, val_main_v9_apply, val_main_v11_apply,
    val_main_c_apply, val_main_v10_apply]
  exact (congrArg (FloatOps.uitofp (F := Ideal) .f32) (cmpi_eq_ofNat i j)).trans (uitofp_bit i j)

theorem ref_eye29 (i j : Fin 512) : val_main_v29 (F := Ideal) (ix2 i j) = Cert.Sup.eye i j := by
  rw [val_main_v29_apply, val_main_v28_apply, val_main_v27_apply, val_main_v24_apply, val_main_v26_apply,
    val_main_c_4_apply, val_main_v25_apply]
  exact (congrArg (FloatOps.uitofp (F := Ideal) .f32) (cmpi_eq_ofNat i j)).trans (uitofp_bit i j)

abbrev col (f : Fin 65) (b : Fin 64) : Fin 4160 :=
  ⟨f.val * 64 + b.val, by omega⟩

theorem ref_x35_left (b : Fin 64) (n : Fin 512) (f : Fin 65) (hf : f.val = 0) :
    val_main_v35 (F := Ideal) x0 x1 (ix3 b n f) = x0 (ix2 b n) := by
  unfold val_main_v35
  generalize val_main_v34 (F := Ideal) x1 = y
  refine (concatenate_pair_apply_left (t := S64x512x65) (s₁ := S64x512x1) (s₂ := S64x512x64) 2 (val_main_v33 (F := Ideal) x0) y
    Gen.concatenates_S64x512x1_S64x512x64_S64x512x65_d2 (ix3 b n f) rfl (ix3 b n (0 : Fin 1)) ?_).trans ?_
  · intro c
    match c with
    | ⟨0, _⟩ => rfl
    | ⟨1, _⟩ => rfl
    | ⟨2, _⟩ => exact hf.symm
  · rw [val_main_v33_apply]
    exact congrArg x0 (e2 (by show ((b.val * 512 + n.val) * 1 + 0) / 512 = b.val; omega)
      (by show ((b.val * 512 + n.val) * 1 + 0) % 512 = n.val; omega))

theorem ref_x34 (b : Fin 64) (n : Fin 512) (g : Fin 64) :
    val_main_v34 (F := Ideal) x1 (ix3 b n g) = x1 (ix3 (0 : Fin 2) b (nf n g)) := by
  rw [val_main_v34_apply, val_main_v32_apply, val_main_v31_apply]
  exact congrArg x1 (e3 rfl
    (by show ((((b.val * 512 + n.val) * 64 + g.val) / 32768) * 32768 + ((b.val * 512 + n.val) * 64 + g.val) % 32768) / 32768 % 64 = b.val
        omega)
    (by show ((((b.val * 512 + n.val) * 64 + g.val) / 32768) * 32768 + ((b.val * 512 + n.val) * 64 + g.val) % 32768) % 32768 = n.val * 64 + g.val
        omega))

theorem ref_x35_right (b : Fin 64) (n : Fin 512) (f : Fin 65) (g : Fin 64) (hf : f.val = g.val + 1) :
    val_main_v35 (F := Ideal) x0 x1 (ix3 b n f) = x1 (ix3 (0 : Fin 2) b (nf n g)) := by
  unfold val_main_v35
  generalize val_main_v33 (F := Ideal) x0 = y
  refine (concatenate_pair_apply_right (t := S64x512x65) (s₁ := S64x512x1) (s₂ := S64x512x64) 2 y (val_main_v34 (F := Ideal) x1)
    Gen.concatenates_S64x512x1_S64x512x64_S64x512x65_d2 (ix3 b n f) rfl rfl (ix3 b n g) ?_ hf.symm).trans (ref_x34 x1 b n g)
  intro c
  match c with
  | ⟨0, _⟩ => exact fun _ => rfl
  | ⟨1, _⟩ => exact fun _ => rfl
  | ⟨2, _⟩ => exact fun h => absurd rfl h

abbrev supp : Fin 512 → Fin 512 → EReal := fun i j => val_main_v30 (F := Ideal) x2 (ix2 i j)

abbrev feat0 (b : Fin 64) : Fin 65 → Fin 512 → EReal := Cert.Spec.mk0 (xOf x0 b) (hOf x1 0 b)

theorem ref_x37 (b : Fin 64) (n : Fin 512) (f : Fin 65) :
    val_main_v37 (F := Ideal) x0 x1 (ix2 n (col f b)) = feat0 x0 x1 b f n := by
  have e : idx_main_v36 (idx_main_v37 (ix2 n (col f b))) = ix3 b n f := e3
    (by show (n.val * 4160 + (f.val * 64 + b.val)) % 64 = b.val; omega)
    (by show (n.val * 4160 + (f.val * 64 + b.val)) / 4160 = n.val; omega)
    (by show (n.val * 4160 + (f.val * 64 + b.val)) / 64 % 65 = f.val; omega)
  rw [val_main_v37_apply, val_main_v36_apply, e]
  show _ = (if hf : f.val = 0 then xOf x0 b else hOf x1 0 b ⟨f.val - 1, by omega⟩) n
  by_cases h0 : f.val = 0
  · rw [dif_pos h0]
    exact ref_x35_left x0 x1 b n f h0
  · rw [dif_neg h0]
    exact ref_x35_right x0 x1 b n f ⟨f.val - 1, by omega⟩ (by show f.val = f.val - 1 + 1; omega)

theorem ref_diff1 (b : Fin 64) (n : Fin 512) (f : Fin 65) :
    val_main_v38 (F := Ideal) x0 x1 x2 (ix2 n (col f b)) = Cert.Spec.diff (supp x2) (feat0 x0 x1 b f) n := by
  rw [val_main_v38_apply]
  refine Finset.sum_congr rfl fun j _ => ?_
  have el : lidx_main_v38 (ix2 n (col f b)) j = ix2 n j := e2 rfl rfl
  have er : ridx_main_v38 (ix2 n (col f b)) j = ix2 j (col f b) := e2 rfl rfl
  rw [el, er, ref_x37]

theorem ref_diff2 (b : Fin 64) (n : Fin 512) (f : Fin 65) :
    val_main_v39 (F := Ideal) x0 x1 x2 (ix2 n (col f b))
      = Cert.Spec.diff (supp x2) (Cert.Spec.diff (supp x2) (feat0 x0 x1 b f)) n := by
  rw [val_main_v39_apply]
  refine Finset.sum_congr rfl fun j _ => ?_
  have el : lidx_main_v39 (ix2 n (col f b)) j = ix2 n j := e2 rfl rfl
  have er : ridx_main_v39 (ix2 n (col f b)) j = ix2 j (col f b) := e2 rfl rfl
  rw [el, er, ref_diff1]

theorem ref_cheb (b : Fin 64) (n : Fin 512) (f : Fin 65) (k : Fin 3) :
    val_main_v46 (F := Ideal) x0 x1 x2 (ix3 k n (col f b)) = Cert.Spec.cheb (supp x2) cTwo k (feat0 x0 x1 b f) n := by
  have e43 : idx_main_v43 (ix3 (0 : Fin 1) n (col f b)) = ix2 n (col f b) := e2 rfl rfl
  have e44 : idx_main_v44 (ix3 (0 : Fin 1) n (col f b)) = ix2 n (col f b) := e2 rfl rfl
  have e45 : idx_main_v45 (ix3 (0 : Fin 1) n (col f b)) = ix2 n (col f b) := e2 rfl rfl
  unfold val_main_v46
  rw [stack3]
  match k with
  | ⟨0, _⟩ =>
    show val_main_v43 (F := Ideal) x0 x1 _ = _
    rw [val_main_v43_apply, e43]
    exact ref_x37 x0 x1 b n f
  | ⟨1, _⟩ =>
    show val_main_v44 (F := Ideal) x0 x1 x2 _ = _
    rw [val_main_v44_apply, e44]
    exact ref_diff1 x0 x1 x2 b n f
  | ⟨2, _⟩ =>
    show val_main_v45 (F := Ideal) x0 x1 x2 _ = _
    rw [val_main_v45_apply, e45, val_main_v42_apply, val_main_v41_apply, val_main_v40_apply, val_main_cst_5_apply, ref_diff2,
      ref_x37]
    rfl

theorem ref_x49 (b : Fin 64) (n : Fin 512) (f : Fin 65) (k : Fin 3) :
    val_main_v49 (F := Ideal) x0 x1 x2 (ix2 (bn b n) (w195 f k))
      = Cert.Spec.cheb (supp x2) cTwo k (feat0 x0 x1 b f) n := by
  have e1' : idx_main_v49 (ix2 (bn b n) (w195 f k)) = ix4 b n f k := e4
    (by show ((b.val * 512 + n.val) * 195 + (f.val * 3 + k.val)) / 99840 = b.val; omega)
    (by show ((b.val * 512 + n.val) * 195 + (f.val * 3 + k.val)) / 195 % 512 = n.val; omega)
    (by show ((b.val * 512 + n.val) * 195 + (f.val * 3 + k.val)) / 3 % 65 = f.val; omega)
    (by show ((b.val * 512 + n.val) * 195 + (f.val * 3 + k.val)) % 3 = k.val; omega)
  have e2' : idx_main_v47 (idx_main_v48 (ix4 b n f k)) = ix3 k n (col f b) := e3
    (by show (((k.val * 512 + n.val) * 65 + f.val) * 64 + b.val) / 2129920 = k.val; omega)
    (by show (((k.val * 512 + n.val) * 65 + f.val) * 64 + b.val) / 4160 % 512 = n.val; omega)
    (by show (((k.val * 512 + n.val) * 65 + f.val) * 64 + b.val) % 4160 = f.val * 64 + b.val; omega)
  rw [val_main_v49_apply, val_main_v48_apply, val_main_v47_apply, e1', e2']
  exact ref_cheb x0 x1 x2 b n f k

theorem ref_x53 (b : Fin 64) (n : Fin 512) (q : Fin 128) :
    val_main_v53 (F := Ideal) x0 x1 x2 x3 x4 (ix2 (bn b n) q)
      = Cert.Spec.gconv (supp x2) cTwo (feat0 x0 x1 b) (wOf195 x3) (bOf x4) n q := by
  have hbias : idx_main_v51 (idx_main_v52 (ix2 (bn b n) q)) = ix1 q := e1 rfl
  rw [val_main_v53_apply, val_main_v50_apply, val_main_v52_apply, val_main_v51_apply, Cert.Pack.sum_w195, hbias]
  refine congrArg (· + x4 (ix1 q)) (Finset.sum_congr rfl fun f _ => Finset.sum_congr rfl fun k _ => ?_)
  have el : lidx_main_v50 (ix2 (bn b n) q) (w195 f k) = ix2 (bn b n) (w195 f k) := e2 rfl rfl
  have er : ridx_main_v50 (ix2 (bn b n) q) (w195 f k) = ix2 (w195 f k) q := e2 rfl rfl
  rw [el, er, ref_x49]
  rfl

end Gates0

open Gates0

theorem ref_support (i j : Fin 512) :
    val_main_v30 (F := Ideal) x2 (ix2 i j) = Cert.Sup.Sr (fun a b => x2 (ix2 a b)) i j := by
  have e1' : idx_main_v15 (idx_main_v16 (ix2 i j)) = ix1 i := e1 rfl
  have e2' : idx_main_v18 (idx_main_v19 (ix2 i j)) = ix1 j := e1 rfl
  rw [val_main_v30_apply, val_main_v23_apply, val_main_v22_apply, val_main_cst_3_apply, val_main_v21_apply,
    val_main_v20_apply, val_main_v17_apply, val_main_v16_apply, val_main_v15_apply, val_main_v19_apply,
    val_main_v18_apply, e1', e2', ref_dis, ref_dis, ref_sym, ref_eye14, ref_eye29]
  simp only [Ideal.ofBits_def, lit_one, Ideal.subf_def, Ideal.mulf_def]
  rfl

theorem ref_gates0 (b : Fin 64) (n : Fin 512) (q : Fin 128) :
    val_main_v61 (F := Ideal) x0 x1 x2 x3 x4 (ix3 b n q)
      = Cert.Spec.gates (fun i j => Cert.ReferenceIdeal.Read.val_main_v30 (F := Ideal) x2 (ix2 i j)) cTwo Ideal.logistic
          (Cert.Spec.mk0 (xOf x0 b)) (hOf x1 0 b) (wOf195 x3) (bOf x4) n q := by
  have e : idx_main_v54 (idx_main_v61 (ix3 b n q)) = ix2 (bn b n) q := e2
    (by show ((((b.val * 512 + n.val) * 128 + q.val) / 65536) * 65536 + ((b.val * 512 + n.val) * 128 + q.val) % 65536) / 128
          = b.val * 512 + n.val
        omega)
    (by show ((((b.val * 512 + n.val) * 128 + q.val) / 65536) * 65536 + ((b.val * 512 + n.val) * 128 + q.val) % 65536) % 128
          = q.val
        omega)
  rw [val_main_v61_apply, val_main_v60_apply, val_main_v59_apply, val_main_cst_7_apply, val_main_v58_apply,
    val_main_v57_apply, val_main_cst_6_apply, val_main_v56_apply, val_main_v55_apply, val_main_v54_apply, e, ref_x53]
  simp only [Ideal.ofBits_def, lit_one, Ideal.hostDivf_def, Ideal.addf_def, Ideal.hostUnary_exp_def, Ideal.hostNegf_def,
    Ideal.negf_def]
  rfl

end Cert.ReferenceIdeal.RefVal

end
-- ==== Proof.RefNew0.lean ====
import proofs.«162860_g19069654794669_cont_sun_m_30_12_alg».proof.Proof.RefGen
import proofs.«162860_g19069654794669_cont_sun_m_30_12_alg».proof.Proof.SpecArgs
import proofs.«162860_g19069654794669_cont_sun_m_30_12_alg».proof.Proof.Sup
import proofs.«162860_g19069654794669_cont_sun_m_30_12_alg».proof.Proof.LibIdx

noncomputable section

namespace Cert.ReferenceIdeal.RefVal

open Idealize.ShloMosaic Idealize.ShloMosaic.ValueIdx Cert.ReferenceIdeal Cert.ReferenceIdeal.Gen
  Cert.ReferenceIdeal.Read Cert.Pack Cert.SpecArgs Cert.Idx
open scoped BigOperators

variable (x0 : (⟨S64x512, .f32⟩ : BufTy).Contents (Elt Ideal))
  (x1 : (⟨S2x64x32768, .f32⟩ : BufTy).Contents (Elt Ideal))
  (x2 : (⟨S512x512, .f32⟩ : BufTy).Contents (Elt Ideal))
  (x3 : (⟨S195x128, .f32⟩ : BufTy).Contents (Elt Ideal))
  (x4 : (⟨S128, .f32⟩ : BufTy).Contents (Elt Ideal))
  (x5 : (⟨S195x64, .f32⟩ : BufTy).Contents (Elt Ideal))
  (x6 : (⟨S64, .f32⟩ : BufTy).Contents (Elt Ideal))

namespace New0

def col (f : Fin 65) (b : Fin 64) : Fin 4160 :=
  ⟨f.val * 64 + b.val, by omega⟩

theorem feat_cases (f : Fin 65) : f = 0 ∨ ∃ g : Fin 64, f = s1 g := by
  by_cases h : f.val = 0
  · exact Or.inl (Fin.ext h)
  · refine Or.inr ⟨⟨f.val - 1, by omega⟩, Fin.ext ?_⟩
    show f.val = 1 + (f.val - 1)
    omega

section Features
variable (x : Fin 512 → EReal) (h : Fin 64 → Fin 512 → EReal)

theorem mk0_zero : Cert.Spec.mk0 x h 0 = x := dif_pos rfl

theorem mk0_s1 (g : Fin 64) : Cert.Spec.mk0 x h (s1 g) = h g := by
  have hne : ¬ (s1 g).val = 0 := by show ¬ (1 + g.val = 0); omega
  unfold Cert.Spec.mk0
  rw [dif_neg hne]
  exact congrArg h (Fin.ext (by show 1 + g.val - 1 = g.val; omega))

end Features

section Stages

abbrev Sx : Fin 512 → Fin 512 → EReal := fun i j => val_main_v30 (F := Ideal) x2 (ix2 i j)

def GatesOK : Prop :=
  ∀ (b : Fin 64) (n : Fin 512) (q : Fin 128),
    val_main_v61 (F := Ideal) x0 x1 x2 x3 x4 (ix3 b n q)
      = Cert.Spec.gates (Sx x2) cTwo Ideal.logistic (Cert.Spec.mk0 (xOf x0 b)) (hOf x1 0 b) (wOf195 x3) (bOf x4) n q

abbrev rG (b : Fin 64) : Fin 64 → Fin 512 → EReal :=
  Cert.Spec.rgate (Sx x2) cTwo Ideal.logistic (Cert.Spec.mk0 (xOf x0 b)) (hOf x1 0 b) (wOf195 x3) (bOf x4)

abbrev uG (b : Fin 64) : Fin 64 → Fin 512 → EReal :=
  Cert.Spec.ugate (Sx x2) cTwo Ideal.logistic (Cert.Spec.mk0 (xOf x0 b)) (hOf x1 0 b) (wOf195 x3) (bOf x4)

abbrev phi (b : Fin 64) : Fin 65 → Fin 512 → EReal :=
  Cert.Spec.mk0 (xOf x0 b) (fun f n => rG x0 x1 x2 x3 x4 b f n * hOf x1 0 b f n)

variable {x0 x1 x2 x3 x4 x5 x6}

theorem v32_at (b : Fin 64) (n : Fin 512) (f : Fin 64) :
    val_main_v32 (F := Ideal) x1 (ix2 b (nf n f)) = hOf x1 0 b f n := by
  rw [val_main_v32_apply, val_main_v31_apply]
  show x1 _ = x1 (ix3 0 b (nf n f))
  exact congrArg x1 (e3 rfl (by show (b.val * 32768 + (n.val * 64 + f.val)) / 32768 % 64 = b.val; omega)
    (by show (b.val * 32768 + (n.val * 64 + f.val)) % 32768 = n.val * 64 + f.val; omega))

theorem v67_at (b : Fin 64) (n : Fin 512) :
    val_main_v67 (F := Ideal) x0 (ix3 b n (0 : Fin 1)) = xOf x0 b n := by
  rw [val_main_v67_apply]
  show x0 _ = x0 (ix2 b n)
  exact congrArg x0 (e2 (by show ((b.val * 512 + n.val) * 1 + 0) / 512 = b.val; omega)
    (by show ((b.val * 512 + n.val) * 1 + 0) % 512 = n.val; omega))

theorem v68_at (b : Fin 64) (n : Fin 512) (f : Fin 64) :
    val_main_v68 (F := Ideal) x0 x1 x2 x3 x4 (ix3 b n f) = val_main_v66 (F := Ideal) x0 x1 x2 x3 x4 (ix2 b (nf n f)) := by
  rw [val_main_v68_apply]
  exact congrArg (val_main_v66 (F := Ideal) x0 x1 x2 x3 x4) (e2
    (by show ((b.val * 512 + n.val) * 64 + f.val) / 32768 = b.val; omega)
    (by show ((b.val * 512 + n.val) * 64 + f.val) % 32768 = n.val * 64 + f.val; omega))

theorem v69_at_zero (b : Fin 64) (n : Fin 512) :
    val_main_v69 (F := Ideal) x0 x1 x2 x3 x4 (ix3 b n (0 : Fin 65)) = xOf x0 b n := by
  unfold val_main_v69
  refine (concatenate_pair_apply_left (t := S64x512x65) (s₁ := S64x512x1) (s₂ := S64x512x64) 2
    (val_main_v67 (F := Ideal) x0) (val_main_v68 (F := Ideal) x0 x1 x2 x3 x4)
    concatenates_S64x512x1_S64x512x64_S64x512x65_d2 (ix3 b n (0 : Fin 65)) rfl (ix3 b n (0 : Fin 1)) ?_).trans (v67_at b n)
  intro b'
  match b' with
  | ⟨0, _⟩ => rfl
  | ⟨1, _⟩ => rfl
  | ⟨2, _⟩ => rfl

theorem v69_at_s1 (b : Fin 64) (n : Fin 512) (g : Fin 64) :
    val_main_v69 (F := Ideal) x0 x1 x2 x3 x4 (ix3 b n (s1 g)) = val_main_v68 (F := Ideal) x0 x1 x2 x3 x4 (ix3 b n g) := by
  unfold val_main_v69
  refine concatenate_pair_apply_right (t := S64x512x65) (s₁ := S64x512x1) (s₂ := S64x512x64) 2
    (val_main_v67 (F := Ideal) x0) (val_main_v68 (F := Ideal) x0 x1 x2 x3 x4)
    concatenates_S64x512x1_S64x512x64_S64x512x65_d2 (ix3 b n (s1 g)) rfl rfl (ix3 b n g) ?_ ?_
  · intro b' hb'
    match b', hb' with
    | ⟨0, _⟩, _ => rfl
    | ⟨1, _⟩, _ => rfl
    | ⟨2, _⟩, hb' => exact absurd rfl hb'
  · show g.val + 1 = 1 + g.val
    omega

theorem v71_at (n : Fin 512) (f : Fin 65) (b : Fin 64) :
    val_main_v71 (F := Ideal) x0 x1 x2 x3 x4 (ix2 n (col f b)) = val_main_v69 (F := Ideal) x0 x1 x2 x3 x4 (ix3 b n f) := by
  rw [val_main_v71_apply, val_main_v70_apply]
  exact congrArg (val_main_v69 (F := Ideal) x0 x1 x2 x3 x4) (e3
    (by show (n.val * 4160 + (f.val * 64 + b.val)) % 64 = b.val; omega)
    (by show (n.val * 4160 + (f.val * 64 + b.val)) / 4160 = n.val; omega)
    (by show (n.val * 4160 + (f.val * 64 + b.val)) / 64 % 65 = f.val; omega))

theorem v83_at (b : Fin 64) (n : Fin 512) (f : Fin 65) (k : Fin 3) :
    val_main_v83 (F := Ideal) x0 x1 x2 x3 x4 (ix2 (bn b n) (w195 f k))
      = val_main_v80 (F := Ideal) x0 x1 x2 x3 x4 (ix3 k n (col f b)) := by
  have e83 : idx_main_v83 (ix2 (bn b n) (w195 f k)) = ix4 b n f k := e4
    (by show ((b.val * 512 + n.val) * 195 + (f.val * 3 + k.val)) / 99840 = b.val; omega)
    (by show ((b.val * 512 + n.val) * 195 + (f.val * 3 + k.val)) / 195 % 512 = n.val; omega)
    (by show ((b.val * 512 + n.val) * 195 + (f.val * 3 + k.val)) / 3 % 65 = f.val; omega)
    (by show ((b.val * 512 + n.val) * 195 + (f.val * 3 + k.val)) % 3 = k.val; omega)
  have e82 : idx_main_v82 (ix4 b n f k) = ix4 k n f b := e4 rfl rfl rfl rfl
  have e81 : idx_main_v81 (ix4 k n f b) = ix3 k n (col f b) := e3
    (by show (((k.val * 512 + n.val) * 65 + f.val) * 64 + b.val) / 2129920 = k.val; omega)
    (by show (((k.val * 512 + n.val) * 65 + f.val) * 64 + b.val) / 4160 % 512 = n.val; omega)
    (by show (((k.val * 512 + n.val) * 65 + f.val) * 64 + b.val) % 4160 = f.val * 64 + b.val; omega)
  rw [val_main_v83_apply, val_main_v82_apply, val_main_v81_apply, e83, e82, e81]

theorem v86_at (r : Fin 32768) (o : Fin 64) : val_main_v86 (F := Ideal) x6 (ix2 r o) = bOf x6 o := by
  rw [val_main_v86_apply, val_main_v85_apply]
  exact congrArg x6 (e1 rfl)

variable (hg : GatesOK x0 x1 x2 x3 x4)
include hg

theorem v63_at (b : Fin 64) (n : Fin 512) (f : Fin 64) :
    val_main_v63 (F := Ideal) x0 x1 x2 x3 x4 (ix2 b (nf n f)) = rG x0 x1 x2 x3 x4 b f n := by
  have e : idx_main_v62 (idx_main_v63 (ix2 b (nf n f))) = ix3 b n (⟨f.val, by omega⟩ : Fin 128) := e3
    (by show (b.val * 32768 + (n.val * 64 + f.val)) / 32768 = b.val; omega)
    (by show (b.val * 32768 + (n.val * 64 + f.val)) / 64 % 512 = n.val; omega)
    (by show (b.val * 32768 + (n.val * 64 + f.val)) % 64 = f.val; omega)
  rw [val_main_v63_apply, val_main_v62_apply, e]
  exact hg b n _

theorem v65_at (b : Fin 64) (n : Fin 512) (f : Fin 64) :
    val_main_v65 (F := Ideal) x0 x1 x2 x3 x4 (ix2 b (nf n f)) = uG x0 x1 x2 x3 x4 b f n := by
  have e : idx_main_v64 (idx_main_v65 (ix2 b (nf n f))) = ix3 b n (⟨64 + f.val, by omega⟩ : Fin 128) := e3
    (by show (b.val * 32768 + (n.val * 64 + f.val)) / 32768 = b.val; omega)
    (by show (b.val * 32768 + (n.val * 64 + f.val)) / 64 % 512 = n.val; omega)
    (by show 64 + (b.val * 32768 + (n.val * 64 + f.val)) % 64 = 64 + f.val; omega)
  rw [val_main_v65_apply, val_main_v64_apply, e]
  exact hg b n _

theorem v66_at (b : Fin 64) (n : Fin 512) (f : Fin 64) :
    val_main_v66 (F := Ideal) x0 x1 x2 x3 x4 (ix2 b (nf n f)) = rG x0 x1 x2 x3 x4 b f n * hOf x1 0 b f n := by
  rw [val_main_v66_apply, v63_at hg, v32_at]
  rfl

theorem v71_val (n : Fin 512) (f : Fin 65) (b : Fin 64) :
    val_main_v71 (F := Ideal) x0 x1 x2 x3 x4 (ix2 n (col f b)) = phi x0 x1 x2 x3 x4 b f n := by
  rw [v71_at]
  rcases feat_cases f with rfl | ⟨g, rfl⟩
  · rw [v69_at_zero]
    exact (congrFun (mk0_zero _ _) n).symm
  · rw [v69_at_s1, v68_at, v66_at hg]
    exact (congrFun (mk0_s1 (xOf x0 b) (fun f n => rG x0 x1 x2 x3 x4 b f n * hOf x1 0 b f n) g) n).symm

theorem v72_val (n : Fin 512) (f : Fin 65) (b : Fin 64) :
    val_main_v72 (F := Ideal) x0 x1 x2 x3 x4 (ix2 n (col f b)) = Cert.Spec.diff (Sx x2) (phi x0 x1 x2 x3 x4 b f) n := by
  rw [val_main_v72_apply]
  refine Finset.sum_congr rfl fun j _ => ?_
  have el : lidx_main_v72 (ix2 n (col f b)) j = ix2 n j := e2 rfl rfl
  have er : ridx_main_v72 (ix2 n (col f b)) j = ix2 j (col f b) := e2 rfl rfl
  rw [el, er, v71_val hg]

theorem v73_val (n : Fin 512) (f : Fin 65) (b : Fin 64) :
    val_main_v73 (F := Ideal) x0 x1 x2 x3 x4 (ix2 n (col f b))
      = Cert.Spec.diff (Sx x2) (Cert.Spec.diff (Sx x2) (phi x0 x1 x2 x3 x4 b f)) n := by
  rw [val_main_v73_apply]
  refine Finset.sum_congr rfl fun j _ => ?_
  have el : lidx_main_v73 (ix2 n (col f b)) j = ix2 n j := e2 rfl rfl
  have er : ridx_main_v73 (ix2 n (col f b)) j = ix2 j (col f b) := e2 rfl rfl
  rw [el, er, v72_val hg]

theorem v80_val (k : Fin 3) (n : Fin 512) (f : Fin 65) (b : Fin 64) :
    val_main_v80 (F := Ideal) x0 x1 x2 x3 x4 (ix3 k n (col f b))
      = Cert.Spec.cheb (Sx x2) cTwo k (phi x0 x1 x2 x3 x4 b f) n := by
  have e7 : idx_main_v77 (ix3 (0 : Fin 1) n (col f b)) = ix2 n (col f b) := e2 rfl rfl
  have e8 : idx_main_v78 (ix3 (0 : Fin 1) n (col f b)) = ix2 n (col f b) := e2 rfl rfl
  have e9 : idx_main_v79 (ix3 (0 : Fin 1) n (col f b)) = ix2 n (col f b) := e2 rfl rfl
  unfold val_main_v80
  rw [stack3]
  match k with
  | ⟨0, _⟩ =>
    show val_main_v77 (F := Ideal) x0 x1 x2 x3 x4 _ = _
    rw [val_main_v77_apply, e7]
    exact v71_val hg n f b
  | ⟨1, _⟩ =>
    show val_main_v78 (F := Ideal) x0 x1 x2 x3 x4 _ = _
    rw [val_main_v78_apply, e8]
    exact v72_val hg n f b
  | ⟨2, _⟩ =>
    show val_main_v79 (F := Ideal) x0 x1 x2 x3 x4 _ = _
    rw [val_main_v79_apply, e9, val_main_v76_apply, val_main_v75_apply, val_main_v74_apply, val_main_cst_8_apply,
      v73_val hg, v71_val hg]
    rfl

theorem v84_val (b : Fin 64) (n : Fin 512) (o : Fin 64) :
    val_main_v84 (F := Ideal) x0 x1 x2 x3 x4 x5 (ix2 (bn b n) o)
      = ∑ f : Fin 65, ∑ k : Fin 3, Cert.Spec.cheb (Sx x2) cTwo k (phi x0 x1 x2 x3 x4 b f) n * wOf195 x5 f k o := by
  have key : ∀ (f : Fin 65) (k : Fin 3),
      val_main_v83 (F := Ideal) x0 x1 x2 x3 x4 (lidx_main_v84 (ix2 (bn b n) o) (w195 f k))
          * x5 (ridx_main_v84 (ix2 (bn b n) o) (w195 f k))
        = Cert.Spec.cheb (Sx x2) cTwo k (phi x0 x1 x2 x3 x4 b f) n * wOf195 x5 f k o := fun f k => by
    have el : lidx_main_v84 (ix2 (bn b n) o) (w195 f k) = ix2 (bn b n) (w195 f k) := e2 rfl rfl
    have er : ridx_main_v84 (ix2 (bn b n) o) (w195 f k) = ix2 (w195 f k) o := e2 rfl rfl
    rw [el, er, v83_at, v80_val hg]
    rfl
  rw [val_main_v84_apply]
  exact (sum_w195 _).trans (Finset.sum_congr rfl fun f _ => Finset.sum_congr rfl fun k _ => key f k)

theorem v88_val (b : Fin 64) (n : Fin 512) (o : Fin 64) :
    val_main_v88 (F := Ideal) x0 x1 x2 x3 x4 x5 x6 (ix2 b (nf n o))
      = Cert.Spec.gconv (Sx x2) cTwo (phi x0 x1 x2 x3 x4 b) (wOf195 x5) (bOf x6) n o := by
  have e : idx_main_v88 (ix2 b (nf n o)) = ix2 (bn b n) o := e2
    (by show (b.val * 32768 + (n.val * 64 + o.val)) / 64 = b.val * 512 + n.val; omega)
    (by show (b.val * 32768 + (n.val * 64 + o.val)) % 64 = o.val; omega)
  rw [val_main_v88_apply, e, val_main_v87_apply, v84_val hg, v86_at]
  rfl

end Stages

end New0

open New0 in
theorem ref_new0
    (hg : ∀ (b : Fin 64) (n : Fin 512) (q : Fin 128), val_main_v61 (F := Ideal) x0 x1 x2 x3 x4 (ix3 b n q) = Cert.Spec.gates (fun i j => Cert.ReferenceIdeal.Read.val_main_v30 (F := Ideal) x2 (ix2 i j)) cTwo Ideal.logistic (Cert.Spec.mk0 (xOf x0 b)) (hOf x1 0 b) (wOf195 x3) (bOf x4) n q)
    (b : Fin 64) (n : Fin 512) (f : Fin 64) :
    val_main_v94 (F := Ideal) x0 x1 x2 x3 x4 x5 x6 (ix2 b (nf n f)) = Cert.SpecArgs.new0 (fun i j => Cert.ReferenceIdeal.Read.val_main_v30 (F := Ideal) x2 (ix2 i j)) x0 x1 x3 x4 x5 x6 b f n := by
  have hg' : GatesOK x0 x1 x2 x3 x4 := hg
  rw [val_main_v94_apply, val_main_v90_apply, val_main_v93_apply, val_main_v92_apply, val_main_v89_apply,
    val_main_v91_apply, val_main_cst_9_apply, v65_at hg', v32_at, v88_val hg']
  rfl

end Cert.ReferenceIdeal.RefVal

end
-- ==== Proof.RefGates1.lean ====
import proofs.«162860_g19069654794669_cont_sun_m_30_12_alg».proof.Proof.RefGen
import proofs.«162860_g19069654794669_cont_sun_m_30_12_alg».proof.Proof.SpecArgs
import proofs.«162860_g19069654794669_cont_sun_m_30_12_alg».proof.Proof.Sup
import proofs.«162860_g19069654794669_cont_sun_m_30_12_alg».proof.Proof.LibIdx

noncomputable section

namespace Cert.ReferenceIdeal.RefVal

open scoped BigOperators
open Idealize.ShloMosaic Idealize.ShloMosaic.ValueIdx Cert.ReferenceIdeal Cert.ReferenceIdeal.Gen Cert.ReferenceIdeal.Read
  Cert.Pack Cert.SpecArgs Cert.Idx

variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal)) (x5 : (⟨S195x64, .f32⟩ : BufTy).Contents (Elt Ideal))
  (x6 : (⟨S64, .f32⟩ : BufTy).Contents (Elt Ideal)) (x7 : (⟨S384x128, .f32⟩ : BufTy).Contents (Elt Ideal))
  (x8 : (⟨S128, .f32⟩ : BufTy).Contents (Elt Ideal))

namespace Gates1

def fb (f : Fin 128) (b : Fin 64) : Fin 8192 := ⟨f.val * 64 + b.val, by omega⟩

variable {x0 x1 x2 x3 x4 x5 x6 x7 x8} {S : Fin 512 → Fin 512 → EReal} {g : Fin 64 → Fin 64 → Fin 512 → EReal}

theorem v98_at (b : Fin 64) (n : Fin 512) (f : Fin 64) :
    val_main_v98 (F := Ideal) x1 (ix3 b n f) = hOf x1 1 b f n := by
  rw [val_main_v98_apply, val_main_v96_apply, val_main_v95_apply]
  show x1 _ = x1 (ix3 1 b (nf n f))
  exact congrArg x1 (e3 rfl
    (by show (((b.val * 512 + n.val) * 64 + f.val) / 32768 * 32768 + ((b.val * 512 + n.val) * 64 + f.val) % 32768) / 32768 % 64 = b.val
        omega)
    (by show (((b.val * 512 + n.val) * 64 + f.val) / 32768 * 32768 + ((b.val * 512 + n.val) * 64 + f.val) % 32768) % 32768 = n.val * 64 + f.val
        omega))

variable (h94 : ∀ (b : Fin 64) (n : Fin 512) (f : Fin 64),
    val_main_v94 (F := Ideal) x0 x1 x2 x3 x4 x5 x6 (ix2 b (nf n f)) = g b f n)
include h94

theorem v97_at (b : Fin 64) (n : Fin 512) (f : Fin 64) :
    val_main_v97 (F := Ideal) x0 x1 x2 x3 x4 x5 x6 (ix3 b n f) = g b f n := by
  have e : idx_main_v97 (ix3 b n f) = ix2 b (nf n f) := e2
    (by show ((b.val * 512 + n.val) * 64 + f.val) / 32768 = b.val; omega)
    (by show ((b.val * 512 + n.val) * 64 + f.val) % 32768 = n.val * 64 + f.val; omega)
  rw [val_main_v97_apply, e, h94]

theorem v99_at (b : Fin 64) (n : Fin 512) (f : Fin 128) :
    val_main_v99 (F := Ideal) x0 x1 x2 x3 x4 x5 x6 (ix3 b n f) = Cert.Spec.mk1 (g b) (hOf x1 1 b) f n := by
  unfold val_main_v99 Cert.Spec.mk1
  by_cases hf : f.val < 64
  · rw [dif_pos hf]
    refine (concatenate_pair_apply_left (2 : Fin S64x512x128.rank) _ _
      concatenates_S64x512x64_S64x512x64_S64x512x128_d2 (ix3 b n f) rfl (ix3 b n (⟨f.val, hf⟩ : Fin 64)) ?_).trans
      (v97_at h94 b n ⟨f.val, hf⟩)
    intro c
    match c with
    | ⟨0, _⟩ => rfl
    | ⟨1, _⟩ => rfl
    | ⟨2, _⟩ => rfl
  · rw [dif_neg hf]
    refine (concatenate_pair_apply_right (2 : Fin S64x512x128.rank) _ _
      concatenates_S64x512x64_S64x512x64_S64x512x128_d2 (ix3 b n f) rfl rfl
      (ix3 b n (⟨f.val - 64, by omega⟩ : Fin 64)) ?_ ?_).trans
      (v98_at b n ⟨f.val - 64, by omega⟩)
    · intro c hc
      match c, hc with
      | ⟨0, _⟩, _ => rfl
      | ⟨1, _⟩, _ => rfl
      | ⟨2, _⟩, hc => exact absurd rfl hc
    · show f.val - 64 + 64 = f.val
      omega

theorem v101_at (n : Fin 512) (f : Fin 128) (b : Fin 64) :
    val_main_v101 (F := Ideal) x0 x1 x2 x3 x4 x5 x6 (ix2 n (fb f b)) = Cert.Spec.mk1 (g b) (hOf x1 1 b) f n := by
  have e : idx_main_v100 (idx_main_v101 (ix2 n (fb f b))) = ix3 b n f := e3
    (by show (n.val * 8192 + (f.val * 64 + b.val)) % 64 = b.val; omega)
    (by show (n.val * 8192 + (f.val * 64 + b.val)) / 8192 = n.val; omega)
    (by show (n.val * 8192 + (f.val * 64 + b.val)) / 64 % 128 = f.val; omega)
  rw [val_main_v101_apply, val_main_v100_apply, e]
  exact v99_at h94 b n f

variable (hS : ∀ i j : Fin 512, val_main_v30 (F := Ideal) x2 (ix2 i j) = S i j)
include hS

theorem v102_at (n : Fin 512) (f : Fin 128) (b : Fin 64) :
    val_main_v102 (F := Ideal) x0 x1 x2 x3 x4 x5 x6 (ix2 n (fb f b))
      = Cert.Spec.diff S (Cert.Spec.mk1 (g b) (hOf x1 1 b) f) n := by
  rw [val_main_v102_apply]
  unfold Cert.Spec.diff
  refine Finset.sum_congr rfl fun j _ => ?_
  have el : lidx_main_v102 (ix2 n (fb f b)) j = ix2 n j := e2 rfl rfl
  have er : ridx_main_v102 (ix2 n (fb f b)) j = ix2 j (fb f b) := e2 rfl rfl
  rw [el, er, hS, v101_at h94]

theorem v103_at (n : Fin 512) (f : Fin 128) (b : Fin 64) :
    val_main_v103 (F := Ideal) x0 x1 x2 x3 x4 x5 x6 (ix2 n (fb f b))
      = Cert.Spec.diff S (Cert.Spec.diff S (Cert.Spec.mk1 (g b) (hOf x1 1 b) f)) n := by
  rw [val_main_v103_apply]
  refine Finset.sum_congr rfl fun j _ => ?_
  have el : lidx_main_v103 (ix2 n (fb f b)) j = ix2 n j := e2 rfl rfl
  have er : ridx_main_v103 (ix2 n (fb f b)) j = ix2 j (fb f b) := e2 rfl rfl
  rw [el, er, hS, v102_at h94 hS]

theorem v110_at (k : Fin 3) (n : Fin 512) (f : Fin 128) (b : Fin 64) :
    val_main_v110 (F := Ideal) x0 x1 x2 x3 x4 x5 x6 (ix3 k n (fb f b))
      = Cert.Spec.cheb S cTwo k (Cert.Spec.mk1 (g b) (hOf x1 1 b) f) n := by
  have e7 : idx_main_v107 (ix3 (0 : Fin 1) n (fb f b)) = ix2 n (fb f b) := e2 rfl rfl
  have e8 : idx_main_v108 (ix3 (0 : Fin 1) n (fb f b)) = ix2 n (fb f b) := e2 rfl rfl
  have e9 : idx_main_v109 (ix3 (0 : Fin 1) n (fb f b)) = ix2 n (fb f b) := e2 rfl rfl
  unfold val_main_v110
  rw [stack3]
  match k with
  | ⟨0, _⟩ =>
    show val_main_v107 (F := Ideal) x0 x1 x2 x3 x4 x5 x6 _ = _
    rw [val_main_v107_apply, e7]
    exact v101_at h94 n f b
  | ⟨1, _⟩ =>
    show val_main_v108 (F := Ideal) x0 x1 x2 x3 x4 x5 x6 _ = _
    rw [val_main_v108_apply, e8]
    exact v102_at h94 hS n f b
  | ⟨2, _⟩ =>
    show val_main_v109 (F := Ideal) x0 x1 x2 x3 x4 x5 x6 _ = _
    rw [val_main_v109_apply, e9, val_main_v106_apply, val_main_v105_apply, val_main_v104_apply, val_main_cst_10_apply,
      v103_at h94 hS, v101_at h94]
    rfl

theorem v113_at (b : Fin 64) (n : Fin 512) (f : Fin 128) (k : Fin 3) :
    val_main_v113 (F := Ideal) x0 x1 x2 x3 x4 x5 x6 (ix2 (bn b n) (w384 f k))
      = Cert.Spec.cheb S cTwo k (Cert.Spec.mk1 (g b) (hOf x1 1 b) f) n := by
  have e1' : idx_main_v113 (ix2 (bn b n) (w384 f k)) = ix4 b n f k := e4
    (by show ((b.val * 512 + n.val) * 384 + (f.val * 3 + k.val)) / 196608 = b.val; omega)
    (by show ((b.val * 512 + n.val) * 384 + (f.val * 3 + k.val)) / 384 % 512 = n.val; omega)
    (by show ((b.val * 512 + n.val) * 384 + (f.val * 3 + k.val)) / 3 % 128 = f.val; omega)
    (by show ((b.val * 512 + n.val) * 384 + (f.val * 3 + k.val)) % 3 = k.val; omega)
  have e2' : idx_main_v112 (ix4 b n f k) = ix4 k n f b := e4 rfl rfl rfl rfl
  have e3' : idx_main_v111 (ix4 k n f b) = ix3 k n (fb f b) := e3
    (by show (((k.val * 512 + n.val) * 128 + f.val) * 64 + b.val) / 4194304 = k.val; omega)
    (by show (((k.val * 512 + n.val) * 128 + f.val) * 64 + b.val) / 8192 % 512 = n.val; omega)
    (by show (((k.val * 512 + n.val) * 128 + f.val) * 64 + b.val) % 8192 = f.val * 64 + b.val; omega)
  rw [val_main_v113_apply, e1', val_main_v112_apply, e2', val_main_v111_apply, e3']
  exact v110_at h94 hS k n f b

theorem v117_at (b : Fin 64) (n : Fin 512) (q : Fin 128) :
    val_main_v117 (F := Ideal) x0 x1 x2 x3 x4 x5 x6 x7 x8 (ix2 (bn b n) q)
      = Cert.Spec.gconv S cTwo (Cert.Spec.mk1 (g b) (hOf x1 1 b)) (wOf384 x7) (bOf x8) n q := by
  rw [val_main_v117_apply, val_main_v116_apply, val_main_v115_apply, val_main_v114_apply, sum_w384, Ideal.addf_def]
  unfold Cert.Spec.gconv
  refine congrArg₂ (· + ·) (Finset.sum_congr rfl fun f _ => Finset.sum_congr rfl fun k _ => ?_) (congrArg x8 (e1 rfl))
  have el : lidx_main_v114 (ix2 (bn b n) q) (w384 f k) = ix2 (bn b n) (w384 f k) := e2 rfl rfl
  have er : ridx_main_v114 (ix2 (bn b n) q) (w384 f k) = ix2 (w384 f k) q := e2 rfl rfl
  rw [el, er, v113_at h94 hS]
  rfl

theorem gates1_at (b : Fin 64) (n : Fin 512) (q : Fin 128) :
    val_main_v125 (F := Ideal) x0 x1 x2 x3 x4 x5 x6 x7 x8 (ix3 b n q)
      = Cert.Spec.gates S cTwo Ideal.logistic (Cert.Spec.mk1 (g b)) (hOf x1 1 b) (wOf384 x7) (bOf x8) n q := by
  have e : idx_main_v118 (idx_main_v125 (ix3 b n q)) = ix2 (bn b n) q := e2
    (by show (((b.val * 512 + n.val) * 128 + q.val) / 65536 * 65536 + ((b.val * 512 + n.val) * 128 + q.val) % 65536) / 128
          = b.val * 512 + n.val
        omega)
    (by show (((b.val * 512 + n.val) * 128 + q.val) / 65536 * 65536 + ((b.val * 512 + n.val) * 128 + q.val) % 65536) % 128
          = q.val
        omega)
  have h1 : Ideal.ofBits .f32 0x3F800000#32 = 1 := IdealRules.sign_bit.ideal_onePat .f32
  rw [val_main_v125_apply, val_main_v124_apply, val_main_v123_apply, val_main_cst_12_apply, val_main_v122_apply,
    val_main_v121_apply, val_main_cst_11_apply, val_main_v120_apply, val_main_v119_apply, val_main_v118_apply, e,
    v117_at h94 hS]
  unfold Cert.Spec.gates
  generalize Cert.Spec.gconv S cTwo (Cert.Spec.mk1 (g b) (hOf x1 1 b)) (wOf384 x7) (bOf x8) n q = G
  show Ideal.div (Ideal.ofBits .f32 0x3F800000#32) (Ideal.ofBits .f32 0x3F800000#32 + Ideal.exp (-G))
    = Ideal.div 1 (1 + Ideal.exp (-G))
  rw [h1]

end Gates1

theorem ref_gates1
    (h94 : ∀ (b : Fin 64) (n : Fin 512) (f : Fin 64),
      val_main_v94 (F := Ideal) x0 x1 x2 x3 x4 x5 x6 (ix2 b (nf n f))
        = Cert.SpecArgs.new0 (fun i j => Cert.ReferenceIdeal.Read.val_main_v30 (F := Ideal) x2 (ix2 i j))
            x0 x1 x3 x4 x5 x6 b f n)
    (b : Fin 64) (n : Fin 512) (q : Fin 128) :
    val_main_v125 (F := Ideal) x0 x1 x2 x3 x4 x5 x6 x7 x8 (ix3 b n q)
      = Cert.Spec.gates (fun i j => Cert.ReferenceIdeal.Read.val_main_v30 (F := Ideal) x2 (ix2 i j)) cTwo Ideal.logistic
          (Cert.Spec.mk1 (Cert.SpecArgs.new0
            (fun i j => Cert.ReferenceIdeal.Read.val_main_v30 (F := Ideal) x2 (ix2 i j)) x0 x1 x3 x4 x5 x6 b))
          (hOf x1 1 b) (wOf384 x7) (bOf x8) n q :=
  Gates1.gates1_at (g := fun b => Cert.SpecArgs.new0 (fun i j => val_main_v30 (F := Ideal) x2 (ix2 i j)) x0 x1 x3 x4 x5 x6 b)
    h94 (fun _ _ => rfl) b n q

end Cert.ReferenceIdeal.RefVal

end
-- ==== Proof.RefOut.lean ====
import proofs.«162860_g19069654794669_cont_sun_m_30_12_alg».proof.Proof.RefGen
import proofs.«162860_g19069654794669_cont_sun_m_30_12_alg».proof.Proof.SpecArgs
import proofs.«162860_g19069654794669_cont_sun_m_30_12_alg».proof.Proof.Sup
import proofs.«162860_g19069654794669_cont_sun_m_30_12_alg».proof.Proof.LibIdx

noncomputable section

namespace Cert.ReferenceIdeal.RefVal

open scoped BigOperators
open Idealize.ShloMosaic Idealize.ShloMosaic.ValueIdx Cert.ReferenceIdeal Cert.ReferenceIdeal.Gen Cert.ReferenceIdeal.Read
  Cert.Pack Cert.SpecArgs Cert.Idx

variable (x0 : (⟨S64x512, .f32⟩ : BufTy).Contents (Elt Ideal))
  (x1 : (⟨S2x64x32768, .f32⟩ : BufTy).Contents (Elt Ideal))
  (x2 : (⟨S512x512, .f32⟩ : BufTy).Contents (Elt Ideal))
  (x3 : (⟨S195x128, .f32⟩ : BufTy).Contents (Elt Ideal))
  (x4 : (⟨S128, .f32⟩ : BufTy).Contents (Elt Ideal))
  (x5 : (⟨S195x64, .f32⟩ : BufTy).Contents (Elt Ideal))
  (x6 : (⟨S64, .f32⟩ : BufTy).Contents (Elt Ideal))
  (x7 : (⟨S384x128, .f32⟩ : BufTy).Contents (Elt Ideal))
  (x8 : (⟨S128, .f32⟩ : BufTy).Contents (Elt Ideal))
  (x9 : (⟨S384x64, .f32⟩ : BufTy).Contents (Elt Ideal))
  (x10 : (⟨S64, .f32⟩ : BufTy).Contents (Elt Ideal))
  (x11 : (⟨S64x1, .f32⟩ : BufTy).Contents (Elt Ideal))
  (x12 : (⟨S1, .f32⟩ : BufTy).Contents (Elt Ideal))

namespace Out

section Joins
variable {α : Type}

theorem cat2_feat_left (y1 y2 : S64x512x64.Idx → α) (b : Fin 64) (n : Fin 512) (f : Fin 64) :
    concatenate S64x512x128 2 [⟨S64x512x64, y1⟩, ⟨S64x512x64, y2⟩] concatenates_S64x512x64_S64x512x64_S64x512x128_d2
      (ix3 b n (pk 0 f)) = y1 (ix3 b n f) := by
  refine concatenate_pair_apply_left 2 y1 y2 _ (ix3 b n (pk 0 f)) rfl (ix3 b n f) (fun c => ?_)
  match c with
  | ⟨0, _⟩ => rfl
  | ⟨1, _⟩ => rfl
  | ⟨2, _⟩ => show f.val = (0 : Fin 2).val * 64 + f.val; simp

theorem cat2_feat_right (y1 y2 : S64x512x64.Idx → α) (b : Fin 64) (n : Fin 512) (f : Fin 64) :
    concatenate S64x512x128 2 [⟨S64x512x64, y1⟩, ⟨S64x512x64, y2⟩] concatenates_S64x512x64_S64x512x64_S64x512x128_d2
      (ix3 b n (pk 1 f)) = y2 (ix3 b n f) := by
  refine concatenate_pair_apply_right 2 y1 y2 _ (ix3 b n (pk 1 f)) rfl rfl (ix3 b n f) (fun c hc => ?_) ?_
  · match c with
    | ⟨0, _⟩ => rfl
    | ⟨1, _⟩ => rfl
    | ⟨2, _⟩ => exact absurd rfl hc
  · show f.val + 64 = (1 : Fin 2).val * 64 + f.val
    simp; omega

theorem cat2_lead_0 (y0 y1 : S1x64x32768.Idx → α) (b : Fin 64) (p : Fin 32768) :
    concatenate S2x64x32768 0 [⟨S1x64x32768, y0⟩, ⟨S1x64x32768, y1⟩] concatenates_S1x64x32768_S1x64x32768_S2x64x32768_d0
      (ix3 (0 : Fin 2) b p) = y0 (ix3 (0 : Fin 1) b p) :=
  concatenate_pair_apply_left (t := S2x64x32768) 0 y0 y1 concatenates_S1x64x32768_S1x64x32768_S2x64x32768_d0
    (ix3 (0 : Fin 2) b p) rfl (ix3 (0 : Fin 1) b p) fun d => match d with
  | ⟨0, _⟩ => rfl
  | ⟨1, _⟩ => rfl
  | ⟨2, _⟩ => rfl

theorem cat2_lead_1 (y0 y1 : S1x64x32768.Idx → α) (b : Fin 64) (p : Fin 32768) :
    concatenate S2x64x32768 0 [⟨S1x64x32768, y0⟩, ⟨S1x64x32768, y1⟩] concatenates_S1x64x32768_S1x64x32768_S2x64x32768_d0
      (ix3 (1 : Fin 2) b p) = y1 (ix3 (0 : Fin 1) b p) :=
  concatenate_pair_apply_right (t := S2x64x32768) 0 y0 y1 concatenates_S1x64x32768_S1x64x32768_S2x64x32768_d0
    (ix3 (1 : Fin 2) b p) rfl rfl (ix3 (0 : Fin 1) b p) (fun d hd => match d with
  | ⟨0, _⟩ => absurd rfl hd
  | ⟨1, _⟩ => rfl
  | ⟨2, _⟩ => rfl) rfl

end Joins

def col (p : Fin 128) (b : Fin 64) : Fin 8192 := ⟨p.val * 64 + b.val, by omega⟩

abbrev Sx : Fin 512 → Fin 512 → EReal := fun i j => val_main_v30 (F := Ideal) x2 (ix2 i j)

abbrev N0 (b : Fin 64) : Fin 64 → Fin 512 → EReal := Cert.SpecArgs.new0 (Sx x2) x0 x1 x3 x4 x5 x6 b

abbrev phi (b : Fin 64) : Fin 128 → Fin 512 → EReal :=
  Cert.Spec.mk1 (N0 x0 x1 x2 x3 x4 x5 x6 b) fun f n => Cert.Spec.rgate (Sx x2) cTwo Ideal.logistic
    (Cert.Spec.mk1 (N0 x0 x1 x2 x3 x4 x5 x6 b)) (hOf x1 1 b) (wOf384 x7) (bOf x8) f n * hOf x1 1 b f n

section At
variable (b : Fin 64) (n : Fin 512) (f : Fin 64)

-- A position b * 32768 + (n * 64 + f) splits as (b, n, f), and (b * 512 + n) * 64 + f is the same position.
theorem split_nf : (b.val * 32768 + (n.val * 64 + f.val)) / 32768 = b.val
    ∧ (b.val * 32768 + (n.val * 64 + f.val)) / 64 % 512 = n.val ∧ (b.val * 32768 + (n.val * 64 + f.val)) % 64 = f.val
    ∧ (b.val * 32768 + (n.val * 64 + f.val)) % 32768 = n.val * 64 + f.val
    ∧ (b.val * 32768 + (n.val * 64 + f.val)) / 64 = b.val * 512 + n.val
    ∧ ((b.val * 512 + n.val) * 64 + f.val) / 32768 = b.val
    ∧ ((b.val * 512 + n.val) * 64 + f.val) % 32768 = n.val * 64 + f.val := by
  omega

theorem v96_at : val_main_v96 (F := Ideal) x1 (ix2 b (nf n f)) = hOf x1 1 b f n := by
  rw [val_main_v96_apply, val_main_v95_apply]
  show x1 _ = x1 (ix3 1 b (nf n f))
  exact congrArg x1 (e3 rfl
    (by show (b.val * 32768 + (n.val * 64 + f.val)) / 32768 % 64 = b.val; omega) (split_nf b n f).2.2.2.1)

theorem v127_at : val_main_v127 (F := Ideal) x0 x1 x2 x3 x4 x5 x6 x7 x8 (ix2 b (nf n f))
      = val_main_v125 (F := Ideal) x0 x1 x2 x3 x4 x5 x6 x7 x8 (ix3 b n (⟨f.val, by omega⟩ : Fin 128)) := by
  rw [val_main_v127_apply, val_main_v126_apply]
  exact congrArg _ (e3 (split_nf b n f).1 (split_nf b n f).2.1 (split_nf b n f).2.2.1)

theorem v129_at : val_main_v129 (F := Ideal) x0 x1 x2 x3 x4 x5 x6 x7 x8 (ix2 b (nf n f))
      = val_main_v125 (F := Ideal) x0 x1 x2 x3 x4 x5 x6 x7 x8 (ix3 b n (⟨64 + f.val, by omega⟩ : Fin 128)) := by
  rw [val_main_v129_apply, val_main_v128_apply]
  exact congrArg _ (e3 (split_nf b n f).1 (split_nf b n f).2.1 (congrArg (64 + ·) (split_nf b n f).2.2.1))

theorem v133_at0 : val_main_v133 (F := Ideal) x0 x1 x2 x3 x4 x5 x6 x7 x8 (ix3 b n (pk 0 f))
      = val_main_v94 (F := Ideal) x0 x1 x2 x3 x4 x5 x6 (ix2 b (nf n f)) := by
  unfold val_main_v133
  refine (cat2_feat_left _ _ b n f).trans ?_
  rw [val_main_v131_apply]
  exact congrArg _ (e2 (split_nf b n f).2.2.2.2.2.1 (split_nf b n f).2.2.2.2.2.2)

theorem v133_at1 : val_main_v133 (F := Ideal) x0 x1 x2 x3 x4 x5 x6 x7 x8 (ix3 b n (pk 1 f))
      = val_main_v127 (F := Ideal) x0 x1 x2 x3 x4 x5 x6 x7 x8 (ix2 b (nf n f)) * val_main_v96 (F := Ideal) x1 (ix2 b (nf n f)) := by
  have e : idx_main_v132 (ix3 b n f) = ix2 b (nf n f) := e2 (split_nf b n f).2.2.2.2.2.1 (split_nf b n f).2.2.2.2.2.2
  unfold val_main_v133
  refine (cat2_feat_right _ _ b n f).trans ?_
  rw [val_main_v132_apply, e, val_main_v130_apply]
  rfl

end At

theorem v135_at (b : Fin 64) (n : Fin 512) (p : Fin 128) :
    val_main_v135 (F := Ideal) x0 x1 x2 x3 x4 x5 x6 x7 x8 (ix2 n (col p b)) = val_main_v133 (F := Ideal) x0 x1 x2 x3 x4 x5 x6 x7 x8 (ix3 b n p) := by
  rw [val_main_v135_apply, val_main_v134_apply]
  exact congrArg _ (e3 (by show (n.val * 8192 + (p.val * 64 + b.val)) % 64 = b.val; omega)
    (by show (n.val * 8192 + (p.val * 64 + b.val)) / 8192 = n.val; omega)
    (by show (n.val * 8192 + (p.val * 64 + b.val)) / 64 % 128 = p.val; omega))

theorem v136_at (n : Fin 512) (c : Fin 8192) :
    val_main_v136 (F := Ideal) x0 x1 x2 x3 x4 x5 x6 x7 x8 (ix2 n c)
      = Cert.Spec.diff (Sx x2) (fun j => val_main_v135 (F := Ideal) x0 x1 x2 x3 x4 x5 x6 x7 x8 (ix2 j c)) n := by
  rw [val_main_v136_apply]
  exact Finset.sum_congr rfl fun j _ => congrArg₂ (fun u v => val_main_v30 (F := Ideal) x2 u * val_main_v135 (F := Ideal) x0 x1 x2 x3 x4 x5 x6 x7 x8 v)
    (e2 rfl rfl) (e2 rfl rfl)

theorem v137_at (n : Fin 512) (c : Fin 8192) :
    val_main_v137 (F := Ideal) x0 x1 x2 x3 x4 x5 x6 x7 x8 (ix2 n c)
      = Cert.Spec.diff (Sx x2) (Cert.Spec.diff (Sx x2) fun j => val_main_v135 (F := Ideal) x0 x1 x2 x3 x4 x5 x6 x7 x8 (ix2 j c)) n := by
  rw [val_main_v137_apply]
  refine Finset.sum_congr rfl fun j _ => ?_
  have el : lidx_main_v137 (ix2 n c) j = ix2 n j := e2 rfl rfl
  have er : ridx_main_v137 (ix2 n c) j = ix2 j c := e2 rfl rfl
  rw [el, er, v136_at]

theorem v144_at (k : Fin 3) (n : Fin 512) (c : Fin 8192) :
    val_main_v144 (F := Ideal) x0 x1 x2 x3 x4 x5 x6 x7 x8 (ix3 k n c)
      = Cert.Spec.cheb (Sx x2) cTwo k (fun j => val_main_v135 (F := Ideal) x0 x1 x2 x3 x4 x5 x6 x7 x8 (ix2 j c)) n := by
  have e141 : idx_main_v141 (ix3 (0 : Fin 1) n c) = ix2 n c := e2 rfl rfl
  have e142 : idx_main_v142 (ix3 (0 : Fin 1) n c) = ix2 n c := e2 rfl rfl
  have e143 : idx_main_v143 (ix3 (0 : Fin 1) n c) = ix2 n c := e2 rfl rfl
  unfold val_main_v144
  rw [stack3]
  match k with
  | ⟨0, _⟩ =>
    show val_main_v141 (F := Ideal) x0 x1 x2 x3 x4 x5 x6 x7 x8 _ = _
    rw [val_main_v141_apply, e141]
    rfl
  | ⟨1, _⟩ =>
    show val_main_v142 (F := Ideal) x0 x1 x2 x3 x4 x5 x6 x7 x8 _ = _
    rw [val_main_v142_apply, e142, v136_at]
    rfl
  | ⟨2, _⟩ =>
    show val_main_v143 (F := Ideal) x0 x1 x2 x3 x4 x5 x6 x7 x8 _ = _
    rw [val_main_v143_apply, e143, val_main_v140_apply, val_main_v139_apply, val_main_v138_apply, val_main_cst_13_apply, v137_at]
    rfl

theorem v147_at (b : Fin 64) (n : Fin 512) (p : Fin 128) (k : Fin 3) :
    val_main_v147 (F := Ideal) x0 x1 x2 x3 x4 x5 x6 x7 x8 (ix2 (bn b n) (w384 p k)) = val_main_v144 (F := Ideal) x0 x1 x2 x3 x4 x5 x6 x7 x8 (ix3 k n (col p b)) := by
  have e1 : idx_main_v147 (ix2 (bn b n) (w384 p k)) = ix4 b n p k := e4
    (by show ((b.val * 512 + n.val) * 384 + (p.val * 3 + k.val)) / 196608 = b.val; omega)
    (by show ((b.val * 512 + n.val) * 384 + (p.val * 3 + k.val)) / 384 % 512 = n.val; omega)
    (by show ((b.val * 512 + n.val) * 384 + (p.val * 3 + k.val)) / 3 % 128 = p.val; omega)
    (by show ((b.val * 512 + n.val) * 384 + (p.val * 3 + k.val)) % 3 = k.val; omega)
  have e2' : idx_main_v146 (ix4 b n p k) = ix4 k n p b := e4 rfl rfl rfl rfl
  have e3' : idx_main_v145 (ix4 k n p b) = ix3 k n (col p b) := e3
    (by show (((k.val * 512 + n.val) * 128 + p.val) * 64 + b.val) / 4194304 = k.val; omega)
    (by show (((k.val * 512 + n.val) * 128 + p.val) * 64 + b.val) / 8192 % 512 = n.val; omega)
    (by show (((k.val * 512 + n.val) * 128 + p.val) * 64 + b.val) % 8192 = p.val * 64 + b.val; omega)
  rw [val_main_v147_apply, e1, val_main_v146_apply, e2', val_main_v145_apply, e3']

theorem v152_at (b : Fin 64) (n : Fin 512) (o : Fin 64) :
    val_main_v152 (F := Ideal) x0 x1 x2 x3 x4 x5 x6 x7 x8 x9 x10 (ix2 b (nf n o))
      = Cert.Spec.gconv (Sx x2) cTwo (fun p j => val_main_v133 (F := Ideal) x0 x1 x2 x3 x4 x5 x6 x7 x8 (ix3 b j p)) (wOf384 x9) (bOf x10) n o := by
  have e152 : idx_main_v152 (ix2 b (nf n o)) = ix2 (bn b n) o := e2 (split_nf b n o).2.2.2.2.1 (split_nf b n o).2.2.1
  have e150 : idx_main_v149 (idx_main_v150 (ix2 (bn b n) o)) = ix1 o := e1 rfl
  rw [val_main_v152_apply, e152, val_main_v151_apply, val_main_v148_apply, sum_w384, val_main_v150_apply, val_main_v149_apply, e150]
  refine congrArg (· + x10 (ix1 o)) (Finset.sum_congr rfl fun p _ => Finset.sum_congr rfl fun k _ => ?_)
  have el : lidx_main_v148 (ix2 (bn b n) o) (w384 p k) = ix2 (bn b n) (w384 p k) := e2 rfl rfl
  have er : ridx_main_v148 (ix2 (bn b n) o) (w384 p k) = ix2 (w384 p k) o := e2 rfl rfl
  rw [el, er, v147_at, v144_at, funext fun j => v135_at x0 x1 x2 x3 x4 x5 x6 x7 x8 b j p]
  rfl

theorem mk1_pk0 (g h : Fin 64 → Fin 512 → EReal) (f : Fin 64) : Cert.Spec.mk1 g h (pk 0 f) = g f := by
  unfold Cert.Spec.mk1
  have hlt : (pk 0 f).val < 64 := by show 0 * 64 + f.val < 64; omega
  rw [dif_pos hlt]
  exact congrArg g (Fin.ext (by show (0 : Fin 2).val * 64 + f.val = f.val; simp))

theorem mk1_pk1 (g h : Fin 64 → Fin 512 → EReal) (f : Fin 64) : Cert.Spec.mk1 g h (pk 1 f) = h f := by
  unfold Cert.Spec.mk1
  have hge : ¬ (pk 1 f).val < 64 := by show ¬ (1 : Fin 2).val * 64 + f.val < 64; simp
  rw [dif_neg hge]
  exact congrArg h (Fin.ext (by show (1 : Fin 2).val * 64 + f.val - 64 = f.val; simp))

end Out

open Out

variable (h94 : ∀ (b : Fin 64) (n : Fin 512) (f : Fin 64), val_main_v94 (F := Ideal) x0 x1 x2 x3 x4 x5 x6 (ix2 b (nf n f))
        = Cert.SpecArgs.new0 (fun i j => val_main_v30 (F := Ideal) x2 (ix2 i j)) x0 x1 x3 x4 x5 x6 b f n)
    (hg1 : ∀ (b : Fin 64) (n : Fin 512) (q : Fin 128), val_main_v125 (F := Ideal) x0 x1 x2 x3 x4 x5 x6 x7 x8 (ix3 b n q)
        = Cert.Spec.gates (fun i j => val_main_v30 (F := Ideal) x2 (ix2 i j)) cTwo Ideal.logistic
            (Cert.Spec.mk1 (Cert.SpecArgs.new0 (fun i j => val_main_v30 (F := Ideal) x2 (ix2 i j)) x0 x1 x3 x4 x5 x6 b)) (hOf x1 1 b) (wOf384 x7) (bOf x8) n q)
include h94 hg1

-- The candidate's 128 features: the first layer's new state, then the reset gate times the old state.
theorem Out.feat_eq (b : Fin 64) :
    (fun p j => val_main_v133 (F := Ideal) x0 x1 x2 x3 x4 x5 x6 x7 x8 (ix3 b j p)) = phi x0 x1 x2 x3 x4 x5 x6 x7 x8 b := by
  funext p j
  obtain ⟨bb, f, rfl⟩ := pk_surj p
  rcases two_cases bb with rfl | rfl
  · show _ = Cert.Spec.mk1 _ _ (pk 0 f) j
    rw [mk1_pk0, v133_at0, h94]
  · show _ = Cert.Spec.mk1 _ _ (pk 1 f) j
    rw [mk1_pk1, v133_at1, v127_at, hg1, v96_at]
    rfl

theorem ref_new1 (b : Fin 64) (n : Fin 512) (f : Fin 64) :
    val_main_v158 (F := Ideal) x0 x1 x2 x3 x4 x5 x6 x7 x8 x9 x10 (ix2 b (nf n f))
      = Cert.SpecArgs.new1 (fun i j => val_main_v30 (F := Ideal) x2 (ix2 i j)) x0 x1 x3 x4 x5 x6 x7 x8 x9 x10 b f n := by
  have hu : val_main_v129 (F := Ideal) x0 x1 x2 x3 x4 x5 x6 x7 x8 (ix2 b (nf n f))
      = Cert.Spec.ugate (Sx x2) cTwo Ideal.logistic (Cert.Spec.mk1 (N0 x0 x1 x2 x3 x4 x5 x6 b)) (hOf x1 1 b) (wOf384 x7) (bOf x8) f n := by
    rw [v129_at, hg1]; rfl
  have hc : val_main_v152 (F := Ideal) x0 x1 x2 x3 x4 x5 x6 x7 x8 x9 x10 (ix2 b (nf n f))
      = Cert.Spec.gconv (Sx x2) cTwo (phi x0 x1 x2 x3 x4 x5 x6 x7 x8 b) (wOf384 x9) (bOf x10) n f := by
    rw [v152_at, Out.feat_eq x0 x1 x2 x3 x4 x5 x6 x7 x8 h94 hg1 b]
  rw [val_main_v158_apply, val_main_v157_apply, val_main_v156_apply, val_main_v155_apply, val_main_cst_14_apply,
    val_main_v154_apply, val_main_v153_apply, hu, v96_at, hc]
  rfl

theorem ref_res0 (b : Fin 64) (n : Fin 512) :
    val_main_v164 (F := Ideal) x0 x1 x2 x3 x4 x5 x6 x7 x8 x9 x10 x11 x12 (ix2 b n)
      = Cert.SpecArgs.proj (fun i j => val_main_v30 (F := Ideal) x2 (ix2 i j)) x0 x1 x3 x4 x5 x6 x7 x8 x9 x10 x11 x12 b n := by
  have e164 : idx_main_v164 (ix2 b n) = ix2 (bn b n) (0 : Fin 1) :=
    e2 (by show (b.val * 512 + n.val) / 1 = b.val * 512 + n.val; omega) rfl
  have e162 : idx_main_v161 (idx_main_v162 (ix2 (bn b n) (0 : Fin 1))) = ix1 (0 : Fin 1) := e1 rfl
  rw [val_main_v164_apply, e164, val_main_v163_apply, val_main_v160_apply, val_main_v162_apply, val_main_v161_apply, e162]
  show (∑ k : Fin 64, _) + pbOf x12 = _
  unfold Cert.SpecArgs.proj Cert.Spec.proj
  refine congrArg (· + pbOf x12) (Finset.sum_congr rfl fun k _ => ?_)
  have el : lidx_main_v160 (ix2 (bn b n) (0 : Fin 1)) k = ix2 (bn b n) k := e2 rfl rfl
  have er : ridx_main_v160 (ix2 (bn b n) (0 : Fin 1)) k = ix2 k (0 : Fin 1) := e2 rfl rfl
  have e159 : idx_main_v159 (ix2 (bn b n) k) = ix2 b (nf n k) := e2 (split_nf b n k).2.2.2.2.2.1 (split_nf b n k).2.2.2.2.2.2
  rw [el, er, val_main_v159_apply, e159, ref_new1 x0 x1 x2 x3 x4 x5 x6 x7 x8 x9 x10 h94 hg1 b n k]
  rfl

theorem ref_res1_0 (b : Fin 64) (n : Fin 512) (f : Fin 64) :
    val_main_v167 (F := Ideal) x0 x1 x2 x3 x4 x5 x6 x7 x8 x9 x10 (ix3 (0 : Fin 2) b (nf n f))
      = Cert.SpecArgs.new0 (fun i j => val_main_v30 (F := Ideal) x2 (ix2 i j)) x0 x1 x3 x4 x5 x6 b f n := by
  have e165 : idx_main_v165 (ix3 (0 : Fin 1) b (nf n f)) = ix2 b (nf n f) := e2 rfl rfl
  unfold val_main_v167
  refine (cat2_lead_0 _ _ b (nf n f)).trans ?_
  rw [val_main_v165_apply, e165, h94]

theorem ref_res1_1 (b : Fin 64) (n : Fin 512) (f : Fin 64) :
    val_main_v167 (F := Ideal) x0 x1 x2 x3 x4 x5 x6 x7 x8 x9 x10 (ix3 (1 : Fin 2) b (nf n f))
      = Cert.SpecArgs.new1 (fun i j => val_main_v30 (F := Ideal) x2 (ix2 i j)) x0 x1 x3 x4 x5 x6 x7 x8 x9 x10 b f n := by
  have e166 : idx_main_v166 (ix3 (0 : Fin 1) b (nf n f)) = ix2 b (nf n f) := e2 rfl rfl
  unfold val_main_v167
  refine (cat2_lead_1 _ _ b (nf n f)).trans ?_
  rw [val_main_v166_apply, e166, ref_new1 x0 x1 x2 x3 x4 x5 x6 x7 x8 x9 x10 h94 hg1 b n f]

end Cert.ReferenceIdeal.RefVal

end
-- ==== Proof.RefFold1.lean ====
import proofs.«162860_g19069654794669_cont_sun_m_30_12_alg».proof.Proof.RefGen
import Idealize.ShloMosaic.Lib.Pipeline.Frame

noncomputable section

namespace Cert.ReferenceIdeal.RefAfter

open Idealize.ShloMosaic Idealize.ShloMosaic.StableHlo Cert.ReferenceIdeal Cert.ReferenceIdeal.Read Cert.ReferenceIdeal.Value

variable {F : FTy → Type} [FloatOps F] (V : Valuation τ sig (Elt F))

/-- Buffer `b` after the first `k` operations, from contents `V`. -/
abbrev st (k : ℕ) (b : Ref sig .tc) := after ((ops (F := F)).take k) V (Proc.devRef .tc b)
/-- Argument `b` in `V`. -/
abbrev ar (b : Ref sig .tc) := V (Proc.devRef .tc b)

theorem P_main_v0 : st V 1 main_v0 = val_main_v0 (F := F) (ar V main_arg2) := by
  unfold val_main_v0; rfl
theorem P_main_v1 : st V 2 main_v1 = val_main_v1 (F := F) (ar V main_arg2) := by
  unfold val_main_v1; rw [← P_main_v0 V]; rfl
theorem P_main_cst : st V 3 main_cst = val_main_cst (F := F) := by
  unfold val_main_cst; rfl
theorem P_main_v2 : st V 4 main_v2 = val_main_v2 (F := F) (ar V main_arg2) := by
  unfold val_main_v2; rw [← P_main_v1 V, ← P_main_cst V]; rfl
theorem P_main_cst_0 : st V 5 main_cst_0 = val_main_cst_0 (F := F) := by
  unfold val_main_cst_0; rfl
theorem P_main_v3 : st V 6 main_v3 = val_main_v3 (F := F) := by
  unfold val_main_v3; rw [← P_main_cst_0 V]; rfl
theorem P_main_v4 : st V 7 main_v4 = val_main_v4 (F := F) (ar V main_arg2) := by
  unfold val_main_v4; rw [← P_main_v2 V, ← P_main_v3 V]; rfl
theorem P_main_v5 : st V 8 main_v5 = val_main_v5 (F := F) (ar V main_arg2) := by
  unfold val_main_v5; rw [← P_main_v2 V]; rfl
theorem P_main_cst_1 : st V 9 main_cst_1 = val_main_cst_1 (F := F) := by
  unfold val_main_cst_1; rfl
theorem P_main_v6 : st V 10 main_v6 = val_main_v6 (F := F) := by
  unfold val_main_v6; rw [← P_main_cst_1 V]; rfl
theorem P_main_v7 : st V 11 main_v7 = val_main_v7 (F := F) (ar V main_arg2) := by
  unfold val_main_v7; rw [← P_main_v6 V, ← P_main_v5 V]; rfl
theorem P_main_cst_2 : st V 12 main_cst_2 = val_main_cst_2 (F := F) := by
  unfold val_main_cst_2; rfl
theorem P_main_call0_v0 : st V 13 main_call0_v0 = val_main_call0_v0 (F := F) := by
  unfold val_main_call0_v0; rw [← P_main_cst_2 V]; rfl
theorem P_main_call0_v1 : st V 14 main_call0_v1 = val_main_call0_v1 (F := F) := by
  unfold val_main_call0_v1; rw [← P_main_call0_v0 V]; rfl
theorem P_main_v8 : st V 15 main_v8 = val_main_v8 (F := F) (ar V main_arg2) := by
  unfold val_main_v8; rw [← P_main_v4 V, ← P_main_v7 V, ← P_main_call0_v1 V]; rfl
theorem P_main_v9 : st V 16 main_v9 = val_main_v9 (F := F) := by
  unfold val_main_v9; rfl
theorem P_main_v10 : st V 17 main_v10 = val_main_v10 (F := F) := by
  unfold val_main_v10; rfl
theorem P_main_c : st V 18 main_c = val_main_c (F := F) := by
  unfold val_main_c; rfl
theorem P_main_v11 : st V 19 main_v11 = val_main_v11 (F := F) := by
  unfold val_main_v11; rw [← P_main_c V]; rfl
theorem P_main_v12 : st V 20 main_v12 = val_main_v12 (F := F) := by
  unfold val_main_v12; rw [← P_main_v9 V, ← P_main_v11 V]; rfl
theorem P_main_v13 : st V 21 main_v13 = val_main_v13 (F := F) := by
  unfold val_main_v13; rw [← P_main_v12 V, ← P_main_v10 V]; rfl
theorem P_main_v14 : st V 22 main_v14 = val_main_v14 (F := F) := by
  unfold val_main_v14; rw [← P_main_v13 V]; rfl
theorem P_main_v15 : st V 23 main_v15 = val_main_v15 (F := F) (ar V main_arg2) := by
  unfold val_main_v15; rw [← P_main_v8 V]; rfl
theorem P_main_v16 : st V 24 main_v16 = val_main_v16 (F := F) (ar V main_arg2) := by
  unfold val_main_v16; rw [← P_main_v15 V]; rfl
theorem P_main_v17 : st V 25 main_v17 = val_main_v17 (F := F) (ar V main_arg2) := by
  unfold val_main_v17; rw [← P_main_v16 V, ← P_main_v1 V]; rfl
theorem P_main_v18 : st V 26 main_v18 = val_main_v18 (F := F) (ar V main_arg2) := by
  unfold val_main_v18; rw [← P_main_v8 V]; rfl
theorem P_main_v19 : st V 27 main_v19 = val_main_v19 (F := F) (ar V main_arg2) := by
  unfold val_main_v19; rw [← P_main_v18 V]; rfl
theorem P_main_v20 : st V 28 main_v20 = val_main_v20 (F := F) (ar V main_arg2) := by
  unfold val_main_v20; rw [← P_main_v17 V, ← P_main_v19 V]; rfl
theorem P_main_v21 : st V 29 main_v21 = val_main_v21 (F := F) (ar V main_arg2) := by
  unfold val_main_v21; rw [← P_main_v14 V, ← P_main_v20 V]; rfl
theorem P_main_cst_3 : st V 30 main_cst_3 = val_main_cst_3 (F := F) := by
  unfold val_main_cst_3; rfl
theorem P_main_v22 : st V 31 main_v22 = val_main_v22 (F := F) := by
  unfold val_main_v22; rw [← P_main_cst_3 V]; rfl
theorem P_main_v23 : st V 32 main_v23 = val_main_v23 (F := F) (ar V main_arg2) := by
  unfold val_main_v23; rw [← P_main_v22 V, ← P_main_v21 V]; rfl
theorem P_main_v24 : st V 33 main_v24 = val_main_v24 (F := F) := by
  unfold val_main_v24; rfl
theorem P_main_v25 : st V 34 main_v25 = val_main_v25 (F := F) := by
  unfold val_main_v25; rfl
theorem P_main_c_4 : st V 35 main_c_4 = val_main_c_4 (F := F) := by
  unfold val_main_c_4; rfl
theorem P_main_v26 : st V 36 main_v26 = val_main_v26 (F := F) := by
  unfold val_main_v26; rw [← P_main_c_4 V]; rfl
theorem P_main_v27 : st V 37 main_v27 = val_main_v27 (F := F) := by
  unfold val_main_v27; rw [← P_main_v24 V, ← P_main_v26 V]; rfl
theorem P_main_v28 : st V 38 main_v28 = val_main_v28 (F := F) := by
  unfold val_main_v28; rw [← P_main_v27 V, ← P_main_v25 V]; rfl
theorem P_main_v29 : st V 39 main_v29 = val_main_v29 (F := F) := by
  unfold val_main_v29; rw [← P_main_v28 V]; rfl
theorem P_main_v30 : st V 40 main_v30 = val_main_v30 (F := F) (ar V main_arg2) := by
  unfold val_main_v30; rw [← P_main_v23 V, ← P_main_v29 V]; rfl
theorem P_main_v31 : st V 41 main_v31 = val_main_v31 (F := F) (ar V main_arg1) := by
  unfold val_main_v31; rfl
theorem P_main_v32 : st V 42 main_v32 = val_main_v32 (F := F) (ar V main_arg1) := by
  unfold val_main_v32; rw [← P_main_v31 V]; rfl
theorem P_main_v33 : st V 43 main_v33 = val_main_v33 (F := F) (ar V main_arg0) := by
  unfold val_main_v33; rfl
theorem P_main_v34 : st V 44 main_v34 = val_main_v34 (F := F) (ar V main_arg1) := by
  unfold val_main_v34; rw [← P_main_v32 V]; rfl
theorem P_main_v35 : st V 45 main_v35 = val_main_v35 (F := F) (ar V main_arg0) (ar V main_arg1) := by
  unfold val_main_v35; rw [← P_main_v33 V, ← P_main_v34 V]; rfl
theorem P_main_v36 : st V 46 main_v36 = val_main_v36 (F := F) (ar V main_arg0) (ar V main_arg1) := by
  unfold val_main_v36; rw [← P_main_v35 V]; rfl
theorem P_main_v37 : st V 47 main_v37 = val_main_v37 (F := F) (ar V main_arg0) (ar V main_arg1) := by
  unfold val_main_v37; rw [← P_main_v36 V]; rfl
theorem P_main_v38 : st V 48 main_v38 = val_main_v38 (F := F) (ar V main_arg0) (ar V main_arg1) (ar V main_arg2) := by
  unfold val_main_v38; rw [← P_main_v30 V, ← P_main_v37 V]; rfl
theorem P_main_v39 : st V 49 main_v39 = val_main_v39 (F := F) (ar V main_arg0) (ar V main_arg1) (ar V main_arg2) := by
  unfold val_main_v39; rw [← P_main_v30 V, ← P_main_v38 V]; rfl
theorem P_main_cst_5 : st V 50 main_cst_5 = val_main_cst_5 (F := F) := by
  unfold val_main_cst_5; rfl
theorem P_main_v40 : st V 51 main_v40 = val_main_v40 (F := F) := by
  unfold val_main_v40; rw [← P_main_cst_5 V]; rfl
theorem P_main_v41 : st V 52 main_v41 = val_main_v41 (F := F) (ar V main_arg0) (ar V main_arg1) (ar V main_arg2) := by
  unfold val_main_v41; rw [← P_main_v40 V, ← P_main_v39 V]; rfl
theorem P_main_v42 : st V 53 main_v42 = val_main_v42 (F := F) (ar V main_arg0) (ar V main_arg1) (ar V main_arg2) := by
  unfold val_main_v42; rw [← P_main_v41 V, ← P_main_v37 V]; rfl
theorem P_main_v43 : st V 54 main_v43 = val_main_v43 (F := F) (ar V main_arg0) (ar V main_arg1) := by
  unfold val_main_v43; rw [← P_main_v37 V]; rfl
theorem P_main_v44 : st V 55 main_v44 = val_main_v44 (F := F) (ar V main_arg0) (ar V main_arg1) (ar V main_arg2) := by
  unfold val_main_v44; rw [← P_main_v38 V]; rfl
theorem P_main_v45 : st V 56 main_v45 = val_main_v45 (F := F) (ar V main_arg0) (ar V main_arg1) (ar V main_arg2) := by
  unfold val_main_v45; rw [← P_main_v42 V]; rfl
theorem P_main_v46 : st V 57 main_v46 = val_main_v46 (F := F) (ar V main_arg0) (ar V main_arg1) (ar V main_arg2) := by
  unfold val_main_v46; rw [← P_main_v43 V, ← P_main_v44 V, ← P_main_v45 V]; rfl
theorem P_main_v47 : st V 58 main_v47 = val_main_v47 (F := F) (ar V main_arg0) (ar V main_arg1) (ar V main_arg2) := by
  unfold val_main_v47; rw [← P_main_v46 V]; rfl
theorem P_main_v48 : st V 59 main_v48 = val_main_v48 (F := F) (ar V main_arg0) (ar V main_arg1) (ar V main_arg2) := by
  unfold val_main_v48; rw [← P_main_v47 V]; rfl
theorem P_main_v49 : st V 60 main_v49 = val_main_v49 (F := F) (ar V main_arg0) (ar V main_arg1) (ar V main_arg2) := by
  unfold val_main_v49; rw [← P_main_v48 V]; rfl

end Cert.ReferenceIdeal.RefAfter

end
-- ==== Proof.RefFold2.lean ====
import proofs.«162860_g19069654794669_cont_sun_m_30_12_alg».proof.Proof.RefFold1

noncomputable section

namespace Cert.ReferenceIdeal.RefAfter

open Idealize.ShloMosaic Idealize.ShloMosaic.StableHlo Cert.ReferenceIdeal Cert.ReferenceIdeal.Read Cert.ReferenceIdeal.Value

variable {F : FTy → Type} [FloatOps F] (V : Valuation τ sig (Elt F))

theorem P_main_v50 : st V 61 main_v50 = val_main_v50 (F := F) (ar V main_arg0) (ar V main_arg1) (ar V main_arg2) (ar V main_arg3) := by
  unfold val_main_v50; rw [← P_main_v49 V]; rfl
theorem P_main_v51 : st V 62 main_v51 = val_main_v51 (F := F) (ar V main_arg4) := by
  unfold val_main_v51; rfl
theorem P_main_v52 : st V 63 main_v52 = val_main_v52 (F := F) (ar V main_arg4) := by
  unfold val_main_v52; rw [← P_main_v51 V]; rfl
theorem P_main_v53 : st V 64 main_v53 = val_main_v53 (F := F) (ar V main_arg0) (ar V main_arg1) (ar V main_arg2) (ar V main_arg3) (ar V main_arg4) := by
  unfold val_main_v53; rw [← P_main_v50 V, ← P_main_v52 V]; rfl
theorem P_main_v54 : st V 65 main_v54 = val_main_v54 (F := F) (ar V main_arg0) (ar V main_arg1) (ar V main_arg2) (ar V main_arg3) (ar V main_arg4) := by
  unfold val_main_v54; rw [← P_main_v53 V]; rfl
theorem P_main_v55 : st V 66 main_v55 = val_main_v55 (F := F) (ar V main_arg0) (ar V main_arg1) (ar V main_arg2) (ar V main_arg3) (ar V main_arg4) := by
  unfold val_main_v55; rw [← P_main_v54 V]; rfl
theorem P_main_v56 : st V 67 main_v56 = val_main_v56 (F := F) (ar V main_arg0) (ar V main_arg1) (ar V main_arg2) (ar V main_arg3) (ar V main_arg4) := by
  unfold val_main_v56; rw [← P_main_v55 V]; rfl
theorem P_main_cst_6 : st V 68 main_cst_6 = val_main_cst_6 (F := F) := by
  unfold val_main_cst_6; rfl
theorem P_main_v57 : st V 69 main_v57 = val_main_v57 (F := F) := by
  unfold val_main_v57; rw [← P_main_cst_6 V]; rfl
theorem P_main_v58 : st V 70 main_v58 = val_main_v58 (F := F) (ar V main_arg0) (ar V main_arg1) (ar V main_arg2) (ar V main_arg3) (ar V main_arg4) := by
  unfold val_main_v58; rw [← P_main_v57 V, ← P_main_v56 V]; rfl
theorem P_main_cst_7 : st V 71 main_cst_7 = val_main_cst_7 (F := F) := by
  unfold val_main_cst_7; rfl
theorem P_main_v59 : st V 72 main_v59 = val_main_v59 (F := F) := by
  unfold val_main_v59; rw [← P_main_cst_7 V]; rfl
theorem P_main_v60 : st V 73 main_v60 = val_main_v60 (F := F) (ar V main_arg0) (ar V main_arg1) (ar V main_arg2) (ar V main_arg3) (ar V main_arg4) := by
  unfold val_main_v60; rw [← P_main_v59 V, ← P_main_v58 V]; rfl
theorem P_main_v61 : st V 74 main_v61 = val_main_v61 (F := F) (ar V main_arg0) (ar V main_arg1) (ar V main_arg2) (ar V main_arg3) (ar V main_arg4) := by
  unfold val_main_v61; rw [← P_main_v60 V]; rfl
theorem P_main_v62 : st V 75 main_v62 = val_main_v62 (F := F) (ar V main_arg0) (ar V main_arg1) (ar V main_arg2) (ar V main_arg3) (ar V main_arg4) := by
  unfold val_main_v62; rw [← P_main_v61 V]; rfl
theorem P_main_v63 : st V 76 main_v63 = val_main_v63 (F := F) (ar V main_arg0) (ar V main_arg1) (ar V main_arg2) (ar V main_arg3) (ar V main_arg4) := by
  unfold val_main_v63; rw [← P_main_v62 V]; rfl
theorem P_main_v64 : st V 77 main_v64 = val_main_v64 (F := F) (ar V main_arg0) (ar V main_arg1) (ar V main_arg2) (ar V main_arg3) (ar V main_arg4) := by
  unfold val_main_v64; rw [← P_main_v61 V]; rfl
theorem P_main_v65 : st V 78 main_v65 = val_main_v65 (F := F) (ar V main_arg0) (ar V main_arg1) (ar V main_arg2) (ar V main_arg3) (ar V main_arg4) := by
  unfold val_main_v65; rw [← P_main_v64 V]; rfl
theorem P_main_v66 : st V 79 main_v66 = val_main_v66 (F := F) (ar V main_arg0) (ar V main_arg1) (ar V main_arg2) (ar V main_arg3) (ar V main_arg4) := by
  unfold val_main_v66; rw [← P_main_v63 V, ← P_main_v32 V]; rfl
theorem P_main_v67 : st V 80 main_v67 = val_main_v67 (F := F) (ar V main_arg0) := by
  unfold val_main_v67; rfl
theorem P_main_v68 : st V 81 main_v68 = val_main_v68 (F := F) (ar V main_arg0) (ar V main_arg1) (ar V main_arg2) (ar V main_arg3) (ar V main_arg4) := by
  unfold val_main_v68; rw [← P_main_v66 V]; rfl
theorem P_main_v69 : st V 82 main_v69 = val_main_v69 (F := F) (ar V main_arg0) (ar V main_arg1) (ar V main_arg2) (ar V main_arg3) (ar V main_arg4) := by
  unfold val_main_v69; rw [← P_main_v67 V, ← P_main_v68 V]; rfl
theorem P_main_v70 : st V 83 main_v70 = val_main_v70 (F := F) (ar V main_arg0) (ar V main_arg1) (ar V main_arg2) (ar V main_arg3) (ar V main_arg4) := by
  unfold val_main_v70; rw [← P_main_v69 V]; rfl
theorem P_main_v71 : st V 84 main_v71 = val_main_v71 (F := F) (ar V main_arg0) (ar V main_arg1) (ar V main_arg2) (ar V main_arg3) (ar V main_arg4) := by
  unfold val_main_v71; rw [← P_main_v70 V]; rfl
theorem P_main_v72 : st V 85 main_v72 = val_main_v72 (F := F) (ar V main_arg0) (ar V main_arg1) (ar V main_arg2) (ar V main_arg3) (ar V main_arg4) := by
  unfold val_main_v72; rw [← P_main_v30 V, ← P_main_v71 V]; rfl
theorem P_main_v73 : st V 86 main_v73 = val_main_v73 (F := F) (ar V main_arg0) (ar V main_arg1) (ar V main_arg2) (ar V main_arg3) (ar V main_arg4) := by
  unfold val_main_v73; rw [← P_main_v30 V, ← P_main_v72 V]; rfl
theorem P_main_cst_8 : st V 87 main_cst_8 = val_main_cst_8 (F := F) := by
  unfold val_main_cst_8; rfl
theorem P_main_v74 : st V 88 main_v74 = val_main_v74 (F := F) := by
  unfold val_main_v74; rw [← P_main_cst_8 V]; rfl
theorem P_main_v75 : st V 89 main_v75 = val_main_v75 (F := F) (ar V main_arg0) (ar V main_arg1) (ar V main_arg2) (ar V main_arg3) (ar V main_arg4) := by
  unfold val_main_v75; rw [← P_main_v74 V, ← P_main_v73 V]; rfl
theorem P_main_v76 : st V 90 main_v76 = val_main_v76 (F := F) (ar V main_arg0) (ar V main_arg1) (ar V main_arg2) (ar V main_arg3) (ar V main_arg4) := by
  unfold val_main_v76; rw [← P_main_v75 V, ← P_main_v71 V]; rfl
theorem P_main_v77 : st V 91 main_v77 = val_main_v77 (F := F) (ar V main_arg0) (ar V main_arg1) (ar V main_arg2) (ar V main_arg3) (ar V main_arg4) := by
  unfold val_main_v77; rw [← P_main_v71 V]; rfl
theorem P_main_v78 : st V 92 main_v78 = val_main_v78 (F := F) (ar V main_arg0) (ar V main_arg1) (ar V main_arg2) (ar V main_arg3) (ar V main_arg4) := by
  unfold val_main_v78; rw [← P_main_v72 V]; rfl
theorem P_main_v79 : st V 93 main_v79 = val_main_v79 (F := F) (ar V main_arg0) (ar V main_arg1) (ar V main_arg2) (ar V main_arg3) (ar V main_arg4) := by
  unfold val_main_v79; rw [← P_main_v76 V]; rfl
theorem P_main_v80 : st V 94 main_v80 = val_main_v80 (F := F) (ar V main_arg0) (ar V main_arg1) (ar V main_arg2) (ar V main_arg3) (ar V main_arg4) := by
  unfold val_main_v80; rw [← P_main_v77 V, ← P_main_v78 V, ← P_main_v79 V]; rfl
theorem P_main_v81 : st V 95 main_v81 = val_main_v81 (F := F) (ar V main_arg0) (ar V main_arg1) (ar V main_arg2) (ar V main_arg3) (ar V main_arg4) := by
  unfold val_main_v81; rw [← P_main_v80 V]; rfl
theorem P_main_v82 : st V 96 main_v82 = val_main_v82 (F := F) (ar V main_arg0) (ar V main_arg1) (ar V main_arg2) (ar V main_arg3) (ar V main_arg4) := by
  unfold val_main_v82; rw [← P_main_v81 V]; rfl
theorem P_main_v83 : st V 97 main_v83 = val_main_v83 (F := F) (ar V main_arg0) (ar V main_arg1) (ar V main_arg2) (ar V main_arg3) (ar V main_arg4) := by
  unfold val_main_v83; rw [← P_main_v82 V]; rfl
theorem P_main_v84 : st V 98 main_v84 = val_main_v84 (F := F) (ar V main_arg0) (ar V main_arg1) (ar V main_arg2) (ar V main_arg3) (ar V main_arg4) (ar V main_arg5) := by
  unfold val_main_v84; rw [← P_main_v83 V]; rfl
theorem P_main_v85 : st V 99 main_v85 = val_main_v85 (F := F) (ar V main_arg6) := by
  unfold val_main_v85; rfl
theorem P_main_v86 : st V 100 main_v86 = val_main_v86 (F := F) (ar V main_arg6) := by
  unfold val_main_v86; rw [← P_main_v85 V]; rfl
theorem P_main_v87 : st V 101 main_v87 = val_main_v87 (F := F) (ar V main_arg0) (ar V main_arg1) (ar V main_arg2) (ar V main_arg3) (ar V main_arg4) (ar V main_arg5) (ar V main_arg6) := by
  unfold val_main_v87; rw [← P_main_v84 V, ← P_main_v86 V]; rfl
theorem P_main_v88 : st V 102 main_v88 = val_main_v88 (F := F) (ar V main_arg0) (ar V main_arg1) (ar V main_arg2) (ar V main_arg3) (ar V main_arg4) (ar V main_arg5) (ar V main_arg6) := by
  unfold val_main_v88; rw [← P_main_v87 V]; rfl
theorem P_main_v89 : st V 103 main_v89 = val_main_v89 (F := F) (ar V main_arg0) (ar V main_arg1) (ar V main_arg2) (ar V main_arg3) (ar V main_arg4) (ar V main_arg5) (ar V main_arg6) := by
  unfold val_main_v89; rw [← P_main_v88 V]; rfl
theorem P_main_v90 : st V 104 main_v90 = val_main_v90 (F := F) (ar V main_arg0) (ar V main_arg1) (ar V main_arg2) (ar V main_arg3) (ar V main_arg4) := by
  unfold val_main_v90; rw [← P_main_v65 V, ← P_main_v32 V]; rfl
theorem P_main_cst_9 : st V 105 main_cst_9 = val_main_cst_9 (F := F) := by
  unfold val_main_cst_9; rfl
theorem P_main_v91 : st V 106 main_v91 = val_main_v91 (F := F) := by
  unfold val_main_v91; rw [← P_main_cst_9 V]; rfl
theorem P_main_v92 : st V 107 main_v92 = val_main_v92 (F := F) (ar V main_arg0) (ar V main_arg1) (ar V main_arg2) (ar V main_arg3) (ar V main_arg4) := by
  unfold val_main_v92; rw [← P_main_v91 V, ← P_main_v65 V]; rfl
theorem P_main_v93 : st V 108 main_v93 = val_main_v93 (F := F) (ar V main_arg0) (ar V main_arg1) (ar V main_arg2) (ar V main_arg3) (ar V main_arg4) (ar V main_arg5) (ar V main_arg6) := by
  unfold val_main_v93; rw [← P_main_v92 V, ← P_main_v89 V]; rfl
theorem P_main_v94 : st V 109 main_v94 = val_main_v94 (F := F) (ar V main_arg0) (ar V main_arg1) (ar V main_arg2) (ar V main_arg3) (ar V main_arg4) (ar V main_arg5) (ar V main_arg6) := by
  unfold val_main_v94; rw [← P_main_v90 V, ← P_main_v93 V]; rfl
theorem P_main_v95 : st V 110 main_v95 = val_main_v95 (F := F) (ar V main_arg1) := by
  unfold val_main_v95; rfl

end Cert.ReferenceIdeal.RefAfter

end
-- ==== Proof.RefFold3.lean ====
import proofs.«162860_g19069654794669_cont_sun_m_30_12_alg».proof.Proof.RefFold2

noncomputable section

namespace Cert.ReferenceIdeal.RefAfter

open Idealize.ShloMosaic Idealize.ShloMosaic.StableHlo Cert.ReferenceIdeal Cert.ReferenceIdeal.Read Cert.ReferenceIdeal.Value

variable {F : FTy → Type} [FloatOps F] (V : Valuation τ sig (Elt F))

theorem P_main_v96 : st V 111 main_v96 = val_main_v96 (F := F) (ar V main_arg1) := by
  unfold val_main_v96; rw [← P_main_v95 V]; rfl
theorem P_main_v97 : st V 112 main_v97 = val_main_v97 (F := F) (ar V main_arg0) (ar V main_arg1) (ar V main_arg2) (ar V main_arg3) (ar V main_arg4) (ar V main_arg5) (ar V main_arg6) := by
  unfold val_main_v97; rw [← P_main_v94 V]; rfl
theorem P_main_v98 : st V 113 main_v98 = val_main_v98 (F := F) (ar V main_arg1) := by
  unfold val_main_v98; rw [← P_main_v96 V]; rfl
theorem P_main_v99 : st V 114 main_v99 = val_main_v99 (F := F) (ar V main_arg0) (ar V main_arg1) (ar V main_arg2) (ar V main_arg3) (ar V main_arg4) (ar V main_arg5) (ar V main_arg6) := by
  unfold val_main_v99; rw [← P_main_v97 V, ← P_main_v98 V]; rfl
theorem P_main_v100 : st V 115 main_v100 = val_main_v100 (F := F) (ar V main_arg0) (ar V main_arg1) (ar V main_arg2) (ar V main_arg3) (ar V main_arg4) (ar V main_arg5) (ar V main_arg6) := by
  unfold val_main_v100; rw [← P_main_v99 V]; rfl
theorem P_main_v101 : st V 116 main_v101 = val_main_v101 (F := F) (ar V main_arg0) (ar V main_arg1) (ar V main_arg2) (ar V main_arg3) (ar V main_arg4) (ar V main_arg5) (ar V main_arg6) := by
  unfold val_main_v101; rw [← P_main_v100 V]; rfl
theorem P_main_v102 : st V 117 main_v102 = val_main_v102 (F := F) (ar V main_arg0) (ar V main_arg1) (ar V main_arg2) (ar V main_arg3) (ar V main_arg4) (ar V main_arg5) (ar V main_arg6) := by
  unfold val_main_v102; rw [← P_main_v30 V, ← P_main_v101 V]; rfl
theorem P_main_v103 : st V 118 main_v103 = val_main_v103 (F := F) (ar V main_arg0) (ar V main_arg1) (ar V main_arg2) (ar V main_arg3) (ar V main_arg4) (ar V main_arg5) (ar V main_arg6) := by
  unfold val_main_v103; rw [← P_main_v30 V, ← P_main_v102 V]; rfl
theorem P_main_cst_10 : st V 119 main_cst_10 = val_main_cst_10 (F := F) := by
  unfold val_main_cst_10; rfl
theorem P_main_v104 : st V 120 main_v104 = val_main_v104 (F := F) := by
  unfold val_main_v104; rw [← P_main_cst_10 V]; rfl
theorem P_main_v105 : st V 121 main_v105 = val_main_v105 (F := F) (ar V main_arg0) (ar V main_arg1) (ar V main_arg2) (ar V main_arg3) (ar V main_arg4) (ar V main_arg5) (ar V main_arg6) := by
  unfold val_main_v105; rw [← P_main_v104 V, ← P_main_v103 V]; rfl
theorem P_main_v106 : st V 122 main_v106 = val_main_v106 (F := F) (ar V main_arg0) (ar V main_arg1) (ar V main_arg2) (ar V main_arg3) (ar V main_arg4) (ar V main_arg5) (ar V main_arg6) := by
  unfold val_main_v106; rw [← P_main_v105 V, ← P_main_v101 V]; rfl
theorem P_main_v107 : st V 123 main_v107 = val_main_v107 (F := F) (ar V main_arg0) (ar V main_arg1) (ar V main_arg2) (ar V main_arg3) (ar V main_arg4) (ar V main_arg5) (ar V main_arg6) := by
  unfold val_main_v107; rw [← P_main_v101 V]; rfl
theorem P_main_v108 : st V 124 main_v108 = val_main_v108 (F := F) (ar V main_arg0) (ar V main_arg1) (ar V main_arg2) (ar V main_arg3) (ar V main_arg4) (ar V main_arg5) (ar V main_arg6) := by
  unfold val_main_v108; rw [← P_main_v102 V]; rfl
theorem P_main_v109 : st V 125 main_v109 = val_main_v109 (F := F) (ar V main_arg0) (ar V main_arg1) (ar V main_arg2) (ar V main_arg3) (ar V main_arg4) (ar V main_arg5) (ar V main_arg6) := by
  unfold val_main_v109; rw [← P_main_v106 V]; rfl
theorem P_main_v110 : st V 126 main_v110 = val_main_v110 (F := F) (ar V main_arg0) (ar V main_arg1) (ar V main_arg2) (ar V main_arg3) (ar V main_arg4) (ar V main_arg5) (ar V main_arg6) := by
  unfold val_main_v110; rw [← P_main_v107 V, ← P_main_v108 V, ← P_main_v109 V]; rfl
theorem P_main_v111 : st V 127 main_v111 = val_main_v111 (F := F) (ar V main_arg0) (ar V main_arg1) (ar V main_arg2) (ar V main_arg3) (ar V main_arg4) (ar V main_arg5) (ar V main_arg6) := by
  unfold val_main_v111; rw [← P_main_v110 V]; rfl
theorem P_main_v112 : st V 128 main_v112 = val_main_v112 (F := F) (ar V main_arg0) (ar V main_arg1) (ar V main_arg2) (ar V main_arg3) (ar V main_arg4) (ar V main_arg5) (ar V main_arg6) := by
  unfold val_main_v112; rw [← P_main_v111 V]; rfl
theorem P_main_v113 : st V 129 main_v113 = val_main_v113 (F := F) (ar V main_arg0) (ar V main_arg1) (ar V main_arg2) (ar V main_arg3) (ar V main_arg4) (ar V main_arg5) (ar V main_arg6) := by
  unfold val_main_v113; rw [← P_main_v112 V]; rfl
theorem P_main_v114 : st V 130 main_v114 = val_main_v114 (F := F) (ar V main_arg0) (ar V main_arg1) (ar V main_arg2) (ar V main_arg3) (ar V main_arg4) (ar V main_arg5) (ar V main_arg6) (ar V main_arg7) := by
  unfold val_main_v114; rw [← P_main_v113 V]; rfl
theorem P_main_v115 : st V 131 main_v115 = val_main_v115 (F := F) (ar V main_arg8) := by
  unfold val_main_v115; rfl
theorem P_main_v116 : st V 132 main_v116 = val_main_v116 (F := F) (ar V main_arg8) := by
  unfold val_main_v116; rw [← P_main_v115 V]; rfl
theorem P_main_v117 : st V 133 main_v117 = val_main_v117 (F := F) (ar V main_arg0) (ar V main_arg1) (ar V main_arg2) (ar V main_arg3) (ar V main_arg4) (ar V main_arg5) (ar V main_arg6) (ar V main_arg7) (ar V main_arg8) := by
  unfold val_main_v117; rw [← P_main_v114 V, ← P_main_v116 V]; rfl
theorem P_main_v118 : st V 134 main_v118 = val_main_v118 (F := F) (ar V main_arg0) (ar V main_arg1) (ar V main_arg2) (ar V main_arg3) (ar V main_arg4) (ar V main_arg5) (ar V main_arg6) (ar V main_arg7) (ar V main_arg8) := by
  unfold val_main_v118; rw [← P_main_v117 V]; rfl
theorem P_main_v119 : st V 135 main_v119 = val_main_v119 (F := F) (ar V main_arg0) (ar V main_arg1) (ar V main_arg2) (ar V main_arg3) (ar V main_arg4) (ar V main_arg5) (ar V main_arg6) (ar V main_arg7) (ar V main_arg8) := by
  unfold val_main_v119; rw [← P_main_v118 V]; rfl
theorem P_main_v120 : st V 136 main_v120 = val_main_v120 (F := F) (ar V main_arg0) (ar V main_arg1) (ar V main_arg2) (ar V main_arg3) (ar V main_arg4) (ar V main_arg5) (ar V main_arg6) (ar V main_arg7) (ar V main_arg8) := by
  unfold val_main_v120; rw [← P_main_v119 V]; rfl
theorem P_main_cst_11 : st V 137 main_cst_11 = val_main_cst_11 (F := F) := by
  unfold val_main_cst_11; rfl
theorem P_main_v121 : st V 138 main_v121 = val_main_v121 (F := F) := by
  unfold val_main_v121; rw [← P_main_cst_11 V]; rfl
theorem P_main_v122 : st V 139 main_v122 = val_main_v122 (F := F) (ar V main_arg0) (ar V main_arg1) (ar V main_arg2) (ar V main_arg3) (ar V main_arg4) (ar V main_arg5) (ar V main_arg6) (ar V main_arg7) (ar V main_arg8) := by
  unfold val_main_v122; rw [← P_main_v121 V, ← P_main_v120 V]; rfl
theorem P_main_cst_12 : st V 140 main_cst_12 = val_main_cst_12 (F := F) := by
  unfold val_main_cst_12; rfl
theorem P_main_v123 : st V 141 main_v123 = val_main_v123 (F := F) := by
  unfold val_main_v123; rw [← P_main_cst_12 V]; rfl
theorem P_main_v124 : st V 142 main_v124 = val_main_v124 (F := F) (ar V main_arg0) (ar V main_arg1) (ar V main_arg2) (ar V main_arg3) (ar V main_arg4) (ar V main_arg5) (ar V main_arg6) (ar V main_arg7) (ar V main_arg8) := by
  unfold val_main_v124; rw [← P_main_v123 V, ← P_main_v122 V]; rfl
theorem P_main_v125 : st V 143 main_v125 = val_main_v125 (F := F) (ar V main_arg0) (ar V main_arg1) (ar V main_arg2) (ar V main_arg3) (ar V main_arg4) (ar V main_arg5) (ar V main_arg6) (ar V main_arg7) (ar V main_arg8) := by
  unfold val_main_v125; rw [← P_main_v124 V]; rfl
theorem P_main_v126 : st V 144 main_v126 = val_main_v126 (F := F) (ar V main_arg0) (ar V main_arg1) (ar V main_arg2) (ar V main_arg3) (ar V main_arg4) (ar V main_arg5) (ar V main_arg6) (ar V main_arg7) (ar V main_arg8) := by
  unfold val_main_v126; rw [← P_main_v125 V]; rfl
theorem P_main_v127 : st V 145 main_v127 = val_main_v127 (F := F) (ar V main_arg0) (ar V main_arg1) (ar V main_arg2) (ar V main_arg3) (ar V main_arg4) (ar V main_arg5) (ar V main_arg6) (ar V main_arg7) (ar V main_arg8) := by
  unfold val_main_v127; rw [← P_main_v126 V]; rfl
theorem P_main_v128 : st V 146 main_v128 = val_main_v128 (F := F) (ar V main_arg0) (ar V main_arg1) (ar V main_arg2) (ar V main_arg3) (ar V main_arg4) (ar V main_arg5) (ar V main_arg6) (ar V main_arg7) (ar V main_arg8) := by
  unfold val_main_v128; rw [← P_main_v125 V]; rfl
theorem P_main_v129 : st V 147 main_v129 = val_main_v129 (F := F) (ar V main_arg0) (ar V main_arg1) (ar V main_arg2) (ar V main_arg3) (ar V main_arg4) (ar V main_arg5) (ar V main_arg6) (ar V main_arg7) (ar V main_arg8) := by
  unfold val_main_v129; rw [← P_main_v128 V]; rfl
theorem P_main_v130 : st V 148 main_v130 = val_main_v130 (F := F) (ar V main_arg0) (ar V main_arg1) (ar V main_arg2) (ar V main_arg3) (ar V main_arg4) (ar V main_arg5) (ar V main_arg6) (ar V main_arg7) (ar V main_arg8) := by
  unfold val_main_v130; rw [← P_main_v127 V, ← P_main_v96 V]; rfl
theorem P_main_v131 : st V 149 main_v131 = val_main_v131 (F := F) (ar V main_arg0) (ar V main_arg1) (ar V main_arg2) (ar V main_arg3) (ar V main_arg4) (ar V main_arg5) (ar V main_arg6) := by
  unfold val_main_v131; rw [← P_main_v94 V]; rfl
theorem P_main_v132 : st V 150 main_v132 = val_main_v132 (F := F) (ar V main_arg0) (ar V main_arg1) (ar V main_arg2) (ar V main_arg3) (ar V main_arg4) (ar V main_arg5) (ar V main_arg6) (ar V main_arg7) (ar V main_arg8) := by
  unfold val_main_v132; rw [← P_main_v130 V]; rfl

end Cert.ReferenceIdeal.RefAfter

end
-- ==== Proof.RefFold4.lean ====
import proofs.«162860_g19069654794669_cont_sun_m_30_12_alg».proof.Proof.RefFold3

noncomputable section

namespace Cert.ReferenceIdeal.RefAfter

open Idealize.ShloMosaic Idealize.ShloMosaic.StableHlo Cert.ReferenceIdeal Cert.ReferenceIdeal.Read Cert.ReferenceIdeal.Value

variable {F : FTy → Type} [FloatOps F] (V : Valuation τ sig (Elt F))

theorem P_main_v133 : st V 151 main_v133 = val_main_v133 (F := F) (ar V main_arg0) (ar V main_arg1) (ar V main_arg2) (ar V main_arg3) (ar V main_arg4) (ar V main_arg5) (ar V main_arg6) (ar V main_arg7) (ar V main_arg8) := by
  unfold val_main_v133; rw [← P_main_v131 V, ← P_main_v132 V]; rfl
theorem P_main_v134 : st V 152 main_v134 = val_main_v134 (F := F) (ar V main_arg0) (ar V main_arg1) (ar V main_arg2) (ar V main_arg3) (ar V main_arg4) (ar V main_arg5) (ar V main_arg6) (ar V main_arg7) (ar V main_arg8) := by
  unfold val_main_v134; rw [← P_main_v133 V]; rfl
theorem P_main_v135 : st V 153 main_v135 = val_main_v135 (F := F) (ar V main_arg0) (ar V main_arg1) (ar V main_arg2) (ar V main_arg3) (ar V main_arg4) (ar V main_arg5) (ar V main_arg6) (ar V main_arg7) (ar V main_arg8) := by
  unfold val_main_v135; rw [← P_main_v134 V]; rfl
theorem P_main_v136 : st V 154 main_v136 = val_main_v136 (F := F) (ar V main_arg0) (ar V main_arg1) (ar V main_arg2) (ar V main_arg3) (ar V main_arg4) (ar V main_arg5) (ar V main_arg6) (ar V main_arg7) (ar V main_arg8) := by
  unfold val_main_v136; rw [← P_main_v30 V, ← P_main_v135 V]; rfl
theorem P_main_v137 : st V 155 main_v137 = val_main_v137 (F := F) (ar V main_arg0) (ar V main_arg1) (ar V main_arg2) (ar V main_arg3) (ar V main_arg4) (ar V main_arg5) (ar V main_arg6) (ar V main_arg7) (ar V main_arg8) := by
  unfold val_main_v137; rw [← P_main_v30 V, ← P_main_v136 V]; rfl
theorem P_main_cst_13 : st V 156 main_cst_13 = val_main_cst_13 (F := F) := by
  unfold val_main_cst_13; rfl
theorem P_main_v138 : st V 157 main_v138 = val_main_v138 (F := F) := by
  unfold val_main_v138; rw [← P_main_cst_13 V]; rfl
theorem P_main_v139 : st V 158 main_v139 = val_main_v139 (F := F) (ar V main_arg0) (ar V main_arg1) (ar V main_arg2) (ar V main_arg3) (ar V main_arg4) (ar V main_arg5) (ar V main_arg6) (ar V main_arg7) (ar V main_arg8) := by
  unfold val_main_v139; rw [← P_main_v138 V, ← P_main_v137 V]; rfl
theorem P_main_v140 : st V 159 main_v140 = val_main_v140 (F := F) (ar V main_arg0) (ar V main_arg1) (ar V main_arg2) (ar V main_arg3) (ar V main_arg4) (ar V main_arg5) (ar V main_arg6) (ar V main_arg7) (ar V main_arg8) := by
  unfold val_main_v140; rw [← P_main_v139 V, ← P_main_v135 V]; rfl
theorem P_main_v141 : st V 160 main_v141 = val_main_v141 (F := F) (ar V main_arg0) (ar V main_arg1) (ar V main_arg2) (ar V main_arg3) (ar V main_arg4) (ar V main_arg5) (ar V main_arg6) (ar V main_arg7) (ar V main_arg8) := by
  unfold val_main_v141; rw [← P_main_v135 V]; rfl
theorem P_main_v142 : st V 161 main_v142 = val_main_v142 (F := F) (ar V main_arg0) (ar V main_arg1) (ar V main_arg2) (ar V main_arg3) (ar V main_arg4) (ar V main_arg5) (ar V main_arg6) (ar V main_arg7) (ar V main_arg8) := by
  unfold val_main_v142; rw [← P_main_v136 V]; rfl
theorem P_main_v143 : st V 162 main_v143 = val_main_v143 (F := F) (ar V main_arg0) (ar V main_arg1) (ar V main_arg2) (ar V main_arg3) (ar V main_arg4) (ar V main_arg5) (ar V main_arg6) (ar V main_arg7) (ar V main_arg8) := by
  unfold val_main_v143; rw [← P_main_v140 V]; rfl
theorem P_main_v144 : st V 163 main_v144 = val_main_v144 (F := F) (ar V main_arg0) (ar V main_arg1) (ar V main_arg2) (ar V main_arg3) (ar V main_arg4) (ar V main_arg5) (ar V main_arg6) (ar V main_arg7) (ar V main_arg8) := by
  unfold val_main_v144; rw [← P_main_v141 V, ← P_main_v142 V, ← P_main_v143 V]; rfl
theorem P_main_v145 : st V 164 main_v145 = val_main_v145 (F := F) (ar V main_arg0) (ar V main_arg1) (ar V main_arg2) (ar V main_arg3) (ar V main_arg4) (ar V main_arg5) (ar V main_arg6) (ar V main_arg7) (ar V main_arg8) := by
  unfold val_main_v145; rw [← P_main_v144 V]; rfl
theorem P_main_v146 : st V 165 main_v146 = val_main_v146 (F := F) (ar V main_arg0) (ar V main_arg1) (ar V main_arg2) (ar V main_arg3) (ar V main_arg4) (ar V main_arg5) (ar V main_arg6) (ar V main_arg7) (ar V main_arg8) := by
  unfold val_main_v146; rw [← P_main_v145 V]; rfl
theorem P_main_v147 : st V 166 main_v147 = val_main_v147 (F := F) (ar V main_arg0) (ar V main_arg1) (ar V main_arg2) (ar V main_arg3) (ar V main_arg4) (ar V main_arg5) (ar V main_arg6) (ar V main_arg7) (ar V main_arg8) := by
  unfold val_main_v147; rw [← P_main_v146 V]; rfl
theorem P_main_v148 : st V 167 main_v148 = val_main_v148 (F := F) (ar V main_arg0) (ar V main_arg1) (ar V main_arg2) (ar V main_arg3) (ar V main_arg4) (ar V main_arg5) (ar V main_arg6) (ar V main_arg7) (ar V main_arg8) (ar V main_arg9) := by
  unfold val_main_v148; rw [← P_main_v147 V]; rfl
theorem P_main_v149 : st V 168 main_v149 = val_main_v149 (F := F) (ar V main_arg10) := by
  unfold val_main_v149; rfl
theorem P_main_v150 : st V 169 main_v150 = val_main_v150 (F := F) (ar V main_arg10) := by
  unfold val_main_v150; rw [← P_main_v149 V]; rfl
theorem P_main_v151 : st V 170 main_v151 = val_main_v151 (F := F) (ar V main_arg0) (ar V main_arg1) (ar V main_arg2) (ar V main_arg3) (ar V main_arg4) (ar V main_arg5) (ar V main_arg6) (ar V main_arg7) (ar V main_arg8) (ar V main_arg9) (ar V main_arg10) := by
  unfold val_main_v151; rw [← P_main_v148 V, ← P_main_v150 V]; rfl
theorem P_main_v152 : st V 171 main_v152 = val_main_v152 (F := F) (ar V main_arg0) (ar V main_arg1) (ar V main_arg2) (ar V main_arg3) (ar V main_arg4) (ar V main_arg5) (ar V main_arg6) (ar V main_arg7) (ar V main_arg8) (ar V main_arg9) (ar V main_arg10) := by
  unfold val_main_v152; rw [← P_main_v151 V]; rfl
theorem P_main_v153 : st V 172 main_v153 = val_main_v153 (F := F) (ar V main_arg0) (ar V main_arg1) (ar V main_arg2) (ar V main_arg3) (ar V main_arg4) (ar V main_arg5) (ar V main_arg6) (ar V main_arg7) (ar V main_arg8) (ar V main_arg9) (ar V main_arg10) := by
  unfold val_main_v153; rw [← P_main_v152 V]; rfl
theorem P_main_v154 : st V 173 main_v154 = val_main_v154 (F := F) (ar V main_arg0) (ar V main_arg1) (ar V main_arg2) (ar V main_arg3) (ar V main_arg4) (ar V main_arg5) (ar V main_arg6) (ar V main_arg7) (ar V main_arg8) := by
  unfold val_main_v154; rw [← P_main_v129 V, ← P_main_v96 V]; rfl
theorem P_main_cst_14 : st V 174 main_cst_14 = val_main_cst_14 (F := F) := by
  unfold val_main_cst_14; rfl
theorem P_main_v155 : st V 175 main_v155 = val_main_v155 (F := F) := by
  unfold val_main_v155; rw [← P_main_cst_14 V]; rfl
theorem P_main_v156 : st V 176 main_v156 = val_main_v156 (F := F) (ar V main_arg0) (ar V main_arg1) (ar V main_arg2) (ar V main_arg3) (ar V main_arg4) (ar V main_arg5) (ar V main_arg6) (ar V main_arg7) (ar V main_arg8) := by
  unfold val_main_v156; rw [← P_main_v155 V, ← P_main_v129 V]; rfl
theorem P_main_v157 : st V 177 main_v157 = val_main_v157 (F := F) (ar V main_arg0) (ar V main_arg1) (ar V main_arg2) (ar V main_arg3) (ar V main_arg4) (ar V main_arg5) (ar V main_arg6) (ar V main_arg7) (ar V main_arg8) (ar V main_arg9) (ar V main_arg10) := by
  unfold val_main_v157; rw [← P_main_v156 V, ← P_main_v153 V]; rfl
theorem P_main_v158 : st V 178 main_v158 = val_main_v158 (F := F) (ar V main_arg0) (ar V main_arg1) (ar V main_arg2) (ar V main_arg3) (ar V main_arg4) (ar V main_arg5) (ar V main_arg6) (ar V main_arg7) (ar V main_arg8) (ar V main_arg9) (ar V main_arg10) := by
  unfold val_main_v158; rw [← P_main_v154 V, ← P_main_v157 V]; rfl
theorem P_main_v159 : st V 179 main_v159 = val_main_v159 (F := F) (ar V main_arg0) (ar V main_arg1) (ar V main_arg2) (ar V main_arg3) (ar V main_arg4) (ar V main_arg5) (ar V main_arg6) (ar V main_arg7) (ar V main_arg8) (ar V main_arg9) (ar V main_arg10) := by
  unfold val_main_v159; rw [← P_main_v158 V]; rfl
theorem P_main_v160 : st V 180 main_v160 = val_main_v160 (F := F) (ar V main_arg0) (ar V main_arg1) (ar V main_arg2) (ar V main_arg3) (ar V main_arg4) (ar V main_arg5) (ar V main_arg6) (ar V main_arg7) (ar V main_arg8) (ar V main_arg9) (ar V main_arg10) (ar V main_arg11) := by
  unfold val_main_v160; rw [← P_main_v159 V]; rfl
theorem P_main_v161 : st V 181 main_v161 = val_main_v161 (F := F) (ar V main_arg12) := by
  unfold val_main_v161; rfl
theorem P_main_v162 : st V 182 main_v162 = val_main_v162 (F := F) (ar V main_arg12) := by
  unfold val_main_v162; rw [← P_main_v161 V]; rfl
theorem P_main_v163 : st V 183 main_v163 = val_main_v163 (F := F) (ar V main_arg0) (ar V main_arg1) (ar V main_arg2) (ar V main_arg3) (ar V main_arg4) (ar V main_arg5) (ar V main_arg6) (ar V main_arg7) (ar V main_arg8) (ar V main_arg9) (ar V main_arg10) (ar V main_arg11) (ar V main_arg12) := by
  unfold val_main_v163; rw [← P_main_v160 V, ← P_main_v162 V]; rfl
theorem P_main_v164 : st V 184 main_v164 = val_main_v164 (F := F) (ar V main_arg0) (ar V main_arg1) (ar V main_arg2) (ar V main_arg3) (ar V main_arg4) (ar V main_arg5) (ar V main_arg6) (ar V main_arg7) (ar V main_arg8) (ar V main_arg9) (ar V main_arg10) (ar V main_arg11) (ar V main_arg12) := by
  unfold val_main_v164; rw [← P_main_v163 V]; rfl
theorem P_main_v165 : st V 185 main_v165 = val_main_v165 (F := F) (ar V main_arg0) (ar V main_arg1) (ar V main_arg2) (ar V main_arg3) (ar V main_arg4) (ar V main_arg5) (ar V main_arg6) := by
  unfold val_main_v165; rw [← P_main_v94 V]; rfl
theorem P_main_v166 : st V 186 main_v166 = val_main_v166 (F := F) (ar V main_arg0) (ar V main_arg1) (ar V main_arg2) (ar V main_arg3) (ar V main_arg4) (ar V main_arg5) (ar V main_arg6) (ar V main_arg7) (ar V main_arg8) (ar V main_arg9) (ar V main_arg10) := by
  unfold val_main_v166; rw [← P_main_v158 V]; rfl
theorem P_main_v167 : st V 187 main_v167 = val_main_v167 (F := F) (ar V main_arg0) (ar V main_arg1) (ar V main_arg2) (ar V main_arg3) (ar V main_arg4) (ar V main_arg5) (ar V main_arg6) (ar V main_arg7) (ar V main_arg8) (ar V main_arg9) (ar V main_arg10) := by
  unfold val_main_v167; rw [← P_main_v165 V, ← P_main_v166 V]; rfl

/-- After the whole program the two results are their stages of the arguments, and every argument is as it was. -/
theorem after_v164 : after (ops (F := F)) V (Proc.devRef .tc main_v164) = val_main_v164 (F := F) (ar V main_arg0) (ar V main_arg1) (ar V main_arg2) (ar V main_arg3) (ar V main_arg4) (ar V main_arg5) (ar V main_arg6) (ar V main_arg7) (ar V main_arg8) (ar V main_arg9) (ar V main_arg10) (ar V main_arg11) (ar V main_arg12) :=
  (show _ = st V 184 main_v164 from rfl).trans (P_main_v164 V)
theorem after_v167 : after (ops (F := F)) V (Proc.devRef .tc main_v167) = val_main_v167 (F := F) (ar V main_arg0) (ar V main_arg1) (ar V main_arg2) (ar V main_arg3) (ar V main_arg4) (ar V main_arg5) (ar V main_arg6) (ar V main_arg7) (ar V main_arg8) (ar V main_arg9) (ar V main_arg10) :=
  (show _ = st V 187 main_v167 from rfl).trans (P_main_v167 V)
theorem after_arg0 : after (ops (F := F)) V (Proc.devRef .tc main_arg0) = ar V main_arg0 := rfl
theorem after_arg1 : after (ops (F := F)) V (Proc.devRef .tc main_arg1) = ar V main_arg1 := rfl
theorem after_arg2 : after (ops (F := F)) V (Proc.devRef .tc main_arg2) = ar V main_arg2 := rfl
theorem after_arg3 : after (ops (F := F)) V (Proc.devRef .tc main_arg3) = ar V main_arg3 := rfl
theorem after_arg4 : after (ops (F := F)) V (Proc.devRef .tc main_arg4) = ar V main_arg4 := rfl
theorem after_arg5 : after (ops (F := F)) V (Proc.devRef .tc main_arg5) = ar V main_arg5 := rfl
theorem after_arg6 : after (ops (F := F)) V (Proc.devRef .tc main_arg6) = ar V main_arg6 := rfl
theorem after_arg7 : after (ops (F := F)) V (Proc.devRef .tc main_arg7) = ar V main_arg7 := rfl
theorem after_arg8 : after (ops (F := F)) V (Proc.devRef .tc main_arg8) = ar V main_arg8 := rfl
theorem after_arg9 : after (ops (F := F)) V (Proc.devRef .tc main_arg9) = ar V main_arg9 := rfl
theorem after_arg10 : after (ops (F := F)) V (Proc.devRef .tc main_arg10) = ar V main_arg10 := rfl
theorem after_arg11 : after (ops (F := F)) V (Proc.devRef .tc main_arg11) = ar V main_arg11 := rfl
theorem after_arg12 : after (ops (F := F)) V (Proc.devRef .tc main_arg12) = ar V main_arg12 := rfl

end Cert.ReferenceIdeal.RefAfter

end
-- ==== Proof.RefAsm.lean ====
import proofs.«162860_g19069654794669_cont_sun_m_30_12_alg».proof.Proof.RefGen
import proofs.«162860_g19069654794669_cont_sun_m_30_12_alg».proof.Proof.RefGates0
import proofs.«162860_g19069654794669_cont_sun_m_30_12_alg».proof.Proof.RefNew0
import proofs.«162860_g19069654794669_cont_sun_m_30_12_alg».proof.Proof.RefGates1
import proofs.«162860_g19069654794669_cont_sun_m_30_12_alg».proof.Proof.RefOut
import proofs.«162860_g19069654794669_cont_sun_m_30_12_alg».proof.Proof.RefFold4
import proofs.«162860_g19069654794669_cont_sun_m_30_12_alg».proof.Proof.SpecFin
import proofs.«162860_g19069654794669_cont_sun_m_30_12_alg».proof.Proof.Sup
import Idealize.ShloMosaic.Lib.ValueIdx

noncomputable section

namespace Cert.ReferenceIdeal.RefVal

open Idealize.ShloMosaic Idealize.ShloMosaic.ValueIdx Cert.ReferenceIdeal Cert.ReferenceIdeal.Gen
  Cert.ReferenceIdeal.Read Cert.Pack Cert.SpecArgs
  Idealize.ShloMosaic.TcCoe Idealize.SL.Sem Idealize.ShloMosaic.StableHlo

abbrev adjR (x2 : (⟨2, ![512, 512]⟩ : Shape).Idx → EReal) : Fin 512 → Fin 512 → EReal := fun a b => x2 (ix2 a b)

variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal)) (x5 : (⟨S195x64, .f32⟩ : BufTy).Contents (Elt Ideal))
  (x6 : (⟨S64, .f32⟩ : BufTy).Contents (Elt Ideal)) (x7 : (⟨S384x128, .f32⟩ : BufTy).Contents (Elt Ideal))
  (x8 : (⟨S128, .f32⟩ : BufTy).Contents (Elt Ideal)) (x9 : (⟨S384x64, .f32⟩ : BufTy).Contents (Elt Ideal))
  (x10 : (⟨S64, .f32⟩ : BufTy).Contents (Elt Ideal)) (x11 : (⟨S64x1, .f32⟩ : BufTy).Contents (Elt Ideal))
  (x12 : (⟨S1, .f32⟩ : BufTy).Contents (Elt Ideal))

/-- The reference's support stage in closed form over the adjacency matrix. -/
theorem support_eq : (fun i j => val_main_v30 (F := Ideal) x2 (ix2 i j)) = Cert.Sup.Sr (adjR x2) :=
  funext fun i => funext fun j => ref_support x2 i j

/-- The read-out stage is the specification's first result: equal at every (batch element, node). -/
theorem ref_v164 : val_main_v164 (F := Ideal) x0 x1 x2 x3 x4 x5 x6 x7 x8 x9 x10 x11 x12
      = Cert.SpecArgs.res0 (Cert.Sup.Sr (adjR x2)) x0 x1 x3 x4 x5 x6 x7 x8 x9 x10 x11 x12 := by
  have h94 := ref_new0 x0 x1 x2 x3 x4 x5 x6 (ref_gates0 x0 x1 x2 x3 x4)
  refine res0_of _ _ _ _ _ _ _ _ _ _ _ _ _ _ fun b n => ?_
  rw [← support_eq x2]
  exact ref_res0 x0 x1 x2 x3 x4 x5 x6 x7 x8 x9 x10 x11 x12 h94 (ref_gates1 x0 x1 x2 x3 x4 x5 x6 x7 x8 h94) b n

/-- The stacked-states stage is the specification's second result: equal at every (layer, batch element, node, feature). -/
theorem ref_v167 : val_main_v167 (F := Ideal) x0 x1 x2 x3 x4 x5 x6 x7 x8 x9 x10
      = Cert.SpecArgs.res1 (Cert.Sup.Sr (adjR x2)) x0 x1 x3 x4 x5 x6 x7 x8 x9 x10 := by
  have h94 := ref_new0 x0 x1 x2 x3 x4 x5 x6 (ref_gates0 x0 x1 x2 x3 x4)
  have hg1 := ref_gates1 x0 x1 x2 x3 x4 x5 x6 x7 x8 h94
  refine res1_of _ _ _ _ _ _ _ _ _ _ _ _ (fun b n f => ?_) fun b n f => ?_ <;> rw [← support_eq x2]
  · exact ref_res1_0 x0 x1 x2 x3 x4 x5 x6 x7 x8 x9 x10 h94 hg1 b n f
  · exact ref_res1_1 x0 x1 x2 x3 x4 x5 x6 x7 x8 x9 x10 h94 hg1 b n f

/-- The run ends with both results at the specification's arrays of the launch's arguments, the arguments as launched. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v164)
          = Cert.SpecArgs.res0 (Cert.Sup.Sr (adjR (m ((c.tc : Thread nD τ).loc main_arg2))))
              (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v167)
          = Cert.SpecArgs.res1 (Cert.Sup.Sr (adjR (m ((c.tc : Thread nD τ).loc main_arg2))))
              (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c main_v164).trans ((Cert.ReferenceIdeal.RefAfter.after_v164 _).trans (ref_v164 ..)),
     (h c main_v167).trans ((Cert.ReferenceIdeal.RefAfter.after_v167 _).trans (ref_v167 ..)),
     (h c main_arg0).trans (Cert.ReferenceIdeal.RefAfter.after_arg0 _),
     (h c main_arg1).trans (Cert.ReferenceIdeal.RefAfter.after_arg1 _),
     (h c main_arg2).trans (Cert.ReferenceIdeal.RefAfter.after_arg2 _),
     (h c main_arg3).trans (Cert.ReferenceIdeal.RefAfter.after_arg3 _),
     (h c main_arg4).trans (Cert.ReferenceIdeal.RefAfter.after_arg4 _),
     (h c main_arg5).trans (Cert.ReferenceIdeal.RefAfter.after_arg5 _),
     (h c main_arg6).trans (Cert.ReferenceIdeal.RefAfter.after_arg6 _),
     (h c main_arg7).trans (Cert.ReferenceIdeal.RefAfter.after_arg7 _),
     (h c main_arg8).trans (Cert.ReferenceIdeal.RefAfter.after_arg8 _),
     (h c main_arg9).trans (Cert.ReferenceIdeal.RefAfter.after_arg9 _),
     (h c main_arg10).trans (Cert.ReferenceIdeal.RefAfter.after_arg10 _),
     (h c main_arg11).trans (Cert.ReferenceIdeal.RefAfter.after_arg11 _),
     (h c main_arg12).trans (Cert.ReferenceIdeal.RefAfter.after_arg12 _)⟩)
    (Cert.ReferenceIdeal.Value.run_after m ρ)

end Cert.ReferenceIdeal.RefVal

end
-- ==== Proof.lean ====
import proofs.«162860_g19069654794669_cont_sun_m_30_12_alg».proof.Defs
import proofs.«162860_g19069654794669_cont_sun_m_30_12_alg».proof.Proof.Gen.Kernel
import proofs.«162860_g19069654794669_cont_sun_m_30_12_alg».proof.Proof.Gen.KernelIdeal
import proofs.«162860_g19069654794669_cont_sun_m_30_12_alg».proof.Proof.Gen.ReferenceIdeal
import proofs.«162860_g19069654794669_cont_sun_m_30_12_alg».proof.Proof.Gen.Pre_finite_inputs
import proofs.«162860_g19069654794669_cont_sun_m_30_12_alg».proof.Proof.FrameK
import proofs.«162860_g19069654794669_cont_sun_m_30_12_alg».proof.Proof.KAsm
import proofs.«162860_g19069654794669_cont_sun_m_30_12_alg».proof.Proof.RefAsm
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2) (Cert.ReferenceIdeal.RefVal.ref_run m ρ)

/-- Both programs end at the specification's two arrays of the same arguments; the two spellings of the support agree entry by entry. -/
theorem algebraic : Cert.algebraic_KernelIdeal_ReferenceIdeal := by
  intro m ρ m' ρ' _ hagree
  refine ⟨_, _, Cert.KernelIdeal.Asm.kernel_run m ρ, ?_⟩
  refine (θ_run Cert.ReferenceIdeal.defs _ _).mono (fun _ h c => ?_) (Cert.ReferenceIdeal.RefVal.ref_run m' ρ')
  obtain ⟨h0, h1, hargs⟩ := h c
  obtain ⟨e0, e1, e2, e3, e4, e5, e6, e7, e8, e9, e10, e11, e12⟩ := hagree c
  refine ⟨h0.trans ?_, h1.trans ?_, hargs⟩
  · rw [e0, e1, e2, e3, e4, e5, e6, e7, e8, e9, e10, e11, e12]
    exact congrArg (fun S => Cert.SpecArgs.res0 S _ _ _ _ _ _ _ _ _ _ _ _) (funext fun i => funext fun j => Cert.Sup.Sr_eq_Sk _ i j)
  · rw [e0, e1, e2, e3, e4, e5, e6, e7, e8, e9, e10]
    exact congrArg (fun S => Cert.SpecArgs.res1 S _ _ _ _ _ _ _ _ _ _) (funext fun i => funext fun j => Cert.Sup.Sr_eq_Sk _ i j)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
